-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S256x512 : Shape := ⟨2, ![256, 512]⟩
abbrev S512x256 : Shape := ⟨2, ![512, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg4 : FVec F S512x256 .f32) (main_arg5 : FVec F S256x512 .f32) (main_arg6 : FVec F S512x256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  main_v33

def fn {F : FTy → Type} [FloatOps F] (main_arg0 : FVec F S256x256 .f32) (main_arg1 : FVec F S256x512 .f32) (main_arg2 : FVec F S512x256 .f32) (main_arg3 : FVec F S256x512 .f32) (main_arg4 : FVec F S512x256 .f32) (main_arg5 : FVec F S256x512 .f32) (main_arg6 : FVec F S512x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_v13 main_v16
-- ==== Pre_finite_inputs_ReferenceIdeal.lean ====
abbrev S1024x256 : Shape := ⟨2, ![1024, 256]⟩
abbrev S256x2048 : Shape := ⟨2, ![256, 2048]⟩
abbrev S2048x256 : Shape := ⟨2, ![2048, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S2048x256 : S_.BroadcastsInDim S2048x256 (![] : Fin 0 → Fin S2048x256.rank)
  reducesTo_S2048x256_S_d0_1 : S2048x256.ReducesTo [0, 1] S_

variable [Facts]

def fn_part1 {F : FTy → Type} [FloatOps F] (main_arg4 : FVec F S2048x256 .f32) (main_arg5 : FVec F S256x2048 .f32) (main_arg6 : FVec F S2048x256 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S256x2048 .f32 := Host.absf main_arg5
  let main_cst_8 : FVec F S_ .f32 := constant S_ .f32 0x7F800000#32
  let main_v25 : FVec F S256x2048 .f32 := broadcastInDim S256x2048 ![] bcast_S_S256x2048 main_cst_8
  let main_v26 : IVec S256x2048 1 := cmpf .olt main_v24 main_v25
  let main_c_9 : IVec S_ 1 := constantI S_ 1 1#1
  let main_v27 : IVec S_ 1 := (fun x v => Host.reduce IntOp.andi x v reducesTo_S256x2048_S_d0_1 h_S_) main_v26 main_c_9
  let main_v28 : IVec S_ 1 := andi main_v23 main_v27
  let main_v29 : FVec F S2048x256 .f32 := Host.absf main_arg6
  let main_cst_10 : FVec F S_ .f32 := constant S_ .f32 0x7F800000#32
  let main_v30 : FVec F S2048x256 .f32 := broadcastInDim S2048x256 ![] bcast_S_S2048x256 main_cst_10
  let main_v31 : IVec S2048x256 1 := cmpf .olt main_v29 main_v30
  let main_c_11 : IVec S_ 1 := constantI S_ 1 1#1
  let main_v32 : IVec S_ 1 := (fun x v => Host.reduce IntOp.andi x v reducesTo_S2048x256_S_d0_1 h_S_) main_v31 main_c_11
  let main_v33 : IVec S_ 1 := andi main_v28 main_v32
  main_v33

def fn {F : FTy → Type} [FloatOps F] (main_arg0 : FVec F S1024x256 .f32) (main_arg1 : FVec F S256x2048 .f32) (main_arg2 : FVec F S2048x256 .f32) (main_arg3 : FVec F S256x2048 .f32) (main_arg4 : FVec F S2048x256 .f32) (main_arg5 : FVec F S256x2048 .f32) (main_arg6 : FVec F S2048x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_arg6 main_v13 main_v16
-- ==== Kernel.lean ====
abbrev S256x256 : Shape := ⟨2, ![256, 256]⟩
abbrev S256x512 : Shape := ⟨2, ![256, 512]⟩
abbrev S512x256 : Shape := ⟨2, ![512, 256]⟩
abbrev S1024x256 : Shape := ⟨2, ![1024, 256]⟩
abbrev S3x2x128x256 : Shape := ⟨4, ![3, 2, 128, 256]⟩
abbrev S2x128x256 : Shape := ⟨3, ![2, 128, 256]⟩
abbrev S7x4x2x128x256 : Shape := ⟨5, ![7, 4, 2, 128, 256]⟩
abbrev S3x256x512 : Shape := ⟨3, ![3, 256, 512]⟩
abbrev S3x512x256 : Shape := ⟨3, ![3, 512, 256]⟩
abbrev S7x4x2 : Shape := ⟨3, ![7, 4, 2]⟩
abbrev S6 : Shape := ⟨1, ![6]⟩
abbrev S1 : Shape := ⟨1, ![1]⟩
abbrev S_ : Shape := ⟨0, ![]⟩
abbrev S1x256x512 : Shape := ⟨3, ![1, 256, 512]⟩
abbrev S1x512x256 : Shape := ⟨3, ![1, 512, 256]⟩
abbrev S128x256 : Shape := ⟨2, ![128, 256]⟩
abbrev S1x128x256 : Shape := ⟨3, ![1, 128, 256]⟩
abbrev S1x1x1 : Shape := ⟨3, ![1, 1, 1]⟩
abbrev S1x1x1x128x256 : Shape := ⟨5, ![1, 1, 1, 128, 256]⟩
abbrev S128x512 : Shape := ⟨2, ![128, 512]⟩
abbrev S1x1x128x256 : Shape := ⟨4, ![1, 1, 128, 256]⟩

abbrev nBuf : Space → Nat
  | .hbm => 8
  | .vmem => 10
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S1024x256, .f32⟩
  | .local _ .vmem, ⟨0, _⟩ => ⟨S256x256, .f32⟩
  | .local _ .vmem, ⟨1, _⟩ => ⟨S1024x256, .f32⟩
  | .local _ .vmem, ⟨2, _⟩ => ⟨S3x2x128x256, .bf16⟩
  | .local _ .vmem, ⟨3, _⟩ => ⟨S2x128x256, .f32⟩
  | .local _ .vmem, ⟨4, _⟩ => ⟨S2x128x256, .bf16⟩
  | .local _ .vmem, ⟨5, _⟩ => ⟨S7x4x2x128x256, .bf16⟩
  | .local _ .vmem, ⟨6, _⟩ => ⟨S3x256x512, .bf16⟩
  | .local _ .vmem, ⟨7, _⟩ => ⟨S3x512x256, .bf16⟩
  | .local _ .vmem, ⟨8, _⟩ => ⟨S3x256x512, .f32⟩
  | .local _ .vmem, ⟨9, _⟩ => ⟨S3x512x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  (ofTc nBuf bufTy 1 120 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d24 : Dev nD) : Nat :=
  let c0_i32_37 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_36 : BitVec 32 := 1#32
  let v51 : BitVec 32 := Scalar.muli v49 c1_i32_36
  let v52 : BitVec 32 := Scalar.addi c0_i32_37 v51
  v52.toNat
def k0_dev2 (d24 : Dev nD) : Nat :=
  let c0_i32_40 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_39 : BitVec 32 := 1#32
  let v53 : BitVec 32 := Scalar.muli v37 c1_i32_39
  let v54 : BitVec 32 := Scalar.addi c0_i32_40 v53
  v54.toNat
def k0_dev3 (d24 : Dev nD) : Nat :=
  let c0_i32_60 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_59 : BitVec 32 := 1#32
  let v67 : BitVec 32 := Scalar.muli v37 c1_i32_59
  let v68 : BitVec 32 := Scalar.addi c0_i32_60 v67
  v68.toNat
def k0_dev4 (d24 : Dev nD) : Nat :=
  let c0_i32_76 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_75 : BitVec 32 := 1#32
  let v77 : BitVec 32 := Scalar.muli v49 c1_i32_75
  let v78 : BitVec 32 := Scalar.addi c0_i32_76 v77
  v78.toNat
def k0_dev5 (d24 : Dev nD) : Nat :=
  let c0_i32_92 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_91 : BitVec 32 := 1#32
  let v87 : BitVec 32 := Scalar.muli v37 c1_i32_91
  let v88 : BitVec 32 := Scalar.addi c0_i32_92 v87
  v88.toNat
def k0_dev6 (d24 : Dev nD) : Nat :=
  let c0_i32_108 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_107 : BitVec 32 := 1#32
  let v97 : BitVec 32 := Scalar.muli v49 c1_i32_107
  let v98 : BitVec 32 := Scalar.addi c0_i32_108 v97
  v98.toNat
def k0_dev7 (d24 : Dev nD) : Nat :=
  let c0_i32_159 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_158 : BitVec 32 := 1#32
  let v142 : BitVec 32 := Scalar.muli v37 c1_i32_158
  let v143 : BitVec 32 := Scalar.addi c0_i32_159 v142
  v143.toNat
def k0_dev8 (d24 : Dev nD) : Nat :=
  let c0_i32_192 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_191 : BitVec 32 := 1#32
  let v167 : BitVec 32 := Scalar.muli v37 c1_i32_191
  let v168 : BitVec 32 := Scalar.addi c0_i32_192 v167
  v168.toNat
def k0_dev9 (d24 : Dev nD) : Nat :=
  let c0_i32_268 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_267 : BitVec 32 := 1#32
  let v225 : BitVec 32 := Scalar.muli v49 c1_i32_267
  let v226 : BitVec 32 := Scalar.addi c0_i32_268 v225
  v226.toNat
def k0_dev10 (d24 : Dev nD) : Nat :=
  let c0_i32_304 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_303 : BitVec 32 := 1#32
  let v243 : BitVec 32 := Scalar.muli v49 c1_i32_303
  let v244 : BitVec 32 := Scalar.addi c0_i32_304 v243
  v244.toNat
def k0_dev11 (d24 : Dev nD) : Nat :=
  let c0_i32_379 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_378 : BitVec 32 := 1#32
  let v288 : BitVec 32 := Scalar.muli v37 c1_i32_378
  let v289 : BitVec 32 := Scalar.addi c0_i32_379 v288
  v289.toNat
def k0_dev12 (d24 : Dev nD) : Nat :=
  let c0_i32_414 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_413 : BitVec 32 := 1#32
  let v313 : BitVec 32 := Scalar.muli v49 c1_i32_413
  let v314 : BitVec 32 := Scalar.addi c0_i32_414 v313
  v314.toNat
def k0_dev13 (d24 : Dev nD) : Nat :=
  let c0_i32_490 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_489 : BitVec 32 := 1#32
  let v358 : BitVec 32 := Scalar.muli v37 c1_i32_489
  let v359 : BitVec 32 := Scalar.addi c0_i32_490 v358
  v359.toNat
def k0_dev14 (d24 : Dev nD) : Nat :=
  let c0_i32_525 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_524 : BitVec 32 := 1#32
  let v383 : BitVec 32 := Scalar.muli v49 c1_i32_524
  let v384 : BitVec 32 := Scalar.addi c0_i32_525 v383
  v384.toNat
def k0_dev15 (d24 : Dev nD) : Nat :=
  let c0_i32_853 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_852 : BitVec 32 := 1#32
  let v539 : BitVec 32 := Scalar.muli v37 c1_i32_852
  let v540 : BitVec 32 := Scalar.addi c0_i32_853 v539
  v540.toNat
def k0_dev16 (d24 : Dev nD) : Nat :=
  let c0_i32_869 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_868 : BitVec 32 := 1#32
  let v549 : BitVec 32 := Scalar.muli v49 c1_i32_868
  let v550 : BitVec 32 := Scalar.addi c0_i32_869 v549
  v550.toNat
def k0_dev17 (d24 : Dev nD) : Nat :=
  let c0_i32_902 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_901 : BitVec 32 := 1#32
  let v574 : BitVec 32 := Scalar.muli v37 c1_i32_901
  let v575 : BitVec 32 := Scalar.addi c0_i32_902 v574
  v575.toNat
def k0_dev18 (d24 : Dev nD) : Nat :=
  let c0_i32_970 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_969 : BitVec 32 := 1#32
  let v614 : BitVec 32 := Scalar.muli v37 c1_i32_969
  let v615 : BitVec 32 := Scalar.addi c0_i32_970 v614
  v615.toNat
def k0_dev19 (d24 : Dev nD) : Nat :=
  let c0_i32_986 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_985 : BitVec 32 := 1#32
  let v624 : BitVec 32 := Scalar.muli v49 c1_i32_985
  let v625 : BitVec 32 := Scalar.addi c0_i32_986 v624
  v625.toNat
def k0_dev20 (d24 : Dev nD) : Nat :=
  let c0_i32_1019 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_1018 : BitVec 32 := 1#32
  let v649 : BitVec 32 := Scalar.muli v37 c1_i32_1018
  let v650 : BitVec 32 := Scalar.addi c0_i32_1019 v649
  v650.toNat
def k0_dev21 (d24 : Dev nD) : Nat :=
  let c0_i32_1055 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_1054 : BitVec 32 := 1#32
  let v667 : BitVec 32 := Scalar.muli v49 c1_i32_1054
  let v668 : BitVec 32 := Scalar.addi c0_i32_1055 v667
  v668.toNat
def k0_dev22 (d24 : Dev nD) : Nat :=
  let c0_i32_1091 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_1090 : BitVec 32 := 1#32
  let v685 : BitVec 32 := Scalar.muli v49 c1_i32_1090
  let v686 : BitVec 32 := Scalar.addi c0_i32_1091 v685
  v686.toNat
def k0_dev23 (d24 : Dev nD) : Nat :=
  let c0_i32_1167 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_1166 : BitVec 32 := 1#32
  let v730 : BitVec 32 := Scalar.muli v37 c1_i32_1166
  let v731 : BitVec 32 := Scalar.addi c0_i32_1167 v730
  v731.toNat
def k0_dev24 (d24 : Dev nD) : Nat :=
  let c0_i32_1202 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_1201 : BitVec 32 := 1#32
  let v755 : BitVec 32 := Scalar.muli v49 c1_i32_1201
  let v756 : BitVec 32 := Scalar.addi c0_i32_1202 v755
  v756.toNat
def k0_dev25 (d24 : Dev nD) : Nat :=
  let c0_i32_1278 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_1277 : BitVec 32 := 1#32
  let v800 : BitVec 32 := Scalar.muli v37 c1_i32_1277
  let v801 : BitVec 32 := Scalar.addi c0_i32_1278 v800
  v801.toNat
def k0_dev26 (d24 : Dev nD) : Nat :=
  let c0_i32_1313 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_1312 : BitVec 32 := 1#32
  let v825 : BitVec 32 := Scalar.muli v49 c1_i32_1312
  let v826 : BitVec 32 := Scalar.addi c0_i32_1313 v825
  v826.toNat
def k0_dev27 (d24 : Dev nD) : Nat :=
  let c0_i32_1641 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_1640 : BitVec 32 := 1#32
  let v981 : BitVec 32 := Scalar.muli v37 c1_i32_1640
  let v982 : BitVec 32 := Scalar.addi c0_i32_1641 v981
  v982.toNat
def k0_dev28 (d24 : Dev nD) : Nat :=
  let c0_i32_1657 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_1656 : BitVec 32 := 1#32
  let v991 : BitVec 32 := Scalar.muli v49 c1_i32_1656
  let v992 : BitVec 32 := Scalar.addi c0_i32_1657 v991
  v992.toNat
def k0_dev29 (d24 : Dev nD) : Nat :=
  let c0_i32_1690 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_1689 : BitVec 32 := 1#32
  let v1016 : BitVec 32 := Scalar.muli v37 c1_i32_1689
  let v1017 : BitVec 32 := Scalar.addi c0_i32_1690 v1016
  v1017.toNat
def k0_dev30 (d24 : Dev nD) : Nat :=
  let c0_i32_1758 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_1757 : BitVec 32 := 1#32
  let v1056 : BitVec 32 := Scalar.muli v37 c1_i32_1757
  let v1057 : BitVec 32 := Scalar.addi c0_i32_1758 v1056
  v1057.toNat
def k0_dev31 (d24 : Dev nD) : Nat :=
  let c0_i32_1774 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_1773 : BitVec 32 := 1#32
  let v1066 : BitVec 32 := Scalar.muli v49 c1_i32_1773
  let v1067 : BitVec 32 := Scalar.addi c0_i32_1774 v1066
  v1067.toNat
def k0_dev32 (d24 : Dev nD) : Nat :=
  let c0_i32_1807 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_1806 : BitVec 32 := 1#32
  let v1091 : BitVec 32 := Scalar.muli v37 c1_i32_1806
  let v1092 : BitVec 32 := Scalar.addi c0_i32_1807 v1091
  v1092.toNat
def k0_dev33 (d24 : Dev nD) : Nat :=
  let c0_i32_1843 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_1842 : BitVec 32 := 1#32
  let v1109 : BitVec 32 := Scalar.muli v49 c1_i32_1842
  let v1110 : BitVec 32 := Scalar.addi c0_i32_1843 v1109
  v1110.toNat
def k0_dev34 (d24 : Dev nD) : Nat :=
  let c0_i32_1879 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_1878 : BitVec 32 := 1#32
  let v1127 : BitVec 32 := Scalar.muli v49 c1_i32_1878
  let v1128 : BitVec 32 := Scalar.addi c0_i32_1879 v1127
  v1128.toNat
def k0_dev35 (d24 : Dev nD) : Nat :=
  let c0_i32_1953 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_1952 : BitVec 32 := 1#32
  let v1172 : BitVec 32 := Scalar.muli v37 c1_i32_1952
  let v1173 : BitVec 32 := Scalar.addi c0_i32_1953 v1172
  v1173.toNat
def k0_dev36 (d24 : Dev nD) : Nat :=
  let c0_i32_1988 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_1987 : BitVec 32 := 1#32
  let v1197 : BitVec 32 := Scalar.muli v49 c1_i32_1987
  let v1198 : BitVec 32 := Scalar.addi c0_i32_1988 v1197
  v1198.toNat
def k0_dev37 (d24 : Dev nD) : Nat :=
  let c0_i32_2064 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_2063 : BitVec 32 := 1#32
  let v1242 : BitVec 32 := Scalar.muli v37 c1_i32_2063
  let v1243 : BitVec 32 := Scalar.addi c0_i32_2064 v1242
  v1243.toNat
def k0_dev38 (d24 : Dev nD) : Nat :=
  let c0_i32_2099 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_2098 : BitVec 32 := 1#32
  let v1267 : BitVec 32 := Scalar.muli v49 c1_i32_2098
  let v1268 : BitVec 32 := Scalar.addi c0_i32_2099 v1267
  v1268.toNat
def k0_dev39 (d24 : Dev nD) : Nat :=
  let c0_i32_2426 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_2425 : BitVec 32 := 1#32
  let v1423 : BitVec 32 := Scalar.muli v37 c1_i32_2425
  let v1424 : BitVec 32 := Scalar.addi c0_i32_2426 v1423
  v1424.toNat
def k0_dev40 (d24 : Dev nD) : Nat :=
  let c0_i32_2442 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_2441 : BitVec 32 := 1#32
  let v1433 : BitVec 32 := Scalar.muli v49 c1_i32_2441
  let v1434 : BitVec 32 := Scalar.addi c0_i32_2442 v1433
  v1434.toNat
def k0_off1 (d24 : Dev nD) (c0_i32_2454 : BitVec 32) : Fin 2 → Nat :=
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c2_i32_2447 : BitVec 32 := 2#32
  let v1443 : BitVec 32 := Scalar.addi v26 c2_i32_2447
  let c4_i32_2448 : BitVec 32 := 4#32
  let c0_i32_2449 : BitVec 32 := 0#32
  let v1444 : BitVec 1 := Scalar.cmpi .eq c4_i32_2448 c0_i32_2449
  let c1_i32_2450 : BitVec 32 := 1#32
  let v1445 : BitVec 32 := Scalar.select v1444 c1_i32_2450 c4_i32_2448
  let v1446 : BitVec 32 := Scalar.remsi v1443 v1445
  let c0_i32_2452 : BitVec 32 := 0#32
  let v1448 : BitVec 1 := Scalar.cmpi .slt v1446 c0_i32_2452
  let c0_i32_2453 : BitVec 32 := 0#32
  let v1449 : BitVec 1 := Scalar.cmpi .slt v1445 c0_i32_2453
  let v1450 : BitVec 1 := Scalar.xori v1448 v1449
  let c0_i32_2451 : BitVec 32 := 0#32
  let v1447 : BitVec 1 := Scalar.cmpi .ne v1446 c0_i32_2451
  let v1451 : BitVec 1 := Scalar.andi v1450 v1447
  let v1452 : BitVec 32 := Scalar.addi v1446 v1445
  let v1453 : BitVec 32 := Scalar.select v1451 v1452 v1446
  let c256_i32 : BitVec 32 := 256#32
  let v1454 : BitVec 32 := Scalar.muli v1453 c256_i32
  let v1455 : BitVec 32 := Scalar.addi v1454 c0_i32_2454
  let v1456 : Index := Scalar.indexCast v1455
  let c0_2455 : Index := 0#32
  ![v1456.toNat, 0]
def k0_dev41 (d24 : Dev nD) : Nat :=
  let c0_i32_2519 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c1_i32_2518 : BitVec 32 := 1#32
  let v1488 : BitVec 32 := Scalar.muli v37 c1_i32_2518
  let v1489 : BitVec 32 := Scalar.addi c0_i32_2519 v1488
  v1489.toNat
def k0_dev42 (d24 : Dev nD) : Nat :=
  let c0_i32_2535 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_2534 : BitVec 32 := 1#32
  let v1498 : BitVec 32 := Scalar.muli v49 c1_i32_2534
  let v1499 : BitVec 32 := Scalar.addi c0_i32_2535 v1498
  v1499.toNat
def k0_dev43 (d24 : Dev nD) : Nat :=
  let c0_i32_2580 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_2579 : BitVec 32 := 1#32
  let v1531 : BitVec 32 := Scalar.muli v49 c1_i32_2579
  let v1532 : BitVec 32 := Scalar.addi c0_i32_2580 v1531
  v1532.toNat
def k0_off2 (d24 : Dev nD) (c0_i32_2597 : BitVec 32) : Fin 2 → Nat :=
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c1_i32_20 : BitVec 32 := 1#32
  let v27 : BitVec 32 := Scalar.addi v26 c1_i32_20
  let c4_i32_21 : BitVec 32 := 4#32
  let c0_i32_22 : BitVec 32 := 0#32
  let v28 : BitVec 1 := Scalar.cmpi .eq c4_i32_21 c0_i32_22
  let c1_i32_23 : BitVec 32 := 1#32
  let v29 : BitVec 32 := Scalar.select v28 c1_i32_23 c4_i32_21
  let v30 : BitVec 32 := Scalar.remsi v27 v29
  let c0_i32_25 : BitVec 32 := 0#32
  let v32 : BitVec 1 := Scalar.cmpi .slt v30 c0_i32_25
  let c0_i32_26 : BitVec 32 := 0#32
  let v33 : BitVec 1 := Scalar.cmpi .slt v29 c0_i32_26
  let v34 : BitVec 1 := Scalar.xori v32 v33
  let c0_i32_24 : BitVec 32 := 0#32
  let v31 : BitVec 1 := Scalar.cmpi .ne v30 c0_i32_24
  let v35 : BitVec 1 := Scalar.andi v34 v31
  let v36 : BitVec 32 := Scalar.addi v30 v29
  let v37 : BitVec 32 := Scalar.select v35 v36 v30
  let c2_i32_2589 : BitVec 32 := 2#32
  let v1544 : BitVec 32 := Scalar.addi v37 c2_i32_2589
  let c4_i32_2590 : BitVec 32 := 4#32
  let c0_i32_2591 : BitVec 32 := 0#32
  let v1545 : BitVec 1 := Scalar.cmpi .eq c4_i32_2590 c0_i32_2591
  let c1_i32_2592 : BitVec 32 := 1#32
  let v1546 : BitVec 32 := Scalar.select v1545 c1_i32_2592 c4_i32_2590
  let v1547 : BitVec 32 := Scalar.remsi v1544 v1546
  let c0_i32_2594 : BitVec 32 := 0#32
  let v1549 : BitVec 1 := Scalar.cmpi .slt v1547 c0_i32_2594
  let c0_i32_2595 : BitVec 32 := 0#32
  let v1550 : BitVec 1 := Scalar.cmpi .slt v1546 c0_i32_2595
  let v1551 : BitVec 1 := Scalar.xori v1549 v1550
  let c0_i32_2593 : BitVec 32 := 0#32
  let v1548 : BitVec 1 := Scalar.cmpi .ne v1547 c0_i32_2593
  let v1552 : BitVec 1 := Scalar.andi v1551 v1548
  let v1553 : BitVec 32 := Scalar.addi v1547 v1546
  let v1554 : BitVec 32 := Scalar.select v1552 v1553 v1547
  let c256_i32_2596 : BitVec 32 := 256#32
  let v1555 : BitVec 32 := Scalar.muli v1554 c256_i32_2596
  let v1556 : BitVec 32 := Scalar.addi v1555 c0_i32_2597
  let v1557 : Index := Scalar.indexCast v1556
  let c0_2598 : Index := 0#32
  ![v1557.toNat, 0]
def k0_dev44 (d24 : Dev nD) : Nat :=
  let c0_i32_2630 : BitVec 32 := 0#32
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1_i32_2629 : BitVec 32 := 1#32
  let v1567 : BitVec 32 := Scalar.muli v49 c1_i32_2629
  let v1568 : BitVec 32 := Scalar.addi c0_i32_2630 v1567
  v1568.toNat
def k0_off3 (d24 : Dev nD) (c0_i32_2681 : BitVec 32) : Fin 2 → Nat :=
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c4_i32_27 : BitVec 32 := 4#32
  let v38 : BitVec 32 := Scalar.addi v26 c4_i32_27
  let c1_i32_28 : BitVec 32 := 1#32
  let v39 : BitVec 32 := Scalar.subi v38 c1_i32_28
  let c4_i32_29 : BitVec 32 := 4#32
  let c0_i32_30 : BitVec 32 := 0#32
  let v40 : BitVec 1 := Scalar.cmpi .eq c4_i32_29 c0_i32_30
  let c1_i32_31 : BitVec 32 := 1#32
  let v41 : BitVec 32 := Scalar.select v40 c1_i32_31 c4_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c2_i32_2673 : BitVec 32 := 2#32
  let v1606 : BitVec 32 := Scalar.addi v49 c2_i32_2673
  let c4_i32_2674 : BitVec 32 := 4#32
  let c0_i32_2675 : BitVec 32 := 0#32
  let v1607 : BitVec 1 := Scalar.cmpi .eq c4_i32_2674 c0_i32_2675
  let c1_i32_2676 : BitVec 32 := 1#32
  let v1608 : BitVec 32 := Scalar.select v1607 c1_i32_2676 c4_i32_2674
  let v1609 : BitVec 32 := Scalar.remsi v1606 v1608
  let c0_i32_2678 : BitVec 32 := 0#32
  let v1611 : BitVec 1 := Scalar.cmpi .slt v1609 c0_i32_2678
  let c0_i32_2679 : BitVec 32 := 0#32
  let v1612 : BitVec 1 := Scalar.cmpi .slt v1608 c0_i32_2679
  let v1613 : BitVec 1 := Scalar.xori v1611 v1612
  let c0_i32_2677 : BitVec 32 := 0#32
  let v1610 : BitVec 1 := Scalar.cmpi .ne v1609 c0_i32_2677
  let v1614 : BitVec 1 := Scalar.andi v1613 v1610
  let v1615 : BitVec 32 := Scalar.addi v1609 v1608
  let v1616 : BitVec 32 := Scalar.select v1614 v1615 v1609
  let c256_i32_2680 : BitVec 32 := 256#32
  let v1617 : BitVec 32 := Scalar.muli v1616 c256_i32_2680
  let v1618 : BitVec 32 := Scalar.addi v1617 c0_i32_2681
  let v1619 : Index := Scalar.indexCast v1618
  let c0_2682 : Index := 0#32
  ![v1619.toNat, 0]
def k0_off4 (d24 : Dev nD) (c0_i32_2740 : BitVec 32) : Fin 2 → Nat :=
  let v24 : BitVec 32 := Dev.word d24
  let c1_i32_19 : BitVec 32 := 1#32
  let v25 : BitVec 32 := Scalar.divsi v24 c1_i32_19
  let c4_i32_18 : BitVec 32 := 4#32
  let v26 : BitVec 32 := Scalar.remsi v25 c4_i32_18
  let c256_i32_2739 : BitVec 32 := 256#32
  let v1658 : BitVec 32 := Scalar.muli v26 c256_i32_2739
  let v1659 : BitVec 32 := Scalar.addi v1658 c0_i32_2740
  let v1660 : Index := Scalar.indexCast v1659
  let c0_2741 : Index := 0#32
  ![v1660.toNat, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S6_S1_0 : ∀ a, (![0] : Fin 1 → Nat) a + S1.size a ≤ S6.size a
  squeezes_S1_S_ : S1.Squeezes S_
  inb_S3x256x512_S1x256x512_0_0_0 : ∀ a, (![0, 0, 0] : Fin 3 → Nat) a + S1x256x512.size a ≤ S3x256x512.size a
  squeezes_S1x256x512_S256x512 : S1x256x512.Squeezes S256x512
  inb_S6_S1_1 : ∀ a, (![1] : Fin 1 → Nat) a + S1.size a ≤ S6.size a
  inb_S3x512x256_S1x512x256_0_0_0 : ∀ a, (![0, 0, 0] : Fin 3 → Nat) a + S1x512x256.size a ≤ S3x512x256.size a
  squeezes_S1x512x256_S512x256 : S1x512x256.Squeezes S512x256
  inb_S6_S1_2 : ∀ a, (![2] : Fin 1 → Nat) a + S1.size a ≤ S6.size a
  inb_S3x256x512_S1x256x512_1_0_0 : ∀ a, (![1, 0, 0] : Fin 3 → Nat) a + S1x256x512.size a ≤ S3x256x512.size a
  inb_S6_S1_3 : ∀ a, (![3] : Fin 1 → Nat) a + S1.size a ≤ S6.size a
  inb_S3x512x256_S1x512x256_1_0_0 : ∀ a, (![1, 0, 0] : Fin 3 → Nat) a + S1x512x256.size a ≤ S3x512x256.size a
  inb_S6_S1_4 : ∀ a, (![4] : Fin 1 → Nat) a + S1.size a ≤ S6.size a
  inb_S3x256x512_S1x256x512_2_0_0 : ∀ a, (![2, 0, 0] : Fin 3 → Nat) a + S1x256x512.size a ≤ S3x256x512.size a
  inb_S6_S1_5 : ∀ a, (![5] : Fin 1 → Nat) a + S1.size a ≤ S6.size a
  inb_S3x512x256_S1x512x256_2_0_0 : ∀ a, (![2, 0, 0] : Fin 3 → Nat) a + S1x512x256.size a ≤ S3x512x256.size a
  hamt_1 : (1#32 : BitVec 32).msb = false
  hamt_2 : (2#32 : BitVec 32).msb = false
  inb_S256x256_S128x256_0_0 : ∀ a, (![0, 0] : Fin 2 → Nat) a + S128x256.size a ≤ S256x256.size a
  h_S128x256 : 0 < S128x256.numel
  shapeCasts_S128x256_S128x256 : S128x256.ShapeCasts S128x256
  bitsLt_bf16_f32 : FTy.bits .bf16 < FTy.bits .f32
  inb_S2x128x256_S1x128x256_0_0_0 : ∀ a, (![0, 0, 0] : Fin 3 → Nat) a + S1x128x256.size a ≤ S2x128x256.size a
  h_S1x128x256 : 0 < S1x128x256.numel
  shapeCasts_S1x128x256_S128x256 : S1x128x256.ShapeCasts S128x256
  shapeCasts_S128x256_S1x128x256 : S128x256.ShapeCasts S1x128x256
  packedbf16_S2x128x256_S1x128x256_0_0_0 : (Rect.unit (s := S2x128x256) ![0, 0, 0] S1x128x256.size inb_S2x128x256_S1x128x256_0_0_0).PackedRows (EltTy.packing .bf16)
  inb_S256x256_S128x256_128_0 : ∀ a, (![128, 0] : Fin 2 → Nat) a + S128x256.size a ≤ S256x256.size a
  inb_S2x128x256_S1x128x256_1_0_0 : ∀ a, (![1, 0, 0] : Fin 3 → Nat) a + S1x128x256.size a ≤ S2x128x256.size a
  packedbf16_S2x128x256_S1x128x256_1_0_0 : (Rect.unit (s := S2x128x256) ![1, 0, 0] S1x128x256.size inb_S2x128x256_S1x128x256_1_0_0).PackedRows (EltTy.packing .bf16)
  inb_S7x4x2_S1x1x1_0_0_0 : ∀ a, (![0, 0, 0] : Fin 3 → Nat) a + S1x1x1.size a ≤ S7x4x2.size a
  squeezes_S1x1x1_S_ : S1x1x1.Squeezes S_
  inb_S7x4x2x128x256_S1x1x1x128x256_0_0_0_0_0 : ∀ a, (![0, 0, 0, 0, 0] : Fin 5 → Nat) a + S1x1x1x128x256.size a ≤ S7x4x2x128x256.size a
  squeezes_S1x1x1x128x256_S128x256 : S1x1x1x128x256.Squeezes S128x256
  squeezes_S1x128x256_S128x256 : S1x128x256.Squeezes S128x256
  wordsbf16_S2x128x256_S1x128x256_0_0_0 : (Rect.unit (s := S2x128x256) ![0, 0, 0] S1x128x256.size inb_S2x128x256_S1x128x256_0_0_0).WholeWords (EltTy.packing .bf16)
  wordsbf16_S7x4x2x128x256_S1x1x1x128x256_0_0_0_0_0 : (Rect.unit (s := S7x4x2x128x256) ![0, 0, 0, 0, 0] S1x1x1x128x256.size inb_S7x4x2x128x256_S1x1x1x128x256_0_0_0_0_0).WholeWords (EltTy.packing .bf16)
  inb_S7x4x2_S1x1x1_0_1_0 : ∀ a, (![0, 1, 0] : Fin 3 → Nat) a + S1x1x1.size a ≤ S7x4x2.size a
  inb_S7x4x2x128x256_S1x1x1x128x256_0_1_0_0_0 : ∀ a, (![0, 1, 0, 0, 0] : Fin 5 → Nat) a + S1x1x1x128x256.size a ≤ S7x4x2x128x256.size a
  wordsbf16_S7x4x2x128x256_S1x1x1x128x256_0_1_0_0_0 : (Rect.unit (s := S7x4x2x128x256) ![0, 1, 0, 0, 0] S1x1x1x128x256.size inb_S7x4x2x128x256_S1x1x1x128x256_0_1_0_0_0).WholeWords (EltTy.packing .bf16)
  inb_S7x4x2_S1x1x1_0_0_1 : ∀ a, (![0, 0, 1] : Fin 3 → Nat) a + S1x1x1.size a ≤ S7x4x2.size a
  inb_S7x4x2x128x256_S1x1x1x128x256_0_0_1_0_0 : ∀ a, (![0, 0, 1, 0, 0] : Fin 5 → Nat) a + S1x1x1x128x256.size a ≤ S7x4x2x128x256.size a
  wordsbf16_S2x128x256_S1x128x256_1_0_0 : (Rect.unit (s := S2x128x256) ![1, 0, 0] S1x128x256.size inb_S2x128x256_S1x128x256_1_0_0).WholeWords (EltTy.packing .bf16)
  wordsbf16_S7x4x2x128x256_S1x1x1x128x256_0_0_1_0_0 : (Rect.unit (s := S7x4x2x128x256) ![0, 0, 1, 0, 0] S1x1x1x128x256.size inb_S7x4x2x128x256_S1x1x1x128x256_0_0_1_0_0).WholeWords (EltTy.packing .bf16)
  inb_S7x4x2_S1x1x1_0_1_1 : ∀ a, (![0, 1, 1] : Fin 3 → Nat) a + S1x1x1.size a ≤ S7x4x2.size a
  inb_S7x4x2x128x256_S1x1x1x128x256_0_1_1_0_0 : ∀ a, (![0, 1, 1, 0, 0] : Fin 5 → Nat) a + S1x1x1x128x256.size a ≤ S7x4x2x128x256.size a
  wordsbf16_S7x4x2x128x256_S1x1x1x128x256_0_1_1_0_0 : (Rect.unit (s := S7x4x2x128x256) ![0, 1, 1, 0, 0] S1x1x1x128x256.size inb_S7x4x2x128x256_S1x1x1x128x256_0_1_1_0_0).WholeWords (EltTy.packing .bf16)
  h_S1x256x512 : 0 < S1x256x512.numel
  shapeCasts_S1x256x512_S256x512 : S1x256x512.ShapeCasts S256x512
  shapeCasts_S256x512_S1x256x512 : S256x512.ShapeCasts S1x256x512
  packedbf16_S3x256x512_S1x256x512_0_0_0 : (Rect.unit (s := S3x256x512) ![0, 0, 0] S1x256x512.size inb_S3x256x512_S1x256x512_0_0_0).PackedRows (EltTy.packing .bf16)
  h_S1x512x256 : 0 < S1x512x256.numel
  shapeCasts_S1x512x256_S512x256 : S1x512x256.ShapeCasts S512x256
  shapeCasts_S512x256_S1x512x256 : S512x256.ShapeCasts S1x512x256
  packedbf16_S3x512x256_S1x512x256_0_0_0 : (Rect.unit (s := S3x512x256) ![0, 0, 0] S1x512x256.size inb_S3x512x256_S1x512x256_0_0_0).PackedRows (EltTy.packing .bf16)
  inb_S3x2x128x256_S1x1x128x256_2_0_0_0 : ∀ a, (![2, 0, 0, 0] : Fin 4 → Nat) a + S1x1x128x256.size a ≤ S3x2x128x256.size a
  h_S1x1x128x256 : 0 < S1x1x128x256.numel
  shapeCasts_S1x1x128x256_S128x256 : S1x1x128x256.ShapeCasts S128x256
  shapeCasts_S128x256_S1x1x128x256 : S128x256.ShapeCasts S1x1x128x256
  packedbf16_S3x2x128x256_S1x1x128x256_2_0_0_0 : (Rect.unit (s := S3x2x128x256) ![2, 0, 0, 0] S1x1x128x256.size inb_S3x2x128x256_S1x1x128x256_2_0_0_0).PackedRows (EltTy.packing .bf16)
  inb_S7x4x2_S1x1x1_1_3_0 : ∀ a, (![1, 3, 0] : Fin 3 → Nat) a + S1x1x1.size a ≤ S7x4x2.size a
  inb_S7x4x2x128x256_S1x1x1x128x256_1_3_0_0_0 : ∀ a, (![1, 3, 0, 0, 0] : Fin 5 → Nat) a + S1x1x1x128x256.size a ≤ S7x4x2x128x256.size a
  squeezes_S1x1x128x256_S128x256 : S1x1x128x256.Squeezes S128x256
  wordsbf16_S3x2x128x256_S1x1x128x256_2_0_0_0 : (Rect.unit (s := S3x2x128x256) ![2, 0, 0, 0] S1x1x128x256.size inb_S3x2x128x256_S1x1x128x256_2_0_0_0).WholeWords (EltTy.packing .bf16)
  wordsbf16_S7x4x2x128x256_S1x1x1x128x256_1_3_0_0_0 : (Rect.unit (s := S7x4x2x128x256) ![1, 3, 0, 0, 0] S1x1x1x128x256.size inb_S7x4x2x128x256_S1x1x1x128x256_1_3_0_0_0).WholeWords (EltTy.packing .bf16)
  inb_S3x2x128x256_S1x1x128x256_2_1_0_0 : ∀ a, (![2, 1, 0, 0] : Fin 4 → Nat) a + S1x1x128x256.size a ≤ S3x2x128x256.size a
  packedbf16_S3x2x128x256_S1x1x128x256_2_1_0_0 : (Rect.unit (s := S3x2x128x256) ![2, 1, 0, 0] S1x1x128x256.size inb_S3x2x128x256_S1x1x128x256_2_1_0_0).PackedRows (EltTy.packing .bf16)
  inb_S7x4x2_S1x1x1_1_3_1 : ∀ a, (![1, 3, 1] : Fin 3 → Nat) a + S1x1x1.size a ≤ S7x4x2.size a
  inb_S7x4x2x128x256_S1x1x1x128x256_1_3_1_0_0 : ∀ a, (![1, 3, 1, 0, 0] : Fin 5 → Nat) a + S1x1x1x128x256.size a ≤ S7x4x2x128x256.size a
  wordsbf16_S3x2x128x256_S1x1x128x256_2_1_0_0 : (Rect.unit (s := S3x2x128x256) ![2, 1, 0, 0] S1x1x128x256.size inb_S3x2x128x256_S1x1x128x256_2_1_0_0).WholeWords (EltTy.packing .bf16)
  wordsbf16_S7x4x2x128x256_S1x1x1x128x256_1_3_1_0_0 : (Rect.unit (s := S7x4x2x128x256) ![1, 3, 1, 0, 0] S1x1x1x128x256.size inb_S7x4x2x128x256_S1x1x1x128x256_1_3_1_0_0).WholeWords (EltTy.packing .bf16)
  packedbf16_S3x256x512_S1x256x512_1_0_0 : (Rect.unit (s := S3x256x512) ![1, 0, 0] S1x256x512.size inb_S3x256x512_S1x256x512_1_0_0).PackedRows (EltTy.packing .bf16)
  packedbf16_S3x512x256_S1x512x256_1_0_0 : (Rect.unit (s := S3x512x256) ![1, 0, 0] S1x512x256.size inb_S3x512x256_S1x512x256_1_0_0).PackedRows (EltTy.packing .bf16)
  packedbf16_S3x256x512_S1x256x512_2_0_0 : (Rect.unit (s := S3x256x512) ![2, 0, 0] S1x256x512.size inb_S3x256x512_S1x256x512_2_0_0).PackedRows (EltTy.packing .bf16)
  packedbf16_S3x512x256_S1x512x256_2_0_0 : (Rect.unit (s := S3x512x256) ![2, 0, 0] S1x512x256.size inb_S3x512x256_S1x512x256_2_0_0).PackedRows (EltTy.packing .bf16)
  inb_S7x4x2_S1x1x1_0_2_0 : ∀ a, (![0, 2, 0] : Fin 3 → Nat) a + S1x1x1.size a ≤ S7x4x2.size a
  inb_S7x4x2x128x256_S1x1x1x128x256_0_2_0_0_0 : ∀ a, (![0, 2, 0, 0, 0] : Fin 5 → Nat) a + S1x1x1x128x256.size a ≤ S7x4x2x128x256.size a
  wordsbf16_S7x4x2x128x256_S1x1x1x128x256_0_2_0_0_0 : (Rect.unit (s := S7x4x2x128x256) ![0, 2, 0, 0, 0] S1x1x1x128x256.size inb_S7x4x2x128x256_S1x1x1x128x256_0_2_0_0_0).WholeWords (EltTy.packing .bf16)
  inb_S7x4x2_S1x1x1_0_2_1 : ∀ a, (![0, 2, 1] : Fin 3 → Nat) a + S1x1x1.size a ≤ S7x4x2.size a
  inb_S7x4x2x128x256_S1x1x1x128x256_0_2_1_0_0 : ∀ a, (![0, 2, 1, 0, 0] : Fin 5 → Nat) a + S1x1x1x128x256.size a ≤ S7x4x2x128x256.size a
  wordsbf16_S7x4x2x128x256_S1x1x1x128x256_0_2_1_0_0 : (Rect.unit (s := S7x4x2x128x256) ![0, 2, 1, 0, 0] S1x1x1x128x256.size inb_S7x4x2x128x256_S1x1x1x128x256_0_2_1_0_0).WholeWords (EltTy.packing .bf16)
  h_S1x1x1x128x256 : 0 < S1x1x1x128x256.numel
  shapeCasts_S1x1x1x128x256_S128x256 : S1x1x1x128x256.ShapeCasts S128x256
  inb_S3x2x128x256_S1x1x128x256_0_0_0_0 : ∀ a, (![0, 0, 0, 0] : Fin 4 → Nat) a + S1x1x128x256.size a ≤ S3x2x128x256.size a
  packedbf16_S3x2x128x256_S1x1x128x256_0_0_0_0 : (Rect.unit (s := S3x2x128x256) ![0, 0, 0, 0] S1x1x128x256.size inb_S3x2x128x256_S1x1x128x256_0_0_0_0).PackedRows (EltTy.packing .bf16)
  inb_S7x4x2_S1x1x1_1_0_0 : ∀ a, (![1, 0, 0] : Fin 3 → Nat) a + S1x1x1.size a ≤ S7x4x2.size a
  inb_S7x4x2x128x256_S1x1x1x128x256_1_0_0_0_0 : ∀ a, (![1, 0, 0, 0, 0] : Fin 5 → Nat) a + S1x1x1x128x256.size a ≤ S7x4x2x128x256.size a
  wordsbf16_S3x2x128x256_S1x1x128x256_0_0_0_0 : (Rect.unit (s := S3x2x128x256) ![0, 0, 0, 0] S1x1x128x256.size inb_S3x2x128x256_S1x1x128x256_0_0_0_0).WholeWords (EltTy.packing .bf16)
  wordsbf16_S7x4x2x128x256_S1x1x1x128x256_1_0_0_0_0 : (Rect.unit (s := S7x4x2x128x256) ![1, 0, 0, 0, 0] S1x1x1x128x256.size inb_S7x4x2x128x256_S1x1x1x128x256_1_0_0_0_0).WholeWords (EltTy.packing .bf16)
  inb_S3x2x128x256_S1x1x128x256_1_0_0_0 : ∀ a, (![1, 0, 0, 0] : Fin 4 → Nat) a + S1x1x128x256.size a ≤ S3x2x128x256.size a
  packedbf16_S3x2x128x256_S1x1x128x256_1_0_0_0 : (Rect.unit (s := S3x2x128x256) ![1, 0, 0, 0] S1x1x128x256.size inb_S3x2x128x256_S1x1x128x256_1_0_0_0).PackedRows (EltTy.packing .bf16)
  inb_S7x4x2_S1x1x1_1_1_0 : ∀ a, (![1, 1, 0] : Fin 3 → Nat) a + S1x1x1.size a ≤ S7x4x2.size a
  inb_S7x4x2x128x256_S1x1x1x128x256_1_1_0_0_0 : ∀ a, (![1, 1, 0, 0, 0] : Fin 5 → Nat) a + S1x1x1x128x256.size a ≤ S7x4x2x128x256.size a
  wordsbf16_S3x2x128x256_S1x1x128x256_1_0_0_0 : (Rect.unit (s := S3x2x128x256) ![1, 0, 0, 0] S1x1x128x256.size inb_S3x2x128x256_S1x1x128x256_1_0_0_0).WholeWords (EltTy.packing .bf16)
  wordsbf16_S7x4x2x128x256_S1x1x1x128x256_1_1_0_0_0 : (Rect.unit (s := S7x4x2x128x256) ![1, 1, 0, 0, 0] S1x1x1x128x256.size inb_S7x4x2x128x256_S1x1x1x128x256_1_1_0_0_0).WholeWords (EltTy.packing .bf16)
  inb_S3x2x128x256_S1x1x128x256_0_1_0_0 : ∀ a, (![0, 1, 0, 0] : Fin 4 → Nat) a + S1x1x128x256.size a ≤ S3x2x128x256.size a
  packedbf16_S3x2x128x256_S1x1x128x256_0_1_0_0 : (Rect.unit (s := S3x2x128x256) ![0, 1, 0, 0] S1x1x128x256.size inb_S3x2x128x256_S1x1x128x256_0_1_0_0).PackedRows (EltTy.packing .bf16)
  inb_S7x4x2_S1x1x1_1_0_1 : ∀ a, (![1, 0, 1] : Fin 3 → Nat) a + S1x1x1.size a ≤ S7x4x2.size a
  inb_S7x4x2x128x256_S1x1x1x128x256_1_0_1_0_0 : ∀ a, (![1, 0, 1, 0, 0] : Fin 5 → Nat) a + S1x1x1x128x256.size a ≤ S7x4x2x128x256.size a
  wordsbf16_S3x2x128x256_S1x1x128x256_0_1_0_0 : (Rect.unit (s := S3x2x128x256) ![0, 1, 0, 0] S1x1x128x256.size inb_S3x2x128x256_S1x1x128x256_0_1_0_0).WholeWords (EltTy.packing .bf16)
  wordsbf16_S7x4x2x128x256_S1x1x1x128x256_1_0_1_0_0 : (Rect.unit (s := S7x4x2x128x256) ![1, 0, 1, 0, 0] S1x1x1x128x256.size inb_S7x4x2x128x256_S1x1x1x128x256_1_0_1_0_0).WholeWords (EltTy.packing .bf16)
  inb_S3x2x128x256_S1x1x128x256_1_1_0_0 : ∀ a, (![1, 1, 0, 0] : Fin 4 → Nat) a + S1x1x128x256.size a ≤ S3x2x128x256.size a
  packedbf16_S3x2x128x256_S1x1x128x256_1_1_0_0 : (Rect.unit (s := S3x2x128x256) ![1, 1, 0, 0] S1x1x128x256.size inb_S3x2x128x256_S1x1x128x256_1_1_0_0).PackedRows (EltTy.packing .bf16)
  inb_S7x4x2_S1x1x1_1_1_1 : ∀ a, (![1, 1, 1] : Fin 3 → Nat) a + S1x1x1.size a ≤ S7x4x2.size a
  inb_S7x4x2x128x256_S1x1x1x128x256_1_1_1_0_0 : ∀ a, (![1, 1, 1, 0, 0] : Fin 5 → Nat) a + S1x1x1x128x256.size a ≤ S7x4x2x128x256.size a
  wordsbf16_S3x2x128x256_S1x1x128x256_1_1_0_0 : (Rect.unit (s := S3x2x128x256) ![1, 1, 0, 0] S1x1x128x256.size inb_S3x2x128x256_S1x1x128x256_1_1_0_0).WholeWords (EltTy.packing .bf16)
  wordsbf16_S7x4x2x128x256_S1x1x1x128x256_1_1_1_0_0 : (Rect.unit (s := S7x4x2x128x256) ![1, 1, 1, 0, 0] S1x1x1x128x256.size inb_S7x4x2x128x256_S1x1x1x128x256_1_1_1_0_0).WholeWords (EltTy.packing .bf16)
  inb_S7x4x2_S1x1x1_2_0_0 : ∀ a, (![2, 0, 0] : Fin 3 → Nat) a + S1x1x1.size a ≤ S7x4x2.size a
  inb_S7x4x2x128x256_S1x1x1x128x256_2_0_0_0_0 : ∀ a, (![2, 0, 0, 0, 0] : Fin 5 → Nat) a + S1x1x1x128x256.size a ≤ S7x4x2x128x256.size a
  wordsbf16_S7x4x2x128x256_S1x1x1x128x256_2_0_0_0_0 : (Rect.unit (s := S7x4x2x128x256) ![2, 0, 0, 0, 0] S1x1x1x128x256.size inb_S7x4x2x128x256_S1x1x1x128x256_2_0_0_0_0).WholeWords (EltTy.packing .bf16)
  inb_S7x4x2_S1x1x1_2_1_0 : ∀ a, (![2, 1, 0] : Fin 3 → Nat) a + S1x1x1.size a ≤ S7x4x2.size a
  inb_S7x4x2x128x256_S1x1x1x128x256_2_1_0_0_0 : ∀ a, (![2, 1, 0, 0, 0] : Fin 5 → Nat) a + S1x1x1x128x256.size a ≤ S7x4x2x128x256.size a
  wordsbf16_S7x4x2x128x256_S1x1x1x128x256_2_1_0_0_0 : (Rect.unit (s := S7x4x2x128x256) ![2, 1, 0, 0, 0] S1x1x1x128x256.size inb_S7x4x2x128x256_S1x1x1x128x256_2_1_0_0_0).WholeWords (EltTy.packing .bf16)
  inb_S7x4x2_S1x1x1_3_3_0 : ∀ a, (![3, 3, 0] : Fin 3 → Nat) a + S1x1x1.size a ≤ S7x4x2.size a
  inb_S7x4x2x128x256_S1x1x1x128x256_3_3_0_0_0 : ∀ a, (![3, 3, 0, 0, 0] : Fin 5 → Nat) a + S1x1x1x128x256.size a ≤ S7x4x2x128x256.size a
  wordsbf16_S7x4x2x128x256_S1x1x1x128x256_3_3_0_0_0 : (Rect.unit (s := S7x4x2x128x256) ![3, 3, 0, 0, 0] S1x1x1x128x256.size inb_S7x4x2x128x256_S1x1x1x128x256_3_3_0_0_0).WholeWords (EltTy.packing .bf16)
  inb_S7x4x2_S1x1x1_2_0_1 : ∀ a, (![2, 0, 1] : Fin 3 → Nat) a + S1x1x1.size a ≤ S7x4x2.size a
  inb_S7x4x2x128x256_S1x1x1x128x256_2_0_1_0_0 : ∀ a, (![2, 0, 1, 0, 0] : Fin 5 → Nat) a + S1x1x1x128x256.size a ≤ S7x4x2x128x256.size a
  wordsbf16_S7x4x2x128x256_S1x1x1x128x256_2_0_1_0_0 : (Rect.unit (s := S7x4x2x128x256) ![2, 0, 1, 0, 0] S1x1x1x128x256.size inb_S7x4x2x128x256_S1x1x1x128x256_2_0_1_0_0).WholeWords (EltTy.packing .bf16)
  inb_S7x4x2_S1x1x1_2_1_1 : ∀ a, (![2, 1, 1] : Fin 3 → Nat) a + S1x1x1.size a ≤ S7x4x2.size a
  inb_S7x4x2x128x256_S1x1x1x128x256_2_1_1_0_0 : ∀ a, (![2, 1, 1, 0, 0] : Fin 5 → Nat) a + S1x1x1x128x256.size a ≤ S7x4x2x128x256.size a
  wordsbf16_S7x4x2x128x256_S1x1x1x128x256_2_1_1_0_0 : (Rect.unit (s := S7x4x2x128x256) ![2, 1, 1, 0, 0] S1x1x1x128x256.size inb_S7x4x2x128x256_S1x1x1x128x256_2_1_1_0_0).WholeWords (EltTy.packing .bf16)
  inb_S7x4x2_S1x1x1_3_3_1 : ∀ a, (![3, 3, 1] : Fin 3 → Nat) a + S1x1x1.size a ≤ S7x4x2.size a
  inb_S7x4x2x128x256_S1x1x1x128x256_3_3_1_0_0 : ∀ a, (![3, 3, 1, 0, 0] : Fin 5 → Nat) a + S1x1x1x128x256.size a ≤ S7x4x2x128x256.size a
  wordsbf16_S7x4x2x128x256_S1x1x1x128x256_3_3_1_0_0 : (Rect.unit (s := S7x4x2x128x256) ![3, 3, 1, 0, 0] S1x1x1x128x256.size inb_S7x4x2x128x256_S1x1x1x128x256_3_3_1_0_0).WholeWords (EltTy.packing .bf16)
  inb_S7x4x2_S1x1x1_2_2_0 : ∀ a, (![2, 2, 0] : Fin 3 → Nat) a + S1x1x1.size a ≤ S7x4x2.size a
  inb_S7x4x2x128x256_S1x1x1x128x256_2_2_0_0_0 : ∀ a, (![2, 2, 0, 0, 0] : Fin 5 → Nat) a + S1x1x1x128x256.size a ≤ S7x4x2x128x256.size a
  wordsbf16_S7x4x2x128x256_S1x1x1x128x256_2_2_0_0_0 : (Rect.unit (s := S7x4x2x128x256) ![2, 2, 0, 0, 0] S1x1x1x128x256.size inb_S7x4x2x128x256_S1x1x1x128x256_2_2_0_0_0).WholeWords (EltTy.packing .bf16)
  inb_S7x4x2_S1x1x1_2_2_1 : ∀ a, (![2, 2, 1] : Fin 3 → Nat) a + S1x1x1.size a ≤ S7x4x2.size a
  inb_S7x4x2x128x256_S1x1x1x128x256_2_2_1_0_0 : ∀ a, (![2, 2, 1, 0, 0] : Fin 5 → Nat) a + S1x1x1x128x256.size a ≤ S7x4x2x128x256.size a
  wordsbf16_S7x4x2x128x256_S1x1x1x128x256_2_2_1_0_0 : (Rect.unit (s := S7x4x2x128x256) ![2, 2, 1, 0, 0] S1x1x1x128x256.size inb_S7x4x2x128x256_S1x1x1x128x256_2_2_1_0_0).WholeWords (EltTy.packing .bf16)
  inb_S7x4x2_S1x1x1_3_0_0 : ∀ a, (![3, 0, 0] : Fin 3 → Nat) a + S1x1x1.size a ≤ S7x4x2.size a
  inb_S7x4x2x128x256_S1x1x1x128x256_3_0_0_0_0 : ∀ a, (![3, 0, 0, 0, 0] : Fin 5 → Nat) a + S1x1x1x128x256.size a ≤ S7x4x2x128x256.size a
  wordsbf16_S7x4x2x128x256_S1x1x1x128x256_3_0_0_0_0 : (Rect.unit (s := S7x4x2x128x256) ![3, 0, 0, 0, 0] S1x1x1x128x256.size inb_S7x4x2x128x256_S1x1x1x128x256_3_0_0_0_0).WholeWords (EltTy.packing .bf16)
  inb_S7x4x2_S1x1x1_3_1_0 : ∀ a, (![3, 1, 0] : Fin 3 → Nat) a + S1x1x1.size a ≤ S7x4x2.size a
  inb_S7x4x2x128x256_S1x1x1x128x256_3_1_0_0_0 : ∀ a, (![3, 1, 0, 0, 0] : Fin 5 → Nat) a + S1x1x1x128x256.size a ≤ S7x4x2x128x256.size a
  wordsbf16_S7x4x2x128x256_S1x1x1x128x256_3_1_0_0_0 : (Rect.unit (s := S7x4x2x128x256) ![3, 1, 0, 0, 0] S1x1x1x128x256.size inb_S7x4x2x128x256_S1x1x1x128x256_3_1_0_0_0).WholeWords (EltTy.packing .bf16)
  inb_S7x4x2_S1x1x1_3_0_1 : ∀ a, (![3, 0, 1] : Fin 3 → Nat) a + S1x1x1.size a ≤ S7x4x2.size a
  inb_S7x4x2x128x256_S1x1x1x128x256_3_0_1_0_0 : ∀ a, (![3, 0, 1, 0, 0] : Fin 5 → Nat) a + S1x1x1x128x256.size a ≤ S7x4x2x128x256.size a
  wordsbf16_S7x4x2x128x256_S1x1x1x128x256_3_0_1_0_0 : (Rect.unit (s := S7x4x2x128x256) ![3, 0, 1, 0, 0] S1x1x1x128x256.size inb_S7x4x2x128x256_S1x1x1x128x256_3_0_1_0_0).WholeWords (EltTy.packing .bf16)
  inb_S7x4x2_S1x1x1_3_1_1 : ∀ a, (![3, 1, 1] : Fin 3 → Nat) a + S1x1x1.size a ≤ S7x4x2.size a
  inb_S7x4x2x128x256_S1x1x1x128x256_3_1_1_0_0 : ∀ a, (![3, 1, 1, 0, 0] : Fin 5 → Nat) a + S1x1x1x128x256.size a ≤ S7x4x2x128x256.size a
  wordsbf16_S7x4x2x128x256_S1x1x1x128x256_3_1_1_0_0 : (Rect.unit (s := S7x4x2x128x256) ![3, 1, 1, 0, 0] S1x1x1x128x256.size inb_S7x4x2x128x256_S1x1x1x128x256_3_1_1_0_0).WholeWords (EltTy.packing .bf16)
  inb_S7x4x2_S1x1x1_4_0_0 : ∀ a, (![4, 0, 0] : Fin 3 → Nat) a + S1x1x1.size a ≤ S7x4x2.size a
  inb_S7x4x2x128x256_S1x1x1x128x256_4_0_0_0_0 : ∀ a, (![4, 0, 0, 0, 0] : Fin 5 → Nat) a + S1x1x1x128x256.size a ≤ S7x4x2x128x256.size a
  wordsbf16_S7x4x2x128x256_S1x1x1x128x256_4_0_0_0_0 : (Rect.unit (s := S7x4x2x128x256) ![4, 0, 0, 0, 0] S1x1x1x128x256.size inb_S7x4x2x128x256_S1x1x1x128x256_4_0_0_0_0).WholeWords (EltTy.packing .bf16)
  inb_S7x4x2_S1x1x1_4_1_0 : ∀ a, (![4, 1, 0] : Fin 3 → Nat) a + S1x1x1.size a ≤ S7x4x2.size a
  inb_S7x4x2x128x256_S1x1x1x128x256_4_1_0_0_0 : ∀ a, (![4, 1, 0, 0, 0] : Fin 5 → Nat) a + S1x1x1x128x256.size a ≤ S7x4x2x128x256.size a
  wordsbf16_S7x4x2x128x256_S1x1x1x128x256_4_1_0_0_0 : (Rect.unit (s := S7x4x2x128x256) ![4, 1, 0, 0, 0] S1x1x1x128x256.size inb_S7x4x2x128x256_S1x1x1x128x256_4_1_0_0_0).WholeWords (EltTy.packing .bf16)
  inb_S7x4x2_S1x1x1_5_3_0 : ∀ a, (![5, 3, 0] : Fin 3 → Nat) a + S1x1x1.size a ≤ S7x4x2.size a
  inb_S7x4x2x128x256_S1x1x1x128x256_5_3_0_0_0 : ∀ a, (![5, 3, 0, 0, 0] : Fin 5 → Nat) a + S1x1x1x128x256.size a ≤ S7x4x2x128x256.size a
  wordsbf16_S7x4x2x128x256_S1x1x1x128x256_5_3_0_0_0 : (Rect.unit (s := S7x4x2x128x256) ![5, 3, 0, 0, 0] S1x1x1x128x256.size inb_S7x4x2x128x256_S1x1x1x128x256_5_3_0_0_0).WholeWords (EltTy.packing .bf16)
  inb_S7x4x2_S1x1x1_4_0_1 : ∀ a, (![4, 0, 1] : Fin 3 → Nat) a + S1x1x1.size a ≤ S7x4x2.size a
  inb_S7x4x2x128x256_S1x1x1x128x256_4_0_1_0_0 : ∀ a, (![4, 0, 1, 0, 0] : Fin 5 → Nat) a + S1x1x1x128x256.size a ≤ S7x4x2x128x256.size a
  wordsbf16_S7x4x2x128x256_S1x1x1x128x256_4_0_1_0_0 : (Rect.unit (s := S7x4x2x128x256) ![4, 0, 1, 0, 0] S1x1x1x128x256.size inb_S7x4x2x128x256_S1x1x1x128x256_4_0_1_0_0).WholeWords (EltTy.packing .bf16)
  inb_S7x4x2_S1x1x1_4_1_1 : ∀ a, (![4, 1, 1] : Fin 3 → Nat) a + S1x1x1.size a ≤ S7x4x2.size a
  inb_S7x4x2x128x256_S1x1x1x128x256_4_1_1_0_0 : ∀ a, (![4, 1, 1, 0, 0] : Fin 5 → Nat) a + S1x1x1x128x256.size a ≤ S7x4x2x128x256.size a
  wordsbf16_S7x4x2x128x256_S1x1x1x128x256_4_1_1_0_0 : (Rect.unit (s := S7x4x2x128x256) ![4, 1, 1, 0, 0] S1x1x1x128x256.size inb_S7x4x2x128x256_S1x1x1x128x256_4_1_1_0_0).WholeWords (EltTy.packing .bf16)
  inb_S7x4x2_S1x1x1_5_3_1 : ∀ a, (![5, 3, 1] : Fin 3 → Nat) a + S1x1x1.size a ≤ S7x4x2.size a
  inb_S7x4x2x128x256_S1x1x1x128x256_5_3_1_0_0 : ∀ a, (![5, 3, 1, 0, 0] : Fin 5 → Nat) a + S1x1x1x128x256.size a ≤ S7x4x2x128x256.size a
  wordsbf16_S7x4x2x128x256_S1x1x1x128x256_5_3_1_0_0 : (Rect.unit (s := S7x4x2x128x256) ![5, 3, 1, 0, 0] S1x1x1x128x256.size inb_S7x4x2x128x256_S1x1x1x128x256_5_3_1_0_0).WholeWords (EltTy.packing .bf16)
  inb_S7x4x2_S1x1x1_4_2_0 : ∀ a, (![4, 2, 0] : Fin 3 → Nat) a + S1x1x1.size a ≤ S7x4x2.size a
  inb_S7x4x2x128x256_S1x1x1x128x256_4_2_0_0_0 : ∀ a, (![4, 2, 0, 0, 0] : Fin 5 → Nat) a + S1x1x1x128x256.size a ≤ S7x4x2x128x256.size a
  wordsbf16_S7x4x2x128x256_S1x1x1x128x256_4_2_0_0_0 : (Rect.unit (s := S7x4x2x128x256) ![4, 2, 0, 0, 0] S1x1x1x128x256.size inb_S7x4x2x128x256_S1x1x1x128x256_4_2_0_0_0).WholeWords (EltTy.packing .bf16)
  inb_S7x4x2_S1x1x1_4_2_1 : ∀ a, (![4, 2, 1] : Fin 3 → Nat) a + S1x1x1.size a ≤ S7x4x2.size a
  inb_S7x4x2x128x256_S1x1x1x128x256_4_2_1_0_0 : ∀ a, (![4, 2, 1, 0, 0] : Fin 5 → Nat) a + S1x1x1x128x256.size a ≤ S7x4x2x128x256.size a
  wordsbf16_S7x4x2x128x256_S1x1x1x128x256_4_2_1_0_0 : (Rect.unit (s := S7x4x2x128x256) ![4, 2, 1, 0, 0] S1x1x1x128x256.size inb_S7x4x2x128x256_S1x1x1x128x256_4_2_1_0_0).WholeWords (EltTy.packing .bf16)
  inb_S7x4x2_S1x1x1_5_0_0 : ∀ a, (![5, 0, 0] : Fin 3 → Nat) a + S1x1x1.size a ≤ S7x4x2.size a
  inb_S7x4x2x128x256_S1x1x1x128x256_5_0_0_0_0 : ∀ a, (![5, 0, 0, 0, 0] : Fin 5 → Nat) a + S1x1x1x128x256.size a ≤ S7x4x2x128x256.size a
  wordsbf16_S7x4x2x128x256_S1x1x1x128x256_5_0_0_0_0 : (Rect.unit (s := S7x4x2x128x256) ![5, 0, 0, 0, 0] S1x1x1x128x256.size inb_S7x4x2x128x256_S1x1x1x128x256_5_0_0_0_0).WholeWords (EltTy.packing .bf16)
  inb_S7x4x2_S1x1x1_5_1_0 : ∀ a, (![5, 1, 0] : Fin 3 → Nat) a + S1x1x1.size a ≤ S7x4x2.size a
  inb_S7x4x2x128x256_S1x1x1x128x256_5_1_0_0_0 : ∀ a, (![5, 1, 0, 0, 0] : Fin 5 → Nat) a + S1x1x1x128x256.size a ≤ S7x4x2x128x256.size a
  wordsbf16_S7x4x2x128x256_S1x1x1x128x256_5_1_0_0_0 : (Rect.unit (s := S7x4x2x128x256) ![5, 1, 0, 0, 0] S1x1x1x128x256.size inb_S7x4x2x128x256_S1x1x1x128x256_5_1_0_0_0).WholeWords (EltTy.packing .bf16)
  inb_S7x4x2_S1x1x1_5_0_1 : ∀ a, (![5, 0, 1] : Fin 3 → Nat) a + S1x1x1.size a ≤ S7x4x2.size a
  inb_S7x4x2x128x256_S1x1x1x128x256_5_0_1_0_0 : ∀ a, (![5, 0, 1, 0, 0] : Fin 5 → Nat) a + S1x1x1x128x256.size a ≤ S7x4x2x128x256.size a
  wordsbf16_S7x4x2x128x256_S1x1x1x128x256_5_0_1_0_0 : (Rect.unit (s := S7x4x2x128x256) ![5, 0, 1, 0, 0] S1x1x1x128x256.size inb_S7x4x2x128x256_S1x1x1x128x256_5_0_1_0_0).WholeWords (EltTy.packing .bf16)
  inb_S7x4x2_S1x1x1_5_1_1 : ∀ a, (![5, 1, 1] : Fin 3 → Nat) a + S1x1x1.size a ≤ S7x4x2.size a
  inb_S7x4x2x128x256_S1x1x1x128x256_5_1_1_0_0 : ∀ a, (![5, 1, 1, 0, 0] : Fin 5 → Nat) a + S1x1x1x128x256.size a ≤ S7x4x2x128x256.size a
  wordsbf16_S7x4x2x128x256_S1x1x1x128x256_5_1_1_0_0 : (Rect.unit (s := S7x4x2x128x256) ![5, 1, 1, 0, 0] S1x1x1x128x256.size inb_S7x4x2x128x256_S1x1x1x128x256_5_1_1_0_0).WholeWords (EltTy.packing .bf16)
  inb_S7x4x2_S1x1x1_6_0_0 : ∀ a, (![6, 0, 0] : Fin 3 → Nat) a + S1x1x1.size a ≤ S7x4x2.size a
  inb_S7x4x2x128x256_S1x1x1x128x256_6_0_0_0_0 : ∀ a, (![6, 0, 0, 0, 0] : Fin 5 → Nat) a + S1x1x1x128x256.size a ≤ S7x4x2x128x256.size a
  wordsbf16_S7x4x2x128x256_S1x1x1x128x256_6_0_0_0_0 : (Rect.unit (s := S7x4x2x128x256) ![6, 0, 0, 0, 0] S1x1x1x128x256.size inb_S7x4x2x128x256_S1x1x1x128x256_6_0_0_0_0).WholeWords (EltTy.packing .bf16)
  inb_S7x4x2_S1x1x1_6_1_0 : ∀ a, (![6, 1, 0] : Fin 3 → Nat) a + S1x1x1.size a ≤ S7x4x2.size a
  inb_S7x4x2x128x256_S1x1x1x128x256_6_1_0_0_0 : ∀ a, (![6, 1, 0, 0, 0] : Fin 5 → Nat) a + S1x1x1x128x256.size a ≤ S7x4x2x128x256.size a
  wordsbf16_S7x4x2x128x256_S1x1x1x128x256_6_1_0_0_0 : (Rect.unit (s := S7x4x2x128x256) ![6, 1, 0, 0, 0] S1x1x1x128x256.size inb_S7x4x2x128x256_S1x1x1x128x256_6_1_0_0_0).WholeWords (EltTy.packing .bf16)
  inb_S7x4x2_S1x1x1_6_0_1 : ∀ a, (![6, 0, 1] : Fin 3 → Nat) a + S1x1x1.size a ≤ S7x4x2.size a
  inb_S7x4x2x128x256_S1x1x1x128x256_6_0_1_0_0 : ∀ a, (![6, 0, 1, 0, 0] : Fin 5 → Nat) a + S1x1x1x128x256.size a ≤ S7x4x2x128x256.size a
  wordsbf16_S7x4x2x128x256_S1x1x1x128x256_6_0_1_0_0 : (Rect.unit (s := S7x4x2x128x256) ![6, 0, 1, 0, 0] S1x1x1x128x256.size inb_S7x4x2x128x256_S1x1x1x128x256_6_0_1_0_0).WholeWords (EltTy.packing .bf16)
  inb_S7x4x2_S1x1x1_6_1_1 : ∀ a, (![6, 1, 1] : Fin 3 → Nat) a + S1x1x1.size a ≤ S7x4x2.size a
  inb_S7x4x2x128x256_S1x1x1x128x256_6_1_1_0_0 : ∀ a, (![6, 1, 1, 0, 0] : Fin 5 → Nat) a + S1x1x1x128x256.size a ≤ S7x4x2x128x256.size a
  wordsbf16_S7x4x2x128x256_S1x1x1x128x256_6_1_1_0_0 : (Rect.unit (s := S7x4x2x128x256) ![6, 1, 1, 0, 0] S1x1x1x128x256.size inb_S7x4x2x128x256_S1x1x1x128x256_6_1_1_0_0).WholeWords (EltTy.packing .bf16)
  inb_S7x4x2_S1x1x1_6_2_0 : ∀ a, (![6, 2, 0] : Fin 3 → Nat) a + S1x1x1.size a ≤ S7x4x2.size a
  inb_S7x4x2x128x256_S1x1x1x128x256_6_2_0_0_0 : ∀ a, (![6, 2, 0, 0, 0] : Fin 5 → Nat) a + S1x1x1x128x256.size a ≤ S7x4x2x128x256.size a
  wordsbf16_S7x4x2x128x256_S1x1x1x128x256_6_2_0_0_0 : (Rect.unit (s := S7x4x2x128x256) ![6, 2, 0, 0, 0] S1x1x1x128x256.size inb_S7x4x2x128x256_S1x1x1x128x256_6_2_0_0_0).WholeWords (EltTy.packing .bf16)
  inb_S7x4x2_S1x1x1_6_2_1 : ∀ a, (![6, 2, 1] : Fin 3 → Nat) a + S1x1x1.size a ≤ S7x4x2.size a
  inb_S7x4x2x128x256_S1x1x1x128x256_6_2_1_0_0 : ∀ a, (![6, 2, 1, 0, 0] : Fin 5 → Nat) a + S1x1x1x128x256.size a ≤ S7x4x2x128x256.size a
  wordsbf16_S7x4x2x128x256_S1x1x1x128x256_6_2_1_0_0 : (Rect.unit (s := S7x4x2x128x256) ![6, 2, 1, 0, 0] S1x1x1x128x256.size inb_S7x4x2x128x256_S1x1x1x128x256_6_2_1_0_0).WholeWords (EltTy.packing .bf16)
  dot_S128x256_S256x512_S128x512_1_0_0_1_n_n_wf : DotDims.WF S128x256 S256x512 S128x512 [1] [0] [0] [1] [] []
  dot_S128x512_S512x256_S128x256_1_0_0_1_n_n_wf : DotDims.WF S128x512 S512x256 S128x256 [1] [0] [0] [1] [] []
  hcc0_scratch8 : 2 + S7x4x2.numel ≤ 120
  hcc0_scratch9 : 58 + S7x4x2.numel ≤ 120
  hcc0_scratch10 : 114 + S6.numel ≤ 120
  k0_dev1_lt : ∀ d24 : Dev nD, (k0_dev1 d24) < nD
  k0_dev2_lt : ∀ d24 : Dev nD, (k0_dev2 d24) < nD
  k0_dev3_lt : ∀ d24 : Dev nD, (k0_dev3 d24) < nD
  k0_dev4_lt : ∀ d24 : Dev nD, (k0_dev4 d24) < nD
  k0_dev5_lt : ∀ d24 : Dev nD, (k0_dev5 d24) < nD
  k0_dev6_lt : ∀ d24 : Dev nD, (k0_dev6 d24) < nD
  k0_dev7_lt : ∀ d24 : Dev nD, (k0_dev7 d24) < nD
  k0_dev8_lt : ∀ d24 : Dev nD, (k0_dev8 d24) < nD
  k0_dev9_lt : ∀ d24 : Dev nD, (k0_dev9 d24) < nD
  k0_dev10_lt : ∀ d24 : Dev nD, (k0_dev10 d24) < nD
  k0_dev11_lt : ∀ d24 : Dev nD, (k0_dev11 d24) < nD
  k0_dev12_lt : ∀ d24 : Dev nD, (k0_dev12 d24) < nD
  k0_dev13_lt : ∀ d24 : Dev nD, (k0_dev13 d24) < nD
  k0_dev14_lt : ∀ d24 : Dev nD, (k0_dev14 d24) < nD
  k0_dev15_lt : ∀ d24 : Dev nD, (k0_dev15 d24) < nD
  k0_dev16_lt : ∀ d24 : Dev nD, (k0_dev16 d24) < nD
  k0_dev17_lt : ∀ d24 : Dev nD, (k0_dev17 d24) < nD
  k0_dev18_lt : ∀ d24 : Dev nD, (k0_dev18 d24) < nD
  k0_dev19_lt : ∀ d24 : Dev nD, (k0_dev19 d24) < nD
  k0_dev20_lt : ∀ d24 : Dev nD, (k0_dev20 d24) < nD
  k0_dev21_lt : ∀ d24 : Dev nD, (k0_dev21 d24) < nD
  k0_dev22_lt : ∀ d24 : Dev nD, (k0_dev22 d24) < nD
  k0_dev23_lt : ∀ d24 : Dev nD, (k0_dev23 d24) < nD
  k0_dev24_lt : ∀ d24 : Dev nD, (k0_dev24 d24) < nD
  k0_dev25_lt : ∀ d24 : Dev nD, (k0_dev25 d24) < nD
  k0_dev26_lt : ∀ d24 : Dev nD, (k0_dev26 d24) < nD
  k0_dev27_lt : ∀ d24 : Dev nD, (k0_dev27 d24) < nD
  k0_dev28_lt : ∀ d24 : Dev nD, (k0_dev28 d24) < nD
  k0_dev29_lt : ∀ d24 : Dev nD, (k0_dev29 d24) < nD
  k0_dev30_lt : ∀ d24 : Dev nD, (k0_dev30 d24) < nD
  k0_dev31_lt : ∀ d24 : Dev nD, (k0_dev31 d24) < nD
  k0_dev32_lt : ∀ d24 : Dev nD, (k0_dev32 d24) < nD
  k0_dev33_lt : ∀ d24 : Dev nD, (k0_dev33 d24) < nD
  k0_dev34_lt : ∀ d24 : Dev nD, (k0_dev34 d24) < nD
  k0_dev35_lt : ∀ d24 : Dev nD, (k0_dev35 d24) < nD
  k0_dev36_lt : ∀ d24 : Dev nD, (k0_dev36 d24) < nD
  k0_dev37_lt : ∀ d24 : Dev nD, (k0_dev37 d24) < nD
  k0_dev38_lt : ∀ d24 : Dev nD, (k0_dev38 d24) < nD
  k0_dev39_lt : ∀ d24 : Dev nD, (k0_dev39 d24) < nD
  k0_dev40_lt : ∀ d24 : Dev nD, (k0_dev40 d24) < nD
  k0_off1_inb : ∀ d24 : Dev nD, ∀ (r : Fin 2), ∀ a, (k0_off1 d24 (BitVec.ofNat 32 (128 * r.val))) a + S128x256.size a ≤ S1024x256.size a
  k0_dev41_lt : ∀ d24 : Dev nD, (k0_dev41 d24) < nD
  k0_dev42_lt : ∀ d24 : Dev nD, (k0_dev42 d24) < nD
  k0_dev43_lt : ∀ d24 : Dev nD, (k0_dev43 d24) < nD
  k0_off2_inb : ∀ d24 : Dev nD, ∀ (r : Fin 2), ∀ a, (k0_off2 d24 (BitVec.ofNat 32 (128 * r.val))) a + S128x256.size a ≤ S1024x256.size a
  k0_dev44_lt : ∀ d24 : Dev nD, (k0_dev44 d24) < nD
  k0_off3_inb : ∀ d24 : Dev nD, ∀ (r : Fin 2), ∀ a, (k0_off3 d24 (BitVec.ofNat 32 (128 * r.val))) a + S128x256.size a ≤ S1024x256.size a
  k0_off4_inb : ∀ d24 : Dev nD, ∀ (r : Fin 2), ∀ a, (k0_off4 d24 (BitVec.ofNat 32 (128 * r.val))) a + S128x256.size a ≤ S1024x256.size a
  hstage0_0 : ∀ j, (stage0_0 j).IsWhole
  hstage0_1 : ∀ j, (stage0_1 j).IsWhole

variable [Facts₀]

abbrev cc0_scratch8 : DmaSems sig S7x4x2 := SemArray.consecutive 2 S7x4x2 hcc0_scratch8
abbrev cc0_scratch9 : DmaSems sig S7x4x2 := SemArray.consecutive 58 S7x4x2 hcc0_scratch9
abbrev cc0_scratch10 : DmaSems sig S6 := SemArray.consecutive 114 S6 hcc0_scratch10
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x256 : Shape := ⟨2, ![1024, 256]⟩
abbrev S256x2048 : Shape := ⟨2, ![256, 2048]⟩
abbrev S2048x256 : Shape := ⟨2, ![2048, 256]⟩
abbrev S1024x2048 : Shape := ⟨2, ![1024, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x2048, .f32⟩
  | .hbm, ⟨2, _⟩ => ⟨S2048x256, .f32⟩
  | .hbm, ⟨3, _⟩ => ⟨S256x2048, .f32⟩
  | .hbm, ⟨4, _⟩ => ⟨S2048x256, .f32⟩
  | .hbm, ⟨5, _⟩ => ⟨S256x2048, .f32⟩
  | .hbm, ⟨6, _⟩ => ⟨S2048x256, .f32⟩
  | .hbm, ⟨7, _⟩ => ⟨S1024x2048, .f32⟩
  | .hbm, ⟨8, _⟩ => ⟨S_, .f32⟩
  | .hbm, ⟨9, _⟩ => ⟨S1024x2048, .f32⟩
  | .hbm, ⟨10, _⟩ => ⟨S1024x2048, .f32⟩
  | .hbm, ⟨11, _⟩ => ⟨S1024x256, .f32⟩
  | .hbm, ⟨12, _⟩ => ⟨S1024x2048, .f32⟩
  | .hbm, ⟨13, _⟩ => ⟨S_, .f32⟩
  | .hbm, ⟨14, _⟩ => ⟨S1024x2048, .f32⟩
  | .hbm, ⟨15, _⟩ => ⟨S1024x2048, .f32⟩
  | .hbm, ⟨16, _⟩ => ⟨S1024x256, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S1024x2048 : S_.BroadcastsInDim S1024x2048 (![] : Fin 0 → Fin S1024x2048.rank)
  dot_S1024x256_S256x2048_S1024x2048_1_0_0_1_n_n_wf : DotDims.WF S1024x256 S256x2048 S1024x2048 [1] [0] [0] [1] [] []
  dot_S1024x2048_S2048x256_S1024x256_1_0_0_1_n_n_wf : DotDims.WF S1024x2048 S2048x256 S1024x256 [1] [0] [0] [1] [] []

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

class Facts : Prop extends Facts₀ where

variable [Facts]
-- ==== Proof.Spec.lean ====
import proofs.«900985_g7700000000000986_dist_mlpseq_tp1d_bs_rep_b256_d256_h512_v7x_i4_f32_1_alg».proof.KernelIdeal
import Idealize.ShloMosaic.Lib.ValueIdx

noncomputable section

namespace Cert.KernelIdeal.Spec

open Idealize.ShloMosaic Cert.KernelIdeal

variable {F : FTy → Type} [FloatOps F] [Facts]
open Facts₀ Facts

def nxt (c : Dev nD) : Dev nD := ⟨(c.val + 1) % 4, Nat.mod_lt _ (by decide)⟩
def prv (c : Dev nD) : Dev nD := ⟨(c.val + 3) % 4, Nat.mod_lt _ (by decide)⟩
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide

def part (x16 : FVec F S128x256 .bf16) (wi16 : FVec F S256x512 .bf16) (wo16 : FVec F S512x256 .bf16) : FVec F S128x256 .f32 :=
  matmul dot_S128x512_S512x256_S128x256_1_0_0_1_n_n none
    (truncf .bf16 (maximumf (matmul dot_S128x256_S256x512_S128x512_1_0_0_1_n_n none x16 wi16 (constant S128x512 .f32 0x00000000#32))
      (broadcast S128x512 (Scalar.ofBits .f32 0x00000000#32))) bitsLt_bf16_f32)
    wo16 (constant S128x256 .f32 0x00000000#32)

def rowsOf (xb : Vec F S256x256 .f32) (c : Fin 2) : Vec F S128x256 .f32 :=
  fun i => xb (ValueIdx.ix2 (⟨128 * c.val + (i 0).val, by have h : (i 0).val < 128 := (i 0).isLt; have := c.isLt; omega⟩ : Fin 256) (⟨(i 1).val, (i 1).isLt⟩ : Fin 256))

section Flow

variable (xb : Dev nD → Vec F S256x256 .f32) (wi : Fin 3 → Dev nD → Vec F S256x512 .f32) (wo : Fin 3 → Dev nD → Vec F S512x256 .f32)

def wi16 (l : Fin 3) (d : Dev nD) : FVec F S256x512 .bf16 := truncf .bf16 (wi l d) bitsLt_bf16_f32
def wo16 (l : Fin 3) (d : Dev nD) : FVec F S512x256 .bf16 := truncf .bf16 (wo l d) bitsLt_bf16_f32

def P (l : Fin 3) (d : Dev nD) (v : FVec F S128x256 .bf16) : FVec F S128x256 .f32 := part v (wi16 wi l d) (wo16 wo l d)

def lw (l : ℕ) : Fin 3 := ⟨l % 3, Nat.mod_lt _ (by decide)⟩

def sumOf (l : Fin 3) (y : Dev nD → Fin 2 → FVec F S128x256 .bf16) (d : Dev nD) (c : Fin 2) : FVec F S128x256 .f32 :=
  addf (addf (P wi wo l d (y (opp d) c))
      (extf .f32 (truncf .bf16 (addf (P wi wo l (prv d) (y (opp d) c))
        (extf .f32 (truncf .bf16 (P wi wo l (opp d) (y (opp d) c)) bitsLt_bf16_f32) bitsLt_bf16_f32)) bitsLt_bf16_f32) bitsLt_bf16_f32))
    (extf .f32 (truncf .bf16 (P wi wo l (nxt d) (y (opp d) c)) bitsLt_bf16_f32) bitsLt_bf16_f32)

def Y16 : (l : ℕ) → Dev nD → Fin 2 → FVec F S128x256 .bf16
  | 0, d, c => truncf .bf16 (rowsOf (xb d) c) bitsLt_bf16_f32
  | l + 1, d, c => truncf .bf16 (sumOf wi wo (lw l) (Y16 l) d c) bitsLt_bf16_f32

def Ysum (l : ℕ) (d : Dev nD) (c : Fin 2) : FVec F S128x256 .f32 := sumOf wi wo (lw l) (Y16 xb wi wo l) d c

def slotVal (p s : ℕ) (d : Dev nD) (c : Fin 2) : FVec F S128x256 .bf16 :=
  if p % 2 = 0 then
    (if s = 0 then Y16 xb wi wo (p / 2) (prv d) c else if s = 1 then Y16 xb wi wo (p / 2) (nxt d) c else Y16 xb wi wo (p / 2) (opp d) c)
  else
    (if s = 3 then truncf .bf16 (P wi wo (lw (p / 2)) (prv d) (Y16 xb wi wo (p / 2) (prv d) c)) bitsLt_bf16_f32
     else if s = 0 then truncf .bf16 (addf (P wi wo (lw (p / 2)) (prv d) (Y16 xb wi wo (p / 2) (opp d) c))
        (extf .f32 (truncf .bf16 (P wi wo (lw (p / 2)) (opp d) (Y16 xb wi wo (p / 2) (opp d) c)) bitsLt_bf16_f32) bitsLt_bf16_f32)) bitsLt_bf16_f32
     else truncf .bf16 (P wi wo (lw (p / 2)) (nxt d) (Y16 xb wi wo (p / 2) (opp d) c)) bitsLt_bf16_f32)

def outRows (d : Dev nD) (b : Dev nD) (c : Fin 2) : FVec F S128x256 .f32 :=
  if b = opp d then Ysum xb wi wo 2 d c else extf .f32 (Y16 xb wi wo 3 (opp b) c) bitsLt_bf16_f32

def OUT (d : Dev nD) : Vec F S1024x256 .f32 := fun i =>
  outRows xb wi wo d (⟨(i 0).val / 256, by have h : (i 0).val < 1024 := (i 0).isLt; show _ < 4; omega⟩ : Dev nD)
    (⟨(i 0).val % 256 / 128, by omega⟩ : Fin 2)
    (ValueIdx.ix2 (⟨(i 0).val % 128, Nat.mod_lt _ (by decide)⟩ : Fin 128) (⟨(i 1).val, (i 1).isLt⟩ : Fin 256))

end Flow

end Cert.KernelIdeal.Spec

end
-- ==== Proof.Sched.lean ====
import proofs.«900985_g7700000000000986_dist_mlpseq_tp1d_bs_rep_b256_d256_h512_v7x_i4_f32_1_alg».proof.Proof.Spec
import proofs.«900985_g7700000000000986_dist_mlpseq_tp1d_bs_rep_b256_d256_h512_v7x_i4_f32_1_alg».proof.Proof.Gen.KernelIdeal.Launch
import Idealize.ShloMosaic.Lib.Tactic

noncomputable section

namespace Cert.KernelIdeal.Ring

open Cert.KernelIdeal.Gen Cert.KernelIdeal.Spec

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) 𝕄 := embL
def ER : Emb UB 𝕄 := (Emb.inl : Emb UB (UB × Counters)).trans embR
instance ER_landsIn : ER.LandsIn (upEmb : UEmb _ 𝕄) := by unfold ER embR; infer_instance

abbrev K : Type := Fin 7 × Fin 4 × Fin 2

theorem inb3 (k : K) : ∀ a, (![k.1.val, k.2.1.val, k.2.2.val] : Fin 3 → ℕ) a + S1x1x1.size a ≤ S7x4x2.size a := by
  intro a; fin_cases a <;> simp [Shape.size] <;> omega
theorem inb5 (k : K) : ∀ a, (![k.1.val, k.2.1.val, k.2.2.val, 0, 0] : Fin 5 → ℕ) a + S1x1x1x128x256.size a ≤ S7x4x2x128x256.size a := by
  intro a; fin_cases a <;> simp [Shape.size] <;> omega

abbrev barS : Sem sig := (SemArray.scalar (sig.barrier 0 rfl) : Sems sig S_).sem
abbrev sendS (k : K) : DmaSem sig :=
  ((cc0_scratch8.slice (Rect.unit (s := S7x4x2) ![k.1.val, k.2.1.val, k.2.2.val] S1x1x1.size (inb3 k))).squeeze S_ squeezes_S1x1x1_S_).sem
abbrev recvS (k : K) : DmaSem sig :=
  ((cc0_scratch9.slice (Rect.unit (s := S7x4x2) ![k.1.val, k.2.1.val, k.2.2.val] S1x1x1.size (inb3 k))).squeeze S_ squeezes_S1x1x1_S_).sem

abbrev slotM (k : K) : Memref sig .tc .vmem S128x256 .bf16 :=
  ((Memref.whole cc0_scratch3 : Memref sig .tc .vmem S7x4x2x128x256 .bf16).slice
    (Rect.unit (s := S7x4x2x128x256) ![k.1.val, k.2.1.val, k.2.2.val, 0, 0] S1x1x1x128x256.size (inb5 k)) (fun _ => rfl)).squeeze S128x256 squeezes_S1x1x1x128x256_S128x256

abbrev barCell (c : Dev nD) : GSem nD τ sig := ((c : Thread nD τ), .reg barS)
abbrev sendCell (c : Dev nD) (k : K) : GSem nD τ sig := ((c : Thread nD τ), .dma (sendS k))
abbrev recvCell (c : Dev nD) (k : K) : GSem nD τ sig := ((c : Thread nD τ), .dma (recvS k))

theorem sendS_val : ∀ k : K, (sendS k).val = 2 + (8 * k.1.val + 2 * k.2.1.val + k.2.2.val) := by decide +kernel
theorem recvS_val : ∀ k : K, (recvS k).val = 58 + (8 * k.1.val + 2 * k.2.1.val + k.2.2.val) := by decide +kernel

theorem inbY (c : Fin 2) : ∀ a, (![c.val, 0, 0] : Fin 3 → ℕ) a + S1x128x256.size a ≤ S2x128x256.size a := by
  intro a; fin_cases a <;> simp [Shape.size] <;> omega
theorem inbS (j : Fin 3) (c : Fin 2) : ∀ a, (![j.val, c.val, 0, 0] : Fin 4 → ℕ) a + S1x1x128x256.size a ≤ S3x2x128x256.size a := by
  intro a; fin_cases a <;> simp [Shape.size] <;> omega

abbrev ybufM (c : Fin 2) : Memref sig .tc .vmem S128x256 .bf16 :=
  ((Memref.whole cc0_scratch2 : Memref sig .tc .vmem S2x128x256 .bf16).slice
    (Rect.unit (s := S2x128x256) ![c.val, 0, 0] S1x128x256.size (inbY c)) (fun _ => rfl)).squeeze S128x256 squeezes_S1x128x256_S128x256
abbrev sbufM (j : Fin 3) (c : Fin 2) : Memref sig .tc .vmem S128x256 .bf16 :=
  ((Memref.whole cc0_scratch0 : Memref sig .tc .vmem S3x2x128x256 .bf16).slice
    (Rect.unit (s := S3x2x128x256) ![j.val, c.val, 0, 0] S1x1x128x256.size (inbS j c)) (fun _ => rfl)).squeeze S128x256 squeezes_S1x1x128x256_S128x256

abbrev isAg (k : K) : Prop := k.1.val % 2 = 0
def toNxt (k : K) : Bool := if isAg k then decide (k.2.1.val = 0) else decide (k.2.1.val = 3 ∨ k.2.1.val = 0)
def used (k : K) : Bool := if isAg k then decide (k.2.1.val ≠ 3) else decide (k.2.1.val ≠ 2)
def tgt (k : K) (d : Dev nD) : Dev nD := if toNxt k then nxt d else prv d
def frm (k : K) (d : Dev nD) : Dev nD := if toNxt k then prv d else nxt d
theorem frm_tgt (k : K) (d : Dev nD) : frm k (tgt k d) = d := by unfold frm tgt; split <;> simp [prv_nxt, nxt_prv]
theorem tgt_frm (k : K) (d : Dev nD) : tgt k (frm k d) = d := by unfold frm tgt; split <;> simp [prv_nxt, nxt_prv]

def srcM (k : K) : Memref sig .tc .vmem S128x256 .bf16 :=
  if isAg k then (if k.2.1.val = 2 then slotM (k.1, 1, k.2.2) else ybufM k.2.2)
  else (if k.2.1.val = 3 then sbufM 2 k.2.2 else if k.2.1.val = 0 then sbufM 0 k.2.2 else sbufM 1 k.2.2)
def qS (k : K) : PosShare TreeShare :=
  if isAg k then (if k.2.1.val = 0 then fullShare.left.left else if k.2.1.val = 1 then fullShare.left.right else fullShare.left) else fullShare

abbrev N : ℕ := (slotM (0, 0, 0)).view.dmaCredit
theorem N_pos : 0 < N := View.dmaCredit_pos _ (by decide)

variable (SV : K → Dev nD → S128x256.Idx → Elt F .bf16)

def slotPts (d : Dev nD) (k : K) (f : Buf (Elt F) ((slotM k).view.loc (d : Thread nD τ))) : sProp 𝕄 :=
  (slotM k).view.loc (d : Thread nD τ) ↦[(slotM k).view.set]{fullShare} f

def recvPay (d : Dev nD) (k : K) : sProp 𝕄 :=
  iprop(∃ f, slotPts d k ((slotM k).view.write (Elt F) f (SV k d) Finset.univ))
def sendPay (d : Dev nD) (k : K) : sProp 𝕄 :=
  iprop(∃ f, (srcM k).view.loc (d : Thread nD τ) ↦[(srcM k).view.set]{qS k} f)
def barT (c : Dev nD) : sProp 𝕄 :=
  bigSep (Finset.univ.filter fun k : K => used k = true ∧ toNxt k = true) fun k => iprop(∃ f, slotPts (nxt c) k f)
def barF (c : Dev nD) : sProp 𝕄 :=
  bigSep (Finset.univ.filter fun k : K => used k = true ∧ toNxt k = false) fun k => iprop(∃ f, slotPts (prv c) k f)

set_option synthInstance.maxHeartbeats 400000 in
instance slotPts_storable (d : Dev nD) (k : K) (f : Buf (Elt F) ((slotM k).view.loc (d : Thread nD τ))) :
    BI.Storable (upEmb : UEmb _ 𝕄) (slotPts d k f) := by unfold slotPts; infer_instance
instance recvPay_storable (d : Dev nD) (k : K) : BI.Storable (upEmb : UEmb _ 𝕄) (recvPay SV d k) := by unfold recvPay; infer_instance
set_option synthInstance.maxHeartbeats 400000 in
instance sendPay_storable (d : Dev nD) (k : K) : BI.Storable (upEmb : UEmb _ 𝕄) (sendPay d k) := by unfold sendPay; infer_instance
instance barT_storable (c : Dev nD) : BI.Storable (upEmb : UEmb _ 𝕄) (barT c) := by unfold barT; infer_instance
instance barF_storable (c : Dev nD) : BI.Storable (upEmb : UEmb _ 𝕄) (barF c) := by unfold barF; infer_instance

abbrev IsSendSem (q : DmaSem sig) : Prop := 2 ≤ q.val ∧ q.val < 58
abbrev IsRecvSem (q : DmaSem sig) : Prop := 58 ≤ q.val ∧ q.val < 114
def kOf (n : ℕ) : K := (⟨n / 8 % 7, Nat.mod_lt _ (by decide)⟩, ⟨n % 8 / 2, by omega⟩, ⟨n % 2, Nat.mod_lt _ (by decide)⟩)
theorem kOf_sendS (k : K) : kOf ((sendS k).val - 2) = k := by
  rw [sendS_val]; obtain ⟨p, s, c⟩ := k; unfold kOf; ext <;> simp <;> omega
theorem kOf_recvS (k : K) : kOf ((recvS k).val - 58) = k := by
  rw [recvS_val]; obtain ⟨p, s, c⟩ := k; unfold kOf; ext <;> simp <;> omega

def ringRd : Rounds.Schedule (GSem nD τ sig) Bool 𝕄 where
  duties g r :=
    if r = 0 ∧ g.1.2 = .tc then
      (match g.2 with
        | .reg b => if b = barS then Finset.univ else ∅
        | .dma q => if IsSendSem q ∨ IsRecvSem q then {false} else ∅)
    else ∅
  unitless _ := False
  amount g _ _ := match g.2 with | .reg _ => 1 | .dma _ => N
  payload g _ d := match g.2 with
    | .reg _ => if d then barT g.1.1 else barF g.1.1
    | .dma q => if IsSendSem q then sendPay g.1.1 (kOf (q.val - 2)) else if IsRecvSem q then recvPay SV g.1.1 (kOf (q.val - 58)) else iprop(emp)
  amount_pos g _ _ _ := by
    cases g.2 with
    | reg _ => exact Nat.one_pos
    | dma _ => exact N_pos

instance ringRd_payload_storable (g : GSem nD τ sig) (r : ℕ) (d : Bool) :
    BI.Storable (upEmb : UEmb _ 𝕄) ((ringRd SV).payload g r d) := by
  unfold ringRd; dsimp only
  cases g.2 with
  | reg _ => dsimp only; split <;> infer_instance
  | dma _ => dsimp only; (repeat' split) <;> infer_instance

section Tables
variable (c : Dev nD) (k : K)
omit [FloatOps F]

theorem isSend : IsSendSem (sendS k) := by unfold IsSendSem; rw [sendS_val]; omega
theorem isRecv : IsRecvSem (recvS k) := by unfold IsRecvSem; rw [recvS_val]; omega
theorem notSend_recv : ¬ IsSendSem (recvS k) := fun h => by have := (isRecv k).1; have := h.2; omega

theorem duties_bar : (ringRd SV).duties (barCell c) 0 = Finset.univ := by
  dsimp only [ringRd]; rw [if_pos ⟨rfl, rfl⟩, if_pos rfl]
theorem duties_send : (ringRd SV).duties (sendCell c k) 0 = {false} := by
  dsimp only [ringRd]; rw [if_pos ⟨rfl, rfl⟩, if_pos (Or.inl (isSend k))]
theorem duties_recv : (ringRd SV).duties (recvCell c k) 0 = {false} := by
  dsimp only [ringRd]; rw [if_pos ⟨rfl, rfl⟩, if_pos (Or.inr (isRecv k))]
theorem duties_later (g : GSem nD τ sig) : ∀ r, 1 ≤ r → (ringRd SV).duties g r = ∅ :=
  fun r hr => by dsimp only [ringRd]; rw [if_neg fun h => by omega]

theorem amount_bar (d : Bool) : (ringRd SV).amount (barCell c) 0 d = 1 := rfl
theorem amount_send (d : Bool) : (ringRd SV).amount (sendCell c k) 0 d = N := rfl
theorem amount_recv (d : Bool) : (ringRd SV).amount (recvCell c k) 0 d = N := rfl

theorem expect_bar : (ringRd SV).expect (barCell c) 0 = 2 := by
  unfold Schedule.expect Schedule.amountOf; rw [duties_bar]; rfl
theorem expect_send : (ringRd SV).expect (sendCell c k) 0 = N := by
  unfold Schedule.expect Schedule.amountOf; rw [duties_send, Finset.sum_singleton, amount_send]
theorem expect_recv : (ringRd SV).expect (recvCell c k) 0 = N := by
  unfold Schedule.expect Schedule.amountOf; rw [duties_recv, Finset.sum_singleton, amount_recv]

theorem payload_bar_true : (ringRd SV).payload (barCell c) 0 true = barT c := by dsimp only [ringRd]; rw [if_pos rfl]
theorem payload_bar_false : (ringRd SV).payload (barCell c) 0 false = barF c := by
  dsimp only [ringRd]; exact if_neg Bool.false_ne_true
theorem payload_send (d : Bool) : (ringRd SV).payload (sendCell c k) 0 d = sendPay c k := by
  dsimp only [ringRd]; rw [if_pos (isSend k), kOf_sendS]
theorem payload_recv (d : Bool) : (ringRd SV).payload (recvCell c k) 0 d = recvPay SV c k := by
  dsimp only [ringRd]; rw [if_neg (notSend_recv k), if_pos (isRecv k), kOf_recvS]

theorem rest_bar : bigSep ((ringRd SV).duties (barCell c) 0 \ ∅) (fun d => (ringRd SV).payload (barCell c) 0 d) = iprop(barF c ∗ barT c) := by
  rw [Finset.sdiff_empty, duties_bar, bigSep_univ_eq_bigSepL [false, true] (by decide) (by decide), bigSepL_cons_cons, bigSepL_singleton,
    payload_bar_false, payload_bar_true]
  rfl
theorem rest_send : bigSep ((ringRd SV).duties (sendCell c k) 0 \ ∅) (fun d => (ringRd SV).payload (sendCell c k) 0 d) = sendPay c k := by
  rw [Finset.sdiff_empty, duties_send, bigSep_singleton, payload_send]
theorem rest_recv : bigSep ((ringRd SV).duties (recvCell c k) 0 \ ∅) (fun d => (ringRd SV).payload (recvCell c k) 0 d) = recvPay SV c k := by
  rw [Finset.sdiff_empty, duties_recv, bigSep_singleton, payload_recv]

end Tables

end Cert.KernelIdeal.Ring

end
-- ==== Proof.Levels.lean ====
import proofs.«900985_g7700000000000986_dist_mlpseq_tp1d_bs_rep_b256_d256_h512_v7x_i4_f32_1_alg».proof.Proof.Sched

noncomputable section

namespace Cert.KernelIdeal.Ring

open Cert.KernelIdeal.Gen Cert.KernelIdeal.Spec

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

def sendSeq : List K := [(0, 0, 0), (0, 1, 0), (0, 0, 1), (0, 1, 1), (1, 3, 0), (1, 3, 1), (0, 2, 0), (0, 2, 1), (1, 0, 0), (1, 1, 0), (1, 0, 1), (1, 1, 1), (2, 0, 0), (2, 1, 0), (3, 3, 0), (2, 0, 1), (2, 1, 1), (3, 3, 1), (2, 2, 0), (2, 2, 1), (3, 0, 0), (3, 1, 0), (3, 0, 1), (3, 1, 1), (4, 0, 0), (4, 1, 0), (5, 3, 0), (4, 0, 1), (4, 1, 1), (5, 3, 1), (4, 2, 0), (4, 2, 1), (5, 0, 0), (5, 1, 0), (5, 0, 1), (5, 1, 1), (6, 0, 0), (6, 1, 0), (6, 0, 1), (6, 1, 1), (6, 2, 0), (6, 2, 1)]

def owedFor (c : Dev nD) : List K → CellTallies nD τ sig Unit
  | [] => 0
  | k :: l => owedFor c l + tallyAt (recvCell (tgt k c) k) () N

def O₁ (c : Dev nD) : CellTallies nD τ sig Unit := owedFor c sendSeq + tallyAt (barCell (nxt c)) () 1
def O₀ (c : Dev nD) : CellTallies nD τ sig Unit := O₁ c + tallyAt (barCell (prv c)) () 1

def L (g : GSem nD τ sig) : Finset Unit := if g.1.2 = .tc then {()} else ∅

def ord (k : K) : ℕ := sendSeq.idxOf k

def lv (g : GSem nD τ sig) (_ : Unit) : ℕ := match g.2 with
  | .reg b => if b = barS then 1 else 0
  | .dma q => if IsRecvSem q then 2 + ord (kOf (q.val - 58)) else 0

theorem L_of_ne (g : GSem nD τ sig) (h : g.1.2 ≠ .tc) : L g = ∅ := if_neg h
theorem L_tc (c : Dev nD) (sm : SemLoc sig) : L ((c : Thread nD τ), sm) = {()} := if_pos rfl

theorem mem_L (c : Dev nD) (sm : SemLoc sig) : () ∈ L ((c : Thread nD τ), sm) := by rw [L_tc]; exact Finset.mem_singleton_self _

theorem lv_recv (c : Dev nD) (k : K) : lv (recvCell c k) () = 2 + ord k :=
  (if_pos (isRecv k)).trans (by rw [kOf_recvS])
theorem lv_send (c : Dev nD) (k : K) : lv (sendCell c k) () = 0 :=
  if_neg fun h => absurd (isSend k).2 (Nat.not_lt.2 h.1)
theorem lv_bar (c : Dev nD) : lv (barCell c) () = 1 := by
  show (if barS = barS then 1 else 0) = 1
  exact if_pos rfl

theorem owedFor_pos {c : Dev nD} {l : List K} {g : GSem nD τ sig} {u : Unit} (h : 0 < owedFor c l g u) :
    ∃ k ∈ l, g = recvCell (tgt k c) k := by
  induction l with
  | nil => exact absurd h (Nat.lt_irrefl 0)
  | cons k l ih =>
    rcases Pipeline.add_pos_cases (show 0 < (owedFor c l + tallyAt (recvCell (tgt k c) k) () N) g u from h) with h1 | h2
    · obtain ⟨k', hk', hg⟩ := ih h1; exact ⟨k', List.mem_cons_of_mem _ hk', hg⟩
    · exact ⟨k, List.mem_cons_self, (Pipeline.tallyAt_pos h2).1⟩

theorem O₀_pos {c : Dev nD} {g : GSem nD τ sig} {u : Unit} (h : 0 < O₀ c g u) :
    (∃ k ∈ sendSeq, g = recvCell (tgt k c) k) ∨ g = barCell (nxt c) ∨ g = barCell (prv c) := by
  unfold O₀ O₁ at h
  rcases Pipeline.add_pos_cases h with h | h
  · rcases Pipeline.add_pos_cases h with h | h
    · exact Or.inl (owedFor_pos h)
    · exact Or.inr (Or.inl (Pipeline.tallyAt_pos h).1)
  · exact Or.inr (Or.inr (Pipeline.tallyAt_pos h).1)

theorem mayWait_owedFor (c : Dev nD) (sm : SemLoc sig) (l : List K) (h : ∀ k ∈ l, lv ((c : Thread nD τ), sm) () < 2 + ord k) :
    (levAts L lv : sProp 𝕄) ⊢ MayWait (c : Thread nD τ) sm () (owedFor c l) :=
  Pipeline.mayWait_of_levAts (mem_L _ _) fun g u hg => by
    obtain ⟨k, hk, rfl⟩ := owedFor_pos hg
    cases u
    exact ⟨mem_L _ _, by rw [lv_recv]; exact h k hk⟩

theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (mem_L _ _) fun g u hg => ?_
    cases u
    rw [hq]
    rcases O₀_pos hg with ⟨k, _, rfl⟩ | rfl | rfl
    · exact ⟨mem_L _ _, by rw [lv_recv]; omega⟩
    all_goals exact ⟨mem_L _ _, by rw [lv_bar]; exact Nat.one_pos⟩
  · rw [MayWait_zero]; iintro -; iempintro

theorem mayWait_bar (c : Dev nD) : (levAts L lv : sProp 𝕄) ⊢ MayWait (c : Thread nD τ) (.reg barS) () (owedFor c sendSeq) :=
  mayWait_owedFor c (.reg barS) sendSeq fun k _ => by
    rw [show lv ((c : Thread nD τ), SemLoc.reg barS) () = 1 from lv_bar c]; omega

theorem sendSeq_nodup : sendSeq.Nodup := by decide
theorem sendSeq_toFinset : sendSeq.toFinset = Finset.univ.filter fun k : K => used k = true := by decide

theorem owedFor_eq_sum (c : Dev nD) : ∀ l : List K, l.Nodup →
    owedFor c l = ∑ k ∈ l.toFinset, tallyAt (recvCell (tgt k c) k) () N
  | [], _ => by rw [List.toFinset_nil, Finset.sum_empty]; rfl
  | k :: l, h => by
    rw [List.toFinset_cons, Finset.sum_insert (by rw [List.mem_toFinset]; exact (List.nodup_cons.mp h).1),
      ← owedFor_eq_sum c l (List.nodup_cons.mp h).2, add_comm]
    rfl

theorem creds (c : Dev nD) : (Pipeline.launchCred O₀ c : sProp 𝕄) ⊢ iprop(cred (tallyAt (barCell c) () 2) ∗ bigSep (Finset.univ.filter fun k : K => used k = true) fun k => cred (tallyAt (recvCell c k) () N)) := by
  have hO : (O₀ : Dev nD → CellTallies nD τ sig Unit) = fun d =>
      ((∑ k ∈ sendSeq.toFinset, tallyAt (recvCell (tgt k d) k) () N) + tallyAt (barCell (nxt d)) () 1) + tallyAt (barCell (prv d)) () 1 :=
    funext fun d => by unfold O₀ O₁; rw [owedFor_eq_sum d sendSeq sendSeq_nodup]
  rw [hO, Pipeline.launchCred_add, Pipeline.launchCred_add, Pipeline.launchCred_sum]
  refine (sep_mono (sep_mono
      (bigSep_mono fun k _ => Pipeline.launchCred_tallyAt (.dma (recvS k)) (tgt k) (frm k) (tgt_frm k) (frm_tgt k) () N c)
      (Pipeline.launchCred_tallyAt (.reg barS) nxt prv nxt_prv prv_nxt () 1 c))
      (Pipeline.launchCred_tallyAt (.reg barS) prv nxt prv_nxt nxt_prv () 1 c)).trans ?_
  rw [← sendSeq_toFinset, ← tallyAt_add _ _ 1 1]
  iintro ⟨⟨Hs, H1⟩, H2⟩
  iframe Hs
  iapply (cred_add _ _).2; iframe

end Cert.KernelIdeal.Ring

end
-- ==== Proof.Ghost.lean ====
import proofs.«900985_g7700000000000986_dist_mlpseq_tp1d_bs_rep_b256_d256_h512_v7x_i4_f32_1_alg».proof.Proof.Levels
import proofs.«900985_g7700000000000986_dist_mlpseq_tp1d_bs_rep_b256_d256_h512_v7x_i4_f32_1_alg».proof.Proof.Gen.KernelIdeal.Points

noncomputable section

namespace Cert.KernelIdeal.Ring

open Cert.KernelIdeal.Gen Cert.KernelIdeal.Spec

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev UK : Type := {k : K // used k = true}

inductive CK where
  | bar
  | snd (k : UK)
  | rcv (k : UK)
  deriving DecidableEq, Fintype

def csem : CK → SemLoc sig
  | .bar => .reg barS
  | .snd k => .dma (sendS k.1)
  | .rcv k => .dma (recvS k.1)
abbrev kcell (ck : Dev nD × CK) : GSem nD τ sig := ((ck.1 : Thread nD τ), csem ck.2)

theorem inbW (i : Fin 6) : ∀ a, (![i.val] : Fin 1 → ℕ) a + S1.size a ≤ S6.size a := by
  intro a; fin_cases a; simp [Shape.size] <;> omega
abbrev wS (i : Fin 6) : DmaSem sig := ((cc0_scratch10.slice (Rect.unit (s := S6) ![i.val] S1.size (inbW i))).squeeze S_ squeezes_S1_S_).sem

abbrev OS : Type := (Bool × UK) ⊕ Fin 6
def osem : OS → SemLoc sig
  | .inl (false, k) => .dma (sendS k.1)
  | .inl (true, k) => .dma (recvS k.1)
  | .inr i => .dma (wS i)

variable (SV : K → Dev nD → S128x256.Idx → Elt F .bf16)

def invs (Kn : Dev nD × CK → ℕ) (c : Dev nD) : sProp 𝕄 :=
  iprop((bigSep Finset.univ fun ck : CK => cellInv ER (ringRd SV) (Kn (c, ck)) (kcell (c, ck)))
    ∗ cellInv ER (ringRd SV) (Kn (nxt c, .bar)) (barCell (nxt c)) ∗ cellInv ER (ringRd SV) (Kn (prv c, .bar)) (barCell (prv c))
    ∗ bigSep Finset.univ fun k : UK => cellInv ER (ringRd SV) (Kn (tgt k.1 c, .rcv k)) (recvCell (tgt k.1 c) k.1))

def reacheds (c : Dev nD) : sProp 𝕄 :=
  iprop((bigSep Finset.univ fun ck : CK => reached ER (kcell (c, ck)) 0)
    ∗ reached ER (barCell (nxt c)) 0 ∗ reached ER (barCell (prv c)) 0
    ∗ bigSep Finset.univ fun k : UK => reached ER (recvCell (tgt k.1 c) k.1) 0)

def linear (c : Dev nD) : sProp 𝕄 :=
  iprop((bigSep Finset.univ fun ck : CK => atPos ER (kcell (c, ck)) 0 ∅ 0)
    ∗ dutyTok ER (barCell (prv c)) 0 true ∗ dutyTok ER (barCell (nxt c)) 0 false
    ∗ (bigSep Finset.univ fun k : UK => dutyTok ER (recvCell (tgt k.1 c) k.1) 0 false)
    ∗ bigSep Finset.univ fun k : UK => dutyTok ER (sendCell c k.1) 0 false)

def ghost (Kn : Dev nD × CK → ℕ) (c : Dev nD) : sProp 𝕄 := iprop(invs SV Kn c ∗ reacheds c ∗ linear c)

def credits (c : Dev nD) : sProp 𝕄 :=
  iprop(cred (tallyAt (barCell c) () 2) ∗ bigSep (Finset.univ.filter fun k : K => used k = true) fun k => cred (tallyAt (recvCell c k) () N))

def weights (m : (ℓ : Loc nD τ sig) → Buf (Elt F) ℓ) (c : Dev nD) : sProp 𝕄 :=
  iprop((((c : Thread nD τ).loc main_arg1) ↦{fullShare} m _) ∗ (((c : Thread nD τ).loc main_arg2) ↦{fullShare} m _)
    ∗ (((c : Thread nD τ).loc main_arg3) ↦{fullShare} m _) ∗ (((c : Thread nD τ).loc main_arg4) ↦{fullShare} m _)
    ∗ (((c : Thread nD τ).loc main_arg5) ↦{fullShare} m _) ∗ (((c : Thread nD τ).loc main_arg6) ↦{fullShare} m _))

def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f) ∗ (∃ f, ((c : Thread nD τ).loc cc0_scratch5) ↦{fullShare} f)
    ∗ (∃ f, ((c : Thread nD τ).loc cc0_scratch6) ↦{fullShare} f) ∗ (∃ f, ((c : Thread nD τ).loc cc0_scratch7) ↦{fullShare} f))

def wsems0 (c : Dev nD) : sProp 𝕄 := bigSep Finset.univ fun i : Fin 6 => semVal ((c : Thread nD τ), .dma (wS i)) 0

def start (m : (ℓ : Loc nD τ sig) → Buf (Elt F) ℓ) (c : Dev nD) : sProp 𝕄 :=
  iprop((∃ Kn, ghost SV Kn c) ∗ credits c ∗ levAts L lv ∗ weights m c ∗ wsems0 c)

def Φ₀ (m : (ℓ : Loc nD τ sig) → Buf (Elt F) ℓ) (c : Dev nD) : sProp 𝕄 := iprop(start SV m c ∗ scratch c)
def Φ₁ (m : (ℓ : Loc nD τ sig) → Buf (Elt F) ℓ) (c : Dev nD) : sProp 𝕄 :=
  iprop(weights m c ∗ scratch c ∗ Pipeline.ownSems0 (Ix := Unit) (Name := ℕ) (U := UU) (Lvl := ℕ) (Val := Elt F) (τ := τ) osem c)

end Cert.KernelIdeal.Ring

end
-- ==== Proof.Data.lean ====
import proofs.«900985_g7700000000000986_dist_mlpseq_tp1d_bs_rep_b256_d256_h512_v7x_i4_f32_1_alg».proof.Proof.Ghost

noncomputable section

namespace Cert.KernelIdeal.Ring

open Cert.KernelIdeal.Gen Cert.KernelIdeal.Spec

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def xbOf (d : Dev nD) : Vec F S256x256 .f32 := m ((d : Thread nD τ).loc main_arg0)
def wiOf (l : Fin 3) (d : Dev nD) : Vec F S256x512 .f32 :=
  match l with
  | 0 => m ((d : Thread nD τ).loc main_arg1)
  | 1 => m ((d : Thread nD τ).loc main_arg3)
  | 2 => m ((d : Thread nD τ).loc main_arg5)
def woOf (l : Fin 3) (d : Dev nD) : Vec F S512x256 .f32 :=
  match l with
  | 0 => m ((d : Thread nD τ).loc main_arg2)
  | 1 => m ((d : Thread nD τ).loc main_arg4)
  | 2 => m ((d : Thread nD τ).loc main_arg6)

def SVm : K → Dev nD → S128x256.Idx → Elt F .bf16 :=
  fun k d => Spec.slotVal (xbOf m) (wiOf m) (woOf m) k.1.val k.2.1.val d k.2.2

def xstg (c : Dev nD) : (cc0_stg0_0 : Ref sig .tc).ty.Contents (Elt F) :=
  (win0_0.blk (0 : Fin 1)).view.read (Elt F) ((s₀ m ρ).mem ((c : Thread nD τ).loc main_arg0))

def outAt (c : Dev nD) : (cc0_stg1_0 : Ref sig .tc).ty.Contents (Elt F) := Spec.OUT (xbOf m) (wiOf m) (woOf m) c

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m c
  Φ t := match t with
    | ⟨0, _⟩ => Φ₀ (SVm m) m c
    | ⟨_ + 1, _⟩ => Φ₁ m c
  q _ := fullShare
  owed t := match t with
    | ⟨0, _⟩ => O₀ c
    | ⟨_ + 1, _⟩ => 0

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m _
    ∧ r.2.mem ((c : Thread nD τ).loc main_arg2) = m _
    ∧ r.2.mem ((c : Thread nD τ).loc main_arg3) = m _
    ∧ r.2.mem ((c : Thread nD τ).loc main_arg4) = m _
    ∧ r.2.mem ((c : Thread nD τ).loc main_arg5) = m _
    ∧ r.2.mem ((c : Thread nD τ).loc main_arg6) = m _

end Cert.KernelIdeal.Ring

end
-- ==== Proof.Steps.lean ====
import proofs.«900985_g7700000000000986_dist_mlpseq_tp1d_bs_rep_b256_d256_h512_v7x_i4_f32_1_alg».proof.Proof.Levels

noncomputable section

namespace Cert.KernelIdeal.Ring

open Cert.KernelIdeal.Gen Cert.KernelIdeal.Spec

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (SV : K → Dev nD → S128x256.Idx → Elt F .bf16)

theorem wp_send_k (c n : Dev nD) (k : K) (hn : n = tgt k c) {κ₁ κ₂ : ℕ}
    {hsc : (slotM k : Memref sig (Dev.tc n : Thread nD τ).2.kind .vmem S128x256 .bf16).view.ref.isScScratch = false}
    {hsrc : (srcM k).view.WordExact} {hdst : (slotM k).view.WordExact}
    {hsem : DmaTarget.Typed .vmem (.dma (recvS k)) (.remote (Dev.tc n : Thread nD τ) (slotM k) (.dma (sendS k)) hsc)}
    {α : Type} {Q : α → sProp 𝕄} {kk : PUnit → Prog (TpuEff nD τ sig (Elt F) Λ₀ .tc) α}
    (fs : Buf (Elt F) ((srcM k).view.loc (c : Thread nD τ))) (fd : Buf (Elt F) ((slotM k).view.loc (tgt k c : Thread nD τ)))
    (hv : (srcM k).view.read (Elt F) fs = SV k (tgt k c))
    (O : CellTallies nD τ sig Unit) (W : Waits sig Unit) :
    iprop(cellInv ER (ringRd SV) κ₁ (sendCell c k) ∗ cellInv ER (ringRd SV) κ₂ (recvCell (tgt k c) k)
        ∗ ((srcM k).view.loc (c : Thread nD τ) ↦[(srcM k).view.set]{qS k} fs) ∗ slotPts (tgt k c) k fd
        ∗ owes (c : Thread nD τ) (O + tallyAt (recvCell (tgt k c) k) () N) W
        ∗ dutyTok ER (sendCell c k) 0 false ∗ reached ER (sendCell c k) 0
        ∗ dutyTok ER (recvCell (tgt k c) k) 0 false ∗ reached ER (recvCell (tgt k c) k) 0)
      ⊢ iprop(((cred (tallyAt (sendCell c k) () N) ∗ owes (c : Thread nD τ) O W) -∗ wp frame (wpE defs₀ 𝒱₀ (c : Thread nD τ) none) Set.univ (kk ⟨⟩) Q)
          -∗ wp frame (wpE defs₀ 𝒱₀ (c : Thread nD τ) none) Set.univ
              (.op (.enqueueDma (srcM k) (.remote (Dev.tc n : Thread nD τ) (slotM k) (.dma (sendS k)) hsc) (.dma (recvS k)) hsrc hdst hsem) kk) Q) := by
  subst hn
  unfold slotPts
  exact Rounds.wp_send_pointsTo 𝒱₀ ER (ringRd SV) (c : Thread nD τ) none
    (by rw [duties_send]; exact Finset.mem_singleton_self _) (by rw [duties_recv]; exact Finset.mem_singleton_self _)
    () () N rfl (amount_send SV c k false) (amount_recv SV (tgt k c) k false) O rfl (W := W)
    (by rw [payload_send]; unfold sendPay; iintro H; iexists fs; iexact H)
    (by rw [payload_recv]; unfold recvPay slotPts; iintro H; iexists fd; rw [← hv]; iexact H)

theorem wp_wait_k (c : Dev nD) (q : DmaSem sig) {P : sProp 𝕄}
    (hE : (ringRd SV).expect ((c : Thread nD τ), .dma q) 0 = N)
    (hR : bigSep ((ringRd SV).duties ((c : Thread nD τ), .dma q) 0 \ ∅) (fun d => (ringRd SV).payload ((c : Thread nD τ), .dma q) 0 d) = P)
    {κ : ℕ} {sp sp' : Space} {s s' : Shape} {e e' : EltTy}
    {src : Memref sig (c : Thread nD τ).2.kind sp' s' e'} {κ' : Kind} {dst : Memref sig κ' sp s e}
    {hsrc : src.view.WordExact} {hdst : dst.view.WordExact}
    {α : Type} {Q : α → sProp 𝕄} {kk : PUnit → Prog (TpuEff nD τ sig (Elt F) Λ₀ .tc) α}
    (hN : dst.view.dmaCredit = N) (O : CellTallies nD τ sig Unit) (W : Waits sig Unit) :
    iprop(cellInv ER (ringRd SV) κ ((c : Thread nD τ), .dma q) ∗ cred (tallyAt ((c : Thread nD τ), .dma q) () N) ∗ owes (c : Thread nD τ) O W
        ∗ MayWait (c : Thread nD τ) (.dma q) () O ∗ atPos ER ((c : Thread nD τ), .dma q) 0 ∅ 0)
      ⊢ iprop(((owes (c : Thread nD τ) O (insert (SemLoc.dma q, ()) W) ∗ atPos ER ((c : Thread nD τ), .dma q) 1 ∅ 0 ∗ P)
            -∗ wp frame (wpE defs₀ 𝒱₀ (c : Thread nD τ) none) Set.univ (kk ⟨⟩) Q)
          -∗ wp frame (wpE defs₀ 𝒱₀ (c : Thread nD τ) none) Set.univ (.op (.waitDma2 q src dst hsrc hdst) kk) Q) := by
  rw [← hN, ← hR]
  iintro H Hk
  iapply (Rounds.wp_wait_rest_token 𝒱₀ ER (ringRd SV) (c : Thread nD τ) none (κ := κ)
      (wpE_waitDma2_eq 𝒱₀ (c : Thread nD τ) none Set.univ) (Set.mem_univ _) () (O := O) (W := W) (R := 0) (m := 0) (T := ∅)
      (by rw [Nat.zero_add, hN, hE])) $$ H
  iintro ⟨HO, Hat, -, Hp⟩
  iapply Hk; iframe

theorem close_k (g : GSem nD τ sig) {κ : ℕ} :
    iprop(cellInv ER (ringRd SV) κ g ∗ atPos ER g 1 ∅ 0) ⊢ (iprop(|={Set.univ}=> semVal g 0) : sProp 𝕄) :=
  Rounds.cell_close ER (ringRd SV) (Set.mem_univ κ) (fun h => h) (R := 0 + 1) (duties_later SV g)

end Cert.KernelIdeal.Ring

end
-- ==== Proof.Bufs.lean ====
import proofs.«900985_g7700000000000986_dist_mlpseq_tp1d_bs_rep_b256_d256_h512_v7x_i4_f32_1_alg».proof.Proof.Sched

noncomputable section

namespace Cert.KernelIdeal.Ring

open Cert.KernelIdeal Cert.KernelIdeal.Gen Cert.KernelIdeal.Spec
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
local notation "𝕄" => MT nD τ sig Unit (Elt F) ℕ UU ℕ

theorem inbWi (i : Fin 3) : ∀ a, (![i.val, 0, 0] : Fin 3 → ℕ) a + S1x256x512.size a ≤ S3x256x512.size a := by
  intro a; fin_cases a <;> simp [Shape.size] <;> omega
theorem inbWo (i : Fin 3) : ∀ a, (![i.val, 0, 0] : Fin 3 → ℕ) a + S1x512x256.size a ≤ S3x512x256.size a := by
  intro a; fin_cases a <;> simp [Shape.size] <;> omega

abbrev wfinM (i : Fin 3) : Memref sig .tc .vmem S256x512 .f32 :=
  ((Memref.whole cc0_scratch6 : Memref sig .tc .vmem S3x256x512 .f32).slice (Rect.unit (s := S3x256x512) ![i.val, 0, 0] S1x256x512.size (inbWi i)) (fun _ => rfl)).squeeze S256x512 squeezes_S1x256x512_S256x512
abbrev wfoutM (i : Fin 3) : Memref sig .tc .vmem S512x256 .f32 :=
  ((Memref.whole cc0_scratch7 : Memref sig .tc .vmem S3x512x256 .f32).slice (Rect.unit (s := S3x512x256) ![i.val, 0, 0] S1x512x256.size (inbWo i)) (fun _ => rfl)).squeeze S512x256 squeezes_S1x512x256_S512x256

abbrev pt {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f

end Cert.KernelIdeal.Ring

end
-- ==== Proof.RingDev.lean ====
import proofs.«900985_g7700000000000986_dist_mlpseq_tp1d_bs_rep_b256_d256_h512_v7x_i4_f32_1_alg».proof.Proof.Gen.KernelIdeal
import proofs.«900985_g7700000000000986_dist_mlpseq_tp1d_bs_rep_b256_d256_h512_v7x_i4_f32_1_alg».proof.Proof.Spec

namespace Cert.KernelIdeal.RingDev

open Idealize.ShloMosaic Cert.KernelIdeal

theorem dev1_eq (c : Dev nD) : (⟨k0_dev1 c, Gen.k0_dev1_lt c⟩ : Dev nD) = Spec.prv c :=
  Fin.ext (by revert c; decide +kernel)

theorem dev2_eq (c : Dev nD) : (⟨k0_dev2 c, Gen.k0_dev2_lt c⟩ : Dev nD) = Spec.nxt c :=
  Fin.ext (by revert c; decide +kernel)

theorem dev3_eq (c : Dev nD) : (⟨k0_dev3 c, Gen.k0_dev3_lt c⟩ : Dev nD) = Spec.nxt c :=
  Fin.ext (by revert c; decide +kernel)

theorem dev4_eq (c : Dev nD) : (⟨k0_dev4 c, Gen.k0_dev4_lt c⟩ : Dev nD) = Spec.prv c :=
  Fin.ext (by revert c; decide +kernel)

theorem dev5_eq (c : Dev nD) : (⟨k0_dev5 c, Gen.k0_dev5_lt c⟩ : Dev nD) = Spec.nxt c :=
  Fin.ext (by revert c; decide +kernel)

theorem dev6_eq (c : Dev nD) : (⟨k0_dev6 c, Gen.k0_dev6_lt c⟩ : Dev nD) = Spec.prv c :=
  Fin.ext (by revert c; decide +kernel)

theorem dev7_eq (c : Dev nD) : (⟨k0_dev7 c, Gen.k0_dev7_lt c⟩ : Dev nD) = Spec.nxt c :=
  Fin.ext (by revert c; decide +kernel)

theorem dev8_eq (c : Dev nD) : (⟨k0_dev8 c, Gen.k0_dev8_lt c⟩ : Dev nD) = Spec.nxt c :=
  Fin.ext (by revert c; decide +kernel)

theorem dev9_eq (c : Dev nD) : (⟨k0_dev9 c, Gen.k0_dev9_lt c⟩ : Dev nD) = Spec.prv c :=
  Fin.ext (by revert c; decide +kernel)

theorem dev10_eq (c : Dev nD) : (⟨k0_dev10 c, Gen.k0_dev10_lt c⟩ : Dev nD) = Spec.prv c :=
  Fin.ext (by revert c; decide +kernel)

theorem dev11_eq (c : Dev nD) : (⟨k0_dev11 c, Gen.k0_dev11_lt c⟩ : Dev nD) = Spec.nxt c :=
  Fin.ext (by revert c; decide +kernel)

theorem dev12_eq (c : Dev nD) : (⟨k0_dev12 c, Gen.k0_dev12_lt c⟩ : Dev nD) = Spec.prv c :=
  Fin.ext (by revert c; decide +kernel)

theorem dev13_eq (c : Dev nD) : (⟨k0_dev13 c, Gen.k0_dev13_lt c⟩ : Dev nD) = Spec.nxt c :=
  Fin.ext (by revert c; decide +kernel)

theorem dev14_eq (c : Dev nD) : (⟨k0_dev14 c, Gen.k0_dev14_lt c⟩ : Dev nD) = Spec.prv c :=
  Fin.ext (by revert c; decide +kernel)

theorem dev15_eq (c : Dev nD) : (⟨k0_dev15 c, Gen.k0_dev15_lt c⟩ : Dev nD) = Spec.nxt c :=
  Fin.ext (by revert c; decide +kernel)

theorem dev16_eq (c : Dev nD) : (⟨k0_dev16 c, Gen.k0_dev16_lt c⟩ : Dev nD) = Spec.prv c :=
  Fin.ext (by revert c; decide +kernel)

theorem dev17_eq (c : Dev nD) : (⟨k0_dev17 c, Gen.k0_dev17_lt c⟩ : Dev nD) = Spec.nxt c :=
  Fin.ext (by revert c; decide +kernel)

theorem dev18_eq (c : Dev nD) : (⟨k0_dev18 c, Gen.k0_dev18_lt c⟩ : Dev nD) = Spec.nxt c :=
  Fin.ext (by revert c; decide +kernel)

theorem dev19_eq (c : Dev nD) : (⟨k0_dev19 c, Gen.k0_dev19_lt c⟩ : Dev nD) = Spec.prv c :=
  Fin.ext (by revert c; decide +kernel)

theorem dev20_eq (c : Dev nD) : (⟨k0_dev20 c, Gen.k0_dev20_lt c⟩ : Dev nD) = Spec.nxt c :=
  Fin.ext (by revert c; decide +kernel)

theorem dev21_eq (c : Dev nD) : (⟨k0_dev21 c, Gen.k0_dev21_lt c⟩ : Dev nD) = Spec.prv c :=
  Fin.ext (by revert c; decide +kernel)

theorem dev22_eq (c : Dev nD) : (⟨k0_dev22 c, Gen.k0_dev22_lt c⟩ : Dev nD) = Spec.prv c :=
  Fin.ext (by revert c; decide +kernel)

theorem dev23_eq (c : Dev nD) : (⟨k0_dev23 c, Gen.k0_dev23_lt c⟩ : Dev nD) = Spec.nxt c :=
  Fin.ext (by revert c; decide +kernel)

theorem dev24_eq (c : Dev nD) : (⟨k0_dev24 c, Gen.k0_dev24_lt c⟩ : Dev nD) = Spec.prv c :=
  Fin.ext (by revert c; decide +kernel)

theorem dev25_eq (c : Dev nD) : (⟨k0_dev25 c, Gen.k0_dev25_lt c⟩ : Dev nD) = Spec.nxt c :=
  Fin.ext (by revert c; decide +kernel)

theorem dev26_eq (c : Dev nD) : (⟨k0_dev26 c, Gen.k0_dev26_lt c⟩ : Dev nD) = Spec.prv c :=
  Fin.ext (by revert c; decide +kernel)

theorem dev27_eq (c : Dev nD) : (⟨k0_dev27 c, Gen.k0_dev27_lt c⟩ : Dev nD) = Spec.nxt c :=
  Fin.ext (by revert c; decide +kernel)

theorem dev28_eq (c : Dev nD) : (⟨k0_dev28 c, Gen.k0_dev28_lt c⟩ : Dev nD) = Spec.prv c :=
  Fin.ext (by revert c; decide +kernel)

theorem dev29_eq (c : Dev nD) : (⟨k0_dev29 c, Gen.k0_dev29_lt c⟩ : Dev nD) = Spec.nxt c :=
  Fin.ext (by revert c; decide +kernel)

theorem dev30_eq (c : Dev nD) : (⟨k0_dev30 c, Gen.k0_dev30_lt c⟩ : Dev nD) = Spec.nxt c :=
  Fin.ext (by revert c; decide +kernel)

theorem dev31_eq (c : Dev nD) : (⟨k0_dev31 c, Gen.k0_dev31_lt c⟩ : Dev nD) = Spec.prv c :=
  Fin.ext (by revert c; decide +kernel)

theorem dev32_eq (c : Dev nD) : (⟨k0_dev32 c, Gen.k0_dev32_lt c⟩ : Dev nD) = Spec.nxt c :=
  Fin.ext (by revert c; decide +kernel)

theorem dev33_eq (c : Dev nD) : (⟨k0_dev33 c, Gen.k0_dev33_lt c⟩ : Dev nD) = Spec.prv c :=
  Fin.ext (by revert c; decide +kernel)

theorem dev34_eq (c : Dev nD) : (⟨k0_dev34 c, Gen.k0_dev34_lt c⟩ : Dev nD) = Spec.prv c :=
  Fin.ext (by revert c; decide +kernel)

theorem dev35_eq (c : Dev nD) : (⟨k0_dev35 c, Gen.k0_dev35_lt c⟩ : Dev nD) = Spec.nxt c :=
  Fin.ext (by revert c; decide +kernel)

theorem dev36_eq (c : Dev nD) : (⟨k0_dev36 c, Gen.k0_dev36_lt c⟩ : Dev nD) = Spec.prv c :=
  Fin.ext (by revert c; decide +kernel)

theorem dev37_eq (c : Dev nD) : (⟨k0_dev37 c, Gen.k0_dev37_lt c⟩ : Dev nD) = Spec.nxt c :=
  Fin.ext (by revert c; decide +kernel)

theorem dev38_eq (c : Dev nD) : (⟨k0_dev38 c, Gen.k0_dev38_lt c⟩ : Dev nD) = Spec.prv c :=
  Fin.ext (by revert c; decide +kernel)

theorem dev39_eq (c : Dev nD) : (⟨k0_dev39 c, Gen.k0_dev39_lt c⟩ : Dev nD) = Spec.nxt c :=
  Fin.ext (by revert c; decide +kernel)

theorem dev40_eq (c : Dev nD) : (⟨k0_dev40 c, Gen.k0_dev40_lt c⟩ : Dev nD) = Spec.prv c :=
  Fin.ext (by revert c; decide +kernel)

theorem dev41_eq (c : Dev nD) : (⟨k0_dev41 c, Gen.k0_dev41_lt c⟩ : Dev nD) = Spec.nxt c :=
  Fin.ext (by revert c; decide +kernel)

theorem dev42_eq (c : Dev nD) : (⟨k0_dev42 c, Gen.k0_dev42_lt c⟩ : Dev nD) = Spec.prv c :=
  Fin.ext (by revert c; decide +kernel)

theorem dev43_eq (c : Dev nD) : (⟨k0_dev43 c, Gen.k0_dev43_lt c⟩ : Dev nD) = Spec.prv c :=
  Fin.ext (by revert c; decide +kernel)

theorem dev44_eq (c : Dev nD) : (⟨k0_dev44 c, Gen.k0_dev44_lt c⟩ : Dev nD) = Spec.prv c :=
  Fin.ext (by revert c; decide +kernel)

theorem off1_eq : ∀ d24 : Dev nD, ∀ (r : Fin 2),
    k0_off1 d24 (BitVec.ofNat 32 (128 * r.val)) = ![256 * (Spec.opp d24).val + 128 * r.val, 0] := by
  decide +kernel

theorem off2_eq : ∀ d24 : Dev nD, ∀ (r : Fin 2),
    k0_off2 d24 (BitVec.ofNat 32 (128 * r.val)) = ![256 * (Spec.prv d24).val + 128 * r.val, 0] := by
  decide +kernel

theorem off3_eq : ∀ d24 : Dev nD, ∀ (r : Fin 2),
    k0_off3 d24 (BitVec.ofNat 32 (128 * r.val)) = ![256 * (Spec.nxt d24).val + 128 * r.val, 0] := by
  decide +kernel

end Cert.KernelIdeal.RingDev
-- ==== Proof.Cut.lean ====
import proofs.«900985_g7700000000000986_dist_mlpseq_tp1d_bs_rep_b256_d256_h512_v7x_i4_f32_1_alg».proof.Proof.Bufs
import Idealize.ShloMosaic.Lib.Ring
import Idealize.ShloMosaic.Rules.PointsTo

noncomputable section

namespace Cert.KernelIdeal.Ring

open Cert.KernelIdeal Cert.KernelIdeal.Gen Cert.KernelIdeal.Spec
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

section Keyed
variable {ℓ : Loc nD τ sig} {B : Type} [Fintype B] [DecidableEq B] {I : B → Finset (Idx ℓ)} {key : Idx ℓ → B}
  (h : ∀ b i, i ∈ I b ↔ key i = b)
include h

-- Sets that an element's key tells apart are pairwise disjoint and cover.
theorem keyed : (∀ b b', b ≠ b' → Disjoint (I b) (I b')) ∧ Finset.univ.biUnion I = Finset.univ :=
  ⟨fun b b' hb => Finset.disjoint_left.mpr fun i hi hi' => hb (((h b i).mp hi).symm.trans ((h b' i).mp hi')),
    Finset.eq_univ_iff_forall.mpr fun i => Finset.mem_biUnion.mpr ⟨key i, Finset.mem_univ _, (h _ i).mpr rfl⟩⟩

theorem keyed_cut (f : Buf (Elt F) ℓ) : (ℓ ↦{fullShare} f : sProp 𝕄) ⊣⊢ bigSep Finset.univ fun b => ℓ ↦[I b]{fullShare} f :=
  .of_eq (Ring.pointsTo_blocks I (keyed h).1 (keyed h).2 f)

theorem keyed_join : bigSep Finset.univ (fun b => iprop(∃ f, ℓ ↦[I b]{fullShare} f)) ⊢ (iprop(∃ g, ℓ ↦{fullShare} g) : sProp 𝕄) :=
  Ring.pointsTo_blocks_join_exists I (keyed h).1 (keyed h).2 fun _ => default

end Keyed

-- In a unit rectangle whose extent on each axis is one or the whole axis, membership is agreement with the offset on the axes of extent one.
theorem mem_unit {s : Shape} {off ext : Fin s.rank → ℕ} {inb} {i : s.Idx} (h : ∀ a, ext a = 1 ∨ ext a = s.size a) :
    i ∈ (Rect.unit off ext inb).set ↔ ∀ a, ext a = 1 → (i a).val = off a := by
  rw [Rect.mem_set_unit]
  exact forall_congr' fun a => by have := (i a).isLt; have := h a; have := inb a; omega

variable (c : Dev nD)

theorem mem_ybuf (j : Fin 2) (i : Idx ((c : Thread nD τ).loc cc0_scratch2)) : i ∈ (ybufM j).view.set ↔ i 0 = j := by
  rw [show (ybufM j).view.set = _ from (View.set_reshape _ _).trans (View.set_slice_whole _ _), mem_unit (by decide)]
  show (∀ a : Fin 3, _) ↔ _
  simp [Fin.forall_fin_succ]
  exact Fin.val_inj

theorem cut_ybuf (f : Buf (Elt F) ((c : Thread nD τ).loc cc0_scratch2)) :
    (((c : Thread nD τ).loc cc0_scratch2) ↦{fullShare} f : sProp 𝕄) ⊣⊢ iprop(pt c (ybufM 0) f ∗ pt c (ybufM 1) f) :=
  (keyed_cut (mem_ybuf c) f).trans (.of_eq (Ring.bigSep_fin2 _))

theorem join_ybuf : iprop((∃ f, pt (F := F) c (ybufM 0) f) ∗ (∃ f, pt (F := F) c (ybufM 1) f))
    ⊢ (iprop(∃ f : Buf (Elt F) ((c : Thread nD τ).loc cc0_scratch2), ((c : Thread nD τ).loc cc0_scratch2) ↦{fullShare} f) : sProp 𝕄) :=
  (Entails.of_eq (Ring.bigSep_fin2 _).symm).trans (keyed_join (mem_ybuf c))

theorem mem_rbuf (k : K) (i : Idx ((c : Thread nD τ).loc cc0_scratch3)) : i ∈ (slotM k).view.set ↔ (i 0, i 1, i 2) = k := by
  rw [show (slotM k).view.set = _ from (View.set_reshape _ _).trans (View.set_slice_whole _ _), mem_unit (by decide)]
  show (∀ a : Fin 5, _) ↔ _
  simp [Fin.forall_fin_succ]
  exact (Fin.val_inj.and ((Fin.val_inj.and Fin.val_inj).trans (Prod.ext_iff (x := (i 1, i 2))).symm)).trans (Prod.ext_iff (x := (i 0, i 1, i 2))).symm

theorem cut_rbuf (f : Buf (Elt F) ((c : Thread nD τ).loc cc0_scratch3)) :
    (((c : Thread nD τ).loc cc0_scratch3) ↦{fullShare} f : sProp 𝕄) ⊣⊢ bigSep (Finset.univ : Finset K) fun k => slotPts (F := F) c k f :=
  keyed_cut (mem_rbuf c) f

theorem join_rbuf : (bigSep (Finset.univ : Finset K) fun k => iprop(∃ f, slotPts (F := F) c k f))
    ⊢ (iprop(∃ f : Buf (Elt F) ((c : Thread nD τ).loc cc0_scratch3), ((c : Thread nD τ).loc cc0_scratch3) ↦{fullShare} f) : sProp 𝕄) :=
  keyed_join (ℓ := ((c : Thread nD τ).loc cc0_scratch3)) (mem_rbuf c)

theorem mem_sbuf (b : Fin 3 × Fin 2) (i : Idx ((c : Thread nD τ).loc cc0_scratch0)) : i ∈ (sbufM b.1 b.2).view.set ↔ (i 0, i 1) = b := by
  rw [show (sbufM b.1 b.2).view.set = _ from (View.set_reshape _ _).trans (View.set_slice_whole _ _), mem_unit (by decide)]
  show (∀ a : Fin 4, _) ↔ _
  simp [Fin.forall_fin_succ]
  exact (Fin.val_inj.and Fin.val_inj).trans (Prod.ext_iff (x := (i 0, i 1))).symm

-- The six index pairs in lexicographic order.
theorem bigSep_sbuf (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

theorem cut_sbuf (f : Buf (Elt F) ((c : Thread nD τ).loc cc0_scratch0)) :
    (((c : Thread nD τ).loc cc0_scratch0) ↦{fullShare} f : sProp 𝕄) ⊣⊢ iprop(pt c (sbufM 0 0) f ∗ pt c (sbufM 0 1) f ∗ pt c (sbufM 1 0) f ∗ pt c (sbufM 1 1) f ∗ pt c (sbufM 2 0) f ∗ pt c (sbufM 2 1) f) :=
  (keyed_cut (mem_sbuf c) f).trans (.of_eq (bigSep_sbuf _))

theorem join_sbuf : iprop((∃ f, pt (F := F) c (sbufM 0 0) f) ∗ (∃ f, pt (F := F) c (sbufM 0 1) f) ∗ (∃ f, pt (F := F) c (sbufM 1 0) f)
      ∗ (∃ f, pt (F := F) c (sbufM 1 1) f) ∗ (∃ f, pt (F := F) c (sbufM 2 0) f) ∗ (∃ f, pt (F := F) c (sbufM 2 1) f))
    ⊢ (iprop(∃ f : Buf (Elt F) ((c : Thread nD τ).loc cc0_scratch0), ((c : Thread nD τ).loc cc0_scratch0) ↦{fullShare} f) : sProp 𝕄) :=
  (Entails.of_eq (bigSep_sbuf _).symm).trans (keyed_join (mem_sbuf c))

theorem mem_wfin (j : Fin 3) (i : Idx ((c : Thread nD τ).loc cc0_scratch6)) : i ∈ (wfinM j).view.set ↔ i 0 = j := by
  rw [show (wfinM j).view.set = _ from (View.set_reshape _ _).trans (View.set_slice_whole _ _), mem_unit (by decide)]
  show (∀ a : Fin 3, _) ↔ _
  simp [Fin.forall_fin_succ]
  exact Fin.val_inj

theorem cut_wfin (f : Buf (Elt F) ((c : Thread nD τ).loc cc0_scratch6)) :
    (((c : Thread nD τ).loc cc0_scratch6) ↦{fullShare} f : sProp 𝕄) ⊣⊢ iprop(pt c (wfinM 0) f ∗ pt c (wfinM 1) f ∗ pt c (wfinM 2) f) :=
  (keyed_cut (mem_wfin c) f).trans (.of_eq (Ring.bigSep_fin3 _))

theorem join_wfin : iprop((∃ f, pt (F := F) c (wfinM 0) f) ∗ (∃ f, pt (F := F) c (wfinM 1) f) ∗ (∃ f, pt (F := F) c (wfinM 2) f))
    ⊢ (iprop(∃ f : Buf (Elt F) ((c : Thread nD τ).loc cc0_scratch6), ((c : Thread nD τ).loc cc0_scratch6) ↦{fullShare} f) : sProp 𝕄) :=
  (Entails.of_eq (Ring.bigSep_fin3 _).symm).trans (keyed_join (mem_wfin c))

theorem mem_wfout (j : Fin 3) (i : Idx ((c : Thread nD τ).loc cc0_scratch7)) : i ∈ (wfoutM j).view.set ↔ i 0 = j := by
  rw [show (wfoutM j).view.set = _ from (View.set_reshape _ _).trans (View.set_slice_whole _ _), mem_unit (by decide)]
  show (∀ a : Fin 3, _) ↔ _
  simp [Fin.forall_fin_succ]
  exact Fin.val_inj

theorem cut_wfout (f : Buf (Elt F) ((c : Thread nD τ).loc cc0_scratch7)) :
    (((c : Thread nD τ).loc cc0_scratch7) ↦{fullShare} f : sProp 𝕄) ⊣⊢ iprop(pt c (wfoutM 0) f ∗ pt c (wfoutM 1) f ∗ pt c (wfoutM 2) f) :=
  (keyed_cut (mem_wfout c) f).trans (.of_eq (Ring.bigSep_fin3 _))

theorem join_wfout : iprop((∃ f, pt (F := F) c (wfoutM 0) f) ∗ (∃ f, pt (F := F) c (wfoutM 1) f) ∗ (∃ f, pt (F := F) c (wfoutM 2) f))
    ⊢ (iprop(∃ f : Buf (Elt F) ((c : Thread nD τ).loc cc0_scratch7), ((c : Thread nD τ).loc cc0_scratch7) ↦{fullShare} f) : sProp 𝕄) :=
  (Entails.of_eq (Ring.bigSep_fin3 _).symm).trans (keyed_join (mem_wfout c))

end Cert.KernelIdeal.Ring

end
-- ==== Proof.Lists.lean ====
import proofs.«900985_g7700000000000986_dist_mlpseq_tp1d_bs_rep_b256_d256_h512_v7x_i4_f32_1_alg».proof.Proof.Ghost

noncomputable section

namespace Cert.KernelIdeal.Ring

open Cert.KernelIdeal Cert.KernelIdeal.Gen Cert.KernelIdeal.Spec
open Idealize.ShloMosaic Idealize.ShloMosaic.TcCoe
open Idealize.SL Idealize.SL.RA Idealize.SL.BI
open scoped Idealize.SL.BI
open Idealize.SL.BI.BIBase Idealize.SL.Sem

abbrev startU : List UK := [⟨(0, 0, 0), rfl⟩, ⟨(0, 1, 0), rfl⟩, ⟨(0, 0, 1), rfl⟩, ⟨(0, 1, 1), rfl⟩, ⟨(1, 3, 0), rfl⟩, ⟨(1, 3, 1), rfl⟩, ⟨(0, 2, 0), rfl⟩, ⟨(0, 2, 1), rfl⟩, ⟨(1, 0, 0), rfl⟩, ⟨(1, 1, 0), rfl⟩, ⟨(1, 0, 1), rfl⟩, ⟨(1, 1, 1), rfl⟩, ⟨(2, 0, 0), rfl⟩, ⟨(2, 1, 0), rfl⟩, ⟨(3, 3, 0), rfl⟩, ⟨(2, 0, 1), rfl⟩, ⟨(2, 1, 1), rfl⟩, ⟨(3, 3, 1), rfl⟩, ⟨(2, 2, 0), rfl⟩, ⟨(2, 2, 1), rfl⟩, ⟨(3, 0, 0), rfl⟩, ⟨(3, 1, 0), rfl⟩, ⟨(3, 0, 1), rfl⟩, ⟨(3, 1, 1), rfl⟩, ⟨(4, 0, 0), rfl⟩, ⟨(4, 1, 0), rfl⟩, ⟨(5, 3, 0), rfl⟩, ⟨(4, 0, 1), rfl⟩, ⟨(4, 1, 1), rfl⟩, ⟨(5, 3, 1), rfl⟩, ⟨(4, 2, 0), rfl⟩, ⟨(4, 2, 1), rfl⟩, ⟨(5, 0, 0), rfl⟩, ⟨(5, 1, 0), rfl⟩, ⟨(5, 0, 1), rfl⟩, ⟨(5, 1, 1), rfl⟩, ⟨(6, 0, 0), rfl⟩, ⟨(6, 1, 0), rfl⟩, ⟨(6, 0, 1), rfl⟩, ⟨(6, 1, 1), rfl⟩, ⟨(6, 2, 0), rfl⟩, ⟨(6, 2, 1), rfl⟩]
abbrev landU : List UK := [⟨(0, 1, 0), rfl⟩, ⟨(0, 1, 1), rfl⟩, ⟨(0, 0, 0), rfl⟩, ⟨(1, 3, 0), rfl⟩, ⟨(0, 0, 1), rfl⟩, ⟨(1, 3, 1), rfl⟩, ⟨(0, 2, 0), rfl⟩, ⟨(0, 2, 1), rfl⟩, ⟨(1, 0, 0), rfl⟩, ⟨(1, 1, 0), rfl⟩, ⟨(1, 0, 1), rfl⟩, ⟨(1, 1, 1), rfl⟩, ⟨(2, 1, 0), rfl⟩, ⟨(2, 1, 1), rfl⟩, ⟨(2, 0, 0), rfl⟩, ⟨(3, 3, 0), rfl⟩, ⟨(2, 0, 1), rfl⟩, ⟨(3, 3, 1), rfl⟩, ⟨(2, 2, 0), rfl⟩, ⟨(2, 2, 1), rfl⟩, ⟨(3, 0, 0), rfl⟩, ⟨(3, 1, 0), rfl⟩, ⟨(3, 0, 1), rfl⟩, ⟨(3, 1, 1), rfl⟩, ⟨(4, 1, 0), rfl⟩, ⟨(4, 1, 1), rfl⟩, ⟨(4, 0, 0), rfl⟩, ⟨(5, 3, 0), rfl⟩, ⟨(4, 0, 1), rfl⟩, ⟨(5, 3, 1), rfl⟩, ⟨(4, 2, 0), rfl⟩, ⟨(4, 2, 1), rfl⟩, ⟨(5, 0, 0), rfl⟩, ⟨(5, 1, 0), rfl⟩, ⟨(5, 0, 1), rfl⟩, ⟨(5, 1, 1), rfl⟩, ⟨(6, 1, 0), rfl⟩, ⟨(6, 1, 1), rfl⟩, ⟨(6, 0, 0), rfl⟩, ⟨(6, 0, 1), rfl⟩, ⟨(6, 2, 0), rfl⟩, ⟨(6, 2, 1), rfl⟩]
abbrev departU : List UK := [⟨(0, 0, 0), rfl⟩, ⟨(0, 1, 0), rfl⟩, ⟨(0, 0, 1), rfl⟩, ⟨(0, 1, 1), rfl⟩, ⟨(0, 2, 0), rfl⟩, ⟨(0, 2, 1), rfl⟩, ⟨(1, 3, 0), rfl⟩, ⟨(1, 3, 1), rfl⟩, ⟨(1, 0, 0), rfl⟩, ⟨(1, 1, 0), rfl⟩, ⟨(1, 0, 1), rfl⟩, ⟨(1, 1, 1), rfl⟩, ⟨(2, 0, 0), rfl⟩, ⟨(2, 1, 0), rfl⟩, ⟨(2, 0, 1), rfl⟩, ⟨(2, 1, 1), rfl⟩, ⟨(2, 2, 0), rfl⟩, ⟨(2, 2, 1), rfl⟩, ⟨(3, 3, 0), rfl⟩, ⟨(3, 3, 1), rfl⟩, ⟨(3, 0, 0), rfl⟩, ⟨(3, 1, 0), rfl⟩, ⟨(3, 0, 1), rfl⟩, ⟨(3, 1, 1), rfl⟩, ⟨(4, 0, 0), rfl⟩, ⟨(4, 1, 0), rfl⟩, ⟨(4, 0, 1), rfl⟩, ⟨(4, 1, 1), rfl⟩, ⟨(4, 2, 0), rfl⟩, ⟨(4, 2, 1), rfl⟩, ⟨(5, 3, 0), rfl⟩, ⟨(5, 3, 1), rfl⟩, ⟨(5, 0, 0), rfl⟩, ⟨(5, 1, 0), rfl⟩, ⟨(5, 0, 1), rfl⟩, ⟨(5, 1, 1), rfl⟩, ⟨(6, 0, 0), rfl⟩, ⟨(6, 1, 0), rfl⟩, ⟨(6, 0, 1), rfl⟩, ⟨(6, 1, 1), rfl⟩, ⟨(6, 2, 0), rfl⟩, ⟨(6, 2, 1), rfl⟩]
abbrev toNxtK : List K := [(0, 0, 0), (0, 0, 1), (1, 3, 0), (1, 3, 1), (1, 0, 0), (1, 0, 1), (2, 0, 0), (3, 3, 0), (2, 0, 1), (3, 3, 1), (3, 0, 0), (3, 0, 1), (4, 0, 0), (5, 3, 0), (4, 0, 1), (5, 3, 1), (5, 0, 0), (5, 0, 1), (6, 0, 0), (6, 0, 1)]
abbrev toPrvK : List K := [(0, 1, 0), (0, 1, 1), (0, 2, 0), (0, 2, 1), (1, 1, 0), (1, 1, 1), (2, 1, 0), (2, 1, 1), (2, 2, 0), (2, 2, 1), (3, 1, 0), (3, 1, 1), (4, 1, 0), (4, 1, 1), (4, 2, 0), (4, 2, 1), (5, 1, 0), (5, 1, 1), (6, 1, 0), (6, 1, 1), (6, 2, 0), (6, 2, 1)]
abbrev landK : List K := [(0, 1, 0), (0, 1, 1), (0, 0, 0), (1, 3, 0), (0, 0, 1), (1, 3, 1), (0, 2, 0), (0, 2, 1), (1, 0, 0), (1, 1, 0), (1, 0, 1), (1, 1, 1), (2, 1, 0), (2, 1, 1), (2, 0, 0), (3, 3, 0), (2, 0, 1), (3, 3, 1), (2, 2, 0), (2, 2, 1), (3, 0, 0), (3, 1, 0), (3, 0, 1), (3, 1, 1), (4, 1, 0), (4, 1, 1), (4, 0, 0), (5, 3, 0), (4, 0, 1), (5, 3, 1), (4, 2, 0), (4, 2, 1), (5, 0, 0), (5, 1, 0), (5, 0, 1), (5, 1, 1), (6, 1, 0), (6, 1, 1), (6, 0, 0), (6, 0, 1), (6, 2, 0), (6, 2, 1)]

abbrev landR : List UK := [⟨(6, 2, 1), rfl⟩, ⟨(6, 2, 0), rfl⟩, ⟨(6, 0, 1), rfl⟩, ⟨(6, 0, 0), rfl⟩, ⟨(6, 1, 1), rfl⟩, ⟨(6, 1, 0), rfl⟩, ⟨(5, 1, 1), rfl⟩, ⟨(5, 0, 1), rfl⟩, ⟨(5, 1, 0), rfl⟩, ⟨(5, 0, 0), rfl⟩, ⟨(4, 2, 1), rfl⟩, ⟨(4, 2, 0), rfl⟩, ⟨(5, 3, 1), rfl⟩, ⟨(4, 0, 1), rfl⟩, ⟨(5, 3, 0), rfl⟩, ⟨(4, 0, 0), rfl⟩, ⟨(4, 1, 1), rfl⟩, ⟨(4, 1, 0), rfl⟩, ⟨(3, 1, 1), rfl⟩, ⟨(3, 0, 1), rfl⟩, ⟨(3, 1, 0), rfl⟩, ⟨(3, 0, 0), rfl⟩, ⟨(2, 2, 1), rfl⟩, ⟨(2, 2, 0), rfl⟩, ⟨(3, 3, 1), rfl⟩, ⟨(2, 0, 1), rfl⟩, ⟨(3, 3, 0), rfl⟩, ⟨(2, 0, 0), rfl⟩, ⟨(2, 1, 1), rfl⟩, ⟨(2, 1, 0), rfl⟩, ⟨(1, 1, 1), rfl⟩, ⟨(1, 0, 1), rfl⟩, ⟨(1, 1, 0), rfl⟩, ⟨(1, 0, 0), rfl⟩, ⟨(0, 2, 1), rfl⟩, ⟨(0, 2, 0), rfl⟩, ⟨(1, 3, 1), rfl⟩, ⟨(0, 0, 1), rfl⟩, ⟨(1, 3, 0), rfl⟩, ⟨(0, 0, 0), rfl⟩, ⟨(0, 1, 1), rfl⟩, ⟨(0, 1, 0), rfl⟩]
abbrev departR : List UK := [⟨(6, 2, 1), rfl⟩, ⟨(6, 2, 0), rfl⟩, ⟨(6, 1, 1), rfl⟩, ⟨(6, 0, 1), rfl⟩, ⟨(6, 1, 0), rfl⟩, ⟨(6, 0, 0), rfl⟩, ⟨(5, 1, 1), rfl⟩, ⟨(5, 0, 1), rfl⟩, ⟨(5, 1, 0), rfl⟩, ⟨(5, 0, 0), rfl⟩, ⟨(5, 3, 1), rfl⟩, ⟨(5, 3, 0), rfl⟩, ⟨(4, 2, 1), rfl⟩, ⟨(4, 2, 0), rfl⟩, ⟨(4, 1, 1), rfl⟩, ⟨(4, 0, 1), rfl⟩, ⟨(4, 1, 0), rfl⟩, ⟨(4, 0, 0), rfl⟩, ⟨(3, 1, 1), rfl⟩, ⟨(3, 0, 1), rfl⟩, ⟨(3, 1, 0), rfl⟩, ⟨(3, 0, 0), rfl⟩, ⟨(3, 3, 1), rfl⟩, ⟨(3, 3, 0), rfl⟩, ⟨(2, 2, 1), rfl⟩, ⟨(2, 2, 0), rfl⟩, ⟨(2, 1, 1), rfl⟩, ⟨(2, 0, 1), rfl⟩, ⟨(2, 1, 0), rfl⟩, ⟨(2, 0, 0), rfl⟩, ⟨(1, 1, 1), rfl⟩, ⟨(1, 0, 1), rfl⟩, ⟨(1, 1, 0), rfl⟩, ⟨(1, 0, 0), rfl⟩, ⟨(1, 3, 1), rfl⟩, ⟨(1, 3, 0), rfl⟩, ⟨(0, 2, 1), rfl⟩, ⟨(0, 2, 0), rfl⟩, ⟨(0, 1, 1), rfl⟩, ⟨(0, 0, 1), rfl⟩, ⟨(0, 1, 0), rfl⟩, ⟨(0, 0, 0), rfl⟩]
theorem landR_nodup : landR.Nodup := by decide
theorem departR_nodup : departR.Nodup := by decide
theorem landR_univ : (Finset.univ : Finset UK) = landR.toFinset := by decide
theorem departR_univ : (Finset.univ : Finset UK) = departR.toFinset := by decide
theorem startU_nodup : startU.Nodup := by decide
theorem landU_nodup : landU.Nodup := by decide
theorem departU_nodup : departU.Nodup := by decide
theorem startU_univ : (Finset.univ : Finset UK) = startU.toFinset := by decide
theorem landU_univ : (Finset.univ : Finset UK) = landU.toFinset := by decide
theorem departU_univ : (Finset.univ : Finset UK) = departU.toFinset := by decide
theorem landK_filter : (Finset.univ.filter fun k : K => used k = true) = landK.toFinset := by decide
theorem toNxtK_nodup : toNxtK.Nodup := by decide
theorem toPrvK_nodup : toPrvK.Nodup := by decide
theorem landK_nodup : landK.Nodup := by decide
theorem toNxtK_filter : (Finset.univ.filter fun k : K => used k = true ∧ toNxt k = true) = toNxtK.toFinset := by decide
theorem toPrvK_filter : (Finset.univ.filter fun k : K => used k = true ∧ toNxt k = false) = toPrvK.toFinset := by decide

end Cert.KernelIdeal.Ring

end
-- ==== Proof.Regroup.lean ====
import proofs.«900985_g7700000000000986_dist_mlpseq_tp1d_bs_rep_b256_d256_h512_v7x_i4_f32_1_alg».proof.Proof.Cut
import proofs.«900985_g7700000000000986_dist_mlpseq_tp1d_bs_rep_b256_d256_h512_v7x_i4_f32_1_alg».proof.Proof.Lists

noncomputable section

namespace Cert.KernelIdeal.Ring

open Cert.KernelIdeal Cert.KernelIdeal.Gen Cert.KernelIdeal.Spec
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

theorem filter_toPrv : (Finset.univ.filter fun k : K => used k = true ∧ ¬ toNxt k = true)
    = Finset.univ.filter fun k : K => used k = true ∧ toNxt k = false :=
  Finset.filter_congr fun k _ => by rw [Bool.not_eq_true]

omit [FloatOps F] in
-- The slots split by whether they are used, and the used ones by direction.
theorem slots_regroup (c : Dev nD) (f : Buf (Elt F) ((c : Thread nD τ).loc cc0_scratch3)) :
    (bigSep (Finset.univ : Finset K) fun k => slotPts (F := F) c k f)
      ⊢ iprop(barT (F := F) (prv c) ∗ barF (F := F) (nxt c) ∗ bigSep (Finset.univ.filter fun k : K => ¬ used k = true) fun k => iprop(∃ f, slotPts (F := F) c k f)) := by
  refine (bigSep_mono (Ψ := fun k => iprop(∃ f, slotPts (F := F) c k f)) fun k _ => exists_intro (Φ := fun f => slotPts c k f) f).trans ?_
  rw [bigSep_filter_split Finset.univ (fun k : K => used k = true),
    bigSep_filter_split (Finset.univ.filter fun k : K => used k = true) (fun k : K => toNxt k = true),
    Finset.filter_filter, Finset.filter_filter, filter_toPrv]
  unfold barT barF
  rw [nxt_prv, prv_nxt]
  exact Idealize.SL.BI.sep_assoc

-- A list without repetition of the used slots, and the unused slots, are all the slots.
theorem rbuf_back (c : Dev nD) :
    iprop((bigSepL landK fun k => iprop(∃ f, slotPts (F := F) c k f)) ∗ bigSep (Finset.univ.filter fun k : K => ¬ used k = true) fun k => iprop(∃ f, slotPts (F := F) c k f))
      ⊢ (iprop(∃ f : Buf (Elt F) ((c : Thread nD τ).loc cc0_scratch3), ((c : Thread nD τ).loc cc0_scratch3) ↦{fullShare} f) : sProp 𝕄) := by
  rw [← bigSep_eq_bigSepL_of_eq landK landK_filter landK_nodup]
  exact (Entails.of_eq (bigSep_filter_split Finset.univ (fun k : K => used k = true)).symm).trans (join_rbuf c)

end Cert.KernelIdeal.Ring

end
-- ==== Proof.Shares.lean ====
import proofs.«900985_g7700000000000986_dist_mlpseq_tp1d_bs_rep_b256_d256_h512_v7x_i4_f32_1_alg».proof.Proof.Bufs
import Idealize.ShloMosaic.Rules.PointsTo

noncomputable section

namespace Cert.KernelIdeal.Ring

open Cert.KernelIdeal Cert.KernelIdeal.Gen Cert.KernelIdeal.Spec
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] {ℓ : Loc nD τ sig} {I : Finset (Idx ℓ)}
local notation "𝕄" => MT nD τ sig Unit (Elt F) ℕ UU ℕ

theorem split_half (q : PosShare TreeShare) (f : Buf (Elt F) ℓ) :
    (ℓ ↦[I]{q} f : sProp 𝕄) ⊢ iprop((ℓ ↦[I]{q.left} f) ∗ ℓ ↦[I]{q.right} f) :=
  (pointsTo_share (PosShare.mem_left_op_right q)).1

-- Halves held at contents of their own agree on the elements, so they join at the right half's contents.
theorem join_half (q : PosShare TreeShare) (f g : Buf (Elt F) ℓ) :
    iprop((ℓ ↦[I]{q.left} f) ∗ ℓ ↦[I]{q.right} g) ⊢ (ℓ ↦[I]{q} g : sProp 𝕄) :=
  Laws.pure_elim _ pointsTo_agree fun h => by
    rw [pointsTo_congr (q := q.left) (g := g) fun i hi => (h i (Finset.mem_inter.mpr ⟨hi, hi⟩)).1]
    exact (pointsTo_share (PosShare.mem_left_op_right q)).2

theorem split_three (f : Buf (Elt F) ℓ) :
    (ℓ ↦[I]{fullShare} f : sProp 𝕄)
      ⊢ iprop((ℓ ↦[I]{fullShare.left.left} f) ∗ (ℓ ↦[I]{fullShare.left.right} f) ∗ ℓ ↦[I]{fullShare.right} f) :=
  (split_half fullShare f).trans ((sep_mono_l (split_half fullShare.left f)).trans sep_assoc)

theorem join_three (f₁ f₂ g : Buf (Elt F) ℓ) :
    iprop((ℓ ↦[I]{fullShare.left.left} f₁) ∗ (ℓ ↦[I]{fullShare.left.right} f₂) ∗ ℓ ↦[I]{fullShare.right} g)
      ⊢ (ℓ ↦[I]{fullShare} g : sProp 𝕄) :=
  sep_assoc'.trans ((sep_mono_l (join_half fullShare.left f₁ f₂)).trans (join_half fullShare f₂ g))

end Cert.KernelIdeal.Ring

end
-- ==== Proof.SliceIO.lean ====
import proofs.«900985_g7700000000000986_dist_mlpseq_tp1d_bs_rep_b256_d256_h512_v7x_i4_f32_1_alg».proof.Proof.Bufs
import Idealize.ShloMosaic.Signature.View
import Idealize.ShloMosaic.Signature.Memref
import Idealize.ShloMosaic.Lib.Pipeline.Value

noncomputable section

namespace Cert.KernelIdeal.Ring

open Cert.KernelIdeal Cert.KernelIdeal.Gen
open Idealize.ShloMosaic Idealize.ShloMosaic.TcCoe

variable {F : FTy → Type} [FloatOps F]

section General

variable {κ : Kind} {sp : Space} {s s' : Shape} {e : EltTy} {Val : EltTy → Type}

-- A view and its re-indexing by another shape meet at indices of equal row-major position.
theorem read_reshape_write_univ (v : View sig κ sp s e) (h : s'.numel = s.numel) (f : v.ty.Contents Val) (w : s.Idx → Val e) :
    (v.reshape s' h).read Val (v.write Val f w Finset.univ) = shapeCast s' w h := by
  show shapeCast s' (v.read Val _) h = _
  rw [View.read_write_univ]

theorem read_write_reshape_univ_cast (v : View sig κ sp s e) (h : s'.numel = s.numel) (hc : s'.ShapeCasts s) (f : v.ty.Contents Val)
    (w : s'.Idx → Val e) :
    v.read Val ((v.reshape s' h).write Val f w Finset.univ) = shapeCast s w hc := by
  funext x
  have hx : v.emb x = (v.reshape s' h).emb ((Shape.reshapeEquiv h).symm x) := by
    show v.emb x = v.emb (Shape.reshapeEquiv h ((Shape.reshapeEquiv h).symm x))
    rw [Equiv.apply_symm_apply]
  rw [View.read_apply, hx, View.write_emb_of_mem _ _ (Finset.mem_univ _), cast_cast, cast_eq]
  show w ((Shape.reshapeEquiv h).symm x) = w (Shape.reshapeEquiv hc x)
  rw [Shape.reshapeEquiv_symm]

end General

theorem ybuf_read (c : Fin 2) (j : ℕ) (hj : j = c.val)
    (h : ∀ a, (![j, 0, 0] : Fin 3 → ℕ) a + S1x128x256.size a ≤ S2x128x256.size a)
    (y : (cc0_scratch2 : Ref sig .tc).ty.Contents (Elt F)) (V : S1x128x256.Idx → Elt F .bf16) :
    (ybufM c).view.read (Elt F) (View.write (Elt F) ((Memref.whole cc0_scratch2 : Memref sig .tc .vmem S2x128x256 .bf16).access
        (Rect.unit (s := S2x128x256) ![j, 0, 0] S1x128x256.size h)) y V Finset.univ)
      = shapeCast S128x256 V shapeCasts_S1x128x256_S128x256 := by
  subst hj
  exact read_reshape_write_univ (Val := Elt F) (s' := S128x256)
    ((Memref.whole cc0_scratch2 : Memref sig .tc .vmem S2x128x256 .bf16).access (Rect.unit (s := S2x128x256) ![c.val, 0, 0] S1x128x256.size h))
    squeezes_S1x128x256_S128x256.numel_eq y V

theorem sbuf_read (j : Fin 3) (c : Fin 2) (jn cn : ℕ) (hj : jn = j.val) (hc : cn = c.val)
    (h : ∀ a, (![jn, cn, 0, 0] : Fin 4 → ℕ) a + S1x1x128x256.size a ≤ S3x2x128x256.size a)
    (y : (cc0_scratch0 : Ref sig .tc).ty.Contents (Elt F)) (V : S1x1x128x256.Idx → Elt F .bf16) :
    (sbufM j c).view.read (Elt F) (View.write (Elt F) ((Memref.whole cc0_scratch0 : Memref sig .tc .vmem S3x2x128x256 .bf16).access
        (Rect.unit (s := S3x2x128x256) ![jn, cn, 0, 0] S1x1x128x256.size h)) y V Finset.univ)
      = shapeCast S128x256 V shapeCasts_S1x1x128x256_S128x256 := by
  subst hj hc
  exact read_reshape_write_univ (Val := Elt F) (s' := S128x256)
    ((Memref.whole cc0_scratch0 : Memref sig .tc .vmem S3x2x128x256 .bf16).access (Rect.unit (s := S3x2x128x256) ![j.val, c.val, 0, 0] S1x1x128x256.size h))
    squeezes_S1x1x128x256_S128x256.numel_eq y V

theorem slot_read (k : K) (f : (cc0_scratch3 : Ref sig .tc).ty.Contents (Elt F)) (W : S128x256.Idx → Elt F .bf16) :
    (slotM k).view.read (Elt F) ((slotM k).view.write (Elt F) f W Finset.univ) = W :=
  View.read_write_univ (v := (slotM k).view) f W

theorem slot_load (k : K) (p s c : ℕ) (hp : p = k.1.val) (hs : s = k.2.1.val) (hc : c = k.2.2.val)
    (h : ∀ a, (![p, s, c, 0, 0] : Fin 5 → ℕ) a + S1x1x1x128x256.size a ≤ S7x4x2x128x256.size a)
    (f : (cc0_scratch3 : Ref sig .tc).ty.Contents (Elt F)) (W : S128x256.Idx → Elt F .bf16) :
    shapeCast S128x256
        ((Memref.whole cc0_scratch3 : Memref sig .tc .vmem S7x4x2x128x256 .bf16).view.readAt (Elt F)
          (Rect.unit (s := S7x4x2x128x256) ![p, s, c, 0, 0] S1x1x1x128x256.size h).toLoadRect
          ((slotM k).view.write (Elt F) f W Finset.univ))
        shapeCasts_S1x1x1x128x256_S128x256
      = W := by
  subst hp hs hc
  exact (congrArg (shapeCast S128x256 · _) (read_write_reshape_univ_cast
    ((Memref.whole cc0_scratch3 : Memref sig .tc .vmem S7x4x2x128x256 .bf16).access
      (Rect.unit (s := S7x4x2x128x256) ![k.1.val, k.2.1.val, k.2.2.val, 0, 0] S1x1x1x128x256.size h))
    squeezes_S1x1x1x128x256_S128x256.numel_eq squeezes_S1x1x1x128x256_S128x256.numel_eq.symm f W)).trans (shapeCast_shapeCast W _ _)

section Casts
variable {α : Type}

theorem cast_S1x128x256_roundtrip (v : S128x256.Idx → α) :
    shapeCast S128x256 (shapeCast S1x128x256 v shapeCasts_S128x256_S1x128x256) shapeCasts_S1x128x256_S128x256 = v :=
  shapeCast_shapeCast v _ _
theorem cast_S1x1x128x256_roundtrip (v : S128x256.Idx → α) :
    shapeCast S128x256 (shapeCast S1x1x128x256 v shapeCasts_S128x256_S1x1x128x256) shapeCasts_S1x1x128x256_S128x256 = v :=
  shapeCast_shapeCast v _ _

end Casts

end Cert.KernelIdeal.Ring

end
-- ==== Proof.BodyVals.lean ====
import proofs.«900985_g7700000000000986_dist_mlpseq_tp1d_bs_rep_b256_d256_h512_v7x_i4_f32_1_alg».proof.Proof.SliceIO
import proofs.«900985_g7700000000000986_dist_mlpseq_tp1d_bs_rep_b256_d256_h512_v7x_i4_f32_1_alg».proof.Proof.Data
import proofs.«900985_g7700000000000986_dist_mlpseq_tp1d_bs_rep_b256_d256_h512_v7x_i4_f32_1_alg».proof.Proof.Gen.KernelIdeal.Skeleton

noncomputable section

namespace Cert.KernelIdeal.Ring

open Cert.KernelIdeal Cert.KernelIdeal.Gen Cert.KernelIdeal.Spec
open Idealize.ShloMosaic Idealize.ShloMosaic.TcCoe

variable {F : FTy → Type} [FloatOps F]

variable (m : (ℓ : Loc nD τ sig) → Buf (Elt F) ℓ) (ρ : Dev nD → PrngReg)

theorem k0_pay3_eq (v : Vec F S128x256 .f32) : k0_pay3 v = k0_pay2 (k0_pay1 v) := rfl

theorem ybuf_pay2 (c' : Fin 2) (j : ℕ) (hj : j = c'.val)
    (h : ∀ a, (![j, 0, 0] : Fin 3 → ℕ) a + S1x128x256.size a ≤ S2x128x256.size a)
    (y : (cc0_scratch2 : Ref sig .tc).ty.Contents (Elt F)) (v : FVec F S128x256 .bf16) :
    (ybufM c').view.read (Elt F) (View.write (Elt F) ((Memref.whole cc0_scratch2 : Memref sig .tc .vmem S2x128x256 .bf16).access
        (Rect.unit (s := S2x128x256) ![j, 0, 0] S1x128x256.size h)) y (k0_pay2 v) Finset.univ) = v := by
  rw [ybuf_read c' j hj h y (k0_pay2 v)]
  exact cast_S1x128x256_roundtrip v

theorem xstg_eq (c : Dev nD) : xstg m ρ c = xbOf m c := by
  unfold xstg xbOf
  exact Memref.read_access_unit_zero (Elt F) main_arg0 (funext fun a => Nat.zero_mul _) _ _

-- The rectangle at rows `128·c'` of the block embeds row `i` at row `128·c' + i`.
theorem xrows_load (c' : Fin 2) (j : ℕ) (hj : j = 128 * c'.val)
    (h : ∀ a, (![j, 0] : Fin 2 → ℕ) a + S128x256.size a ≤ S256x256.size a) (X : Vec F S256x256 .f32) :
    (Memref.whole cc0_stg0_0 : Memref sig .tc .vmem S256x256 .f32).view.readAt (Elt F)
        (Rect.unit (s := S256x256) ![j, 0] S128x256.size h).toLoadRect X = Spec.rowsOf X c' := by
  subst hj
  funext i
  show X _ = X _
  congr 1
  funext a
  apply Fin.ext
  match a with
  | ⟨0, _⟩ => show 128 * c'.val + 1 * (i 0).val = 128 * c'.val + (i 0).val; omega
  | ⟨1, _⟩ => show 0 + 1 * (i 1).val = (i 1).val; omega

theorem pay1_xrows (c : Dev nD) (c' : Fin 2) (j : ℕ) (hj : j = 128 * c'.val)
    (h : ∀ a, (![j, 0] : Fin 2 → ℕ) a + S128x256.size a ≤ S256x256.size a) :
    k0_pay1 ((Memref.whole cc0_stg0_0 : Memref sig .tc .vmem S256x256 .f32).view.readAt (Elt F)
        (Rect.unit (s := S256x256) ![j, 0] S128x256.size h).toLoadRect (xstg m ρ c))
      = Spec.Y16 (xbOf m) (wiOf m) (woOf m) 0 c c' := by
  rw [xstg_eq, xrows_load c' j hj h]
  unfold k0_pay1
  rw [shapeCast_self]
  rfl

-- In an even phase `2·l` slots 0 and 1 carry a device's chunk of layer `l` to its successor and predecessor.
theorem SVm_slot0 (p : Fin 7) (l : ℕ) (hp : p.val = 2 * l) (c : Dev nD) (c' : Fin 2) :
    SVm m (p, 0, c') (tgt (p, 0, c') c) = Spec.Y16 (xbOf m) (wiOf m) (woOf m) l c c' := by
  have hp2 : p.val % 2 = 0 := by omega
  have hl : p.val / 2 = l := by omega
  simp [SVm, Spec.slotVal, tgt, toNxt, hp2, hl, Spec.prv_nxt]

theorem SVm_slot1 (p : Fin 7) (l : ℕ) (hp : p.val = 2 * l) (c : Dev nD) (c' : Fin 2) :
    SVm m (p, 1, c') (tgt (p, 1, c') c) = Spec.Y16 (xbOf m) (wiOf m) (woOf m) l c c' := by
  have hp2 : p.val % 2 = 0 := by omega
  have hl : p.val / 2 = l := by omega
  simp [SVm, Spec.slotVal, tgt, toNxt, hp2, hl, Spec.nxt_prv]

-- Slot 2 forwards to the predecessor what landed here in slot 1.
theorem SVm_slot2 (p : Fin 7) (hp : p.val % 2 = 0) (c : Dev nD) (c' : Fin 2) :
    SVm m (p, 2, c') (tgt (p, 2, c') c) = SVm m (p, 1, c') c := by
  have ho : ∀ d : Dev nD, opp (prv d) = nxt d := by decide
  simp [SVm, Spec.slotVal, tgt, toNxt, hp, ho]

end Cert.KernelIdeal.Ring

end
-- ==== Proof.BodyVals2.lean ====
import proofs.«900985_g7700000000000986_dist_mlpseq_tp1d_bs_rep_b256_d256_h512_v7x_i4_f32_1_alg».proof.Proof.BodyVals
import Idealize.ShloMosaic.Lib.Writes
import Idealize.ShloMosaic.Lib.Exec.Geometry
import Idealize.ShloMosaic.Lib.Pipeline.FrameBody

noncomputable section

namespace Cert.KernelIdeal.Ring

open Cert.KernelIdeal Cert.KernelIdeal.Gen Cert.KernelIdeal.Spec
open Idealize.ShloMosaic Idealize.ShloMosaic.TcCoe

variable {F : FTy → Type} [FloatOps F]

variable (m : (ℓ : Loc nD τ sig) → Buf (Elt F) ℓ) (ρ : Dev nD → PrngReg)

variable (X1 : Vec F S1x1x1x128x256 .bf16) (x : FVec F S128x256 .bf16) (Y : Vec F S1x128x256 .bf16)
  (wi : FVec F S256x512 .bf16) (W1 : Vec F S1x256x512 .bf16) (W2 : Vec F S1x512x256 .bf16) (wo : FVec F S512x256 .bf16)
  (X3 : Vec F S1x1x1x128x256 .bf16) (own : FVec F S128x256 .f32) (X : Vec F S1x128x256 .f32) (a b : Vec F S1x1x1x128x256 .bf16)

-- A whole write through the re-indexing, read through the view itself, is the shape cast of what was written.
theorem read_writes_reshape {κ : Kind} {sp : Space} {s s' : Shape} {e : EltTy} (v : View sig κ sp s e) (h : s'.numel = s.numel)
    (hc : s'.ShapeCasts s) (f : v.ty.Contents (Elt F)) (w : s'.Idx → Elt F e) :
    v.read (Elt F) ((v.reshape s' h).writes (Elt F) f [⟨Rect.whole s', w⟩]) = shapeCast s w hc := by
  rw [← View.writes_nil (Val := Elt F) (v.reshape s' h) f, ← View.write_univ_eq_writes_whole]
  exact read_write_reshape_univ_cast v h hc _ w

theorem wfin_load (j : ℕ) (h h' : ∀ a, (![j, 0, 0] : Fin 3 → ℕ) a + S1x256x512.size a ≤ S3x256x512.size a)
    (hn : S256x512.numel = (Rect.unit (s := S3x256x512) ![j, 0, 0] S1x256x512.size h').shape.numel)
    (g : (cc0_scratch6 : Ref sig .tc).ty.Contents (Elt F)) (W : S256x512.Idx → Elt F .f32) :
    (Memref.whole cc0_scratch6 : Memref sig .tc .vmem S3x256x512 .f32).view.readAt (Elt F)
        (Rect.unit (s := S3x256x512) ![j, 0, 0] S1x256x512.size h).toLoadRect
        ((((Memref.whole cc0_scratch6 : Memref sig .tc .vmem S3x256x512 .f32).access
            (Rect.unit (s := S3x256x512) ![j, 0, 0] S1x256x512.size h')).reshape S256x512 hn).writes (Elt F) g
          [⟨Rect.whole S256x512, W⟩])
      = shapeCast S1x256x512 W shapeCasts_S256x512_S1x256x512 :=
  read_writes_reshape ((Memref.whole cc0_scratch6 : Memref sig .tc .vmem S3x256x512 .f32).access
    (Rect.unit (s := S3x256x512) ![j, 0, 0] S1x256x512.size h')) hn _ g W

theorem wfout_load (j : ℕ) (h h' : ∀ a, (![j, 0, 0] : Fin 3 → ℕ) a + S1x512x256.size a ≤ S3x512x256.size a)
    (hn : S512x256.numel = (Rect.unit (s := S3x512x256) ![j, 0, 0] S1x512x256.size h').shape.numel)
    (g : (cc0_scratch7 : Ref sig .tc).ty.Contents (Elt F)) (W : S512x256.Idx → Elt F .f32) :
    (Memref.whole cc0_scratch7 : Memref sig .tc .vmem S3x512x256 .f32).view.readAt (Elt F)
        (Rect.unit (s := S3x512x256) ![j, 0, 0] S1x512x256.size h).toLoadRect
        ((((Memref.whole cc0_scratch7 : Memref sig .tc .vmem S3x512x256 .f32).access
            (Rect.unit (s := S3x512x256) ![j, 0, 0] S1x512x256.size h')).reshape S512x256 hn).writes (Elt F) g
          [⟨Rect.whole S512x256, W⟩])
      = shapeCast S1x512x256 W shapeCasts_S512x256_S1x512x256 :=
  read_writes_reshape ((Memref.whole cc0_scratch7 : Memref sig .tc .vmem S3x512x256 .f32).access
    (Rect.unit (s := S3x512x256) ![j, 0, 0] S1x512x256.size h')) hn _ g W

theorem pay7_pay4 (W : S256x512.Idx → Elt F .f32) :
    k0_pay7 (k0_pay4 (shapeCast S1x256x512 W shapeCasts_S256x512_S1x256x512)) = truncf .bf16 W bitsLt_bf16_f32 := by
  unfold k0_pay7 k0_pay4
  rw [shapeCast_shapeCast, shapeCast_shapeCast]

theorem cast_pay5 (W : S512x256.Idx → Elt F .f32) :
    shapeCast S512x256 (k0_pay5 (shapeCast S1x512x256 W shapeCasts_S512x256_S1x512x256)) shapeCasts_S1x512x256_S512x256
      = truncf .bf16 W bitsLt_bf16_f32 := by
  unfold k0_pay5
  rw [shapeCast_shapeCast, shapeCast_shapeCast]

theorem pay6_pay2 (v : FVec F S128x256 .bf16) : k0_pay6 (k0_pay2 v) = v := by
  unfold k0_pay6 k0_pay2
  exact shapeCast_shapeCast v _ _

theorem k0_pay8_eq : k0_pay8 x wi W2 = shapeCast S1x1x128x256
      (truncf .bf16 (Spec.part x wi (shapeCast S512x256 W2 shapeCasts_S1x512x256_S512x256)) bitsLt_bf16_f32)
      shapeCasts_S128x256_S1x1x128x256 := rfl

theorem sbuf_cast (j : Fin 3) (c' : Fin 2) (jn cn : ℕ) (hj : jn = j.val) (hc : cn = c'.val)
    (h : ∀ a, (![jn, cn, 0, 0] : Fin 4 → ℕ) a + S1x1x128x256.size a ≤ S3x2x128x256.size a)
    (y : (cc0_scratch0 : Ref sig .tc).ty.Contents (Elt F)) (v : FVec F S128x256 .bf16) :
    (sbufM j c').view.read (Elt F) (View.write (Elt F) ((Memref.whole cc0_scratch0 : Memref sig .tc .vmem S3x2x128x256 .bf16).access
        (Rect.unit (s := S3x2x128x256) ![jn, cn, 0, 0] S1x1x128x256.size h)) y
        (shapeCast S1x1x128x256 v shapeCasts_S128x256_S1x1x128x256) Finset.univ) = v := by
  rw [sbuf_read j c' jn cn hj hc h y]
  exact cast_S1x1x128x256_roundtrip v

theorem SVm_slot3 (p : Fin 7) (l : ℕ) (hp : p.val = 2 * l + 1) (c : Dev nD) (c' : Fin 2) :
    SVm m (p, 3, c') (tgt (p, 3, c') c)
      = truncf .bf16 (Spec.P (wiOf m) (woOf m) (lw l) c (Spec.Y16 (xbOf m) (wiOf m) (woOf m) l c c')) bitsLt_bf16_f32 := by
  have hp2 : ¬ p.val % 2 = 0 := by omega
  have hl : p.val / 2 = l := by omega
  simp [SVm, Spec.slotVal, tgt, toNxt, hp2, hl, Spec.prv_nxt]

theorem k0_pay9_eq (v : Vec F S1x128x256 .bf16) : k0_pay9 v = k0_pay6 v := rfl
theorem k0_pay10_eq (v : Vec F S1x256x512 .bf16) : k0_pay10 v = k0_pay7 v := rfl
theorem k0_pay11_eq : k0_pay11 x wi W2 = k0_pay8 x wi W2 := rfl
theorem k0_pay12_eq (v : Vec F S1x256x512 .f32) : k0_pay12 v = k0_pay4 v := rfl
theorem k0_pay13_eq (v : Vec F S1x512x256 .f32) : k0_pay13 v = k0_pay5 v := rfl
theorem k0_pay15_14_eq (v : Vec F S1x256x512 .f32) : k0_pay15 (k0_pay14 v) = k0_pay4 v := rfl
theorem k0_pay16_eq (v : Vec F S1x512x256 .f32) : k0_pay16 v = k0_pay5 v := rfl
theorem k0_pay18_eq (v : Vec F S1x512x256 .bf16) : k0_pay18 v = shapeCast S512x256 v shapeCasts_S1x512x256_S512x256 := rfl

theorem cast_pay4 (W : S256x512.Idx → Elt F .f32) :
    shapeCast S256x512 (k0_pay4 (shapeCast S1x256x512 W shapeCasts_S256x512_S1x256x512)) shapeCasts_S1x256x512_S256x512
      = truncf .bf16 W bitsLt_bf16_f32 := pay7_pay4 W

-- A load reads past a write to a rectangle separated from its own along the leading axis.
theorem readCov_skip_wi (j j' : ℕ) (hne : j' + 1 ≤ j ∨ j + 1 ≤ j')
    (h : ∀ a, (![j, 0, 0] : Fin 3 → ℕ) a + S1x256x512.size a ≤ S3x256x512.size a)
    (h' : ∀ a, (![j', 0, 0] : Fin 3 → ℕ) a + S1x256x512.size a ≤ S3x256x512.size a)
    (w : S1x256x512.Idx → Elt F .bf16) (L : List (View.Piece (Elt F) S3x256x512 .bf16)) :
    (Memref.whole cc0_scratch4 : Memref sig .tc .vmem S3x256x512 .bf16).view.readCov
        (⟨Rect.unit (s := S3x256x512) ![j', 0, 0] S1x256x512.size h', w⟩ :: L) (Rect.unit (s := S3x256x512) ![j, 0, 0] S1x256x512.size h).toLoadRect
      = (Memref.whole cc0_scratch4 : Memref sig .tc .vmem S3x256x512 .bf16).view.readCov L
          (Rect.unit (s := S3x256x512) ![j, 0, 0] S1x256x512.size h).toLoadRect :=
  View.readCov_cons_of_disjoint _ _ L _ (Rect.unit_disjoint (s := S3x256x512) (inb := h') (inb' := h) (0 : Fin 3) hne)

theorem readCov_skip_wo (j j' : ℕ) (hne : j' + 1 ≤ j ∨ j + 1 ≤ j')
    (h : ∀ a, (![j, 0, 0] : Fin 3 → ℕ) a + S1x512x256.size a ≤ S3x512x256.size a)
    (h' : ∀ a, (![j', 0, 0] : Fin 3 → ℕ) a + S1x512x256.size a ≤ S3x512x256.size a)
    (w : S1x512x256.Idx → Elt F .bf16) (L : List (View.Piece (Elt F) S3x512x256 .bf16)) :
    (Memref.whole cc0_scratch5 : Memref sig .tc .vmem S3x512x256 .bf16).view.readCov
        (⟨Rect.unit (s := S3x512x256) ![j', 0, 0] S1x512x256.size h', w⟩ :: L) (Rect.unit (s := S3x512x256) ![j, 0, 0] S1x512x256.size h).toLoadRect
      = (Memref.whole cc0_scratch5 : Memref sig .tc .vmem S3x512x256 .bf16).view.readCov L
          (Rect.unit (s := S3x512x256) ![j, 0, 0] S1x512x256.size h).toLoadRect :=
  View.readCov_cons_of_disjoint _ _ L _ (Rect.unit_disjoint (s := S3x512x256) (inb := h') (inb' := h) (0 : Fin 3) hne)

theorem k0_pay19_eq : k0_pay19 (k0_pay17 X1 W1) wo X3 = shapeCast S1x1x128x256
      (truncf .bf16 (addf (Spec.part (shapeCast S128x256 X1 shapeCasts_S1x1x1x128x256_S128x256)
            (shapeCast S256x512 W1 shapeCasts_S1x256x512_S256x512) wo)
          (extf .f32 (shapeCast S128x256 X3 shapeCasts_S1x1x1x128x256_S128x256) bitsLt_bf16_f32)) bitsLt_bf16_f32)
      shapeCasts_S128x256_S1x1x128x256 := rfl

theorem k0_pay23_eq : k0_pay23 (k0_pay21 X1 W1) k0_pay22 W2 X3 = shapeCast S1x1x128x256
      (truncf .bf16 (addf (Spec.part (shapeCast S128x256 X1 shapeCasts_S1x1x1x128x256_S128x256)
            (shapeCast S256x512 W1 shapeCasts_S1x256x512_S256x512) (shapeCast S512x256 W2 shapeCasts_S1x512x256_S512x256))
          (extf .f32 (shapeCast S128x256 X3 shapeCasts_S1x1x1x128x256_S128x256) bitsLt_bf16_f32)) bitsLt_bf16_f32)
      shapeCasts_S128x256_S1x1x128x256 := rfl

theorem k0_pay20_eq : k0_pay20 X1 W1 W2 = shapeCast S1x1x128x256
      (truncf .bf16 (Spec.part (shapeCast S128x256 X1 shapeCasts_S1x1x1x128x256_S128x256)
          (shapeCast S256x512 W1 shapeCasts_S1x256x512_S256x512) (shapeCast S512x256 W2 shapeCasts_S1x512x256_S512x256)) bitsLt_bf16_f32)
      shapeCasts_S128x256_S1x1x128x256 := rfl

theorem k0_pay24_eq : k0_pay24 X1 W1 W2 = k0_pay20 X1 W1 W2 := rfl

theorem SVm_odd0 (pe po : Fin 7) (l : ℕ) (hpe : pe.val = 2 * l) (hpo : po.val = 2 * l + 1) (c : Dev nD) (c' : Fin 2) :
    SVm m (po, 0, c') (tgt (po, 0, c') c)
      = truncf .bf16 (addf (Spec.P (wiOf m) (woOf m) (lw l) c (SVm m (pe, 0, c') c))
          (extf .f32 (SVm m (po, 3, c') c) bitsLt_bf16_f32)) bitsLt_bf16_f32 := by
  have h1 : ¬ po.val % 2 = 0 := by omega
  have h2 : po.val / 2 = l := by omega
  have h3 : pe.val % 2 = 0 := by omega
  have h4 : pe.val / 2 = l := by omega
  have ho : ∀ d : Dev nD, opp (nxt d) = prv d := by decide
  simp [SVm, Spec.slotVal, tgt, toNxt, h1, h2, h3, h4, ho, Spec.prv_nxt]

theorem SVm_odd1 (pe po : Fin 7) (l : ℕ) (hpe : pe.val = 2 * l) (hpo : po.val = 2 * l + 1) (c : Dev nD) (c' : Fin 2) :
    SVm m (po, 1, c') (tgt (po, 1, c') c)
      = truncf .bf16 (Spec.P (wiOf m) (woOf m) (lw l) c (SVm m (pe, 1, c') c)) bitsLt_bf16_f32 := by
  have h1 : ¬ po.val % 2 = 0 := by omega
  have h2 : po.val / 2 = l := by omega
  have h3 : pe.val % 2 = 0 := by omega
  have h4 : pe.val / 2 = l := by omega
  have ho : ∀ d : Dev nD, opp (prv d) = nxt d := by decide
  simp [SVm, Spec.slotVal, tgt, toNxt, h1, h2, h3, h4, ho, Spec.nxt_prv]

theorem k0_pay27_eq (v : Vec F S1x1x1x128x256 .bf16) : k0_pay27 v = shapeCast S128x256 v shapeCasts_S1x1x1x128x256_S128x256 := rfl
theorem k0_pay37_eq (v : FVec F S128x256 .bf16) : k0_pay37 v = shapeCast S1x1x128x256 v shapeCasts_S128x256_S1x1x128x256 := rfl

theorem k0_pay26_eq : k0_pay26 x W1 W2 = shapeCast S1x128x256
      (Spec.part x (shapeCast S256x512 W1 shapeCasts_S1x256x512_S256x512) (shapeCast S512x256 W2 shapeCasts_S1x512x256_S512x256))
      shapeCasts_S128x256_S1x128x256 := rfl
theorem k0_pay28_eq : k0_pay28 x W1 W2 = k0_pay26 x W1 W2 := rfl

theorem k0_pay30_eq : k0_pay30 own a b = shapeCast S1x128x256
      (truncf .bf16 (addf (addf own (extf .f32 (shapeCast S128x256 a shapeCasts_S1x1x1x128x256_S128x256) bitsLt_bf16_f32))
        (extf .f32 (shapeCast S128x256 b shapeCasts_S1x1x1x128x256_S128x256) bitsLt_bf16_f32)) bitsLt_bf16_f32)
      shapeCasts_S128x256_S1x128x256 := rfl
theorem k0_pay32_eq : k0_pay32 X a b = k0_pay30 (shapeCast S128x256 X shapeCasts_S1x128x256_S128x256) a b := rfl

theorem k0_pay31_eq : k0_pay31 Y W1 W2 = shapeCast S1x1x128x256
      (truncf .bf16 (Spec.part (shapeCast S128x256 Y shapeCasts_S1x128x256_S128x256)
          (shapeCast S256x512 W1 shapeCasts_S1x256x512_S256x512) (shapeCast S512x256 W2 shapeCasts_S1x512x256_S512x256)) bitsLt_bf16_f32)
      shapeCasts_S128x256_S1x1x128x256 := rfl
theorem k0_pay33_eq : k0_pay33 Y W1 W2 = truncf .bf16 (Spec.part (shapeCast S128x256 Y shapeCasts_S1x128x256_S128x256)
          (shapeCast S256x512 W1 shapeCasts_S1x256x512_S256x512) (shapeCast S512x256 W2 shapeCasts_S1x512x256_S512x256)) bitsLt_bf16_f32 := rfl

theorem k0_pay36_eq : k0_pay36 x W1 W2 X3 = truncf .bf16 (addf (Spec.part x (shapeCast S256x512 W1 shapeCasts_S1x256x512_S256x512)
          (shapeCast S512x256 W2 shapeCasts_S1x512x256_S512x256))
        (extf .f32 (shapeCast S128x256 X3 shapeCasts_S1x1x1x128x256_S128x256) bitsLt_bf16_f32)) bitsLt_bf16_f32 := rfl
theorem k0_pay38_eq : k0_pay38 X1 W1 W2 = truncf .bf16 (Spec.part (shapeCast S128x256 X1 shapeCasts_S1x1x1x128x256_S128x256)
          (shapeCast S256x512 W1 shapeCasts_S1x256x512_S256x512) (shapeCast S512x256 W2 shapeCasts_S1x512x256_S512x256)) bitsLt_bf16_f32 := rfl
theorem k0_pay42_eq : k0_pay42 (k0_pay40 X1 W1 W2) (k0_pay41 X3) = shapeCast S1x1x128x256
      (truncf .bf16 (addf (Spec.part (shapeCast S128x256 X1 shapeCasts_S1x1x1x128x256_S128x256)
            (shapeCast S256x512 W1 shapeCasts_S1x256x512_S256x512) (shapeCast S512x256 W2 shapeCasts_S1x512x256_S512x256))
          (extf .f32 (shapeCast S128x256 X3 shapeCasts_S1x1x1x128x256_S128x256) bitsLt_bf16_f32)) bitsLt_bf16_f32)
      shapeCasts_S128x256_S1x1x128x256 := rfl
theorem k0_pay44_eq : k0_pay44 (k0_pay43 X1 W1) W2 = shapeCast S1x1x128x256
      (truncf .bf16 (Spec.part (shapeCast S128x256 X1 shapeCasts_S1x1x1x128x256_S128x256)
          (shapeCast S256x512 W1 shapeCasts_S1x256x512_S256x512) (shapeCast S512x256 W2 shapeCasts_S1x512x256_S512x256)) bitsLt_bf16_f32)
      shapeCasts_S128x256_S1x1x128x256 := rfl

theorem ybuf_cast (c' : Fin 2) (j : ℕ) (hj : j = c'.val)
    (h : ∀ a, (![j, 0, 0] : Fin 3 → ℕ) a + S1x128x256.size a ≤ S2x128x256.size a)
    (y : (cc0_scratch2 : Ref sig .tc).ty.Contents (Elt F)) (v : FVec F S128x256 .bf16) :
    (ybufM c').view.read (Elt F) (View.write (Elt F) ((Memref.whole cc0_scratch2 : Memref sig .tc .vmem S2x128x256 .bf16).access
        (Rect.unit (s := S2x128x256) ![j, 0, 0] S1x128x256.size h)) y
        (shapeCast S1x128x256 v shapeCasts_S128x256_S1x128x256) Finset.univ) = v :=
  ybuf_pay2 c' j hj h y v

theorem readCov_skip_own (j j' : ℕ) (hne : j' + 1 ≤ j ∨ j + 1 ≤ j')
    (h : ∀ a, (![j, 0, 0] : Fin 3 → ℕ) a + S1x128x256.size a ≤ S2x128x256.size a)
    (h' : ∀ a, (![j', 0, 0] : Fin 3 → ℕ) a + S1x128x256.size a ≤ S2x128x256.size a)
    (w : S1x128x256.Idx → Elt F .f32) (L : List (View.Piece (Elt F) S2x128x256 .f32)) :
    (Memref.whole cc0_scratch1 : Memref sig .tc .vmem S2x128x256 .f32).view.readCov
        (⟨Rect.unit (s := S2x128x256) ![j', 0, 0] S1x128x256.size h', w⟩ :: L) (Rect.unit (s := S2x128x256) ![j, 0, 0] S1x128x256.size h).toLoadRect
      = (Memref.whole cc0_scratch1 : Memref sig .tc .vmem S2x128x256 .f32).view.readCov L
          (Rect.unit (s := S2x128x256) ![j, 0, 0] S1x128x256.size h).toLoadRect :=
  View.readCov_cons_of_disjoint _ _ L _ (Rect.unit_disjoint (s := S2x128x256) (inb := h') (inb' := h) (0 : Fin 3) hne)

theorem Y16_succ (pe po : Fin 7) (l l' : ℕ) (hpe : pe.val = 2 * l) (hpo : po.val = 2 * l + 1) (hl' : l' = l + 1) (c : Dev nD) (c' : Fin 2) :
    Spec.Y16 (xbOf m) (wiOf m) (woOf m) l' c c'
      = truncf .bf16 (addf (addf (Spec.P (wiOf m) (woOf m) (lw l) c (SVm m (pe, 2, c') c))
            (extf .f32 (SVm m (po, 0, c') c) bitsLt_bf16_f32))
          (extf .f32 (SVm m (po, 1, c') c) bitsLt_bf16_f32)) bitsLt_bf16_f32 := by
  subst hl'
  have h1 : ¬ po.val % 2 = 0 := by omega
  have h2 : po.val / 2 = l := by omega
  have h3 : pe.val % 2 = 0 := by omega
  have h4 : pe.val / 2 = l := by omega
  have hY : Spec.Y16 (xbOf m) (wiOf m) (woOf m) (l + 1) c c'
      = truncf .bf16 (Spec.sumOf (wiOf m) (woOf m) (lw l) (Spec.Y16 (xbOf m) (wiOf m) (woOf m) l) c c') bitsLt_bf16_f32 := rfl
  rw [hY]
  unfold Spec.sumOf SVm Spec.slotVal
  simp [h1, h2, h3, h4]

end Cert.KernelIdeal.Ring

end
-- ==== Proof.BodyVals4.lean ====
import proofs.«900985_g7700000000000986_dist_mlpseq_tp1d_bs_rep_b256_d256_h512_v7x_i4_f32_1_alg».proof.Proof.BodyVals2

noncomputable section

namespace Cert.KernelIdeal.Ring

open Cert.KernelIdeal Cert.KernelIdeal.Gen Cert.KernelIdeal.Spec
open Idealize.ShloMosaic Idealize.ShloMosaic.TcCoe

variable {F : FTy → Type} [FloatOps F]

variable (X1 : Vec F S1x1x1x128x256 .bf16) (x : FVec F S128x256 .bf16) (Y : Vec F S1x128x256 .bf16)
  (wi : FVec F S256x512 .bf16) (W1 : Vec F S1x256x512 .bf16) (W2 : Vec F S1x512x256 .bf16)
  (X3 : Vec F S1x1x1x128x256 .bf16) (X : Vec F S1x128x256 .f32) (a b : Vec F S1x1x1x128x256 .bf16)

-- The later layers' payloads are layer 1's computations again.
theorem k0_pay45_eq :
    k0_pay45 X1 W1 W2 = shapeCast S1x128x256
      (Spec.part (shapeCast S128x256 X1 shapeCasts_S1x1x1x128x256_S128x256)
        (shapeCast S256x512 W1 shapeCasts_S1x256x512_S256x512) (shapeCast S512x256 W2 shapeCasts_S1x512x256_S512x256))
      shapeCasts_S128x256_S1x128x256 := rfl
theorem k0_pay46_eq : k0_pay46 X1 W1 W2 = k0_pay45 X1 W1 W2 := rfl
theorem k0_pay62_eq : k0_pay62 X1 W1 W2 = k0_pay45 X1 W1 W2 := rfl
theorem k0_pay63_eq : k0_pay63 X1 W1 W2 = k0_pay45 X1 W1 W2 := rfl

theorem k0_pay47_eq : k0_pay47 X a b = k0_pay30 (shapeCast S128x256 X shapeCasts_S1x128x256_S128x256) a b := rfl
theorem k0_pay50_eq : k0_pay50 X a b = k0_pay30 (shapeCast S128x256 X shapeCasts_S1x128x256_S128x256) a b := rfl
theorem k0_pay65_eq : k0_pay65 X a b = k0_pay30 (shapeCast S128x256 X shapeCasts_S1x128x256_S128x256) a b := rfl
theorem k0_pay67_eq : k0_pay67 X a b = k0_pay30 (shapeCast S128x256 X shapeCasts_S1x128x256_S128x256) a b := rfl

theorem k0_pay48_eq : k0_pay48 Y W1 W2 = k0_pay33 Y W1 W2 := rfl
theorem k0_pay53_eq :
    k0_pay53 x wi W2 = shapeCast S1x1x128x256
      (truncf .bf16 (Spec.part x wi (shapeCast S512x256 W2 shapeCasts_S1x512x256_S512x256)) bitsLt_bf16_f32)
      shapeCasts_S128x256_S1x1x128x256 := rfl

theorem k0_pay55_eq :
    k0_pay55 (k0_pay54 X1 W1 W2) X3 = shapeCast S1x1x128x256
      (truncf .bf16 (addf (Spec.part (shapeCast S128x256 X1 shapeCasts_S1x1x1x128x256_S128x256)
            (shapeCast S256x512 W1 shapeCasts_S1x256x512_S256x512) (shapeCast S512x256 W2 shapeCasts_S1x512x256_S512x256))
          (extf .f32 (shapeCast S128x256 X3 shapeCasts_S1x1x1x128x256_S128x256) bitsLt_bf16_f32)) bitsLt_bf16_f32)
      shapeCasts_S128x256_S1x1x128x256 := rfl
theorem k0_pay60_eq : k0_pay60 (k0_pay59 X1 W1 W2) X3 = k0_pay55 (k0_pay54 X1 W1 W2) X3 := rfl

theorem k0_pay58_eq :
    k0_pay58 (k0_pay56 X1) (k0_pay57 W1) (constant S128x512 .f32 0x00000000#32) W2 = k0_pay20 X1 W1 W2 := rfl
theorem k0_pay61_eq : k0_pay61 X1 W1 W2 = k0_pay20 X1 W1 W2 := rfl

end Cert.KernelIdeal.Ring

end
-- ==== Proof.OutVal.lean ====
import proofs.«900985_g7700000000000986_dist_mlpseq_tp1d_bs_rep_b256_d256_h512_v7x_i4_f32_1_alg».proof.Proof.Data
import proofs.«900985_g7700000000000986_dist_mlpseq_tp1d_bs_rep_b256_d256_h512_v7x_i4_f32_1_alg».proof.Proof.RingDev
import proofs.«900985_g7700000000000986_dist_mlpseq_tp1d_bs_rep_b256_d256_h512_v7x_i4_f32_1_alg».proof.Proof.Gen.KernelIdeal.Skeleton
import Idealize.ShloMosaic.Lib.Writes

noncomputable section

namespace Cert.KernelIdeal.Ring

open Cert.KernelIdeal Cert.KernelIdeal.Gen Cert.KernelIdeal.Spec
open Idealize.ShloMosaic Idealize.ShloMosaic.TcCoe

variable {F : FTy → Type} [FloatOps F]

section Flow

variable (xb : Dev nD → Vec F S256x256 .f32) (wi : Fin 3 → Dev nD → Vec F S256x512 .f32) (wo : Fin 3 → Dev nD → Vec F S512x256 .f32)

-- Row `256·b + 128·r + x` of the result array is row `x` of chunk `r` of block `b`.
theorem OUT_at (d b : Dev nD) (r : Fin 2) (i : S1024x256.Idx) (x : S128x256.Idx)
    (h0 : (i 0).val = 256 * b.val + 128 * r.val + (x 0).val) (h1 : (i 1).val = (x 1).val) :
    Spec.OUT xb wi wo d i = Spec.outRows xb wi wo d b r x := by
  have hx0 : (x 0).val < 128 := (x 0).isLt
  have hr : r.val < 2 := r.isLt
  have hb : b.val < 4 := b.isLt
  have key : ∀ (B : Dev nD) (R : Fin 2) (X : S128x256.Idx), B = b → R = r → X = x →
      Spec.outRows xb wi wo d B R X = Spec.outRows xb wi wo d b r x := by
    rintro _ _ _ rfl rfl rfl; rfl
  unfold Spec.OUT
  refine key _ _ _ (Fin.ext ?_) (Fin.ext ?_) (funext fun a => ?_)
  · show (i 0).val / 256 = b.val; omega
  · show (i 0).val % 256 / 128 = r.val; omega
  · match a with
    | ⟨0, _⟩ => exact Fin.ext (by show (i 0).val % 128 = (x 0).val; omega)
    | ⟨1, _⟩ => exact Fin.ext (by show (i 1).val = (x 1).val; omega)

theorem piece_ok (c b : Dev nD) (r : Fin 2) (off : Fin 2 → ℕ) (hoff : off = ![256 * b.val + 128 * r.val, 0])
    (inb : ∀ a, off a + S128x256.size a ≤ S1024x256.size a) (P : S128x256.Idx → Elt F .f32)
    (hP : P = Spec.outRows xb wi wo c b r) (x : (Rect.unit (s := S1024x256) off S128x256.size inb).shape.Idx) :
    P x = Spec.OUT xb wi wo c ((Rect.unit (s := S1024x256) off S128x256.size inb).emb x) := by
  subst hoff hP
  exact (OUT_at xb wi wo c b r _ x (by show 256 * b.val + 128 * r.val + 1 * (x 0).val = _; omega)
    (by show 0 + 1 * (x 1).val = _; omega)).symm

omit [FloatOps F] in
theorem mem_piece (b : Dev nD) (r : Fin 2) (off : Fin 2 → ℕ) (hoff : off = ![256 * b.val + 128 * r.val, 0])
    (inb : ∀ a, off a + S128x256.size a ≤ S1024x256.size a) (y : S1024x256.Idx)
    (hy : (y 0).val / 256 = b.val ∧ (y 0).val % 256 / 128 = r.val) :
    y ∈ (Rect.unit (s := S1024x256) off S128x256.size inb).set := by
  subst hoff
  rw [Rect.mem_set_unit]
  have h1 : (y 1).val < 256 := (y 1).isLt
  intro a
  match a with
  | ⟨0, _⟩ => show 256 * b.val + 128 * r.val ≤ (y 0).val ∧ (y 0).val < 256 * b.val + 128 * r.val + 128; omega
  | ⟨1, _⟩ => show 0 ≤ (y 1).val ∧ (y 1).val < 0 + 256; omega

omit [FloatOps F] in
theorem block_cases : ∀ c b : Dev nD, b = c ∨ b = nxt c ∨ b = prv c ∨ b = opp c := by decide

-- Each piece agrees with the result array on its rows, and the eight pieces cover all rows.
theorem out_writes (c : Dev nD) (g : (cc0_stg1_0 : Ref sig .tc).ty.Contents (Elt F))
    (i10 : ∀ a, (k0_off1 c 0#32) a + S128x256.size a ≤ S1024x256.size a) (i11 : ∀ a, (k0_off1 c 128#32) a + S128x256.size a ≤ S1024x256.size a)
    (i20 : ∀ a, (k0_off2 c 0#32) a + S128x256.size a ≤ S1024x256.size a) (i21 : ∀ a, (k0_off2 c 128#32) a + S128x256.size a ≤ S1024x256.size a)
    (i30 : ∀ a, (k0_off3 c 0#32) a + S128x256.size a ≤ S1024x256.size a) (i31 : ∀ a, (k0_off3 c 128#32) a + S128x256.size a ≤ S1024x256.size a)
    (i40 : ∀ a, (k0_off4 c 0#32) a + S128x256.size a ≤ S1024x256.size a) (i41 : ∀ a, (k0_off4 c 128#32) a + S128x256.size a ≤ S1024x256.size a)
    (P10 P11 P20 P21 P30 P31 P40 P41 : S128x256.Idx → Elt F .f32)
    (h10 : P10 = Spec.outRows xb wi wo c (opp c) 0) (h11 : P11 = Spec.outRows xb wi wo c (opp c) 1)
    (h20 : P20 = Spec.outRows xb wi wo c (prv c) 0) (h21 : P21 = Spec.outRows xb wi wo c (prv c) 1)
    (h30 : P30 = Spec.outRows xb wi wo c (nxt c) 0) (h31 : P31 = Spec.outRows xb wi wo c (nxt c) 1)
    (h40 : P40 = Spec.outRows xb wi wo c c 0) (h41 : P41 = Spec.outRows xb wi wo c c 1) :
    ∀ L : List (View.Piece (Elt F) S1024x256 .f32), L =
        [⟨Rect.unit (s := S1024x256) (k0_off4 c 128#32) S128x256.size i41, P41⟩, ⟨Rect.unit (s := S1024x256) (k0_off4 c 0#32) S128x256.size i40, P40⟩,
         ⟨Rect.unit (s := S1024x256) (k0_off3 c 128#32) S128x256.size i31, P31⟩, ⟨Rect.unit (s := S1024x256) (k0_off3 c 0#32) S128x256.size i30, P30⟩,
         ⟨Rect.unit (s := S1024x256) (k0_off2 c 128#32) S128x256.size i21, P21⟩, ⟨Rect.unit (s := S1024x256) (k0_off2 c 0#32) S128x256.size i20, P20⟩,
         ⟨Rect.unit (s := S1024x256) (k0_off1 c 128#32) S128x256.size i11, P11⟩, ⟨Rect.unit (s := S1024x256) (k0_off1 c 0#32) S128x256.size i10, P10⟩] →
      (Memref.whole cc0_stg1_0 : Memref sig .tc .vmem S1024x256 .f32).view.writes (Elt F) g L = Spec.OUT xb wi wo c := by
  intro L hL
  have e10 := RingDev.off1_eq c 0
  have e11 := RingDev.off1_eq c 1
  have e20 := RingDev.off2_eq c 0
  have e21 := RingDev.off2_eq c 1
  have e30 := RingDev.off3_eq c 0
  have e31 := RingDev.off3_eq c 1
  have e40 := Gen.k0_off4_eq c 0
  have e41 := Gen.k0_off4_eq c 1
  funext i
  have key : ∀ (hp : ∀ p ∈ L, ∀ x : p.1.shape.Idx, p.2 x = Spec.OUT xb wi wo c (p.1.emb x)) (hc : ∃ p ∈ L, i ∈ p.1.set),
      (Memref.whole cc0_stg1_0 : Memref sig .tc .vmem S1024x256 .f32).view.writes (Elt F) g L i = Spec.OUT xb wi wo c i :=
    fun hp hc => View.read_writes_apply_of_pieces (Val := Elt F) (Memref.whole cc0_stg1_0 : Memref sig .tc .vmem S1024x256 .f32).view g
      (Spec.OUT xb wi wo c) L hp i hc
  subst hL
  refine key (fun p hp x => ?_) ?_
  · simp only [List.mem_cons, List.mem_nil_iff, or_false] at hp
    rcases hp with rfl | rfl | rfl | rfl | rfl | rfl | rfl | rfl
    · exact piece_ok xb wi wo c c 1 _ e41 i41 P41 h41 x
    · exact piece_ok xb wi wo c c 0 _ e40 i40 P40 h40 x
    · exact piece_ok xb wi wo c (nxt c) 1 _ e31 i31 P31 h31 x
    · exact piece_ok xb wi wo c (nxt c) 0 _ e30 i30 P30 h30 x
    · exact piece_ok xb wi wo c (prv c) 1 _ e21 i21 P21 h21 x
    · exact piece_ok xb wi wo c (prv c) 0 _ e20 i20 P20 h20 x
    · exact piece_ok xb wi wo c (opp c) 1 _ e11 i11 P11 h11 x
    · exact piece_ok xb wi wo c (opp c) 0 _ e10 i10 P10 h10 x
  · have hi0 : (i 0).val < 1024 := (i 0).isLt
    have hr : (i 0).val % 256 / 128 = 0 ∨ (i 0).val % 256 / 128 = 1 := by omega
    rcases block_cases c ⟨(i 0).val / 256, by show _ < 4; omega⟩ with hb | hb | hb | hb <;> rcases hr with hr | hr
    · exact ⟨_, .tail _ (.head _), mem_piece c 0 _ e40 i40 i ⟨congrArg Fin.val hb, hr⟩⟩
    · exact ⟨_, .head _, mem_piece c 1 _ e41 i41 i ⟨congrArg Fin.val hb, hr⟩⟩
    · exact ⟨_, .tail _ (.tail _ (.tail _ (.head _))), mem_piece (nxt c) 0 _ e30 i30 i ⟨congrArg Fin.val hb, hr⟩⟩
    · exact ⟨_, .tail _ (.tail _ (.head _)), mem_piece (nxt c) 1 _ e31 i31 i ⟨congrArg Fin.val hb, hr⟩⟩
    · exact ⟨_, .tail _ (.tail _ (.tail _ (.tail _ (.tail _ (.head _))))), mem_piece (prv c) 0 _ e20 i20 i ⟨congrArg Fin.val hb, hr⟩⟩
    · exact ⟨_, .tail _ (.tail _ (.tail _ (.tail _ (.head _)))), mem_piece (prv c) 1 _ e21 i21 i ⟨congrArg Fin.val hb, hr⟩⟩
    · exact ⟨_, .tail _ (.tail _ (.tail _ (.tail _ (.tail _ (.tail _ (.tail _ (.head _))))))), mem_piece (opp c) 0 _ e10 i10 i ⟨congrArg Fin.val hb, hr⟩⟩
    · exact ⟨_, .tail _ (.tail _ (.tail _ (.tail _ (.tail _ (.tail _ (.head _)))))), mem_piece (opp c) 1 _ e11 i11 i ⟨congrArg Fin.val hb, hr⟩⟩

theorem outRows_opp (c : Dev nD) (r : Fin 2) : Spec.outRows xb wi wo c (opp c) r = Spec.Ysum xb wi wo 2 c r := by
  unfold Spec.outRows; rw [if_pos rfl]
theorem outRows_prv (c : Dev nD) (r : Fin 2) : Spec.outRows xb wi wo c (prv c) r = extf .f32 (Spec.Y16 xb wi wo 3 (nxt c) r) bitsLt_bf16_f32 := by
  unfold Spec.outRows; rw [if_neg (by revert c; decide), show opp (prv c) = nxt c from by revert c; decide]
theorem outRows_nxt (c : Dev nD) (r : Fin 2) : Spec.outRows xb wi wo c (nxt c) r = extf .f32 (Spec.Y16 xb wi wo 3 (prv c) r) bitsLt_bf16_f32 := by
  unfold Spec.outRows; rw [if_neg (by revert c; decide), show opp (nxt c) = prv c from by revert c; decide]
theorem outRows_self (c : Dev nD) (r : Fin 2) : Spec.outRows xb wi wo c c r = extf .f32 (Spec.Y16 xb wi wo 3 (opp c) r) bitsLt_bf16_f32 := by
  unfold Spec.outRows; rw [if_neg (by revert c; decide)]

end Flow

section Values

variable (m : (ℓ : Loc nD τ sig) → Buf (Elt F) ℓ)

theorem SVm_last0 (c : Dev nD) (r : Fin 2) : SVm m (6, 0, r) c = Spec.Y16 (xbOf m) (wiOf m) (woOf m) 3 (prv c) r := by
  show Spec.slotVal (xbOf m) (wiOf m) (woOf m) 6 0 c r = _
  unfold Spec.slotVal
  rw [if_pos (by decide), if_pos rfl]
theorem SVm_last1 (c : Dev nD) (r : Fin 2) : SVm m (6, 1, r) c = Spec.Y16 (xbOf m) (wiOf m) (woOf m) 3 (nxt c) r := by
  show Spec.slotVal (xbOf m) (wiOf m) (woOf m) 6 1 c r = _
  unfold Spec.slotVal
  rw [if_pos (by decide), if_neg (by decide), if_pos rfl]
theorem SVm_last2 (c : Dev nD) (r : Fin 2) : SVm m (6, 2, r) c = Spec.Y16 (xbOf m) (wiOf m) (woOf m) 3 (opp c) r := by
  show Spec.slotVal (xbOf m) (wiOf m) (woOf m) 6 2 c r = _
  unfold Spec.slotVal
  rw [if_pos (by decide), if_neg (by decide), if_neg (by decide)]

theorem SVm_scat0 (c : Dev nD) (r : Fin 2) : SVm m (5, 0, r) c
    = truncf .bf16 (addf (Spec.P (wiOf m) (woOf m) (lw 2) (prv c) (Spec.Y16 (xbOf m) (wiOf m) (woOf m) 2 (opp c) r))
        (extf .f32 (truncf .bf16 (Spec.P (wiOf m) (woOf m) (lw 2) (opp c) (Spec.Y16 (xbOf m) (wiOf m) (woOf m) 2 (opp c) r)) bitsLt_bf16_f32) bitsLt_bf16_f32)) bitsLt_bf16_f32 := by
  show Spec.slotVal (xbOf m) (wiOf m) (woOf m) 5 0 c r = _
  unfold Spec.slotVal
  rw [if_neg (by decide), if_neg (by decide), if_pos rfl]
theorem SVm_scat1 (c : Dev nD) (r : Fin 2) : SVm m (5, 1, r) c
    = truncf .bf16 (Spec.P (wiOf m) (woOf m) (lw 2) (nxt c) (Spec.Y16 (xbOf m) (wiOf m) (woOf m) 2 (opp c) r)) bitsLt_bf16_f32 := by
  show Spec.slotVal (xbOf m) (wiOf m) (woOf m) 5 1 c r = _
  unfold Spec.slotVal
  rw [if_neg (by decide), if_neg (by decide), if_neg (by decide)]
theorem SVm_gath2 (c : Dev nD) (r : Fin 2) : SVm m (4, 2, r) c = Spec.Y16 (xbOf m) (wiOf m) (woOf m) 2 (opp c) r := by
  show Spec.slotVal (xbOf m) (wiOf m) (woOf m) 4 2 c r = _
  unfold Spec.slotVal
  rw [if_pos (by decide), if_neg (by decide), if_neg (by decide)]

theorem Ysum_last (c : Dev nD) (r : Fin 2) :
    Spec.Ysum (xbOf m) (wiOf m) (woOf m) 2 c r
      = addf (addf (Spec.P (wiOf m) (woOf m) (lw 2) c (SVm m (4, 2, r) c)) (extf .f32 (SVm m (5, 0, r) c) bitsLt_bf16_f32))
          (extf .f32 (SVm m (5, 1, r) c) bitsLt_bf16_f32) := by
  rw [SVm_gath2, SVm_scat0, SVm_scat1]
  rfl

end Values

section Payloads

variable (own : Vec F S1x128x256 .f32) (a b : Vec F S1x1x1x128x256 .bf16) (X1 : Vec F S1x1x1x128x256 .bf16)
  (W1 : Vec F S1x256x512 .bf16) (W2 : Vec F S1x512x256 .bf16) (v : Vec F S1x1x1x128x256 .bf16)

theorem out_pay64_eq :
    k0_pay64 own a b = addf (addf (shapeCast S128x256 own shapeCasts_S1x128x256_S128x256)
        (extf .f32 (shapeCast S128x256 a shapeCasts_S1x1x1x128x256_S128x256) bitsLt_bf16_f32))
      (extf .f32 (shapeCast S128x256 b shapeCasts_S1x1x1x128x256_S128x256) bitsLt_bf16_f32) := rfl
theorem out_pay66_eq :
    k0_pay66 own a b = addf (addf (shapeCast S128x256 own shapeCasts_S1x128x256_S128x256)
        (extf .f32 (shapeCast S128x256 a shapeCasts_S1x1x1x128x256_S128x256) bitsLt_bf16_f32))
      (extf .f32 (shapeCast S128x256 b shapeCasts_S1x1x1x128x256_S128x256) bitsLt_bf16_f32) := rfl
theorem out_pay62_eq :
    k0_pay62 X1 W1 W2 = shapeCast S1x128x256
      (Spec.part (shapeCast S128x256 X1 shapeCasts_S1x1x1x128x256_S128x256) (shapeCast S256x512 W1 shapeCasts_S1x256x512_S256x512)
        (shapeCast S512x256 W2 shapeCasts_S1x512x256_S512x256)) shapeCasts_S128x256_S1x128x256 := rfl
theorem out_pay63_eq :
    k0_pay63 X1 W1 W2 = shapeCast S1x128x256
      (Spec.part (shapeCast S128x256 X1 shapeCasts_S1x1x1x128x256_S128x256) (shapeCast S256x512 W1 shapeCasts_S1x256x512_S256x512)
        (shapeCast S512x256 W2 shapeCasts_S1x512x256_S512x256)) shapeCasts_S128x256_S1x128x256 := rfl
theorem out_pay68_eq : k0_pay68 v = extf .f32 (shapeCast S128x256 v shapeCasts_S1x1x1x128x256_S128x256) bitsLt_bf16_f32 := rfl
theorem out_pay69_eq : k0_pay69 v = extf .f32 (shapeCast S128x256 v shapeCasts_S1x1x1x128x256_S128x256) bitsLt_bf16_f32 := rfl
theorem out_pay70_eq : k0_pay70 v = extf .f32 (shapeCast S128x256 v shapeCasts_S1x1x1x128x256_S128x256) bitsLt_bf16_f32 := rfl
theorem out_pay71_eq : k0_pay71 v = extf .f32 (shapeCast S128x256 v shapeCasts_S1x1x1x128x256_S128x256) bitsLt_bf16_f32 := rfl
theorem out_pay72_eq : k0_pay72 v = extf .f32 (shapeCast S128x256 v shapeCasts_S1x1x1x128x256_S128x256) bitsLt_bf16_f32 := rfl
theorem out_pay73_eq : k0_pay73 v = extf .f32 (shapeCast S128x256 v shapeCasts_S1x1x1x128x256_S128x256) bitsLt_bf16_f32 := rfl

end Payloads

end Cert.KernelIdeal.Ring

end
-- ==== Proof.Launch.lean ====
import proofs.«900985_g7700000000000986_dist_mlpseq_tp1d_bs_rep_b256_d256_h512_v7x_i4_f32_1_alg».proof.Proof.Data
import proofs.«900985_g7700000000000986_dist_mlpseq_tp1d_bs_rep_b256_d256_h512_v7x_i4_f32_1_alg».proof.Proof.Steps
import proofs.«900985_g7700000000000986_dist_mlpseq_tp1d_bs_rep_b256_d256_h512_v7x_i4_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Ring

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem wS_val : ∀ i : Fin 6, (wS i).val = 114 + i.val := by decide +kernel
theorem stage_sem_lt : ∀ (w : Fin cfg0.W) (s : Fin (cfg0.win w).nbuf), ((cfg0.win w).sem s).val < 2 := by decide +kernel
theorem sendS_scoped : ∀ k : K, (SemLoc.dma (sendS k) : SemLoc sig).isScoped .tc = true := by decide +kernel
theorem recvS_scoped : ∀ k : K, (SemLoc.dma (recvS k) : SemLoc sig).isScoped .tc = true := by decide +kernel
theorem wS_scoped : ∀ i : Fin 6, (SemLoc.dma (wS i) : SemLoc sig).isScoped .tc = true := by decide +kernel

def oval : OS → ℕ
  | .inl (false, k) => (sendS k.1).val
  | .inl (true, k) => (recvS k.1).val
  | .inr i => (wS i).val
theorem osem_eq (x : OS) : ∃ q : DmaSem sig, osem x = .dma q ∧ q.val = oval x := by
  rcases x with ⟨_ | _, k⟩ | i <;> exact ⟨_, rfl, rfl⟩
theorem oval_ge (x : OS) : 2 ≤ oval x := by
  rcases x with ⟨_ | _, k⟩ | i
  · exact (isSend k.1).1
  · have := (isRecv k.1).1; show 2 ≤ (recvS k.1).val; omega
  · show 2 ≤ (wS i).val; rw [wS_val]; omega
theorem oval_injective : Function.Injective oval := by
  rintro (⟨_ | _, k⟩ | i) (⟨_ | _, k'⟩ | i') h <;> simp only [oval] at h
  · have : k.1 = k'.1 := by rw [← kOf_sendS k.1, ← kOf_sendS k'.1, h]
    rw [Subtype.ext this]
  · have := (isSend k.1).2; have := (isRecv k'.1).1; omega
  · have := (isSend k.1).2; rw [wS_val] at h; omega
  · have := (isSend k'.1).2; have := (isRecv k.1).1; omega
  · have : k.1 = k'.1 := by rw [← kOf_recvS k.1, ← kOf_recvS k'.1, h]
    rw [Subtype.ext this]
  · have := (isRecv k.1).2; rw [wS_val] at h; omega
  · have := (isSend k'.1).2; rw [wS_val] at h; omega
  · have := (isRecv k'.1).2; rw [wS_val] at h; omega
  · rw [wS_val, wS_val] at h; rw [Fin.ext (by omega : i.val = i'.val)]

theorem ownSemFacts : Pipeline.OwnSemFacts cfg0.spec osem where
  isScoped x := by rcases x with ⟨_ | _, k⟩ | i; exacts [sendS_scoped k.1, recvS_scoped k.1, wS_scoped i]
  inj x y h := by
    obtain ⟨q, hq, hv⟩ := osem_eq x
    obtain ⟨q', hq', hv'⟩ := osem_eq y
    rw [hq, hq'] at h
    exact oval_injective (by rw [← hv, ← hv', SemLoc.dma.inj h])
  disj x w s h := by
    obtain ⟨q, hq, hv⟩ := osem_eq x
    rw [hq] at h
    have h1 := stage_sem_lt w s
    have h2 := oval_ge x
    rw [← SemLoc.dma.inj h, hv] at h1
    omega

theorem share_eq (c : Dev nD) (w : Fin cfg0.W) : (dats m ρ 0 c).share w = fullShare := by unfold Dat.share; split <;> rfl

theorem csem_injective : Function.Injective csem := by
  rintro (_ | k | k) (_ | k' | k') h
  · rfl
  · cases h
  · cases h
  · cases h
  · cases (ownSemFacts.inj h : (Sum.inl (false, k) : OS) = Sum.inl (false, k')); rfl
  · cases (ownSemFacts.inj h : (Sum.inl (false, k) : OS) = Sum.inl (true, k'))
  · cases h
  · cases (ownSemFacts.inj h : (Sum.inl (true, k) : OS) = Sum.inl (false, k'))
  · cases (ownSemFacts.inj h : (Sum.inl (true, k) : OS) = Sum.inl (true, k')); rfl

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

abbrev TI : Type := Bool ⊕ (Bool × UK)

def tcell : TI → CK × Bool
  | .inl d => (.bar, d)
  | .inr (false, k) => (.snd k, false)
  | .inr (true, k) => (.rcv k, false)
theorem tcell_injective : Function.Injective tcell := by
  rintro (d | ⟨_ | _, k⟩) (d' | ⟨_ | _, k'⟩) h <;> cases h <;> rfl
def tokOf (cj : Dev nD × TI) : GSem nD τ sig × ℕ × Bool := (kcell (cj.1, (tcell cj.2).1), 0, (tcell cj.2).2)
theorem tokOf_injective : Function.Injective (tokOf : Dev nD × TI → GSem nD τ sig × ℕ × Bool) := by
  rintro ⟨c, j⟩ ⟨c', j'⟩ h
  obtain ⟨rfl, h4⟩ := Prod.mk.inj (kcell_injective (congrArg (·.1) h))
  exact congrArg (Prod.mk c) (tcell_injective (Prod.ext h4 (congrArg (·.2.2) h)))
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

def toks (c : Dev nD) : sProp 𝕄 :=
  iprop((dutyTok ER (barCell c) 0 false ∗ dutyTok ER (barCell c) 0 true)
    ∗ (bigSep Finset.univ fun k : UK => dutyTok ER (sendCell c k.1) 0 false)
    ∗ bigSep Finset.univ fun k : UK => dutyTok ER (recvCell c k.1) 0 false)

def G (c : Dev nD) : sProp 𝕄 :=
  iprop((bigSep Finset.univ fun ck : CK => roundState ER (ringRd (SVm m)) (kcell (c, ck)) 0)
    ∗ (bigSep Finset.univ fun ck : CK => iprop(atPos ER (kcell (c, ck)) 0 ∅ 0 ∗ reached ER (kcell (c, ck)) 0)) ∗ toks c)

def G' (c : Dev nD) : sProp 𝕄 := iprop((∃ Kn, ghost (SVm m) Kn c) ∗ wsems0 c)

omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem bigSep_univ_sum' {α β : Type} [Fintype α] [Fintype β] (Φ : α ⊕ β → sProp 𝕄) :
    bigSep Finset.univ Φ = iprop((bigSep Finset.univ fun a => Φ (.inl a)) ∗ bigSep Finset.univ fun b => Φ (.inr b)) := bigSep_univ_sum Φ

theorem toks_eq (c : Dev nD) : (bigSep Finset.univ fun j : TI => (dutyTok ER (tokOf (c, j)).1 (tokOf (c, j)).2.1 (tokOf (c, j)).2.2 : sProp 𝕄)) = toks c := by
  unfold toks
  rw [bigSep_univ_sum, bigSep_bool, bigSep_univ_prod, bigSep_bool]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun ck : CK => Φ (kcell (c, ck)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd (SVm m)) ringCells ringToks) $$ HX with ⟨Hst, Hr, Hat, Htok⟩
  imodintro
  ihave Hst' := (Entails.of_eq (hX fun g => roundState ER (ringRd (SVm m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  icases (ownU_pair _ _) $$ Hu with ⟨HP, HX⟩
  icases (own_pair_emb embR _ _) $$ HX with ⟨HR, -⟩
  ihave HR' := (show BI.own (((Emb.inl : Emb UB (UB × Counters)).trans embR) (initOf ringCells ringToks)) ⊢ (BI.own (ER (initOf ringCells ringToks)) : sProp 𝕄) from .rfl) $$ HR
  imod (fund_ring m) $$ HR' with HG
  imodintro
  iframe

def ckEquiv : Unit ⊕ (UK ⊕ UK) ≃ CK where
  toFun
    | .inl _ => .bar
    | .inr (.inl k) => .snd k
    | .inr (.inr k) => .rcv k
  invFun
    | .bar => .inl ()
    | .snd k => .inr (.inl k)
    | .rcv k => .inr (.inr k)
  left_inv x := by rcases x with _ | _ | _ <;> rfl
  right_inv x := by cases x <;> rfl

omit [FloatOps F] in
theorem bigSep_CK (Φ : CK → sProp 𝕄) :
    bigSep Finset.univ Φ = iprop(Φ .bar ∗ (bigSep Finset.univ fun k : UK => Φ (.snd k)) ∗ bigSep Finset.univ fun k : UK => Φ (.rcv k)) := by
  rw [bigSep_univ_equiv ckEquiv Φ, bigSep_univ_sum, bigSep_univ_sum, bigSep_univ_of_subsingleton ()]
  rfl

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 osem c ∗ unscopedSems0 c)
      ⊢ iprop((bigSep Finset.univ fun ck : CK => semVal (kcell (c, ck)) 0) ∗ wsems0 c : sProp 𝕄) := by
  rw [unscopedSems0_eq, bigSep_CK]
  unfold Pipeline.ownSems0 wsems0
  rw [bigSep_univ_sum', bigSep_univ_prod, bigSep_bool]
  iintro ⟨⟨⟨HS, HV⟩, HW⟩, HB⟩
  isplitr [HW]
  · isplitl [HB]; · iexact HB
    isplitl [HS]
    · iexact HS
    · iexact HV
  · iexact HW

def mid (c : Dev nD) : sProp 𝕄 :=
  iprop((bigSep Finset.univ fun ck : CK => iprop(∃ κ : ℕ, cellInv ER (ringRd (SVm m)) κ (kcell (c, ck))))
    ∗ (bigSep Finset.univ fun ck : CK => iprop(atPos ER (kcell (c, ck)) 0 ∅ 0 ∗ reached ER (kcell (c, ck)) 0)) ∗ toks c ∗ wsems0 c)

theorem core_alloc (c : Dev nD) :
    iprop(Pipeline.ownSems0 osem c ∗ unscopedSems0 c ∗ G m c)
      ⊢ |={Set.univ}=> mid m c := by
  unfold G mid
  iintro ⟨Hos, Hus, Hst, Hat, Htok⟩
  ihave Hv := (sems0_eq (F := F) c) $$ [Hos Hus]
  · iframe
  icases Hv with ⟨Hv, Hw⟩
  imod (show iprop((bigSep Finset.univ fun ck : CK => semVal (kcell (c, ck)) 0) ∗ bigSep Finset.univ fun ck : CK => roundState ER (ringRd (SVm m)) (kcell (c, ck)) 0)
      ⊢ (|={Set.univ}=> bigSep Finset.univ fun ck : CK => iprop(∃ κ : ℕ, cellInv ER (ringRd (SVm m)) κ (kcell (c, ck))) : sProp 𝕄) from by
        rw [← bigSep_sep']
        exact (bigSep_mono fun ck _ => (Rounds.body_intro ER (ringRd (SVm m)) (kcell (c, ck))).trans inv_alloc).trans (bigSep_fupd _ _)) $$ [Hv Hst] with Hinv
  · iframe
  imodintro
  iframe

def records (Kn : Dev nD × CK → ℕ) : sProp 𝕄 :=
  iprop((bigSep Finset.univ fun ck : Dev nD × CK => cellInv ER (ringRd (SVm m)) (Kn ck) (kcell ck))
    ∗ bigSep Finset.univ fun ck : Dev nD × CK => reached ER (kcell ck) 0)

instance records_persistent (Kn : Dev nD × CK → ℕ) : BI.Persistent (records m Kn) := by unfold records; infer_instance

theorem at_ (Φ : Dev nD × CK → sProp 𝕄) (x : Dev nD × CK) : bigSep Finset.univ Φ ⊢ Φ x := bigSep_elim (Finset.mem_univ x)

theorem pick (Φ : Dev nD × CK → sProp 𝕄) [∀ x, BI.Persistent (Φ x)] (c : Dev nD) :
    bigSep Finset.univ Φ ⊢ iprop((bigSep Finset.univ fun ck : CK => Φ (c, ck)) ∗ Φ (nxt c, .bar) ∗ Φ (prv c, .bar)
      ∗ bigSep Finset.univ fun k : UK => Φ (tgt k.1 c, .rcv k)) := by
  iintro #H
  isplitr; · iapply (bigSep_intro_persistent (R := bigSep Finset.univ Φ) fun ck _ => at_ Φ (c, ck)); iexact H
  isplitr; · iapply (at_ Φ (nxt c, .bar)); iexact H
  isplitr; · iapply (at_ Φ (prv c, .bar)); iexact H
  iapply (bigSep_intro_persistent (R := bigSep Finset.univ Φ) fun k _ => at_ Φ (tgt k.1 c, .rcv k)); iexact H

def payToks (c : Dev nD) : sProp 𝕄 :=
  iprop(dutyTok ER (barCell (prv c)) 0 true ∗ dutyTok ER (barCell (nxt c)) 0 false
    ∗ (bigSep Finset.univ fun k : UK => dutyTok ER (recvCell (tgt k.1 c) k.1) 0 false)
    ∗ bigSep Finset.univ fun k : UK => dutyTok ER (sendCell c k.1) 0 false)

theorem ghost_intro (Kn : Dev nD × CK → ℕ) (c : Dev nD) : iprop(records m Kn ∗ linear c) ⊢ iprop(∃ Kn, ghost (SVm m) Kn c) := by
  unfold records ghost invs reacheds
  iintro ⟨⟨#HI, #HR⟩, Hlin⟩
  iexists Kn
  isplitr; · iapply (pick (fun ck => cellInv ER (ringRd (SVm m)) (Kn ck) (kcell ck)) c); iexact HI
  isplitr; · iapply (pick (F := F) (fun ck => reached ER (kcell ck) 0) c); iexact HR
  iexact Hlin

abbrev ring : Dev nD ≃ Dev nD := ⟨nxt, prv, prv_nxt, nxt_prv⟩
abbrev tgtE (k : K) : Dev nD ≃ Dev nD := ⟨tgt k, frm k, frm_tgt k, tgt_frm k⟩

theorem recv_around :
    (bigSep Finset.univ fun c : Dev nD => bigSep Finset.univ fun k : UK => (dutyTok ER (recvCell c k.1) 0 false : sProp 𝕄))
      = bigSep Finset.univ fun c : Dev nD => bigSep Finset.univ fun k : UK => (dutyTok ER (recvCell (tgt k.1 c) k.1) 0 false : sProp 𝕄) := by
  rw [bigSep_univ_comm (fun (c : Dev nD) (k : UK) => (dutyTok ER (recvCell c k.1) 0 false : sProp 𝕄)),
    bigSep_univ_comm (fun (c : Dev nD) (k : UK) => (dutyTok ER (recvCell (tgt k.1 c) k.1) 0 false : sProp 𝕄))]
  exact bigSep_congr fun k _ => bigSep_univ_equiv (tgtE k.1) (fun c : Dev nD => (dutyTok ER (recvCell c k.1) 0 false : sProp 𝕄))

theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    recv_around]
  iintro ⟨⟨H1, H2⟩, H3, H4⟩
  isplitl [H2]; · iexact H2
  isplitl [H1]; · iexact H1
  isplitl [H4]; · iexact H4
  iexact H3

theorem regroup : (bigSep Finset.univ fun c : Dev nD => mid m c) ⊢ bigSep Finset.univ (G' m) := by
  unfold mid
  rw [bigSep_sep', bigSep_sep', bigSep_sep', ← bigSep_univ_prod (fun ck : Dev nD × CK => iprop(∃ κ : ℕ, cellInv ER (ringRd (SVm m)) κ (kcell ck))),
    bigSep_congr (s := Finset.univ) (fun (c : Dev nD) _ => bigSep_sep' Finset.univ (fun ck : CK => (atPos ER (kcell (c, ck)) 0 ∅ 0 : sProp 𝕄)) (fun ck => reached ER (kcell (c, ck)) 0)),
    bigSep_sep', ← bigSep_univ_prod (fun ck : Dev nD × CK => (reached ER (kcell ck) 0 : sProp 𝕄))]
  iintro ⟨HI, ⟨Hat, #HR⟩, Htok, Hws⟩
  ihave HK := (BI.bigSep_exists_pi Finset.univ (fun (ck : Dev nD × CK) (κ : ℕ) => (cellInv ER (ringRd (SVm m)) κ (kcell ck) : sProp 𝕄))) $$ HI
  icases HK with ⟨%Kn, #HI⟩
  ihave Htk := (toks_around (F := F)) $$ Htok
  iapply (Entails.of_eq (bigSep_sep' Finset.univ (fun c : Dev nD => iprop(∃ Kn, ghost (SVm m) Kn c)) (fun c : Dev nD => wsems0 c)).symm)
  isplitr [Hws]
  · iapply (bigSep_with_persistent (R := records m Kn) fun c _ => ghost_intro m Kn c)
    isplitr
    · unfold records; isplitl; · iexact HI
      iexact HR
    · iapply ((Entails.of_eq (bigSep_sep' Finset.univ (fun c : Dev nD => bigSep Finset.univ fun ck : CK => (atPos ER (kcell (c, ck)) 0 ∅ 0 : sProp 𝕄)) payToks).symm).trans
        (bigSep_mono fun c _ => show _ ⊢ linear c from Entails.of_eq (by unfold linear payToks; rfl)))
      iframe
  · iexact Hws

theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start (SVm m) m c ∗ emp) := by
  rw [Pipeline.unscopedRestP_none, unscopedRest0_eq]
  unfold G'
  iintro ⟨Hw, Hlev, Hcr, -, Hgh, Hws⟩
  ihave Hc := (creds (F := F) c) $$ Hcr
  imodintro
  unfold start credits weights
  iframe

theorem phi0_intro (c : Dev nD) :
    iprop(start (SVm m) m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (SVm m) m c from rfl, scopedRest0_eq]
  unfold Φ₀ scratch
  iintro ⟨Hs, -, Hr⟩
  iframe

theorem phi1_exit (c : Dev nD) :
    (dats m ρ 0 c).Φ (Fin.last cfg0.N) ⊢ iprop(weights m c ∗ Pipeline.ownSems0 osem c ∗ Pipeline.scopedRest cfg0.spec c) := by
  rw [show (dats m ρ 0 c).Φ (Fin.last cfg0.N) = Φ₁ m c from rfl, scopedRest0_eq]
  unfold Φ₁ scratch
  iintro ⟨Hw, Hr, Hz⟩
  iframe

theorem lv_stage (c : Dev nD) (w : Fin cfg0.W) (s : Fin (cfg0.win w).nbuf) : lv ((c : Thread nD τ), .dma ((cfg0.win w).sem s)) () = 0 := by
  show (if IsRecvSem ((cfg0.win w).sem s) then _ else 0) = 0
  exact if_neg fun h => by have h1 := stage_sem_lt w s; have h2 := h.1; omega

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_stage c w s) _ (by
      rcases t with ⟨_ | _, ht⟩
      · exact Or.inl rfl
      · exact Or.inr rfl)

def QY (c : Dev nD) (s : MemSt nD τ sig (Elt F)) : Prop :=
  s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

theorem weights_read (c : Dev nD) (s' : Phys nD τ sig (Elt F)) :
    iprop(weights m c ∗ emp ∗ SI s') ⊢ (|={Set.univ}=> iprop(⌜QY m c s'.mem⌝ ∗ SI s') : sProp 𝕄) := by
  unfold weights
  iintro ⟨⟨H1, H2, H3, H4, H5, H6⟩, -, HSI⟩
  icombine HSI H1 gives %h1
  icombine HSI H2 gives %h2
  icombine HSI H3 gives %h3
  icombine HSI H4 gives %h4
  icombine HSI H5 gives %h5
  icombine HSI H6 gives %h6
  imodintro
  isplitr
  · ipureintro
    exact ⟨Buf.eq_of_forall_mem_univ h1, Buf.eq_of_forall_mem_univ h2, Buf.eq_of_forall_mem_univ h3,
      Buf.eq_of_forall_mem_univ h4, Buf.eq_of_forall_mem_univ h5, Buf.eq_of_forall_mem_univ h6⟩
  iexact HSI

set_option maxRecDepth 40000 in
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := glob m)
    (hA := fun _ _ => rfl) (hpf := fun _ k => k.elim0)
    (X := start (SVm m) m) (Y := weights m) (Z := fun _ => iprop(emp))
    (hX := start_intro m ρ) (hin := phi0_intro m ρ) (hout := phi1_exit m ρ)
    (QY := QY m)
    (hY := weights_read m)
    (hQ := fun s h c => ⟨fun w => (h c).1 w, (h c).2.2⟩)

end Cert.KernelIdeal.Ring

end
-- ==== Proof.Exit.lean ====
import proofs.«900985_g7700000000000986_dist_mlpseq_tp1d_bs_rep_b256_d256_h512_v7x_i4_f32_1_alg».proof.Proof.Launch

noncomputable section

namespace Cert.KernelIdeal.Ring

open Cert.KernelIdeal.Gen Cert.KernelIdeal.Spec

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

theorem own_sems_back (c : Dev nD) :
    iprop((bigSep Finset.univ fun k : UK => semVal (sendCell c k.1) 0) ∗ (bigSep Finset.univ fun k : UK => semVal (recvCell c k.1) 0) ∗ wsems0 c)
      ⊢ (Pipeline.ownSems0 (Ix := Unit) (Name := ℕ) (U := UU) (Lvl := ℕ) (Val := Elt F) (τ := τ) osem c : sProp 𝕄) := by
  unfold Pipeline.ownSems0 wsems0
  rw [bigSep_univ_sum', bigSep_univ_prod, bigSep_bool]
  exact sep_assoc'

end Cert.KernelIdeal.Ring

end
-- ==== Proof.Body.lean ====
import proofs.«900985_g7700000000000986_dist_mlpseq_tp1d_bs_rep_b256_d256_h512_v7x_i4_f32_1_alg».proof.Proof.Data
import proofs.«900985_g7700000000000986_dist_mlpseq_tp1d_bs_rep_b256_d256_h512_v7x_i4_f32_1_alg».proof.Proof.Steps
import proofs.«900985_g7700000000000986_dist_mlpseq_tp1d_bs_rep_b256_d256_h512_v7x_i4_f32_1_alg».proof.Proof.Bufs
import proofs.«900985_g7700000000000986_dist_mlpseq_tp1d_bs_rep_b256_d256_h512_v7x_i4_f32_1_alg».proof.Proof.RingDev
import proofs.«900985_g7700000000000986_dist_mlpseq_tp1d_bs_rep_b256_d256_h512_v7x_i4_f32_1_alg».proof.Proof.Gen.KernelIdeal.Skeleton
import proofs.«900985_g7700000000000986_dist_mlpseq_tp1d_bs_rep_b256_d256_h512_v7x_i4_f32_1_alg».proof.Proof.Gen.KernelIdeal.Points
import proofs.«900985_g7700000000000986_dist_mlpseq_tp1d_bs_rep_b256_d256_h512_v7x_i4_f32_1_alg».proof.Proof.Regroup
import proofs.«900985_g7700000000000986_dist_mlpseq_tp1d_bs_rep_b256_d256_h512_v7x_i4_f32_1_alg».proof.Proof.Shares
import proofs.«900985_g7700000000000986_dist_mlpseq_tp1d_bs_rep_b256_d256_h512_v7x_i4_f32_1_alg».proof.Proof.SliceIO
import proofs.«900985_g7700000000000986_dist_mlpseq_tp1d_bs_rep_b256_d256_h512_v7x_i4_f32_1_alg».proof.Proof.BodyVals4
import proofs.«900985_g7700000000000986_dist_mlpseq_tp1d_bs_rep_b256_d256_h512_v7x_i4_f32_1_alg».proof.Proof.OutVal
import proofs.«900985_g7700000000000986_dist_mlpseq_tp1d_bs_rep_b256_d256_h512_v7x_i4_f32_1_alg».proof.Proof.Exit

noncomputable section

namespace Cert.KernelIdeal.Ring

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ (SVm m) m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xstg m ρ c) ∗ stg c cc0_stg1_0 (outAt m c))

omit [FloatOps F] in
theorem pt_whole {c : Dev nD} (b : Ref sig .tc) (f : Buf (Elt F) ((c : Thread nD τ).loc b)) :
    (pt c (Memref.whole b) f : sProp 𝕄) = (((c : Thread nD τ).loc b) ↦{fullShare} f) := by
  unfold pt; rw [View.set_whole]

omit [FloatOps F] in

omit [FloatOps F] in

theorem barT_list (c : Dev nD) : barT (F := F) c = bigSepL toNxtK fun k => iprop(∃ f, slotPts (F := F) (nxt c) k f) := by
  unfold barT; exact bigSep_eq_bigSepL_of_eq _ toNxtK_filter toNxtK_nodup _
omit [FloatOps F] in
theorem barF_list (c : Dev nD) : barF (F := F) c = bigSepL toPrvK fun k => iprop(∃ f, slotPts (F := F) (prv c) k f) := by
  unfold barF; exact bigSep_eq_bigSepL_of_eq _ toPrvK_filter toPrvK_nodup _

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

omit [FloatOps F] in

theorem peelL {I : Type} (i : I) (l : List I) (Φ : I → sProp 𝕄) : bigSepL (i :: l) Φ = iprop(Φ i ∗ bigSepL l Φ) := by
  rw [bigSepL_cons]; rfl

omit [FloatOps F] in

theorem lv_wS (c : Dev nD) (i : Fin 6) : lv ((c : Thread nD τ), .dma (wS i)) () = 0 := by
  have h := wS_val i
  unfold lv; dsimp only
  rw [if_neg (fun hr : IsRecvSem (wS i) => by have := hr.2; omega)]

abbrev wfinN (i : ℕ) (h : ∀ a, (![i, 0, 0] : Fin 3 → ℕ) a + S1x256x512.size a ≤ S3x256x512.size a) : Memref sig .tc .vmem S256x512 .f32 :=
  ((Memref.whole cc0_scratch6 : Memref sig .tc .vmem S3x256x512 .f32).slice (Rect.unit (s := S3x256x512) ![i, 0, 0] S1x256x512.size h) (fun _ => rfl)).squeeze S256x512 squeezes_S1x256x512_S256x512
abbrev wfoutN (i : ℕ) (h : ∀ a, (![i, 0, 0] : Fin 3 → ℕ) a + S1x512x256.size a ≤ S3x512x256.size a) : Memref sig .tc .vmem S512x256 .f32 :=
  ((Memref.whole cc0_scratch7 : Memref sig .tc .vmem S3x512x256 .f32).slice (Rect.unit (s := S3x512x256) ![i, 0, 0] S1x512x256.size h) (fun _ => rfl)).squeeze S512x256 squeezes_S1x512x256_S512x256

omit [FloatOps F] in

theorem re_pt {sp : Space} {s : Shape} {e : EltTy} (c : Dev nD) (M : Memref sig .tc sp s e) (f : Buf (Elt F) (M.view.loc (c : Thread nD τ))) :
    (M.view.loc (c : Thread nD τ) ↦[M.view.set]{fullShare} f : sProp 𝕄) ⊢ pt c M f := Entails.refl _

omit [FloatOps F] in
theorem consL {I : Type} (i : I) (l : List I) (Φ : I → sProp 𝕄) : iprop(Φ i ∗ bigSepL l Φ) ⊢ bigSepL (i :: l) Φ := Entails.of_eq (peelL i l Φ).symm

abbrev zR (c : Dev nD) : UK → sProp 𝕄 := fun k => semVal (recvCell c k.1) 0
abbrev zS (c : Dev nD) : UK → sProp 𝕄 := fun k => semVal (sendCell c k.1) 0
omit [FloatOps F] in
theorem zR_nil (c : Dev nD) : (levAts L lv : sProp 𝕄) ⊢ bigSepL ([] : List UK) (zR (F := F) c) := by
  show (levAts L lv : sProp 𝕄) ⊢ iprop(emp); iintro -; iempintro
omit [FloatOps F] in
theorem zS_nil (c : Dev nD) : (levAts L lv : sProp 𝕄) ⊢ bigSepL ([] : List UK) (zS (F := F) c) := by
  show (levAts L lv : sProp 𝕄) ⊢ iprop(emp); iintro -; iempintro
omit [FloatOps F] in
theorem zR_cons (c : Dev nD) (k : UK) (l : List UK) : iprop(semVal (recvCell c k.1) 0 ∗ bigSepL l (zR (F := F) c)) ⊢ bigSepL (k :: l) (zR (F := F) c) := consL k l (zR c)
omit [FloatOps F] in
theorem zS_cons (c : Dev nD) (k : UK) (l : List UK) : iprop(semVal (sendCell c k.1) 0 ∗ bigSepL l (zS (F := F) c)) ⊢ bigSepL (k :: l) (zS (F := F) c) := consL k l (zS c)

abbrev zK (c : Dev nD) : K → sProp 𝕄 := fun k => iprop(∃ f, pt (F := F) c (slotM k) f)
omit [FloatOps F] in
theorem zK_slot (c : Dev nD) : zK (F := F) c = fun k => iprop(∃ f, slotPts (F := F) c k f) := by
  funext k; unfold slotPts; rfl
omit [FloatOps F] in
theorem zK_nil (c : Dev nD) : (levAts L lv : sProp 𝕄) ⊢ bigSepL ([] : List K) (zK (F := F) c) := by
  show (levAts L lv : sProp 𝕄) ⊢ iprop(emp); iintro -; iempintro
omit [FloatOps F] in
theorem zK_cons (c : Dev nD) (k : K) (l : List K) : iprop((∃ f, pt (F := F) c (slotM k) f) ∗ bigSepL l (zK (F := F) c)) ⊢ bigSepL (k :: l) (zK (F := F) c) := consL k l (zK c)
omit [FloatOps F] in

theorem whole_back {c : Dev nD} (b : Ref sig .tc) (f : Buf (Elt F) ((c : Thread nD τ).loc b)) :
    (pt c (Memref.whole b) f : sProp 𝕄) ⊢ (((c : Thread nD τ).loc b) ↦{fullShare} f) := Entails.of_eq (pt_whole b f)

theorem recvPay_open (d : Dev nD) (k : K) :
    recvPay (SVm m) d k ⊢ iprop(∃ f, pt d (slotM k) ((slotM k).view.write (Elt F) f (SVm m k d) Finset.univ)) := by
  unfold recvPay slotPts pt; exact Entails.refl _
omit [FloatOps F] in

theorem sendPay_open (d : Dev nD) (k : K) (M : Memref sig .tc .vmem S128x256 .bf16) (q : PosShare TreeShare) (hM : srcM k = M) (hq : qS k = q) :
    sendPay (F := F) d k ⊢ iprop(∃ f : Buf (Elt F) (M.view.loc (d : Thread nD τ)), M.view.loc (d : Thread nD τ) ↦[M.view.set]{q} f) := by
  subst hM hq; unfold sendPay; exact Entails.refl _

section Records
variable (Kn : Dev nD × CK → ℕ) (c : Dev nD)

theorem inv_own (ck : CK) : (bigSep Finset.univ fun ck : CK => (cellInv ER (ringRd (SVm m)) (Kn (c, ck)) (kcell (c, ck)) : sProp 𝕄))
    ⊢ cellInv ER (ringRd (SVm m)) (Kn (c, ck)) (kcell (c, ck)) := bigSep_elim (Finset.mem_univ ck)
theorem inv_tgt (k : UK) : (bigSep Finset.univ fun k : UK => (cellInv ER (ringRd (SVm m)) (Kn (tgt k.1 c, .rcv k)) (recvCell (tgt k.1 c) k.1) : sProp 𝕄))
    ⊢ cellInv ER (ringRd (SVm m)) (Kn (tgt k.1 c, .rcv k)) (recvCell (tgt k.1 c) k.1) := bigSep_elim (Finset.mem_univ k)
omit [FloatOps F] in
theorem reached_own (ck : CK) : (bigSep Finset.univ fun ck : CK => (reached ER (kcell (c, ck)) 0 : sProp 𝕄)) ⊢ reached ER (kcell (c, ck)) 0 :=
  bigSep_elim (Finset.mem_univ ck)
omit [FloatOps F] in
theorem reached_tgt (k : UK) : (bigSep Finset.univ fun k : UK => (reached ER (recvCell (tgt k.1 c) k.1) 0 : sProp 𝕄)) ⊢ reached ER (recvCell (tgt k.1 c) k.1) 0 :=
  bigSep_elim (Finset.mem_univ k)
end Records

set_option hygiene false in

macro "ring_peel " H:ident " as " A:ident : tactic =>
  `(tactic| (ihave Hp := (Entails.of_eq (peelL _ _ _)) $$ $H:ident; icases Hp with ⟨$A:ident, $H:ident⟩))

set_option hygiene false in

macro "ring_send " k:term " to " dv:term " from " Hsrc:ident " slots " Hls:ident " done " n:num " credit " Hc:ident : tactic =>
  `(tactic| (
    ring_peel HtS as Hts
    ring_peel HtR as Htr
    ihave Hp := (Entails.of_eq (peelL _ _ _)) $$ $Hls:ident
    icases Hp with ⟨⟨%fdk, Hslot⟩, $Hls:ident⟩
    iapply (wp_send_k (SVm m) c _ $k $dv _ fdk ?_ (owedFor c (sendSeq.drop $n)) _) $$ [$Hsrc:ident Hslot HO Hts Htr]
    rotate_left
    · isplitr; · iapply (inv_own m Kn c (CK.snd ⟨$k, rfl⟩)); iexact HIown
      isplitr; · iapply (inv_tgt m Kn c ⟨$k, rfl⟩); iexact HItgt
      isplitl [$Hsrc:ident]; · iexact $Hsrc:ident
      isplitl [Hslot]; · iexact Hslot
      isplitl [HO]; · iexact HO
      isplitl [Hts]; · iexact Hts
      isplitr; · iapply (reached_own c (CK.snd ⟨$k, rfl⟩)); iexact HRown
      isplitl [Htr]; · iexact Htr
      iapply (reached_tgt c ⟨$k, rfl⟩); iexact HRtgt
    iintro ⟨$Hc:ident, HO⟩
    sl_exec))

set_option hygiene false in

macro "ring_land " k:term " started " n:num " slot " Hr:ident : tactic =>
  `(tactic| (
    ring_peel HatR as Hat
    ring_peel HcR as Hc
    iapply (wp_wait_k (SVm m) c (recvS $k) (expect_recv (SVm m) c $k) (rest_recv (SVm m) c $k) (by exact rfl) (owedFor c (sendSeq.drop $n)) _) $$ [Hc HO Hat]
    · isplitr; · iapply (inv_own m Kn c (CK.rcv ⟨$k, rfl⟩)); iexact HIown
      isplitl [Hc]; · iexact Hc
      isplitl [HO]; · iexact HO
      isplitr; · iapply (mayWait_owedFor c _ _ (by intro k' hk'; rw [lv_recv]; revert k' hk'; decide)); iexact Hlev
      iexact Hat
    iintro ⟨HO, Hat, Hpay⟩
    ihave Hpay := (recvPay_open m c $k) $$ Hpay
    icases Hpay with ⟨%fr, $Hr:ident⟩
    imod (close_k (SVm m) (recvCell c $k)) $$ [Hat] with Hz
    · isplitr; · iapply (inv_own m Kn c (CK.rcv ⟨$k, rfl⟩)); iexact HIown
      iexact Hat
    ihave HzR := (zR_cons c (⟨$k, rfl⟩ : UK) _) $$ [Hz HzR]
    · isplitl [Hz]; · iexact Hz
      iexact HzR
    sl_exec))

set_option hygiene false in

macro "ring_depart " k:term " started " n:num " credit " Hc:ident " source " M:term " share " q:term " back " Hb:ident : tactic =>
  `(tactic| (
    ring_peel HatS as Hat
    iapply (wp_wait_k (SVm m) c (sendS $k) (expect_send (SVm m) c $k) (rest_send (SVm m) c $k) (by exact rfl) (owedFor c (sendSeq.drop $n)) _) $$ [$Hc:ident HO Hat]
    · isplitr; · iapply (inv_own m Kn c (CK.snd ⟨$k, rfl⟩)); iexact HIown
      isplitl [$Hc:ident]; · iexact $Hc:ident
      isplitl [HO]; · iexact HO
      isplitr; · iapply (mayWait_owedFor c _ _ (by intro k' hk'; rw [lv_send]; omega)); iexact Hlev
      iexact Hat
    iintro ⟨HO, Hat, Hpay⟩
    ihave Hpay := (sendPay_open c $k $M $q rfl rfl) $$ Hpay
    icases Hpay with ⟨%fb, $Hb:ident⟩
    imod (close_k (SVm m) (sendCell c $k)) $$ [Hat] with Hz
    · isplitr; · iapply (inv_own m Kn c (CK.snd ⟨$k, rfl⟩)); iexact HIown
      iexact Hat
    ihave HzS := (zS_cons c (⟨$k, rfl⟩ : UK) _) $$ [Hz HzS]
    · isplitl [Hz]; · iexact Hz
      iexact HzS
    sl_exec))

set_option hygiene false in

macro "ring_keep " k:term " from " H:ident : tactic =>
  `(tactic| (
    ihave Hsl := (zK_cons c $k _) $$ [$H:ident Hsl]
    · isplitl [$H:ident]; · iexists _; iexact $H:ident
      iexact Hsl))

set_option maxRecDepth 40000 in
set_option maxHeartbeats 4000000 in

theorem sound_body (c : Dev nD) :
    bodyPre' m ρ c ⊢ wp frame (wpE (defs₀ (F := F)) 𝒱₀ c none) Set.univ (bodyAt0 (F := F) t₀) (fun _ => bodyPost m ρ c) := by
  unfold bodyPre' Φ₀ start ghost invs reacheds linear credits weights scratch
  iintro ⟨⟨⟨⟨%Kn, ⟨#HIown, #HIbN, #HIbP, #HItgt⟩, ⟨#HRown, #HrBN, #HrBP, #HRtgt⟩, ⟨Hat, HtBP, HtBN, HtR, HtS⟩⟩, ⟨HcB, HcR⟩, #Hlev, ⟨Hw1, Hw2, Hw3, Hw4, Hw5, Hw6⟩, Hws⟩,
    ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩⟩⟩, Ho, ⟨%d0, %g0, %hg0, Hx⟩, ⟨%d1, %g1, %hg1, Hout⟩⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  ihave Hat' := (Entails.of_eq (bigSep_CK _)) $$ Hat
  icases Hat' with ⟨HatB, HatS, HatR⟩
  ihave HatS := (Entails.of_eq (bigSep_univ_eq_bigSepL departU departU_univ departU_nodup _)) $$ HatS
  ihave HatR := (Entails.of_eq (bigSep_univ_eq_bigSepL landU landU_univ landU_nodup _)) $$ HatR
  ihave HtR := (Entails.of_eq (bigSep_univ_eq_bigSepL startU startU_univ startU_nodup _)) $$ HtR
  ihave HtS := (Entails.of_eq (bigSep_univ_eq_bigSepL startU startU_univ startU_nodup _)) $$ HtS
  ihave HcR := (Entails.of_eq (bigSep_eq_bigSepL_of_eq landK landK_filter landK_nodup _)) $$ HcR
  ihave Hs0 := (cut_sbuf c f0).1 $$ Hs0
  icases Hs0 with ⟨Hsb00, Hsb01, Hsb10, Hsb11, Hsb20, Hsb21⟩
  ihave Hs2 := (cut_ybuf c f2).1 $$ Hs2
  icases Hs2 with ⟨Hy0, Hy1⟩
  ihave Hs3 := (cut_rbuf c f3).1 $$ Hs3
  ihave Hs3 := (slots_regroup c f3) $$ Hs3
  icases Hs3 with ⟨HbT, HbF, Hunused⟩
  ihave Hs6 := (cut_wfin c f6).1 $$ Hs6
  icases Hs6 with ⟨Hwi0, Hwi1, Hwi2⟩
  ihave Hs7 := (cut_wfout c f7).1 $$ Hs7
  icases Hs7 with ⟨Hwo0, Hwo1, Hwo2⟩
  ihave Hwi0 := (Entails.of_eq (show (pt c (wfinM 0) f6 : sProp 𝕄) = pt c (wfinN 0 inb_S3x256x512_S1x256x512_0_0_0) f6 from rfl)) $$ Hwi0
  ihave Hwi1 := (Entails.of_eq (show (pt c (wfinM 1) f6 : sProp 𝕄) = pt c (wfinN 1 inb_S3x256x512_S1x256x512_1_0_0) f6 from rfl)) $$ Hwi1
  ihave Hwi2 := (Entails.of_eq (show (pt c (wfinM 2) f6 : sProp 𝕄) = pt c (wfinN 2 inb_S3x256x512_S1x256x512_2_0_0) f6 from rfl)) $$ Hwi2
  ihave Hwo0 := (Entails.of_eq (show (pt c (wfoutM 0) f7 : sProp 𝕄) = pt c (wfoutN 0 inb_S3x512x256_S1x512x256_0_0_0) f7 from rfl)) $$ Hwo0
  ihave Hwo1 := (Entails.of_eq (show (pt c (wfoutM 1) f7 : sProp 𝕄) = pt c (wfoutN 1 inb_S3x512x256_S1x512x256_1_0_0) f7 from rfl)) $$ Hwo1
  ihave Hwo2 := (Entails.of_eq (show (pt c (wfoutM 2) f7 : sProp 𝕄) = pt c (wfoutN 2 inb_S3x512x256_S1x512x256_2_0_0) f7 from rfl)) $$ Hwo2
  ihave Hs1 := (Entails.of_eq (pt_whole cc0_scratch1 f1).symm) $$ Hs1
  ihave Hs4 := (Entails.of_eq (pt_whole cc0_scratch4 f4).symm) $$ Hs4
  ihave Hs5 := (Entails.of_eq (pt_whole cc0_scratch5 f5).symm) $$ Hs5
  ihave Hw1 := (Entails.of_eq (pt_whole main_arg1 _).symm) $$ Hw1
  ihave Hw2 := (Entails.of_eq (pt_whole main_arg2 _).symm) $$ Hw2
  ihave Hw3 := (Entails.of_eq (pt_whole main_arg3 _).symm) $$ Hw3
  ihave Hw4 := (Entails.of_eq (pt_whole main_arg4 _).symm) $$ Hw4
  ihave Hw5 := (Entails.of_eq (pt_whole main_arg5 _).symm) $$ Hw5
  ihave Hw6 := (Entails.of_eq (pt_whole main_arg6 _).symm) $$ Hw6
  ihave Hx := (Entails.of_eq (pt_whole cc0_stg0_0 _).symm) $$ Hx
  ihave Hout := (Entails.of_eq (pt_whole cc0_stg1_0 _).symm) $$ Hout
  unfold wsems0
  ihave Hws := (Entails.of_eq (bigSep_fin6 _)) $$ Hws
  icases Hws with ⟨S0, S1, S2, S3, S4, S5⟩
  unfold bodyAt0
  sl_unfold [cc0_body]
  sl_exec
  have hmwW : ∀ (i : Fin 6) (l : List K), (levAts L lv : sProp 𝕄) ⊢ MayWait (c : Thread nD τ) (.dma (wS i)) () (owedFor c l) :=
    fun i l => mayWait_owedFor c _ l (fun k _ => by rw [lv_wS]; omega)
  have hmw0 : ∀ l : List K, (levAts L lv : sProp 𝕄) ⊢ MayWait (c : Thread nD τ) (.dma ((cc0_scratch10.slice (Rect.unit (s := S6) ![0] S1.size inb_S6_S1_0)).squeeze S_ squeezes_S1_S_).sem) default (owedFor c l) := fun l => hmwW 0 l
  have hmw1 : ∀ l : List K, (levAts L lv : sProp 𝕄) ⊢ MayWait (c : Thread nD τ) (.dma ((cc0_scratch10.slice (Rect.unit (s := S6) ![1] S1.size inb_S6_S1_1)).squeeze S_ squeezes_S1_S_).sem) default (owedFor c l) := fun l => hmwW 1 l
  have hmw2 : ∀ l : List K, (levAts L lv : sProp 𝕄) ⊢ MayWait (c : Thread nD τ) (.dma ((cc0_scratch10.slice (Rect.unit (s := S6) ![2] S1.size inb_S6_S1_2)).squeeze S_ squeezes_S1_S_).sem) default (owedFor c l) := fun l => hmwW 2 l
  have hmw3 : ∀ l : List K, (levAts L lv : sProp 𝕄) ⊢ MayWait (c : Thread nD τ) (.dma ((cc0_scratch10.slice (Rect.unit (s := S6) ![3] S1.size inb_S6_S1_3)).squeeze S_ squeezes_S1_S_).sem) default (owedFor c l) := fun l => hmwW 3 l
  have hmw4 : ∀ l : List K, (levAts L lv : sProp 𝕄) ⊢ MayWait (c : Thread nD τ) (.dma ((cc0_scratch10.slice (Rect.unit (s := S6) ![4] S1.size inb_S6_S1_4)).squeeze S_ squeezes_S1_S_).sem) default (owedFor c l) := fun l => hmwW 4 l
  have hmw5 : ∀ l : List K, (levAts L lv : sProp 𝕄) ⊢ MayWait (c : Thread nD τ) (.dma ((cc0_scratch10.slice (Rect.unit (s := S6) ![5] S1.size inb_S6_S1_5)).squeeze S_ squeezes_S1_S_).sem) default (owedFor c l) := fun l => hmwW 5 l
  simp only [RingDev.dev1_eq c, RingDev.dev2_eq c]
  iapply (Rounds.wp_signal 𝒱₀ ER (ringRd (SVm m)) (c : Thread nD τ) none (dst := (prv c : Thread nD τ)) (κ := Kn (prv c, .bar))
      (d := true) (by rw [duties_bar]; exact Finset.mem_univ _) ((amount_bar (SVm m) (prv c) true).trans (by decide)) () (O₁ c) rfl) $$ [HO HtBP HbT]
  · isplitr; · iexact HIbP
    isplitl [HO]; · iexact HO
    isplitl [HtBP]; · iexact HtBP
    isplitl [HbT]; · rw [payload_bar_true]; iexact HbT
    iexact HrBP
  iintro HO
  sl_exec
  iapply (Rounds.wp_signal 𝒱₀ ER (ringRd (SVm m)) (c : Thread nD τ) none (dst := (nxt c : Thread nD τ)) (κ := Kn (nxt c, .bar))
      (d := false) (by rw [duties_bar]; exact Finset.mem_univ _) ((amount_bar (SVm m) (nxt c) false).trans (by decide)) () (owedFor c sendSeq) rfl) $$ [HO HtBN HbF]
  · isplitr; · iexact HIbN
    isplitl [HO]; · iexact HO
    isplitl [HtBN]; · iexact HtBN
    isplitl [HbF]; · rw [payload_bar_false]; iexact HbF
    iexact HrBN
  iintro HO
  sl_exec
  iapply (Rounds.wp_wait_rest_token 𝒱₀ ER (ringRd (SVm m)) (c : Thread nD τ) none (κ := Kn (c, .bar))
      (wpE_semWait_eq 𝒱₀ (c : Thread nD τ) none Set.univ) (Set.mem_univ _) () (O := owedFor c sendSeq) (W := W) (R := 0) (m := 0) (T := ∅)
      (by rw [expect_bar]; decide)) $$ [HcB HO HatB]
  · isplitr; · iapply (inv_own m Kn c CK.bar); iexact HIown
    isplitl [HcB]; · iexact HcB
    isplitl [HO]; · iexact HO
    isplitr; · iapply (mayWait_bar c); iexact Hlev
    iexact HatB
  iintro ⟨HO, HatB, -, Hpay⟩
  ihave Hp := (Entails.of_eq (rest_bar (SVm m) c)) $$ Hpay
  icases Hp with ⟨HsP, HsN⟩
  ihave HsN := (Entails.of_eq (barT_list c)) $$ HsN
  ihave HsP := (Entails.of_eq (barF_list c)) $$ HsP
  sl_exec
  ihave ⟨Hy0L, Hy0R⟩ := (pointsTo_share (PosShare.mem_left_op_right fullShare)).1 $$ Hy0
  ihave ⟨Hy0LL, Hy0LR⟩ := (pointsTo_share (PosShare.mem_left_op_right fullShare.left)).1 $$ Hy0L
  ring_send (0, 0, 0) to (RingDev.dev3_eq c) from Hy0LL slots HsN done 1 credit HcS000
  ring_send (0, 1, 0) to (RingDev.dev4_eq c) from Hy0LR slots HsP done 2 credit HcS010
  ihave ⟨Hy1L, Hy1R⟩ := (pointsTo_share (PosShare.mem_left_op_right fullShare)).1 $$ Hy1
  ihave ⟨Hy1LL, Hy1LR⟩ := (pointsTo_share (PosShare.mem_left_op_right fullShare.left)).1 $$ Hy1L
  ring_send (0, 0, 1) to (RingDev.dev5_eq c) from Hy1LL slots HsN done 3 credit HcS001
  ring_send (0, 1, 1) to (RingDev.dev6_eq c) from Hy1LR slots HsP done 4 credit HcS011
  ihave Hwi0 := (re_pt c (wfinN 0 inb_S3x256x512_S1x256x512_0_0_0) _) $$ Hwi0
  ihave Hwo0 := (re_pt c (wfoutN 0 inb_S3x512x256_S1x512x256_0_0_0) _) $$ Hwo0
  sl_exec
  ring_send (1, 3, 0) to (RingDev.dev7_eq c) from Hsb20 slots HsN done 5 credit HcS130
  ring_send (1, 3, 1) to (RingDev.dev8_eq c) from Hsb21 slots HsN done 6 credit HcS131
  ihave Hwi1 := (re_pt c (wfinN 1 inb_S3x256x512_S1x256x512_1_0_0) _) $$ Hwi1
  ihave Hwo1 := (re_pt c (wfoutN 1 inb_S3x512x256_S1x512x256_1_0_0) _) $$ Hwo1
  ihave Hwi2 := (re_pt c (wfinN 2 inb_S3x256x512_S1x256x512_2_0_0) _) $$ Hwi2
  ihave Hwo2 := (re_pt c (wfoutN 2 inb_S3x512x256_S1x512x256_2_0_0) _) $$ Hwo2
  sl_exec
  ihave HzR := (zR_nil (F := F) c) $$ Hlev
  ihave HzS := (zS_nil (F := F) c) $$ Hlev
  ring_land (0, 1, 0) started 6 slot Hr010
  ihave ⟨Hr010L, Hr010R⟩ := (split_half (F := F) fullShare _) $$ Hr010
  ring_send (0, 2, 0) to (RingDev.dev9_eq c) from Hr010L slots HsP done 7 credit HcS020
  ring_land (0, 1, 1) started 7 slot Hr011
  ihave ⟨Hr011L, Hr011R⟩ := (split_half (F := F) fullShare _) $$ Hr011
  ring_send (0, 2, 1) to (RingDev.dev10_eq c) from Hr011L slots HsP done 8 credit HcS021
  ring_land (0, 0, 0) started 8 slot Hr000
  ring_land (1, 3, 0) started 8 slot Hr130
  ring_send (1, 0, 0) to (RingDev.dev11_eq c) from Hsb00 slots HsN done 9 credit HcS100
  ring_send (1, 1, 0) to (RingDev.dev12_eq c) from Hsb10 slots HsP done 10 credit HcS110
  ring_land (0, 0, 1) started 10 slot Hr001
  ring_land (1, 3, 1) started 10 slot Hr131
  ring_send (1, 0, 1) to (RingDev.dev13_eq c) from Hsb01 slots HsN done 11 credit HcS101
  ring_send (1, 1, 1) to (RingDev.dev14_eq c) from Hsb11 slots HsP done 12 credit HcS111
  ring_land (0, 2, 0) started 12 slot Hr020
  ring_land (0, 2, 1) started 12 slot Hr021
  ring_depart (0, 0, 0) started 12 credit HcS000 source (ybufM 0) share fullShare.left.left back Hy0LL
  ring_depart (0, 1, 0) started 12 credit HcS010 source (ybufM 0) share fullShare.left.right back Hy0LR
  ring_depart (0, 0, 1) started 12 credit HcS001 source (ybufM 1) share fullShare.left.left back Hy1LL
  ring_depart (0, 1, 1) started 12 credit HcS011 source (ybufM 1) share fullShare.left.right back Hy1LR
  ring_depart (0, 2, 0) started 12 credit HcS020 source (slotM (0, 1, 0)) share fullShare.left back Hr010L
  ring_depart (0, 2, 1) started 12 credit HcS021 source (slotM (0, 1, 1)) share fullShare.left back Hr011L
  ring_depart (1, 3, 0) started 12 credit HcS130 source (sbufM 2 0) share fullShare back Hsb20
  ring_depart (1, 3, 1) started 12 credit HcS131 source (sbufM 2 1) share fullShare back Hsb21
  ring_depart (1, 0, 0) started 12 credit HcS100 source (sbufM 0 0) share fullShare back Hsb00
  ring_depart (1, 1, 0) started 12 credit HcS110 source (sbufM 1 0) share fullShare back Hsb10
  ring_depart (1, 0, 1) started 12 credit HcS101 source (sbufM 0 1) share fullShare back Hsb01
  ring_depart (1, 1, 1) started 12 credit HcS111 source (sbufM 1 1) share fullShare back Hsb11
  ihave Hy0 := (join_three (F := F) _ _ _) $$ [Hy0LL Hy0LR Hy0R]
  · isplitl [Hy0LL]; · iexact Hy0LL
    isplitl [Hy0LR]; · iexact Hy0LR
    iexact Hy0R
  ihave Hy1 := (join_three (F := F) _ _ _) $$ [Hy1LL Hy1LR Hy1R]
  · isplitl [Hy1LL]; · iexact Hy1LL
    isplitl [Hy1LR]; · iexact Hy1LR
    iexact Hy1R
  ihave Hr010 := (join_half (F := F) fullShare _ _) $$ [Hr010L Hr010R]
  · isplitl [Hr010L]; · iexact Hr010L
    iexact Hr010R
  ihave Hr011 := (join_half (F := F) fullShare _ _) $$ [Hr011L Hr011R]
  · isplitl [Hr011L]; · iexact Hr011L
    iexact Hr011R
  ring_land (1, 0, 0) started 12 slot Hr100
  ring_land (1, 1, 0) started 12 slot Hr110
  ihave ⟨Hy0LL, Hy0LR, Hy0R⟩ := (split_three (F := F) _) $$ Hy0
  ring_send (2, 0, 0) to (RingDev.dev15_eq c) from Hy0LL slots HsN done 13 credit HcS200
  ring_send (2, 1, 0) to (RingDev.dev16_eq c) from Hy0LR slots HsP done 14 credit HcS210
  ring_send (3, 3, 0) to (RingDev.dev17_eq c) from Hsb20 slots HsN done 15 credit HcS330
  ring_land (1, 0, 1) started 15 slot Hr101
  ring_land (1, 1, 1) started 15 slot Hr111
  ihave ⟨Hy1LL, Hy1LR, Hy1R⟩ := (split_three (F := F) _) $$ Hy1
  ring_send (2, 0, 1) to (RingDev.dev18_eq c) from Hy1LL slots HsN done 16 credit HcS201
  ring_send (2, 1, 1) to (RingDev.dev19_eq c) from Hy1LR slots HsP done 17 credit HcS211
  ring_send (3, 3, 1) to (RingDev.dev20_eq c) from Hsb21 slots HsN done 18 credit HcS331
  ring_land (2, 1, 0) started 18 slot Hr210
  ihave ⟨Hr210L, Hr210R⟩ := (split_half (F := F) fullShare _) $$ Hr210
  ring_send (2, 2, 0) to (RingDev.dev21_eq c) from Hr210L slots HsP done 19 credit HcS220
  ring_land (2, 1, 1) started 19 slot Hr211
  ihave ⟨Hr211L, Hr211R⟩ := (split_half (F := F) fullShare _) $$ Hr211
  ring_send (2, 2, 1) to (RingDev.dev22_eq c) from Hr211L slots HsP done 20 credit HcS221
  ring_land (2, 0, 0) started 20 slot Hr200
  ring_land (3, 3, 0) started 20 slot Hr330
  ring_send (3, 0, 0) to (RingDev.dev23_eq c) from Hsb00 slots HsN done 21 credit HcS300
  ring_send (3, 1, 0) to (RingDev.dev24_eq c) from Hsb10 slots HsP done 22 credit HcS310
  ring_land (2, 0, 1) started 22 slot Hr201
  ring_land (3, 3, 1) started 22 slot Hr331
  ring_send (3, 0, 1) to (RingDev.dev25_eq c) from Hsb01 slots HsN done 23 credit HcS301
  ring_send (3, 1, 1) to (RingDev.dev26_eq c) from Hsb11 slots HsP done 24 credit HcS311
  ring_land (2, 2, 0) started 24 slot Hr220
  ring_land (2, 2, 1) started 24 slot Hr221
  ring_depart (2, 0, 0) started 24 credit HcS200 source (ybufM 0) share fullShare.left.left back Hy0LL
  ring_depart (2, 1, 0) started 24 credit HcS210 source (ybufM 0) share fullShare.left.right back Hy0LR
  ring_depart (2, 0, 1) started 24 credit HcS201 source (ybufM 1) share fullShare.left.left back Hy1LL
  ring_depart (2, 1, 1) started 24 credit HcS211 source (ybufM 1) share fullShare.left.right back Hy1LR
  ring_depart (2, 2, 0) started 24 credit HcS220 source (slotM (2, 1, 0)) share fullShare.left back Hr210L
  ring_depart (2, 2, 1) started 24 credit HcS221 source (slotM (2, 1, 1)) share fullShare.left back Hr211L
  ring_depart (3, 3, 0) started 24 credit HcS330 source (sbufM 2 0) share fullShare back Hsb20
  ring_depart (3, 3, 1) started 24 credit HcS331 source (sbufM 2 1) share fullShare back Hsb21
  ring_depart (3, 0, 0) started 24 credit HcS300 source (sbufM 0 0) share fullShare back Hsb00
  ring_depart (3, 1, 0) started 24 credit HcS310 source (sbufM 1 0) share fullShare back Hsb10
  ring_depart (3, 0, 1) started 24 credit HcS301 source (sbufM 0 1) share fullShare back Hsb01
  ring_depart (3, 1, 1) started 24 credit HcS311 source (sbufM 1 1) share fullShare back Hsb11
  ihave Hy0 := (join_three (F := F) _ _ _) $$ [Hy0LL Hy0LR Hy0R]
  · isplitl [Hy0LL]; · iexact Hy0LL
    isplitl [Hy0LR]; · iexact Hy0LR
    iexact Hy0R
  ihave Hy1 := (join_three (F := F) _ _ _) $$ [Hy1LL Hy1LR Hy1R]
  · isplitl [Hy1LL]; · iexact Hy1LL
    isplitl [Hy1LR]; · iexact Hy1LR
    iexact Hy1R
  ihave Hr210 := (join_half (F := F) fullShare _ _) $$ [Hr210L Hr210R]
  · isplitl [Hr210L]; · iexact Hr210L
    iexact Hr210R
  ihave Hr211 := (join_half (F := F) fullShare _ _) $$ [Hr211L Hr211R]
  · isplitl [Hr211L]; · iexact Hr211L
    iexact Hr211R
  ring_land (3, 0, 0) started 24 slot Hr300
  ring_land (3, 1, 0) started 24 slot Hr310
  ihave ⟨Hy0LL, Hy0LR, Hy0R⟩ := (split_three (F := F) _) $$ Hy0
  ring_send (4, 0, 0) to (RingDev.dev27_eq c) from Hy0LL slots HsN done 25 credit HcS400
  ring_send (4, 1, 0) to (RingDev.dev28_eq c) from Hy0LR slots HsP done 26 credit HcS410
  ring_send (5, 3, 0) to (RingDev.dev29_eq c) from Hsb20 slots HsN done 27 credit HcS530
  ring_land (3, 0, 1) started 27 slot Hr301
  ring_land (3, 1, 1) started 27 slot Hr311
  ihave ⟨Hy1LL, Hy1LR, Hy1R⟩ := (split_three (F := F) _) $$ Hy1
  ring_send (4, 0, 1) to (RingDev.dev30_eq c) from Hy1LL slots HsN done 28 credit HcS401
  ring_send (4, 1, 1) to (RingDev.dev31_eq c) from Hy1LR slots HsP done 29 credit HcS411
  ring_send (5, 3, 1) to (RingDev.dev32_eq c) from Hsb21 slots HsN done 30 credit HcS531
  ring_land (4, 1, 0) started 30 slot Hr410
  ihave ⟨Hr410L, Hr410R⟩ := (split_half (F := F) fullShare _) $$ Hr410
  ring_send (4, 2, 0) to (RingDev.dev33_eq c) from Hr410L slots HsP done 31 credit HcS420
  ring_land (4, 1, 1) started 31 slot Hr411
  ihave ⟨Hr411L, Hr411R⟩ := (split_half (F := F) fullShare _) $$ Hr411
  ring_send (4, 2, 1) to (RingDev.dev34_eq c) from Hr411L slots HsP done 32 credit HcS421
  ring_land (4, 0, 0) started 32 slot Hr400
  ring_land (5, 3, 0) started 32 slot Hr530
  ring_send (5, 0, 0) to (RingDev.dev35_eq c) from Hsb00 slots HsN done 33 credit HcS500
  ring_send (5, 1, 0) to (RingDev.dev36_eq c) from Hsb10 slots HsP done 34 credit HcS510
  ring_land (4, 0, 1) started 34 slot Hr401
  ring_land (5, 3, 1) started 34 slot Hr531
  ring_send (5, 0, 1) to (RingDev.dev37_eq c) from Hsb01 slots HsN done 35 credit HcS501
  ring_send (5, 1, 1) to (RingDev.dev38_eq c) from Hsb11 slots HsP done 36 credit HcS511
  ring_land (4, 2, 0) started 36 slot Hr420
  ring_land (4, 2, 1) started 36 slot Hr421
  ring_depart (4, 0, 0) started 36 credit HcS400 source (ybufM 0) share fullShare.left.left back Hy0LL
  ring_depart (4, 1, 0) started 36 credit HcS410 source (ybufM 0) share fullShare.left.right back Hy0LR
  ring_depart (4, 0, 1) started 36 credit HcS401 source (ybufM 1) share fullShare.left.left back Hy1LL
  ring_depart (4, 1, 1) started 36 credit HcS411 source (ybufM 1) share fullShare.left.right back Hy1LR
  ring_depart (4, 2, 0) started 36 credit HcS420 source (slotM (4, 1, 0)) share fullShare.left back Hr410L
  ring_depart (4, 2, 1) started 36 credit HcS421 source (slotM (4, 1, 1)) share fullShare.left back Hr411L
  ring_depart (5, 3, 0) started 36 credit HcS530 source (sbufM 2 0) share fullShare back Hsb20
  ring_depart (5, 3, 1) started 36 credit HcS531 source (sbufM 2 1) share fullShare back Hsb21
  ring_depart (5, 0, 0) started 36 credit HcS500 source (sbufM 0 0) share fullShare back Hsb00
  ring_depart (5, 1, 0) started 36 credit HcS510 source (sbufM 1 0) share fullShare back Hsb10
  ring_depart (5, 0, 1) started 36 credit HcS501 source (sbufM 0 1) share fullShare back Hsb01
  ring_depart (5, 1, 1) started 36 credit HcS511 source (sbufM 1 1) share fullShare back Hsb11
  ihave Hy0 := (join_three (F := F) _ _ _) $$ [Hy0LL Hy0LR Hy0R]
  · isplitl [Hy0LL]; · iexact Hy0LL
    isplitl [Hy0LR]; · iexact Hy0LR
    iexact Hy0R
  ihave Hy1 := (join_three (F := F) _ _ _) $$ [Hy1LL Hy1LR Hy1R]
  · isplitl [Hy1LL]; · iexact Hy1LL
    isplitl [Hy1LR]; · iexact Hy1LR
    iexact Hy1R
  ihave Hr410 := (join_half (F := F) fullShare _ _) $$ [Hr410L Hr410R]
  · isplitl [Hr410L]; · iexact Hr410L
    iexact Hr410R
  ihave Hr411 := (join_half (F := F) fullShare _ _) $$ [Hr411L Hr411R]
  · isplitl [Hr411L]; · iexact Hr411L
    iexact Hr411R
  ring_land (5, 0, 0) started 36 slot Hr500
  ring_land (5, 1, 0) started 36 slot Hr510
  ihave ⟨Hy0LL, Hy0LR, Hy0R⟩ := (split_three (F := F) _) $$ Hy0
  ring_send (6, 0, 0) to (RingDev.dev39_eq c) from Hy0LL slots HsN done 37 credit HcS600
  ring_send (6, 1, 0) to (RingDev.dev40_eq c) from Hy0LR slots HsP done 38 credit HcS610
  ring_land (5, 0, 1) started 38 slot Hr501
  ring_land (5, 1, 1) started 38 slot Hr511
  ihave ⟨Hy1LL, Hy1LR, Hy1R⟩ := (split_three (F := F) _) $$ Hy1
  ring_send (6, 0, 1) to (RingDev.dev41_eq c) from Hy1LL slots HsN done 39 credit HcS601
  ring_send (6, 1, 1) to (RingDev.dev42_eq c) from Hy1LR slots HsP done 40 credit HcS611
  ring_land (6, 1, 0) started 40 slot Hr610
  ihave ⟨Hr610L, Hr610R⟩ := (split_half (F := F) fullShare _) $$ Hr610
  ring_send (6, 2, 0) to (RingDev.dev43_eq c) from Hr610L slots HsP done 41 credit HcS620
  ring_land (6, 1, 1) started 41 slot Hr611
  ihave ⟨Hr611L, Hr611R⟩ := (split_half (F := F) fullShare _) $$ Hr611
  ring_send (6, 2, 1) to (RingDev.dev44_eq c) from Hr611L slots HsP done 42 credit HcS621
  ring_land (6, 0, 0) started 42 slot Hr600
  ring_land (6, 0, 1) started 42 slot Hr601
  ring_land (6, 2, 0) started 42 slot Hr620
  ring_land (6, 2, 1) started 42 slot Hr621
  ring_depart (6, 0, 0) started 42 credit HcS600 source (ybufM 0) share fullShare.left.left back Hy0LL
  ring_depart (6, 1, 0) started 42 credit HcS610 source (ybufM 0) share fullShare.left.right back Hy0LR
  ring_depart (6, 0, 1) started 42 credit HcS601 source (ybufM 1) share fullShare.left.left back Hy1LL
  ring_depart (6, 1, 1) started 42 credit HcS611 source (ybufM 1) share fullShare.left.right back Hy1LR
  ring_depart (6, 2, 0) started 42 credit HcS620 source (slotM (6, 1, 0)) share fullShare.left back Hr610L
  ring_depart (6, 2, 1) started 42 credit HcS621 source (slotM (6, 1, 1)) share fullShare.left back Hr611L
  ihave Hy0 := (join_three (F := F) _ _ _) $$ [Hy0LL Hy0LR Hy0R]
  · isplitl [Hy0LL]; · iexact Hy0LL
    isplitl [Hy0LR]; · iexact Hy0LR
    iexact Hy0R
  ihave Hy1 := (join_three (F := F) _ _ _) $$ [Hy1LL Hy1LR Hy1R]
  · isplitl [Hy1LL]; · iexact Hy1LL
    isplitl [Hy1LR]; · iexact Hy1LR
    iexact Hy1R
  ihave Hr610 := (join_half (F := F) fullShare _ _) $$ [Hr610L Hr610R]
  · isplitl [Hr610L]; · iexact Hr610L
    iexact Hr610R
  ihave Hr611 := (join_half (F := F) fullShare _ _) $$ [Hr611L Hr611R]
  · isplitl [Hr611L]; · iexact Hr611L
    iexact Hr611R
  sl_step
  unfold bodyPost Φ₁
  ihave Hsl := (zK_nil (F := F) c) $$ Hlev
  ring_keep (6, 2, 1) from Hr621
  ring_keep (6, 2, 0) from Hr620
  ring_keep (6, 0, 1) from Hr601
  ring_keep (6, 0, 0) from Hr600
  ring_keep (6, 1, 1) from Hr611
  ring_keep (6, 1, 0) from Hr610
  ring_keep (5, 1, 1) from Hr511
  ring_keep (5, 0, 1) from Hr501
  ring_keep (5, 1, 0) from Hr510
  ring_keep (5, 0, 0) from Hr500
  ring_keep (4, 2, 1) from Hr421
  ring_keep (4, 2, 0) from Hr420
  ring_keep (5, 3, 1) from Hr531
  ring_keep (4, 0, 1) from Hr401
  ring_keep (5, 3, 0) from Hr530
  ring_keep (4, 0, 0) from Hr400
  ring_keep (4, 1, 1) from Hr411
  ring_keep (4, 1, 0) from Hr410
  ring_keep (3, 1, 1) from Hr311
  ring_keep (3, 0, 1) from Hr301
  ring_keep (3, 1, 0) from Hr310
  ring_keep (3, 0, 0) from Hr300
  ring_keep (2, 2, 1) from Hr221
  ring_keep (2, 2, 0) from Hr220
  ring_keep (3, 3, 1) from Hr331
  ring_keep (2, 0, 1) from Hr201
  ring_keep (3, 3, 0) from Hr330
  ring_keep (2, 0, 0) from Hr200
  ring_keep (2, 1, 1) from Hr211
  ring_keep (2, 1, 0) from Hr210
  ring_keep (1, 1, 1) from Hr111
  ring_keep (1, 0, 1) from Hr101
  ring_keep (1, 1, 0) from Hr110
  ring_keep (1, 0, 0) from Hr100
  ring_keep (0, 2, 1) from Hr021
  ring_keep (0, 2, 0) from Hr020
  ring_keep (1, 3, 1) from Hr131
  ring_keep (0, 0, 1) from Hr001
  ring_keep (1, 3, 0) from Hr130
  ring_keep (0, 0, 0) from Hr000
  ring_keep (0, 1, 1) from Hr011
  ring_keep (0, 1, 0) from Hr010
  ihave Hsl := (Entails.of_eq (congrArg (bigSepL landK) (zK_slot (F := F) c))) $$ Hsl
  ihave Hrb := (rbuf_back c) $$ [Hsl Hunused]
  · isplitl [Hsl]; · iexact Hsl
    iexact Hunused
  ihave Hsb := (join_sbuf c) $$ [Hsb00 Hsb01 Hsb10 Hsb11 Hsb20 Hsb21]
  · isplitl [Hsb00]; · iexists _; iexact Hsb00
    isplitl [Hsb01]; · iexists _; iexact Hsb01
    isplitl [Hsb10]; · iexists _; iexact Hsb10
    isplitl [Hsb11]; · iexists _; iexact Hsb11
    isplitl [Hsb20]; · iexists _; iexact Hsb20
    iexists _; iexact Hsb21
  ihave Hyb := (join_ybuf c) $$ [Hy0 Hy1]
  · isplitl [Hy0]; · iexists _; iexact Hy0
    iexists _; iexact Hy1
  ihave Hwib := (join_wfin c) $$ [Hwi0 Hwi1 Hwi2]
  · isplitl [Hwi0]; · iexists _; iexact Hwi0
    isplitl [Hwi1]; · iexists _; iexact Hwi1
    iexists _; iexact Hwi2
  ihave Hwob := (join_wfout c) $$ [Hwo0 Hwo1 Hwo2]
  · isplitl [Hwo0]; · iexists _; iexact Hwo0
    isplitl [Hwo1]; · iexists _; iexact Hwo1
    iexists _; iexact Hwo2
  ihave HzS := (Entails.of_eq (bigSep_univ_eq_bigSepL departR departR_univ departR_nodup (zS (F := F) c)).symm) $$ HzS
  ihave HzR := (Entails.of_eq (bigSep_univ_eq_bigSepL landR landR_univ landR_nodup (zR (F := F) c)).symm) $$ HzR
  ihave Hos := (own_sems_back (F := F) c) $$ [HzS HzR S0 S1 S2 S3 S4 S5]
  · isplitl [HzS]; · iexact HzS
    isplitl [HzR]; · iexact HzR
    unfold wsems0
    iapply (Entails.of_eq (bigSep_fin6 _).symm)
    isplitl [S0]; · iexact S0
    isplitl [S1]; · iexact S1
    isplitl [S2]; · iexact S2
    isplitl [S3]; · iexact S3
    isplitl [S4]; · iexact S4
    iexact S5
  isplitl [Hw1 Hw2 Hw3 Hw4 Hw5 Hw6 Hsb Hs1 Hyb Hrb Hs4 Hs5 Hwib Hwob Hos]
  · unfold weights scratch
    isplitl [Hw1 Hw2 Hw3 Hw4 Hw5 Hw6]
    · isplitl [Hw1]; · iapply (whole_back main_arg1 _); iexact Hw1
      isplitl [Hw2]; · iapply (whole_back main_arg2 _); iexact Hw2
      isplitl [Hw3]; · iapply (whole_back main_arg3 _); iexact Hw3
      isplitl [Hw4]; · iapply (whole_back main_arg4 _); iexact Hw4
      isplitl [Hw5]; · iapply (whole_back main_arg5 _); iexact Hw5
      iapply (whole_back main_arg6 _); iexact Hw6
    isplitl [Hsb Hs1 Hyb Hrb Hs4 Hs5 Hwib Hwob]
    · isplitl [Hsb]; · iexact Hsb
      isplitl [Hs1]; · iexists _; iapply (whole_back cc0_scratch1 _); iexact Hs1
      isplitl [Hyb]; · iexact Hyb
      isplitl [Hrb]; · iexact Hrb
      isplitl [Hs4]; · iexists _; iapply (whole_back cc0_scratch4 _); iexact Hs4
      isplitl [Hs5]; · iexists _; iapply (whole_back cc0_scratch5 _); iexact Hs5
      isplitl [Hwib]; · iexact Hwib
      iexact Hwob
    iexact Hos
  unfold Dat.owesAt Pipeline.owesWithin
  rw [show (dats m ρ 0 c).owed t₀.succ = 0 from rfl]
  isplitl [HO]
  · iexists _
    isplitr
    swap
    · iexact HO
    · ipureintro; exact fun _ _ => Or.inl trivial
  isplitl [Hx]
  · iexists _; isplitr; · (ipureintro; rfl)
    iapply (whole_back cc0_stg0_0 _); iexact Hx
  iexists _; isplitr
  swap
  · iapply (whole_back cc0_stg1_0 _); iexact Hout
  · ipureintro
    unfold outAt
    refine out_writes (xbOf m) (wiOf m) (woOf m) c g1 _ _ _ _ _ _ _ _ _ _ _ _ _ _ _ _ ?_ ?_ ?_ ?_ ?_ ?_ ?_ ?_ _ rfl
    · rw [outRows_opp, Ysum_last m c 0]
      sl_unfold_run_names
      rw [out_pay64_eq, readCov_skip_own 0 1 (by decide), View.readCov_cons_toLoadRect, out_pay62_eq, cast_S1x128x256_roundtrip,
        slot_load (4, 2, 0) 4 2 0 rfl rfl rfl, slot_load (5, 0, 0) 5 0 0 rfl rfl rfl, slot_load (5, 1, 0) 5 1 0 rfl rfl rfl,
        View.readCov_cons_toLoadRect, k0_pay15_14_eq, View.readCov_cons_toLoadRect, k0_pay16_eq,
        wfin_load 2, wfout_load 2, cast_pay4, cast_pay5]
      rfl
    · rw [outRows_opp, Ysum_last m c 1]
      sl_unfold_run_names
      rw [out_pay66_eq, View.readCov_cons_toLoadRect, out_pay63_eq, cast_S1x128x256_roundtrip,
        slot_load (4, 2, 1) 4 2 1 rfl rfl rfl, slot_load (5, 0, 1) 5 0 1 rfl rfl rfl, slot_load (5, 1, 1) 5 1 1 rfl rfl rfl,
        View.readCov_cons_toLoadRect, k0_pay15_14_eq, View.readCov_cons_toLoadRect, k0_pay16_eq,
        wfin_load 2, wfout_load 2, cast_pay4, cast_pay5]
      rfl
    · rw [outRows_prv, ← SVm_last1 m c 0]
      sl_unfold_run_names
      rw [out_pay68_eq, slot_load (6, 1, 0) 6 1 0 rfl rfl rfl]
    · rw [outRows_prv, ← SVm_last1 m c 1]
      sl_unfold_run_names
      rw [out_pay69_eq, slot_load (6, 1, 1) 6 1 1 rfl rfl rfl]
    · rw [outRows_nxt, ← SVm_last0 m c 0]
      sl_unfold_run_names
      rw [out_pay70_eq, slot_load (6, 0, 0) 6 0 0 rfl rfl rfl]
    · rw [outRows_nxt, ← SVm_last0 m c 1]
      sl_unfold_run_names
      rw [out_pay71_eq, slot_load (6, 0, 1) 6 0 1 rfl rfl rfl]
    · rw [outRows_self, ← SVm_last2 m c 0]
      sl_unfold_run_names
      rw [out_pay72_eq, slot_load (6, 2, 0) 6 2 0 rfl rfl rfl]
    · rw [outRows_self, ← SVm_last2 m c 1]
      sl_unfold_run_names
      rw [out_pay73_eq, slot_load (6, 2, 1) 6 2 1 rfl rfl rfl]
  iterate 2
    sl_unfold_run_names
    show View.read (Elt F) (ybufM 0).view _ = _
    rw [ybuf_pay2 0 0 rfl, pay1_xrows m ρ c 0 0 rfl]
    first | rw [SVm_slot0 m 0 0 rfl c 0] | rw [SVm_slot1 m 0 0 rfl c 0]
  iterate 2
    sl_unfold_run_names
    show View.read (Elt F) (ybufM 1).view _ = _
    rw [k0_pay3_eq, ybuf_pay2 1 1 rfl, pay1_xrows m ρ c 1 128 rfl]
    first | rw [SVm_slot0 m 0 0 rfl c 1] | rw [SVm_slot1 m 0 0 rfl c 1]
  · sl_unfold_run_names
    show View.read (Elt F) (sbufM 2 0).view _ = _
    rw [k0_pay8_eq, sbuf_cast 2 0 2 0 rfl rfl, pay6_pay2, pay1_xrows m ρ c 0 0 rfl, View.readCov_cons_toLoadRect, View.readCov_cons_toLoadRect, wfin_load,
      wfout_load, pay7_pay4, cast_pay5, SVm_slot3 m 1 0 rfl c 0]
    rfl
  · sl_unfold_run_names
    show View.read (Elt F) (sbufM 2 1).view _ = _
    rw [k0_pay11_eq, k0_pay8_eq, sbuf_cast 2 1 2 1 rfl rfl, k0_pay9_eq, k0_pay3_eq, pay6_pay2, pay1_xrows m ρ c 1 128 rfl, k0_pay10_eq,
      View.readCov_cons_toLoadRect, View.readCov_cons_toLoadRect, wfin_load, wfout_load, pay7_pay4, cast_pay5, SVm_slot3 m 1 0 rfl c 1]
    rfl
  · show View.read (Elt F) (slotM (0, 1, 0)).view _ = _
    rw [slot_read, SVm_slot2 m 0 rfl c 0]
  · show View.read (Elt F) (slotM (0, 1, 1)).view _ = _
    rw [slot_read, SVm_slot2 m 0 rfl c 1]
  · sl_unfold_run_names
    show View.read (Elt F) (sbufM 0 0).view _ = _
    rw [k0_pay18_eq, k0_pay19_eq, sbuf_cast 0 0 0 0 rfl rfl, slot_load (0, 0, 0) 0 0 0 rfl rfl rfl, slot_load (1, 3, 0) 1 3 0 rfl rfl rfl,
      readCov_skip_wi 0 2 (by decide), readCov_skip_wi 0 1 (by decide), View.readCov_cons_toLoadRect, readCov_skip_wo 0 2 (by decide),
      readCov_skip_wo 0 1 (by decide), View.readCov_cons_toLoadRect, wfin_load, wfout_load, cast_pay4, cast_pay5, SVm_odd0 m 0 1 0 rfl rfl c 0]
    rfl
  · sl_unfold_run_names
    show View.read (Elt F) (sbufM 1 0).view _ = _
    rw [k0_pay20_eq, sbuf_cast 1 0 1 0 rfl rfl, slot_load (0, 1, 0) 0 1 0 rfl rfl rfl, readCov_skip_wi 0 2 (by decide), readCov_skip_wi 0 1 (by decide),
      View.readCov_cons_toLoadRect, readCov_skip_wo 0 2 (by decide), readCov_skip_wo 0 1 (by decide), View.readCov_cons_toLoadRect, wfin_load, wfout_load,
      cast_pay4, cast_pay5, SVm_odd1 m 0 1 0 rfl rfl c 0]
    rfl
  · sl_unfold_run_names
    show View.read (Elt F) (sbufM 0 1).view _ = _
    rw [k0_pay23_eq, sbuf_cast 0 1 0 1 rfl rfl, slot_load (0, 0, 1) 0 0 1 rfl rfl rfl, slot_load (1, 3, 1) 1 3 1 rfl rfl rfl,
      readCov_skip_wi 0 2 (by decide), readCov_skip_wi 0 1 (by decide), View.readCov_cons_toLoadRect, readCov_skip_wo 0 2 (by decide),
      readCov_skip_wo 0 1 (by decide), View.readCov_cons_toLoadRect, wfin_load, wfout_load, cast_pay4, cast_pay5, SVm_odd0 m 0 1 0 rfl rfl c 1]
    rfl
  · sl_unfold_run_names
    show View.read (Elt F) (sbufM 1 1).view _ = _
    rw [k0_pay24_eq, k0_pay20_eq, sbuf_cast 1 1 1 1 rfl rfl, slot_load (0, 1, 1) 0 1 1 rfl rfl rfl, readCov_skip_wi 0 2 (by decide),
      readCov_skip_wi 0 1 (by decide), View.readCov_cons_toLoadRect, readCov_skip_wo 0 2 (by decide), readCov_skip_wo 0 1 (by decide),
      View.readCov_cons_toLoadRect, wfin_load, wfout_load, cast_pay4, cast_pay5, SVm_odd1 m 0 1 0 rfl rfl c 1]
    rfl
  iterate 2
    sl_unfold_run_names
    show View.read (Elt F) (ybufM 0).view _ = _
    rw [k0_pay30_eq, ybuf_cast 0 0 rfl, readCov_skip_own 0 1 (by decide), View.readCov_cons_toLoadRect, k0_pay26_eq, cast_S1x128x256_roundtrip,
      slot_load (0, 2, 0) 0 2 0 rfl rfl rfl, slot_load (1, 0, 0) 1 0 0 rfl rfl rfl, slot_load (1, 1, 0) 1 1 0 rfl rfl rfl, readCov_skip_wi 0 2 (by decide),
      readCov_skip_wi 0 1 (by decide), View.readCov_cons_toLoadRect, readCov_skip_wo 0 2 (by decide), readCov_skip_wo 0 1 (by decide),
      View.readCov_cons_toLoadRect, wfin_load 0, wfout_load 0, cast_pay4, cast_pay5]
    first | rw [SVm_slot0 m 2 1 rfl c 0] | rw [SVm_slot1 m 2 1 rfl c 0]
    rw [Y16_succ m 0 1 0 1 rfl rfl rfl c 0]
    rfl
  · sl_unfold_run_names
    show View.read (Elt F) (sbufM 2 0).view _ = _
    rw [k0_pay31_eq, sbuf_cast 2 0 2 0 rfl rfl, k0_pay30_eq, cast_S1x128x256_roundtrip, readCov_skip_own 0 1 (by decide), View.readCov_cons_toLoadRect,
      k0_pay26_eq, cast_S1x128x256_roundtrip, slot_load (0, 2, 0) 0 2 0 rfl rfl rfl, slot_load (1, 0, 0) 1 0 0 rfl rfl rfl,
      slot_load (1, 1, 0) 1 1 0 rfl rfl rfl, readCov_skip_wi 0 2 (by decide), readCov_skip_wi 0 1 (by decide), View.readCov_cons_toLoadRect,
      readCov_skip_wo 0 2 (by decide), readCov_skip_wo 0 1 (by decide), View.readCov_cons_toLoadRect, wfin_load 0, wfout_load 0, cast_pay4, cast_pay5,
      readCov_skip_wi 1 2 (by decide), View.readCov_cons_toLoadRect, k0_pay12_eq, readCov_skip_wo 1 2 (by decide), View.readCov_cons_toLoadRect,
      k0_pay13_eq, wfin_load 1, wfout_load 1, cast_pay4, cast_pay5, SVm_slot3 m 3 1 rfl c 0, Y16_succ m 0 1 0 1 rfl rfl rfl c 0]
    rfl
  iterate 2
    sl_unfold_run_names
    show View.read (Elt F) (ybufM 1).view _ = _
    rw [k0_pay32_eq, k0_pay30_eq, ybuf_cast 1 1 rfl, View.readCov_cons_toLoadRect, k0_pay28_eq, k0_pay26_eq, cast_S1x128x256_roundtrip, k0_pay27_eq,
      slot_load (0, 2, 1) 0 2 1 rfl rfl rfl, slot_load (1, 0, 1) 1 0 1 rfl rfl rfl, slot_load (1, 1, 1) 1 1 1 rfl rfl rfl, readCov_skip_wi 0 2 (by decide),
      readCov_skip_wi 0 1 (by decide), View.readCov_cons_toLoadRect, readCov_skip_wo 0 2 (by decide), readCov_skip_wo 0 1 (by decide),
      View.readCov_cons_toLoadRect, wfin_load 0, wfout_load 0, cast_pay4, cast_pay5]
    first | rw [SVm_slot0 m 2 1 rfl c 1] | rw [SVm_slot1 m 2 1 rfl c 1]
    rw [Y16_succ m 0 1 0 1 rfl rfl rfl c 1]
    rfl
  · sl_unfold_run_names
    show View.read (Elt F) (sbufM 2 1).view _ = _
    rw [sbuf_cast 2 1 2 1 rfl rfl, k0_pay33_eq, k0_pay32_eq, k0_pay30_eq, cast_S1x128x256_roundtrip, View.readCov_cons_toLoadRect, k0_pay28_eq,
      k0_pay26_eq, cast_S1x128x256_roundtrip, k0_pay27_eq, slot_load (0, 2, 1) 0 2 1 rfl rfl rfl, slot_load (1, 0, 1) 1 0 1 rfl rfl rfl,
      slot_load (1, 1, 1) 1 1 1 rfl rfl rfl, readCov_skip_wi 0 2 (by decide), readCov_skip_wi 0 1 (by decide), View.readCov_cons_toLoadRect,
      readCov_skip_wo 0 2 (by decide), readCov_skip_wo 0 1 (by decide), View.readCov_cons_toLoadRect, wfin_load 0, wfout_load 0, cast_pay4, cast_pay5,
      readCov_skip_wi 1 2 (by decide), View.readCov_cons_toLoadRect, k0_pay12_eq, readCov_skip_wo 1 2 (by decide), View.readCov_cons_toLoadRect,
      k0_pay13_eq, wfin_load 1, wfout_load 1, cast_pay4, cast_pay5, SVm_slot3 m 3 1 rfl c 1, Y16_succ m 0 1 0 1 rfl rfl rfl c 1]
    rfl
  · show View.read (Elt F) (slotM (2, 1, 0)).view _ = _
    rw [slot_read, SVm_slot2 m 2 rfl c 0]
  · show View.read (Elt F) (slotM (2, 1, 1)).view _ = _
    rw [slot_read, SVm_slot2 m 2 rfl c 1]
  · sl_unfold_run_names
    show View.read (Elt F) (sbufM 0 0).view _ = _
    rw [k0_pay37_eq, k0_pay36_eq, sbuf_cast 0 0 0 0 rfl rfl, slot_load (2, 0, 0) 2 0 0 rfl rfl rfl, slot_load (3, 3, 0) 3 3 0 rfl rfl rfl,
      readCov_skip_wi 1 2 (by decide), View.readCov_cons_toLoadRect, k0_pay12_eq, readCov_skip_wo 1 2 (by decide), View.readCov_cons_toLoadRect,
      k0_pay13_eq, wfin_load 1, wfout_load 1, cast_pay4, cast_pay5, SVm_odd0 m 2 3 1 rfl rfl c 0]
    rfl
  · sl_unfold_run_names
    show View.read (Elt F) (sbufM 1 0).view _ = _
    rw [sbuf_cast 1 0 1 0 rfl rfl, k0_pay38_eq, slot_load (2, 1, 0) 2 1 0 rfl rfl rfl, readCov_skip_wi 1 2 (by decide), View.readCov_cons_toLoadRect,
      k0_pay12_eq, readCov_skip_wo 1 2 (by decide), View.readCov_cons_toLoadRect, k0_pay13_eq, wfin_load 1, wfout_load 1, cast_pay4, cast_pay5,
      SVm_odd1 m 2 3 1 rfl rfl c 0]
    rfl
  · sl_unfold_run_names
    show View.read (Elt F) (sbufM 0 1).view _ = _
    rw [k0_pay42_eq, sbuf_cast 0 1 0 1 rfl rfl, slot_load (2, 0, 1) 2 0 1 rfl rfl rfl, slot_load (3, 3, 1) 3 3 1 rfl rfl rfl,
      readCov_skip_wi 1 2 (by decide), View.readCov_cons_toLoadRect, k0_pay12_eq, readCov_skip_wo 1 2 (by decide), View.readCov_cons_toLoadRect,
      k0_pay13_eq, wfin_load 1, wfout_load 1, cast_pay4, cast_pay5, SVm_odd0 m 2 3 1 rfl rfl c 1]
    rfl
  · sl_unfold_run_names
    show View.read (Elt F) (sbufM 1 1).view _ = _
    rw [k0_pay44_eq, sbuf_cast 1 1 1 1 rfl rfl, slot_load (2, 1, 1) 2 1 1 rfl rfl rfl, readCov_skip_wi 1 2 (by decide), View.readCov_cons_toLoadRect,
      k0_pay12_eq, readCov_skip_wo 1 2 (by decide), View.readCov_cons_toLoadRect, k0_pay13_eq, wfin_load 1, wfout_load 1, cast_pay4, cast_pay5,
      SVm_odd1 m 2 3 1 rfl rfl c 1]
    rfl
  iterate 2
    unfold sound_body.sl.Hy0_w1_2 sound_body.sl.v967 sound_body.sl.v843 sound_body.sl.v845 sound_body.sl.v851 sound_body.sl.v969 sound_body.sl.v973 sound_body.sl.v193 sound_body.sl.v199
    show View.read (Elt F) (ybufM 0).view _ = _
    rw [k0_pay47_eq, k0_pay30_eq, ybuf_cast 0 0 rfl, readCov_skip_own 0 1 (by decide), View.readCov_cons_toLoadRect, k0_pay45_eq,
      cast_S1x128x256_roundtrip, slot_load (2, 2, 0) 2 2 0 rfl rfl rfl, slot_load (3, 0, 0) 3 0 0 rfl rfl rfl, slot_load (3, 1, 0) 3 1 0 rfl rfl rfl,
      readCov_skip_wi 1 2 (by decide), View.readCov_cons_toLoadRect, k0_pay12_eq, readCov_skip_wo 1 2 (by decide), View.readCov_cons_toLoadRect,
      k0_pay13_eq, wfin_load 1, wfout_load 1, cast_pay4, cast_pay5]
    first | rw [SVm_slot0 m 4 2 rfl c 0] | rw [SVm_slot1 m 4 2 rfl c 0]
    rw [Y16_succ m 2 3 1 2 rfl rfl rfl c 0]
    rfl
  · sl_unfold_run_names
    show View.read (Elt F) (sbufM 2 0).view _ = _
    rw [sbuf_cast 2 0 2 0 rfl rfl, k0_pay48_eq, k0_pay33_eq, k0_pay47_eq, k0_pay30_eq, cast_S1x128x256_roundtrip, readCov_skip_own 0 1 (by decide),
      View.readCov_cons_toLoadRect, k0_pay45_eq, cast_S1x128x256_roundtrip, slot_load (2, 2, 0) 2 2 0 rfl rfl rfl, slot_load (3, 0, 0) 3 0 0 rfl rfl rfl,
      slot_load (3, 1, 0) 3 1 0 rfl rfl rfl, readCov_skip_wi 1 2 (by decide), View.readCov_cons_toLoadRect, k0_pay12_eq, readCov_skip_wo 1 2 (by decide),
      View.readCov_cons_toLoadRect, k0_pay13_eq, wfin_load 1, wfout_load 1, cast_pay4, cast_pay5, View.readCov_cons_toLoadRect, k0_pay15_14_eq,
      View.readCov_cons_toLoadRect, k0_pay16_eq, wfin_load 2, wfout_load 2, cast_pay4, cast_pay5, SVm_slot3 m 5 2 rfl c 0,
      Y16_succ m 2 3 1 2 rfl rfl rfl c 0]
    rfl
  iterate 2
    sl_unfold_run_names
    show View.read (Elt F) (ybufM 1).view _ = _
    rw [k0_pay50_eq, k0_pay30_eq, ybuf_cast 1 1 rfl, View.readCov_cons_toLoadRect, k0_pay46_eq, k0_pay45_eq, cast_S1x128x256_roundtrip,
      slot_load (2, 2, 1) 2 2 1 rfl rfl rfl, slot_load (3, 0, 1) 3 0 1 rfl rfl rfl, slot_load (3, 1, 1) 3 1 1 rfl rfl rfl, readCov_skip_wi 1 2 (by decide),
      View.readCov_cons_toLoadRect, k0_pay12_eq, readCov_skip_wo 1 2 (by decide), View.readCov_cons_toLoadRect, k0_pay13_eq, wfin_load 1, wfout_load 1,
      cast_pay4, cast_pay5]
    first | rw [SVm_slot0 m 4 2 rfl c 1] | rw [SVm_slot1 m 4 2 rfl c 1]
    rw [Y16_succ m 2 3 1 2 rfl rfl rfl c 1]
    rfl
  · sl_unfold_run_names
    show View.read (Elt F) (sbufM 2 1).view _ = _
    rw [k0_pay53_eq, sbuf_cast 2 1 2 1 rfl rfl, k0_pay50_eq, k0_pay30_eq, cast_S1x128x256_roundtrip, View.readCov_cons_toLoadRect, k0_pay46_eq,
      k0_pay45_eq, cast_S1x128x256_roundtrip, slot_load (2, 2, 1) 2 2 1 rfl rfl rfl, slot_load (3, 0, 1) 3 0 1 rfl rfl rfl,
      slot_load (3, 1, 1) 3 1 1 rfl rfl rfl, readCov_skip_wi 1 2 (by decide), View.readCov_cons_toLoadRect, k0_pay12_eq, readCov_skip_wo 1 2 (by decide),
      View.readCov_cons_toLoadRect, k0_pay13_eq, wfin_load 1, wfout_load 1, cast_pay4, cast_pay5, View.readCov_cons_toLoadRect, k0_pay15_14_eq,
      View.readCov_cons_toLoadRect, k0_pay16_eq, wfin_load 2, wfout_load 2, cast_pay4, cast_pay5, SVm_slot3 m 5 2 rfl c 1,
      Y16_succ m 2 3 1 2 rfl rfl rfl c 1]
    rfl
  · show View.read (Elt F) (slotM (4, 1, 0)).view _ = _
    rw [slot_read, SVm_slot2 m 4 rfl c 0]
  · show View.read (Elt F) (slotM (4, 1, 1)).view _ = _
    rw [slot_read, SVm_slot2 m 4 rfl c 1]
  · sl_unfold_run_names
    show View.read (Elt F) (sbufM 0 0).view _ = _
    rw [k0_pay55_eq, sbuf_cast 0 0 0 0 rfl rfl, slot_load (4, 0, 0) 4 0 0 rfl rfl rfl, slot_load (5, 3, 0) 5 3 0 rfl rfl rfl, View.readCov_cons_toLoadRect,
      k0_pay15_14_eq, View.readCov_cons_toLoadRect, k0_pay16_eq, wfin_load 2, wfout_load 2, cast_pay4, cast_pay5, SVm_odd0 m 4 5 2 rfl rfl c 0]
    rfl
  · sl_unfold_run_names
    show View.read (Elt F) (sbufM 1 0).view _ = _
    rw [k0_pay58_eq, k0_pay20_eq, sbuf_cast 1 0 1 0 rfl rfl, slot_load (4, 1, 0) 4 1 0 rfl rfl rfl, View.readCov_cons_toLoadRect, k0_pay15_14_eq,
      View.readCov_cons_toLoadRect, k0_pay16_eq, wfin_load 2, wfout_load 2, cast_pay4, cast_pay5, SVm_odd1 m 4 5 2 rfl rfl c 0]
    rfl
  · sl_unfold_run_names
    show View.read (Elt F) (sbufM 0 1).view _ = _
    rw [k0_pay60_eq, k0_pay55_eq, sbuf_cast 0 1 0 1 rfl rfl, slot_load (4, 0, 1) 4 0 1 rfl rfl rfl, slot_load (5, 3, 1) 5 3 1 rfl rfl rfl,
      View.readCov_cons_toLoadRect, k0_pay15_14_eq, View.readCov_cons_toLoadRect, k0_pay16_eq, wfin_load 2, wfout_load 2, cast_pay4, cast_pay5,
      SVm_odd0 m 4 5 2 rfl rfl c 1]
    rfl
  · sl_unfold_run_names
    show View.read (Elt F) (sbufM 1 1).view _ = _
    rw [k0_pay61_eq, k0_pay20_eq, sbuf_cast 1 1 1 1 rfl rfl, slot_load (4, 1, 1) 4 1 1 rfl rfl rfl, View.readCov_cons_toLoadRect, k0_pay15_14_eq,
      View.readCov_cons_toLoadRect, k0_pay16_eq, wfin_load 2, wfout_load 2, cast_pay4, cast_pay5, SVm_odd1 m 4 5 2 rfl rfl c 1]
    rfl
  iterate 2
    unfold sound_body.sl.Hy0_w1_3 sound_body.sl.v1409 sound_body.sl.v1285 sound_body.sl.v1287 sound_body.sl.v1293 sound_body.sl.v1411 sound_body.sl.v1415 sound_body.sl.r_5 sound_body.sl.v205 sound_body.sl.v211
    show View.read (Elt F) (ybufM 0).view _ = _
    rw [k0_pay65_eq, k0_pay30_eq, ybuf_cast 0 0 rfl, readCov_skip_own 0 1 (by decide), View.readCov_cons_toLoadRect, k0_pay62_eq, k0_pay45_eq,
      cast_S1x128x256_roundtrip, slot_load (4, 2, 0) 4 2 0 rfl rfl rfl, slot_load (5, 0, 0) 5 0 0 rfl rfl rfl, slot_load (5, 1, 0) 5 1 0 rfl rfl rfl,
      View.readCov_cons_toLoadRect, k0_pay15_14_eq, View.readCov_cons_toLoadRect, k0_pay16_eq, wfin_load 2, wfout_load 2, cast_pay4, cast_pay5]
    first | rw [SVm_slot0 m 6 3 rfl c 0] | rw [SVm_slot1 m 6 3 rfl c 0]
    rw [Y16_succ m 4 5 2 3 rfl rfl rfl c 0]
    rfl
  iterate 2
    sl_unfold_run_names
    show View.read (Elt F) (ybufM 1).view _ = _
    rw [k0_pay67_eq, k0_pay30_eq, ybuf_cast 1 1 rfl, View.readCov_cons_toLoadRect, k0_pay63_eq, k0_pay45_eq, cast_S1x128x256_roundtrip,
      slot_load (4, 2, 1) 4 2 1 rfl rfl rfl, slot_load (5, 0, 1) 5 0 1 rfl rfl rfl, slot_load (5, 1, 1) 5 1 1 rfl rfl rfl, View.readCov_cons_toLoadRect,
      k0_pay15_14_eq, View.readCov_cons_toLoadRect, k0_pay16_eq, wfin_load 2, wfout_load 2, cast_pay4, cast_pay5]
    first | rw [SVm_slot0 m 6 3 rfl c 1] | rw [SVm_slot1 m 6 3 rfl c 1]
    rw [Y16_succ m 4 5 2 3 rfl rfl rfl c 1]
    rfl
  · show View.read (Elt F) (slotM (6, 1, 0)).view _ = _
    rw [slot_read, SVm_slot2 m 6 rfl c 0]
  · show View.read (Elt F) (slotM (6, 1, 1)).view _ = _
    rw [slot_read, SVm_slot2 m 6 rfl c 1]

end Cert.KernelIdeal.Ring

end
-- ==== Proof.Final.lean ====
import proofs.«900985_g7700000000000986_dist_mlpseq_tp1d_bs_rep_b256_d256_h512_v7x_i4_f32_1_alg».proof.Proof.Body
import proofs.«900985_g7700000000000986_dist_mlpseq_tp1d_bs_rep_b256_d256_h512_v7x_i4_f32_1_alg».proof.Proof.Launch

noncomputable section

namespace Cert.KernelIdeal.Ring

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 40000 in
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre' m ρ c ⊢ wp frame (wpE (defs₀ (F := F)) 𝒱₀ c none) Set.univ (bodyAt0 (F := F) t₀) (fun _ => bodyPost m ρ c)
  exact sound_body m ρ c

theorem finalA_out (c : Dev nD) : finalA m ρ c (1 : Fin 2) = outAt m c := by
  unfold finalA
  have h := (dats (F := F) m ρ 0 c).arrAt_succ (1 : Fin 2) t₀
  rw [if_pos (flush0_1 t₀)] at h
  refine (show (dats (F := F) m ρ 0 c).arrAt (1 : Fin 2) cfg0.N = (dats (F := F) m ρ 0 c).arrAt (1 : Fin 2) (t₀.val + 1) from rfl).trans (h.trans ?_)
  exact Memref.write_access_unit_zero_univ (Elt F) main_v1 (funext fun a => Nat.zero_mul _) _ _ _

theorem finalA_x (c : Dev nD) : finalA m ρ c (0 : Fin 2) = m ((c : Thread nD τ).loc main_arg0) :=
  (dats (F := F) m ρ 0 c).arrAt_in (0 : Fin 2) rfl _

theorem run_values : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 1).trans (finalA_out m ρ c), ((h c).1 0).trans (finalA_x m ρ c), (h c).2⟩)
    (run_main m ρ (body_obligation m ρ))

end Cert.KernelIdeal.Ring

end
-- ==== Proof.Bits.Spec.lean ====
import proofs.«900985_g7700000000000986_dist_mlpseq_tp1d_bs_rep_b256_d256_h512_v7x_i4_f32_1_alg».proof.Kernel
import Idealize.ShloMosaic.Lib.ValueIdx

noncomputable section

namespace Cert.Kernel.Spec

open Idealize.ShloMosaic Cert.Kernel

variable {F : FTy → Type} [FloatOps F] [Facts]
open Facts₀ Facts

def nxt (c : Dev nD) : Dev nD := ⟨(c.val + 1) % 4, Nat.mod_lt _ (by decide)⟩
def prv (c : Dev nD) : Dev nD := ⟨(c.val + 3) % 4, Nat.mod_lt _ (by decide)⟩
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide

def part (x16 : FVec F S128x256 .bf16) (wi16 : FVec F S256x512 .bf16) (wo16 : FVec F S512x256 .bf16) : FVec F S128x256 .f32 :=
  matmul dot_S128x512_S512x256_S128x256_1_0_0_1_n_n none
    (truncf .bf16 (maximumf (matmul dot_S128x256_S256x512_S128x512_1_0_0_1_n_n none x16 wi16 (constant S128x512 .f32 0x00000000#32))
      (broadcast S128x512 (Scalar.ofBits .f32 0x00000000#32))) bitsLt_bf16_f32)
    wo16 (constant S128x256 .f32 0x00000000#32)

def rowsOf (xb : Vec F S256x256 .f32) (c : Fin 2) : Vec F S128x256 .f32 :=
  fun i => xb (ValueIdx.ix2 (⟨128 * c.val + (i 0).val, by have h : (i 0).val < 128 := (i 0).isLt; have := c.isLt; omega⟩ : Fin 256) (⟨(i 1).val, (i 1).isLt⟩ : Fin 256))

section Flow

variable (xb : Dev nD → Vec F S256x256 .f32) (wi : Fin 3 → Dev nD → Vec F S256x512 .f32) (wo : Fin 3 → Dev nD → Vec F S512x256 .f32)

def wi16 (l : Fin 3) (d : Dev nD) : FVec F S256x512 .bf16 := truncf .bf16 (wi l d) bitsLt_bf16_f32
def wo16 (l : Fin 3) (d : Dev nD) : FVec F S512x256 .bf16 := truncf .bf16 (wo l d) bitsLt_bf16_f32

def P (l : Fin 3) (d : Dev nD) (v : FVec F S128x256 .bf16) : FVec F S128x256 .f32 := part v (wi16 wi l d) (wo16 wo l d)

def lw (l : ℕ) : Fin 3 := ⟨l % 3, Nat.mod_lt _ (by decide)⟩

def sumOf (l : Fin 3) (y : Dev nD → Fin 2 → FVec F S128x256 .bf16) (d : Dev nD) (c : Fin 2) : FVec F S128x256 .f32 :=
  addf (addf (P wi wo l d (y (opp d) c))
      (extf .f32 (truncf .bf16 (addf (P wi wo l (prv d) (y (opp d) c))
        (extf .f32 (truncf .bf16 (P wi wo l (opp d) (y (opp d) c)) bitsLt_bf16_f32) bitsLt_bf16_f32)) bitsLt_bf16_f32) bitsLt_bf16_f32))
    (extf .f32 (truncf .bf16 (P wi wo l (nxt d) (y (opp d) c)) bitsLt_bf16_f32) bitsLt_bf16_f32)

def Y16 : (l : ℕ) → Dev nD → Fin 2 → FVec F S128x256 .bf16
  | 0, d, c => truncf .bf16 (rowsOf (xb d) c) bitsLt_bf16_f32
  | l + 1, d, c => truncf .bf16 (sumOf wi wo (lw l) (Y16 l) d c) bitsLt_bf16_f32

def Ysum (l : ℕ) (d : Dev nD) (c : Fin 2) : FVec F S128x256 .f32 := sumOf wi wo (lw l) (Y16 xb wi wo l) d c

def slotVal (p s : ℕ) (d : Dev nD) (c : Fin 2) : FVec F S128x256 .bf16 :=
  if p % 2 = 0 then
    (if s = 0 then Y16 xb wi wo (p / 2) (prv d) c else if s = 1 then Y16 xb wi wo (p / 2) (nxt d) c else Y16 xb wi wo (p / 2) (opp d) c)
  else
    (if s = 3 then truncf .bf16 (P wi wo (lw (p / 2)) (prv d) (Y16 xb wi wo (p / 2) (prv d) c)) bitsLt_bf16_f32
     else if s = 0 then truncf .bf16 (addf (P wi wo (lw (p / 2)) (prv d) (Y16 xb wi wo (p / 2) (opp d) c))
        (extf .f32 (truncf .bf16 (P wi wo (lw (p / 2)) (opp d) (Y16 xb wi wo (p / 2) (opp d) c)) bitsLt_bf16_f32) bitsLt_bf16_f32)) bitsLt_bf16_f32
     else truncf .bf16 (P wi wo (lw (p / 2)) (nxt d) (Y16 xb wi wo (p / 2) (opp d) c)) bitsLt_bf16_f32)

def outRows (d : Dev nD) (b : Dev nD) (c : Fin 2) : FVec F S128x256 .f32 :=
  if b = opp d then Ysum xb wi wo 2 d c else extf .f32 (Y16 xb wi wo 3 (opp b) c) bitsLt_bf16_f32

def OUT (d : Dev nD) : Vec F S1024x256 .f32 := fun i =>
  outRows xb wi wo d (⟨(i 0).val / 256, by have h : (i 0).val < 1024 := (i 0).isLt; show _ < 4; omega⟩ : Dev nD)
    (⟨(i 0).val % 256 / 128, by omega⟩ : Fin 2)
    (ValueIdx.ix2 (⟨(i 0).val % 128, Nat.mod_lt _ (by decide)⟩ : Fin 128) (⟨(i 1).val, (i 1).isLt⟩ : Fin 256))

end Flow

end Cert.Kernel.Spec

end
-- ==== Proof.Bits.Sched.lean ====
import proofs.«900985_g7700000000000986_dist_mlpseq_tp1d_bs_rep_b256_d256_h512_v7x_i4_f32_1_alg».proof.Proof.Bits.Spec
import proofs.«900985_g7700000000000986_dist_mlpseq_tp1d_bs_rep_b256_d256_h512_v7x_i4_f32_1_alg».proof.Proof.Gen.Kernel.Launch
import Idealize.ShloMosaic.Lib.Tactic

noncomputable section

namespace Cert.Kernel.Ring

open Cert.Kernel.Gen Cert.Kernel.Spec

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) 𝕄 := embL
def ER : Emb UB 𝕄 := (Emb.inl : Emb UB (UB × Counters)).trans embR
instance ER_landsIn : ER.LandsIn (upEmb : UEmb _ 𝕄) := by unfold ER embR; infer_instance

abbrev K : Type := Fin 7 × Fin 4 × Fin 2

theorem inb3 (k : K) : ∀ a, (![k.1.val, k.2.1.val, k.2.2.val] : Fin 3 → ℕ) a + S1x1x1.size a ≤ S7x4x2.size a := by
  intro a; fin_cases a <;> simp [Shape.size] <;> omega
theorem inb5 (k : K) : ∀ a, (![k.1.val, k.2.1.val, k.2.2.val, 0, 0] : Fin 5 → ℕ) a + S1x1x1x128x256.size a ≤ S7x4x2x128x256.size a := by
  intro a; fin_cases a <;> simp [Shape.size] <;> omega

abbrev barS : Sem sig := (SemArray.scalar (sig.barrier 0 rfl) : Sems sig S_).sem
abbrev sendS (k : K) : DmaSem sig :=
  ((cc0_scratch8.slice (Rect.unit (s := S7x4x2) ![k.1.val, k.2.1.val, k.2.2.val] S1x1x1.size (inb3 k))).squeeze S_ squeezes_S1x1x1_S_).sem
abbrev recvS (k : K) : DmaSem sig :=
  ((cc0_scratch9.slice (Rect.unit (s := S7x4x2) ![k.1.val, k.2.1.val, k.2.2.val] S1x1x1.size (inb3 k))).squeeze S_ squeezes_S1x1x1_S_).sem

abbrev slotM (k : K) : Memref sig .tc .vmem S128x256 .bf16 :=
  ((Memref.whole cc0_scratch3 : Memref sig .tc .vmem S7x4x2x128x256 .bf16).slice
    (Rect.unit (s := S7x4x2x128x256) ![k.1.val, k.2.1.val, k.2.2.val, 0, 0] S1x1x1x128x256.size (inb5 k)) (fun _ => rfl)).squeeze S128x256 squeezes_S1x1x1x128x256_S128x256

abbrev barCell (c : Dev nD) : GSem nD τ sig := ((c : Thread nD τ), .reg barS)
abbrev sendCell (c : Dev nD) (k : K) : GSem nD τ sig := ((c : Thread nD τ), .dma (sendS k))
abbrev recvCell (c : Dev nD) (k : K) : GSem nD τ sig := ((c : Thread nD τ), .dma (recvS k))

theorem sendS_val : ∀ k : K, (sendS k).val = 2 + (8 * k.1.val + 2 * k.2.1.val + k.2.2.val) := by decide +kernel
theorem recvS_val : ∀ k : K, (recvS k).val = 58 + (8 * k.1.val + 2 * k.2.1.val + k.2.2.val) := by decide +kernel

theorem inbY (c : Fin 2) : ∀ a, (![c.val, 0, 0] : Fin 3 → ℕ) a + S1x128x256.size a ≤ S2x128x256.size a := by
  intro a; fin_cases a <;> simp [Shape.size] <;> omega
theorem inbS (j : Fin 3) (c : Fin 2) : ∀ a, (![j.val, c.val, 0, 0] : Fin 4 → ℕ) a + S1x1x128x256.size a ≤ S3x2x128x256.size a := by
  intro a; fin_cases a <;> simp [Shape.size] <;> omega

abbrev ybufM (c : Fin 2) : Memref sig .tc .vmem S128x256 .bf16 :=
  ((Memref.whole cc0_scratch2 : Memref sig .tc .vmem S2x128x256 .bf16).slice
    (Rect.unit (s := S2x128x256) ![c.val, 0, 0] S1x128x256.size (inbY c)) (fun _ => rfl)).squeeze S128x256 squeezes_S1x128x256_S128x256
abbrev sbufM (j : Fin 3) (c : Fin 2) : Memref sig .tc .vmem S128x256 .bf16 :=
  ((Memref.whole cc0_scratch0 : Memref sig .tc .vmem S3x2x128x256 .bf16).slice
    (Rect.unit (s := S3x2x128x256) ![j.val, c.val, 0, 0] S1x1x128x256.size (inbS j c)) (fun _ => rfl)).squeeze S128x256 squeezes_S1x1x128x256_S128x256

abbrev isAg (k : K) : Prop := k.1.val % 2 = 0
def toNxt (k : K) : Bool := if isAg k then decide (k.2.1.val = 0) else decide (k.2.1.val = 3 ∨ k.2.1.val = 0)
def used (k : K) : Bool := if isAg k then decide (k.2.1.val ≠ 3) else decide (k.2.1.val ≠ 2)
def tgt (k : K) (d : Dev nD) : Dev nD := if toNxt k then nxt d else prv d
def frm (k : K) (d : Dev nD) : Dev nD := if toNxt k then prv d else nxt d
theorem frm_tgt (k : K) (d : Dev nD) : frm k (tgt k d) = d := by unfold frm tgt; split <;> simp [prv_nxt, nxt_prv]
theorem tgt_frm (k : K) (d : Dev nD) : tgt k (frm k d) = d := by unfold frm tgt; split <;> simp [prv_nxt, nxt_prv]

def srcM (k : K) : Memref sig .tc .vmem S128x256 .bf16 :=
  if isAg k then (if k.2.1.val = 2 then slotM (k.1, 1, k.2.2) else ybufM k.2.2)
  else (if k.2.1.val = 3 then sbufM 2 k.2.2 else if k.2.1.val = 0 then sbufM 0 k.2.2 else sbufM 1 k.2.2)
def qS (k : K) : PosShare TreeShare :=
  if isAg k then (if k.2.1.val = 0 then fullShare.left.left else if k.2.1.val = 1 then fullShare.left.right else fullShare.left) else fullShare

abbrev N : ℕ := (slotM (0, 0, 0)).view.dmaCredit
theorem N_pos : 0 < N := View.dmaCredit_pos _ (by decide)

variable (SV : K → Dev nD → S128x256.Idx → Elt F .bf16)

def slotPts (d : Dev nD) (k : K) (f : Buf (Elt F) ((slotM k).view.loc (d : Thread nD τ))) : sProp 𝕄 :=
  (slotM k).view.loc (d : Thread nD τ) ↦[(slotM k).view.set]{fullShare} f

def recvPay (d : Dev nD) (k : K) : sProp 𝕄 :=
  iprop(∃ f, slotPts d k ((slotM k).view.write (Elt F) f (SV k d) Finset.univ))
def sendPay (d : Dev nD) (k : K) : sProp 𝕄 :=
  iprop(∃ f, (srcM k).view.loc (d : Thread nD τ) ↦[(srcM k).view.set]{qS k} f)
def barT (c : Dev nD) : sProp 𝕄 :=
  bigSep (Finset.univ.filter fun k : K => used k = true ∧ toNxt k = true) fun k => iprop(∃ f, slotPts (nxt c) k f)
def barF (c : Dev nD) : sProp 𝕄 :=
  bigSep (Finset.univ.filter fun k : K => used k = true ∧ toNxt k = false) fun k => iprop(∃ f, slotPts (prv c) k f)

set_option synthInstance.maxHeartbeats 400000 in
instance slotPts_storable (d : Dev nD) (k : K) (f : Buf (Elt F) ((slotM k).view.loc (d : Thread nD τ))) :
    BI.Storable (upEmb : UEmb _ 𝕄) (slotPts d k f) := by unfold slotPts; infer_instance
instance recvPay_storable (d : Dev nD) (k : K) : BI.Storable (upEmb : UEmb _ 𝕄) (recvPay SV d k) := by unfold recvPay; infer_instance
set_option synthInstance.maxHeartbeats 400000 in
instance sendPay_storable (d : Dev nD) (k : K) : BI.Storable (upEmb : UEmb _ 𝕄) (sendPay d k) := by unfold sendPay; infer_instance
instance barT_storable (c : Dev nD) : BI.Storable (upEmb : UEmb _ 𝕄) (barT c) := by unfold barT; infer_instance
instance barF_storable (c : Dev nD) : BI.Storable (upEmb : UEmb _ 𝕄) (barF c) := by unfold barF; infer_instance

abbrev IsSendSem (q : DmaSem sig) : Prop := 2 ≤ q.val ∧ q.val < 58
abbrev IsRecvSem (q : DmaSem sig) : Prop := 58 ≤ q.val ∧ q.val < 114
def kOf (n : ℕ) : K := (⟨n / 8 % 7, Nat.mod_lt _ (by decide)⟩, ⟨n % 8 / 2, by omega⟩, ⟨n % 2, Nat.mod_lt _ (by decide)⟩)
theorem kOf_sendS (k : K) : kOf ((sendS k).val - 2) = k := by
  rw [sendS_val]; obtain ⟨p, s, c⟩ := k; unfold kOf; ext <;> simp <;> omega
theorem kOf_recvS (k : K) : kOf ((recvS k).val - 58) = k := by
  rw [recvS_val]; obtain ⟨p, s, c⟩ := k; unfold kOf; ext <;> simp <;> omega

def ringRd : Rounds.Schedule (GSem nD τ sig) Bool 𝕄 where
  duties g r :=
    if r = 0 ∧ g.1.2 = .tc then
      (match g.2 with
        | .reg b => if b = barS then Finset.univ else ∅
        | .dma q => if IsSendSem q ∨ IsRecvSem q then {false} else ∅)
    else ∅
  unitless _ := False
  amount g _ _ := match g.2 with | .reg _ => 1 | .dma _ => N
  payload g _ d := match g.2 with
    | .reg _ => if d then barT g.1.1 else barF g.1.1
    | .dma q => if IsSendSem q then sendPay g.1.1 (kOf (q.val - 2)) else if IsRecvSem q then recvPay SV g.1.1 (kOf (q.val - 58)) else iprop(emp)
  amount_pos g _ _ _ := by
    cases g.2 with
    | reg _ => exact Nat.one_pos
    | dma _ => exact N_pos

instance ringRd_payload_storable (g : GSem nD τ sig) (r : ℕ) (d : Bool) :
    BI.Storable (upEmb : UEmb _ 𝕄) ((ringRd SV).payload g r d) := by
  unfold ringRd; dsimp only
  cases g.2 with
  | reg _ => dsimp only; split <;> infer_instance
  | dma _ => dsimp only; (repeat' split) <;> infer_instance

section Tables
variable (c : Dev nD) (k : K)
omit [FloatOps F]

theorem isSend : IsSendSem (sendS k) := by unfold IsSendSem; rw [sendS_val]; omega
theorem isRecv : IsRecvSem (recvS k) := by unfold IsRecvSem; rw [recvS_val]; omega
theorem notSend_recv : ¬ IsSendSem (recvS k) := fun h => by have := (isRecv k).1; have := h.2; omega

theorem duties_bar : (ringRd SV).duties (barCell c) 0 = Finset.univ := by
  dsimp only [ringRd]; rw [if_pos ⟨rfl, rfl⟩, if_pos rfl]
theorem duties_send : (ringRd SV).duties (sendCell c k) 0 = {false} := by
  dsimp only [ringRd]; rw [if_pos ⟨rfl, rfl⟩, if_pos (Or.inl (isSend k))]
theorem duties_recv : (ringRd SV).duties (recvCell c k) 0 = {false} := by
  dsimp only [ringRd]; rw [if_pos ⟨rfl, rfl⟩, if_pos (Or.inr (isRecv k))]
theorem duties_later (g : GSem nD τ sig) : ∀ r, 1 ≤ r → (ringRd SV).duties g r = ∅ :=
  fun r hr => by dsimp only [ringRd]; rw [if_neg fun h => by omega]

theorem amount_bar (d : Bool) : (ringRd SV).amount (barCell c) 0 d = 1 := rfl
theorem amount_send (d : Bool) : (ringRd SV).amount (sendCell c k) 0 d = N := rfl
theorem amount_recv (d : Bool) : (ringRd SV).amount (recvCell c k) 0 d = N := rfl

theorem expect_bar : (ringRd SV).expect (barCell c) 0 = 2 := by
  unfold Schedule.expect Schedule.amountOf; rw [duties_bar]; rfl
theorem expect_send : (ringRd SV).expect (sendCell c k) 0 = N := by
  unfold Schedule.expect Schedule.amountOf; rw [duties_send, Finset.sum_singleton, amount_send]
theorem expect_recv : (ringRd SV).expect (recvCell c k) 0 = N := by
  unfold Schedule.expect Schedule.amountOf; rw [duties_recv, Finset.sum_singleton, amount_recv]

theorem payload_bar_true : (ringRd SV).payload (barCell c) 0 true = barT c := by dsimp only [ringRd]; rw [if_pos rfl]
theorem payload_bar_false : (ringRd SV).payload (barCell c) 0 false = barF c := by
  dsimp only [ringRd]; exact if_neg Bool.false_ne_true
theorem payload_send (d : Bool) : (ringRd SV).payload (sendCell c k) 0 d = sendPay c k := by
  dsimp only [ringRd]; rw [if_pos (isSend k), kOf_sendS]
theorem payload_recv (d : Bool) : (ringRd SV).payload (recvCell c k) 0 d = recvPay SV c k := by
  dsimp only [ringRd]; rw [if_neg (notSend_recv k), if_pos (isRecv k), kOf_recvS]

theorem rest_bar : bigSep ((ringRd SV).duties (barCell c) 0 \ ∅) (fun d => (ringRd SV).payload (barCell c) 0 d) = iprop(barF c ∗ barT c) := by
  rw [Finset.sdiff_empty, duties_bar, bigSep_univ_eq_bigSepL [false, true] (by decide) (by decide), bigSepL_cons_cons, bigSepL_singleton,
    payload_bar_false, payload_bar_true]
  rfl
theorem rest_send : bigSep ((ringRd SV).duties (sendCell c k) 0 \ ∅) (fun d => (ringRd SV).payload (sendCell c k) 0 d) = sendPay c k := by
  rw [Finset.sdiff_empty, duties_send, bigSep_singleton, payload_send]
theorem rest_recv : bigSep ((ringRd SV).duties (recvCell c k) 0 \ ∅) (fun d => (ringRd SV).payload (recvCell c k) 0 d) = recvPay SV c k := by
  rw [Finset.sdiff_empty, duties_recv, bigSep_singleton, payload_recv]

end Tables

end Cert.Kernel.Ring

end
-- ==== Proof.Bits.Levels.lean ====
import proofs.«900985_g7700000000000986_dist_mlpseq_tp1d_bs_rep_b256_d256_h512_v7x_i4_f32_1_alg».proof.Proof.Bits.Sched

noncomputable section

namespace Cert.Kernel.Ring

open Cert.Kernel.Gen Cert.Kernel.Spec

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

def sendSeq : List K := [(0, 0, 0), (0, 1, 0), (0, 0, 1), (0, 1, 1), (1, 3, 0), (1, 3, 1), (0, 2, 0), (0, 2, 1), (1, 0, 0), (1, 1, 0), (1, 0, 1), (1, 1, 1), (2, 0, 0), (2, 1, 0), (3, 3, 0), (2, 0, 1), (2, 1, 1), (3, 3, 1), (2, 2, 0), (2, 2, 1), (3, 0, 0), (3, 1, 0), (3, 0, 1), (3, 1, 1), (4, 0, 0), (4, 1, 0), (5, 3, 0), (4, 0, 1), (4, 1, 1), (5, 3, 1), (4, 2, 0), (4, 2, 1), (5, 0, 0), (5, 1, 0), (5, 0, 1), (5, 1, 1), (6, 0, 0), (6, 1, 0), (6, 0, 1), (6, 1, 1), (6, 2, 0), (6, 2, 1)]

def owedFor (c : Dev nD) : List K → CellTallies nD τ sig Unit
  | [] => 0
  | k :: l => owedFor c l + tallyAt (recvCell (tgt k c) k) () N

def O₁ (c : Dev nD) : CellTallies nD τ sig Unit := owedFor c sendSeq + tallyAt (barCell (nxt c)) () 1
def O₀ (c : Dev nD) : CellTallies nD τ sig Unit := O₁ c + tallyAt (barCell (prv c)) () 1

def L (g : GSem nD τ sig) : Finset Unit := if g.1.2 = .tc then {()} else ∅

def ord (k : K) : ℕ := sendSeq.idxOf k

def lv (g : GSem nD τ sig) (_ : Unit) : ℕ := match g.2 with
  | .reg b => if b = barS then 1 else 0
  | .dma q => if IsRecvSem q then 2 + ord (kOf (q.val - 58)) else 0

theorem L_of_ne (g : GSem nD τ sig) (h : g.1.2 ≠ .tc) : L g = ∅ := if_neg h
theorem L_tc (c : Dev nD) (sm : SemLoc sig) : L ((c : Thread nD τ), sm) = {()} := if_pos rfl

theorem mem_L (c : Dev nD) (sm : SemLoc sig) : () ∈ L ((c : Thread nD τ), sm) := by rw [L_tc]; exact Finset.mem_singleton_self _

theorem lv_recv (c : Dev nD) (k : K) : lv (recvCell c k) () = 2 + ord k :=
  (if_pos (isRecv k)).trans (by rw [kOf_recvS])
theorem lv_send (c : Dev nD) (k : K) : lv (sendCell c k) () = 0 :=
  if_neg fun h => absurd (isSend k).2 (Nat.not_lt.2 h.1)
theorem lv_bar (c : Dev nD) : lv (barCell c) () = 1 := by
  show (if barS = barS then 1 else 0) = 1
  exact if_pos rfl

theorem owedFor_pos {c : Dev nD} {l : List K} {g : GSem nD τ sig} {u : Unit} (h : 0 < owedFor c l g u) :
    ∃ k ∈ l, g = recvCell (tgt k c) k := by
  induction l with
  | nil => exact absurd h (Nat.lt_irrefl 0)
  | cons k l ih =>
    rcases Pipeline.add_pos_cases (show 0 < (owedFor c l + tallyAt (recvCell (tgt k c) k) () N) g u from h) with h1 | h2
    · obtain ⟨k', hk', hg⟩ := ih h1; exact ⟨k', List.mem_cons_of_mem _ hk', hg⟩
    · exact ⟨k, List.mem_cons_self, (Pipeline.tallyAt_pos h2).1⟩

theorem O₀_pos {c : Dev nD} {g : GSem nD τ sig} {u : Unit} (h : 0 < O₀ c g u) :
    (∃ k ∈ sendSeq, g = recvCell (tgt k c) k) ∨ g = barCell (nxt c) ∨ g = barCell (prv c) := by
  unfold O₀ O₁ at h
  rcases Pipeline.add_pos_cases h with h | h
  · rcases Pipeline.add_pos_cases h with h | h
    · exact Or.inl (owedFor_pos h)
    · exact Or.inr (Or.inl (Pipeline.tallyAt_pos h).1)
  · exact Or.inr (Or.inr (Pipeline.tallyAt_pos h).1)

theorem mayWait_owedFor (c : Dev nD) (sm : SemLoc sig) (l : List K) (h : ∀ k ∈ l, lv ((c : Thread nD τ), sm) () < 2 + ord k) :
    (levAts L lv : sProp 𝕄) ⊢ MayWait (c : Thread nD τ) sm () (owedFor c l) :=
  Pipeline.mayWait_of_levAts (mem_L _ _) fun g u hg => by
    obtain ⟨k, hk, rfl⟩ := owedFor_pos hg
    cases u
    exact ⟨mem_L _ _, by rw [lv_recv]; exact h k hk⟩

theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (mem_L _ _) fun g u hg => ?_
    cases u
    rw [hq]
    rcases O₀_pos hg with ⟨k, _, rfl⟩ | rfl | rfl
    · exact ⟨mem_L _ _, by rw [lv_recv]; omega⟩
    all_goals exact ⟨mem_L _ _, by rw [lv_bar]; exact Nat.one_pos⟩
  · rw [MayWait_zero]; iintro -; iempintro

theorem mayWait_bar (c : Dev nD) : (levAts L lv : sProp 𝕄) ⊢ MayWait (c : Thread nD τ) (.reg barS) () (owedFor c sendSeq) :=
  mayWait_owedFor c (.reg barS) sendSeq fun k _ => by
    rw [show lv ((c : Thread nD τ), SemLoc.reg barS) () = 1 from lv_bar c]; omega

theorem sendSeq_nodup : sendSeq.Nodup := by decide
theorem sendSeq_toFinset : sendSeq.toFinset = Finset.univ.filter fun k : K => used k = true := by decide

theorem owedFor_eq_sum (c : Dev nD) : ∀ l : List K, l.Nodup →
    owedFor c l = ∑ k ∈ l.toFinset, tallyAt (recvCell (tgt k c) k) () N
  | [], _ => by rw [List.toFinset_nil, Finset.sum_empty]; rfl
  | k :: l, h => by
    rw [List.toFinset_cons, Finset.sum_insert (by rw [List.mem_toFinset]; exact (List.nodup_cons.mp h).1),
      ← owedFor_eq_sum c l (List.nodup_cons.mp h).2, add_comm]
    rfl

theorem creds (c : Dev nD) : (Pipeline.launchCred O₀ c : sProp 𝕄) ⊢ iprop(cred (tallyAt (barCell c) () 2) ∗ bigSep (Finset.univ.filter fun k : K => used k = true) fun k => cred (tallyAt (recvCell c k) () N)) := by
  have hO : (O₀ : Dev nD → CellTallies nD τ sig Unit) = fun d =>
      ((∑ k ∈ sendSeq.toFinset, tallyAt (recvCell (tgt k d) k) () N) + tallyAt (barCell (nxt d)) () 1) + tallyAt (barCell (prv d)) () 1 :=
    funext fun d => by unfold O₀ O₁; rw [owedFor_eq_sum d sendSeq sendSeq_nodup]
  rw [hO, Pipeline.launchCred_add, Pipeline.launchCred_add, Pipeline.launchCred_sum]
  refine (sep_mono (sep_mono
      (bigSep_mono fun k _ => Pipeline.launchCred_tallyAt (.dma (recvS k)) (tgt k) (frm k) (tgt_frm k) (frm_tgt k) () N c)
      (Pipeline.launchCred_tallyAt (.reg barS) nxt prv nxt_prv prv_nxt () 1 c))
      (Pipeline.launchCred_tallyAt (.reg barS) prv nxt prv_nxt nxt_prv () 1 c)).trans ?_
  rw [← sendSeq_toFinset, ← tallyAt_add _ _ 1 1]
  iintro ⟨⟨Hs, H1⟩, H2⟩
  iframe Hs
  iapply (cred_add _ _).2; iframe

end Cert.Kernel.Ring

end
-- ==== Proof.Bits.Ghost.lean ====
import proofs.«900985_g7700000000000986_dist_mlpseq_tp1d_bs_rep_b256_d256_h512_v7x_i4_f32_1_alg».proof.Proof.Bits.Levels
import proofs.«900985_g7700000000000986_dist_mlpseq_tp1d_bs_rep_b256_d256_h512_v7x_i4_f32_1_alg».proof.Proof.Gen.Kernel.Points

noncomputable section

namespace Cert.Kernel.Ring

open Cert.Kernel.Gen Cert.Kernel.Spec

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev UK : Type := {k : K // used k = true}

inductive CK where
  | bar
  | snd (k : UK)
  | rcv (k : UK)
  deriving DecidableEq, Fintype

def csem : CK → SemLoc sig
  | .bar => .reg barS
  | .snd k => .dma (sendS k.1)
  | .rcv k => .dma (recvS k.1)
abbrev kcell (ck : Dev nD × CK) : GSem nD τ sig := ((ck.1 : Thread nD τ), csem ck.2)

theorem inbW (i : Fin 6) : ∀ a, (![i.val] : Fin 1 → ℕ) a + S1.size a ≤ S6.size a := by
  intro a; fin_cases a; simp [Shape.size] <;> omega
abbrev wS (i : Fin 6) : DmaSem sig := ((cc0_scratch10.slice (Rect.unit (s := S6) ![i.val] S1.size (inbW i))).squeeze S_ squeezes_S1_S_).sem

abbrev OS : Type := (Bool × UK) ⊕ Fin 6
def osem : OS → SemLoc sig
  | .inl (false, k) => .dma (sendS k.1)
  | .inl (true, k) => .dma (recvS k.1)
  | .inr i => .dma (wS i)

variable (SV : K → Dev nD → S128x256.Idx → Elt F .bf16)

def invs (Kn : Dev nD × CK → ℕ) (c : Dev nD) : sProp 𝕄 :=
  iprop((bigSep Finset.univ fun ck : CK => cellInv ER (ringRd SV) (Kn (c, ck)) (kcell (c, ck)))
    ∗ cellInv ER (ringRd SV) (Kn (nxt c, .bar)) (barCell (nxt c)) ∗ cellInv ER (ringRd SV) (Kn (prv c, .bar)) (barCell (prv c))
    ∗ bigSep Finset.univ fun k : UK => cellInv ER (ringRd SV) (Kn (tgt k.1 c, .rcv k)) (recvCell (tgt k.1 c) k.1))

def reacheds (c : Dev nD) : sProp 𝕄 :=
  iprop((bigSep Finset.univ fun ck : CK => reached ER (kcell (c, ck)) 0)
    ∗ reached ER (barCell (nxt c)) 0 ∗ reached ER (barCell (prv c)) 0
    ∗ bigSep Finset.univ fun k : UK => reached ER (recvCell (tgt k.1 c) k.1) 0)

def linear (c : Dev nD) : sProp 𝕄 :=
  iprop((bigSep Finset.univ fun ck : CK => atPos ER (kcell (c, ck)) 0 ∅ 0)
    ∗ dutyTok ER (barCell (prv c)) 0 true ∗ dutyTok ER (barCell (nxt c)) 0 false
    ∗ (bigSep Finset.univ fun k : UK => dutyTok ER (recvCell (tgt k.1 c) k.1) 0 false)
    ∗ bigSep Finset.univ fun k : UK => dutyTok ER (sendCell c k.1) 0 false)

def ghost (Kn : Dev nD × CK → ℕ) (c : Dev nD) : sProp 𝕄 := iprop(invs SV Kn c ∗ reacheds c ∗ linear c)

def credits (c : Dev nD) : sProp 𝕄 :=
  iprop(cred (tallyAt (barCell c) () 2) ∗ bigSep (Finset.univ.filter fun k : K => used k = true) fun k => cred (tallyAt (recvCell c k) () N))

def weights (m : (ℓ : Loc nD τ sig) → Buf (Elt F) ℓ) (c : Dev nD) : sProp 𝕄 :=
  iprop((((c : Thread nD τ).loc main_arg1) ↦{fullShare} m _) ∗ (((c : Thread nD τ).loc main_arg2) ↦{fullShare} m _)
    ∗ (((c : Thread nD τ).loc main_arg3) ↦{fullShare} m _) ∗ (((c : Thread nD τ).loc main_arg4) ↦{fullShare} m _)
    ∗ (((c : Thread nD τ).loc main_arg5) ↦{fullShare} m _) ∗ (((c : Thread nD τ).loc main_arg6) ↦{fullShare} m _))

def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f) ∗ (∃ f, ((c : Thread nD τ).loc cc0_scratch5) ↦{fullShare} f)
    ∗ (∃ f, ((c : Thread nD τ).loc cc0_scratch6) ↦{fullShare} f) ∗ (∃ f, ((c : Thread nD τ).loc cc0_scratch7) ↦{fullShare} f))

def wsems0 (c : Dev nD) : sProp 𝕄 := bigSep Finset.univ fun i : Fin 6 => semVal ((c : Thread nD τ), .dma (wS i)) 0

def start (m : (ℓ : Loc nD τ sig) → Buf (Elt F) ℓ) (c : Dev nD) : sProp 𝕄 :=
  iprop((∃ Kn, ghost SV Kn c) ∗ credits c ∗ levAts L lv ∗ weights m c ∗ wsems0 c)

def Φ₀ (m : (ℓ : Loc nD τ sig) → Buf (Elt F) ℓ) (c : Dev nD) : sProp 𝕄 := iprop(start SV m c ∗ scratch c)
def Φ₁ (m : (ℓ : Loc nD τ sig) → Buf (Elt F) ℓ) (c : Dev nD) : sProp 𝕄 :=
  iprop(weights m c ∗ scratch c ∗ Pipeline.ownSems0 (Ix := Unit) (Name := ℕ) (U := UU) (Lvl := ℕ) (Val := Elt F) (τ := τ) osem c)

end Cert.Kernel.Ring

end
-- ==== Proof.Bits.Data.lean ====
import proofs.«900985_g7700000000000986_dist_mlpseq_tp1d_bs_rep_b256_d256_h512_v7x_i4_f32_1_alg».proof.Proof.Bits.Ghost

noncomputable section

namespace Cert.Kernel.Ring

open Cert.Kernel.Gen Cert.Kernel.Spec

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def xbOf (d : Dev nD) : Vec F S256x256 .f32 := m ((d : Thread nD τ).loc main_arg0)
def wiOf (l : Fin 3) (d : Dev nD) : Vec F S256x512 .f32 :=
  match l with
  | 0 => m ((d : Thread nD τ).loc main_arg1)
  | 1 => m ((d : Thread nD τ).loc main_arg3)
  | 2 => m ((d : Thread nD τ).loc main_arg5)
def woOf (l : Fin 3) (d : Dev nD) : Vec F S512x256 .f32 :=
  match l with
  | 0 => m ((d : Thread nD τ).loc main_arg2)
  | 1 => m ((d : Thread nD τ).loc main_arg4)
  | 2 => m ((d : Thread nD τ).loc main_arg6)

def SVm : K → Dev nD → S128x256.Idx → Elt F .bf16 :=
  fun k d => Spec.slotVal (xbOf m) (wiOf m) (woOf m) k.1.val k.2.1.val d k.2.2

def xstg (c : Dev nD) : (cc0_stg0_0 : Ref sig .tc).ty.Contents (Elt F) :=
  (win0_0.blk (0 : Fin 1)).view.read (Elt F) ((s₀ m ρ).mem ((c : Thread nD τ).loc main_arg0))

def outAt (c : Dev nD) : (cc0_stg1_0 : Ref sig .tc).ty.Contents (Elt F) := Spec.OUT (xbOf m) (wiOf m) (woOf m) c

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m c
  Φ t := match t with
    | ⟨0, _⟩ => Φ₀ (SVm m) m c
    | ⟨_ + 1, _⟩ => Φ₁ m c
  q _ := fullShare
  owed t := match t with
    | ⟨0, _⟩ => O₀ c
    | ⟨_ + 1, _⟩ => 0

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m _
    ∧ r.2.mem ((c : Thread nD τ).loc main_arg2) = m _
    ∧ r.2.mem ((c : Thread nD τ).loc main_arg3) = m _
    ∧ r.2.mem ((c : Thread nD τ).loc main_arg4) = m _
    ∧ r.2.mem ((c : Thread nD τ).loc main_arg5) = m _
    ∧ r.2.mem ((c : Thread nD τ).loc main_arg6) = m _

end Cert.Kernel.Ring

end
-- ==== Proof.Bits.Steps.lean ====
import proofs.«900985_g7700000000000986_dist_mlpseq_tp1d_bs_rep_b256_d256_h512_v7x_i4_f32_1_alg».proof.Proof.Bits.Levels

noncomputable section

namespace Cert.Kernel.Ring

open Cert.Kernel.Gen Cert.Kernel.Spec

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (SV : K → Dev nD → S128x256.Idx → Elt F .bf16)

theorem wp_send_k (c n : Dev nD) (k : K) (hn : n = tgt k c) {κ₁ κ₂ : ℕ}
    {hsc : (slotM k : Memref sig (Dev.tc n : Thread nD τ).2.kind .vmem S128x256 .bf16).view.ref.isScScratch = false}
    {hsrc : (srcM k).view.WordExact} {hdst : (slotM k).view.WordExact}
    {hsem : DmaTarget.Typed .vmem (.dma (recvS k)) (.remote (Dev.tc n : Thread nD τ) (slotM k) (.dma (sendS k)) hsc)}
    {α : Type} {Q : α → sProp 𝕄} {kk : PUnit → Prog (TpuEff nD τ sig (Elt F) Λ₀ .tc) α}
    (fs : Buf (Elt F) ((srcM k).view.loc (c : Thread nD τ))) (fd : Buf (Elt F) ((slotM k).view.loc (tgt k c : Thread nD τ)))
    (hv : (srcM k).view.read (Elt F) fs = SV k (tgt k c))
    (O : CellTallies nD τ sig Unit) (W : Waits sig Unit) :
    iprop(cellInv ER (ringRd SV) κ₁ (sendCell c k) ∗ cellInv ER (ringRd SV) κ₂ (recvCell (tgt k c) k)
        ∗ ((srcM k).view.loc (c : Thread nD τ) ↦[(srcM k).view.set]{qS k} fs) ∗ slotPts (tgt k c) k fd
        ∗ owes (c : Thread nD τ) (O + tallyAt (recvCell (tgt k c) k) () N) W
        ∗ dutyTok ER (sendCell c k) 0 false ∗ reached ER (sendCell c k) 0
        ∗ dutyTok ER (recvCell (tgt k c) k) 0 false ∗ reached ER (recvCell (tgt k c) k) 0)
      ⊢ iprop(((cred (tallyAt (sendCell c k) () N) ∗ owes (c : Thread nD τ) O W) -∗ wp frame (wpE defs₀ 𝒱₀ (c : Thread nD τ) none) Set.univ (kk ⟨⟩) Q)
          -∗ wp frame (wpE defs₀ 𝒱₀ (c : Thread nD τ) none) Set.univ
              (.op (.enqueueDma (srcM k) (.remote (Dev.tc n : Thread nD τ) (slotM k) (.dma (sendS k)) hsc) (.dma (recvS k)) hsrc hdst hsem) kk) Q) := by
  subst hn
  unfold slotPts
  exact Rounds.wp_send_pointsTo 𝒱₀ ER (ringRd SV) (c : Thread nD τ) none
    (by rw [duties_send]; exact Finset.mem_singleton_self _) (by rw [duties_recv]; exact Finset.mem_singleton_self _)
    () () N rfl (amount_send SV c k false) (amount_recv SV (tgt k c) k false) O rfl (W := W)
    (by rw [payload_send]; unfold sendPay; iintro H; iexists fs; iexact H)
    (by rw [payload_recv]; unfold recvPay slotPts; iintro H; iexists fd; rw [← hv]; iexact H)

theorem wp_wait_k (c : Dev nD) (q : DmaSem sig) {P : sProp 𝕄}
    (hE : (ringRd SV).expect ((c : Thread nD τ), .dma q) 0 = N)
    (hR : bigSep ((ringRd SV).duties ((c : Thread nD τ), .dma q) 0 \ ∅) (fun d => (ringRd SV).payload ((c : Thread nD τ), .dma q) 0 d) = P)
    {κ : ℕ} {sp sp' : Space} {s s' : Shape} {e e' : EltTy}
    {src : Memref sig (c : Thread nD τ).2.kind sp' s' e'} {κ' : Kind} {dst : Memref sig κ' sp s e}
    {hsrc : src.view.WordExact} {hdst : dst.view.WordExact}
    {α : Type} {Q : α → sProp 𝕄} {kk : PUnit → Prog (TpuEff nD τ sig (Elt F) Λ₀ .tc) α}
    (hN : dst.view.dmaCredit = N) (O : CellTallies nD τ sig Unit) (W : Waits sig Unit) :
    iprop(cellInv ER (ringRd SV) κ ((c : Thread nD τ), .dma q) ∗ cred (tallyAt ((c : Thread nD τ), .dma q) () N) ∗ owes (c : Thread nD τ) O W
        ∗ MayWait (c : Thread nD τ) (.dma q) () O ∗ atPos ER ((c : Thread nD τ), .dma q) 0 ∅ 0)
      ⊢ iprop(((owes (c : Thread nD τ) O (insert (SemLoc.dma q, ()) W) ∗ atPos ER ((c : Thread nD τ), .dma q) 1 ∅ 0 ∗ P)
            -∗ wp frame (wpE defs₀ 𝒱₀ (c : Thread nD τ) none) Set.univ (kk ⟨⟩) Q)
          -∗ wp frame (wpE defs₀ 𝒱₀ (c : Thread nD τ) none) Set.univ (.op (.waitDma2 q src dst hsrc hdst) kk) Q) := by
  rw [← hN, ← hR]
  iintro H Hk
  iapply (Rounds.wp_wait_rest_token 𝒱₀ ER (ringRd SV) (c : Thread nD τ) none (κ := κ)
      (wpE_waitDma2_eq 𝒱₀ (c : Thread nD τ) none Set.univ) (Set.mem_univ _) () (O := O) (W := W) (R := 0) (m := 0) (T := ∅)
      (by rw [Nat.zero_add, hN, hE])) $$ H
  iintro ⟨HO, Hat, -, Hp⟩
  iapply Hk; iframe

theorem close_k (g : GSem nD τ sig) {κ : ℕ} :
    iprop(cellInv ER (ringRd SV) κ g ∗ atPos ER g 1 ∅ 0) ⊢ (iprop(|={Set.univ}=> semVal g 0) : sProp 𝕄) :=
  Rounds.cell_close ER (ringRd SV) (Set.mem_univ κ) (fun h => h) (R := 0 + 1) (duties_later SV g)

end Cert.Kernel.Ring

end
-- ==== Proof.Bits.Bufs.lean ====
import proofs.«900985_g7700000000000986_dist_mlpseq_tp1d_bs_rep_b256_d256_h512_v7x_i4_f32_1_alg».proof.Proof.Bits.Sched

noncomputable section

namespace Cert.Kernel.Ring

open Cert.Kernel Cert.Kernel.Gen Cert.Kernel.Spec
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
local notation "𝕄" => MT nD τ sig Unit (Elt F) ℕ UU ℕ

theorem inbWi (i : Fin 3) : ∀ a, (![i.val, 0, 0] : Fin 3 → ℕ) a + S1x256x512.size a ≤ S3x256x512.size a := by
  intro a; fin_cases a <;> simp [Shape.size] <;> omega
theorem inbWo (i : Fin 3) : ∀ a, (![i.val, 0, 0] : Fin 3 → ℕ) a + S1x512x256.size a ≤ S3x512x256.size a := by
  intro a; fin_cases a <;> simp [Shape.size] <;> omega

abbrev wfinM (i : Fin 3) : Memref sig .tc .vmem S256x512 .f32 :=
  ((Memref.whole cc0_scratch6 : Memref sig .tc .vmem S3x256x512 .f32).slice (Rect.unit (s := S3x256x512) ![i.val, 0, 0] S1x256x512.size (inbWi i)) (fun _ => rfl)).squeeze S256x512 squeezes_S1x256x512_S256x512
abbrev wfoutM (i : Fin 3) : Memref sig .tc .vmem S512x256 .f32 :=
  ((Memref.whole cc0_scratch7 : Memref sig .tc .vmem S3x512x256 .f32).slice (Rect.unit (s := S3x512x256) ![i.val, 0, 0] S1x512x256.size (inbWo i)) (fun _ => rfl)).squeeze S512x256 squeezes_S1x512x256_S512x256

abbrev pt {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f

end Cert.Kernel.Ring

end
-- ==== Proof.Bits.RingDev.lean ====
import proofs.«900985_g7700000000000986_dist_mlpseq_tp1d_bs_rep_b256_d256_h512_v7x_i4_f32_1_alg».proof.Proof.Gen.Kernel
import proofs.«900985_g7700000000000986_dist_mlpseq_tp1d_bs_rep_b256_d256_h512_v7x_i4_f32_1_alg».proof.Proof.Bits.Spec

namespace Cert.Kernel.RingDev

open Idealize.ShloMosaic Cert.Kernel

theorem dev1_eq (c : Dev nD) : (⟨k0_dev1 c, Gen.k0_dev1_lt c⟩ : Dev nD) = Spec.prv c :=
  Fin.ext (by revert c; decide +kernel)

theorem dev2_eq (c : Dev nD) : (⟨k0_dev2 c, Gen.k0_dev2_lt c⟩ : Dev nD) = Spec.nxt c :=
  Fin.ext (by revert c; decide +kernel)

theorem dev3_eq (c : Dev nD) : (⟨k0_dev3 c, Gen.k0_dev3_lt c⟩ : Dev nD) = Spec.nxt c :=
  Fin.ext (by revert c; decide +kernel)

theorem dev4_eq (c : Dev nD) : (⟨k0_dev4 c, Gen.k0_dev4_lt c⟩ : Dev nD) = Spec.prv c :=
  Fin.ext (by revert c; decide +kernel)

theorem dev5_eq (c : Dev nD) : (⟨k0_dev5 c, Gen.k0_dev5_lt c⟩ : Dev nD) = Spec.nxt c :=
  Fin.ext (by revert c; decide +kernel)

theorem dev6_eq (c : Dev nD) : (⟨k0_dev6 c, Gen.k0_dev6_lt c⟩ : Dev nD) = Spec.prv c :=
  Fin.ext (by revert c; decide +kernel)

theorem dev7_eq (c : Dev nD) : (⟨k0_dev7 c, Gen.k0_dev7_lt c⟩ : Dev nD) = Spec.nxt c :=
  Fin.ext (by revert c; decide +kernel)

theorem dev8_eq (c : Dev nD) : (⟨k0_dev8 c, Gen.k0_dev8_lt c⟩ : Dev nD) = Spec.nxt c :=
  Fin.ext (by revert c; decide +kernel)

theorem dev9_eq (c : Dev nD) : (⟨k0_dev9 c, Gen.k0_dev9_lt c⟩ : Dev nD) = Spec.prv c :=
  Fin.ext (by revert c; decide +kernel)

theorem dev10_eq (c : Dev nD) : (⟨k0_dev10 c, Gen.k0_dev10_lt c⟩ : Dev nD) = Spec.prv c :=
  Fin.ext (by revert c; decide +kernel)

theorem dev11_eq (c : Dev nD) : (⟨k0_dev11 c, Gen.k0_dev11_lt c⟩ : Dev nD) = Spec.nxt c :=
  Fin.ext (by revert c; decide +kernel)

theorem dev12_eq (c : Dev nD) : (⟨k0_dev12 c, Gen.k0_dev12_lt c⟩ : Dev nD) = Spec.prv c :=
  Fin.ext (by revert c; decide +kernel)

theorem dev13_eq (c : Dev nD) : (⟨k0_dev13 c, Gen.k0_dev13_lt c⟩ : Dev nD) = Spec.nxt c :=
  Fin.ext (by revert c; decide +kernel)

theorem dev14_eq (c : Dev nD) : (⟨k0_dev14 c, Gen.k0_dev14_lt c⟩ : Dev nD) = Spec.prv c :=
  Fin.ext (by revert c; decide +kernel)

theorem dev15_eq (c : Dev nD) : (⟨k0_dev15 c, Gen.k0_dev15_lt c⟩ : Dev nD) = Spec.nxt c :=
  Fin.ext (by revert c; decide +kernel)

theorem dev16_eq (c : Dev nD) : (⟨k0_dev16 c, Gen.k0_dev16_lt c⟩ : Dev nD) = Spec.prv c :=
  Fin.ext (by revert c; decide +kernel)

theorem dev17_eq (c : Dev nD) : (⟨k0_dev17 c, Gen.k0_dev17_lt c⟩ : Dev nD) = Spec.nxt c :=
  Fin.ext (by revert c; decide +kernel)

theorem dev18_eq (c : Dev nD) : (⟨k0_dev18 c, Gen.k0_dev18_lt c⟩ : Dev nD) = Spec.nxt c :=
  Fin.ext (by revert c; decide +kernel)

theorem dev19_eq (c : Dev nD) : (⟨k0_dev19 c, Gen.k0_dev19_lt c⟩ : Dev nD) = Spec.prv c :=
  Fin.ext (by revert c; decide +kernel)

theorem dev20_eq (c : Dev nD) : (⟨k0_dev20 c, Gen.k0_dev20_lt c⟩ : Dev nD) = Spec.nxt c :=
  Fin.ext (by revert c; decide +kernel)

theorem dev21_eq (c : Dev nD) : (⟨k0_dev21 c, Gen.k0_dev21_lt c⟩ : Dev nD) = Spec.prv c :=
  Fin.ext (by revert c; decide +kernel)

theorem dev22_eq (c : Dev nD) : (⟨k0_dev22 c, Gen.k0_dev22_lt c⟩ : Dev nD) = Spec.prv c :=
  Fin.ext (by revert c; decide +kernel)

theorem dev23_eq (c : Dev nD) : (⟨k0_dev23 c, Gen.k0_dev23_lt c⟩ : Dev nD) = Spec.nxt c :=
  Fin.ext (by revert c; decide +kernel)

theorem dev24_eq (c : Dev nD) : (⟨k0_dev24 c, Gen.k0_dev24_lt c⟩ : Dev nD) = Spec.prv c :=
  Fin.ext (by revert c; decide +kernel)

theorem dev25_eq (c : Dev nD) : (⟨k0_dev25 c, Gen.k0_dev25_lt c⟩ : Dev nD) = Spec.nxt c :=
  Fin.ext (by revert c; decide +kernel)

theorem dev26_eq (c : Dev nD) : (⟨k0_dev26 c, Gen.k0_dev26_lt c⟩ : Dev nD) = Spec.prv c :=
  Fin.ext (by revert c; decide +kernel)

theorem dev27_eq (c : Dev nD) : (⟨k0_dev27 c, Gen.k0_dev27_lt c⟩ : Dev nD) = Spec.nxt c :=
  Fin.ext (by revert c; decide +kernel)

theorem dev28_eq (c : Dev nD) : (⟨k0_dev28 c, Gen.k0_dev28_lt c⟩ : Dev nD) = Spec.prv c :=
  Fin.ext (by revert c; decide +kernel)

theorem dev29_eq (c : Dev nD) : (⟨k0_dev29 c, Gen.k0_dev29_lt c⟩ : Dev nD) = Spec.nxt c :=
  Fin.ext (by revert c; decide +kernel)

theorem dev30_eq (c : Dev nD) : (⟨k0_dev30 c, Gen.k0_dev30_lt c⟩ : Dev nD) = Spec.nxt c :=
  Fin.ext (by revert c; decide +kernel)

theorem dev31_eq (c : Dev nD) : (⟨k0_dev31 c, Gen.k0_dev31_lt c⟩ : Dev nD) = Spec.prv c :=
  Fin.ext (by revert c; decide +kernel)

theorem dev32_eq (c : Dev nD) : (⟨k0_dev32 c, Gen.k0_dev32_lt c⟩ : Dev nD) = Spec.nxt c :=
  Fin.ext (by revert c; decide +kernel)

theorem dev33_eq (c : Dev nD) : (⟨k0_dev33 c, Gen.k0_dev33_lt c⟩ : Dev nD) = Spec.prv c :=
  Fin.ext (by revert c; decide +kernel)

theorem dev34_eq (c : Dev nD) : (⟨k0_dev34 c, Gen.k0_dev34_lt c⟩ : Dev nD) = Spec.prv c :=
  Fin.ext (by revert c; decide +kernel)

theorem dev35_eq (c : Dev nD) : (⟨k0_dev35 c, Gen.k0_dev35_lt c⟩ : Dev nD) = Spec.nxt c :=
  Fin.ext (by revert c; decide +kernel)

theorem dev36_eq (c : Dev nD) : (⟨k0_dev36 c, Gen.k0_dev36_lt c⟩ : Dev nD) = Spec.prv c :=
  Fin.ext (by revert c; decide +kernel)

theorem dev37_eq (c : Dev nD) : (⟨k0_dev37 c, Gen.k0_dev37_lt c⟩ : Dev nD) = Spec.nxt c :=
  Fin.ext (by revert c; decide +kernel)

theorem dev38_eq (c : Dev nD) : (⟨k0_dev38 c, Gen.k0_dev38_lt c⟩ : Dev nD) = Spec.prv c :=
  Fin.ext (by revert c; decide +kernel)

theorem dev39_eq (c : Dev nD) : (⟨k0_dev39 c, Gen.k0_dev39_lt c⟩ : Dev nD) = Spec.nxt c :=
  Fin.ext (by revert c; decide +kernel)

theorem dev40_eq (c : Dev nD) : (⟨k0_dev40 c, Gen.k0_dev40_lt c⟩ : Dev nD) = Spec.prv c :=
  Fin.ext (by revert c; decide +kernel)

theorem dev41_eq (c : Dev nD) : (⟨k0_dev41 c, Gen.k0_dev41_lt c⟩ : Dev nD) = Spec.nxt c :=
  Fin.ext (by revert c; decide +kernel)

theorem dev42_eq (c : Dev nD) : (⟨k0_dev42 c, Gen.k0_dev42_lt c⟩ : Dev nD) = Spec.prv c :=
  Fin.ext (by revert c; decide +kernel)

theorem dev43_eq (c : Dev nD) : (⟨k0_dev43 c, Gen.k0_dev43_lt c⟩ : Dev nD) = Spec.prv c :=
  Fin.ext (by revert c; decide +kernel)

theorem dev44_eq (c : Dev nD) : (⟨k0_dev44 c, Gen.k0_dev44_lt c⟩ : Dev nD) = Spec.prv c :=
  Fin.ext (by revert c; decide +kernel)

theorem off1_eq : ∀ d24 : Dev nD, ∀ (r : Fin 2),
    k0_off1 d24 (BitVec.ofNat 32 (128 * r.val)) = ![256 * (Spec.opp d24).val + 128 * r.val, 0] := by
  decide +kernel

theorem off2_eq : ∀ d24 : Dev nD, ∀ (r : Fin 2),
    k0_off2 d24 (BitVec.ofNat 32 (128 * r.val)) = ![256 * (Spec.prv d24).val + 128 * r.val, 0] := by
  decide +kernel

theorem off3_eq : ∀ d24 : Dev nD, ∀ (r : Fin 2),
    k0_off3 d24 (BitVec.ofNat 32 (128 * r.val)) = ![256 * (Spec.nxt d24).val + 128 * r.val, 0] := by
  decide +kernel

end Cert.Kernel.RingDev
-- ==== Proof.Bits.Cut.lean ====
import proofs.«900985_g7700000000000986_dist_mlpseq_tp1d_bs_rep_b256_d256_h512_v7x_i4_f32_1_alg».proof.Proof.Bits.Bufs
import Idealize.ShloMosaic.Lib.Ring
import Idealize.ShloMosaic.Rules.PointsTo

noncomputable section

namespace Cert.Kernel.Ring

open Cert.Kernel Cert.Kernel.Gen Cert.Kernel.Spec
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

section Keyed
variable {ℓ : Loc nD τ sig} {B : Type} [Fintype B] [DecidableEq B] {I : B → Finset (Idx ℓ)} {key : Idx ℓ → B}
  (h : ∀ b i, i ∈ I b ↔ key i = b)
include h

-- Sets that an element's key tells apart are pairwise disjoint and cover.
theorem keyed : (∀ b b', b ≠ b' → Disjoint (I b) (I b')) ∧ Finset.univ.biUnion I = Finset.univ :=
  ⟨fun b b' hb => Finset.disjoint_left.mpr fun i hi hi' => hb (((h b i).mp hi).symm.trans ((h b' i).mp hi')),
    Finset.eq_univ_iff_forall.mpr fun i => Finset.mem_biUnion.mpr ⟨key i, Finset.mem_univ _, (h _ i).mpr rfl⟩⟩

theorem keyed_cut (f : Buf (Elt F) ℓ) : (ℓ ↦{fullShare} f : sProp 𝕄) ⊣⊢ bigSep Finset.univ fun b => ℓ ↦[I b]{fullShare} f :=
  .of_eq (Ring.pointsTo_blocks I (keyed h).1 (keyed h).2 f)

theorem keyed_join : bigSep Finset.univ (fun b => iprop(∃ f, ℓ ↦[I b]{fullShare} f)) ⊢ (iprop(∃ g, ℓ ↦{fullShare} g) : sProp 𝕄) :=
  Ring.pointsTo_blocks_join_exists I (keyed h).1 (keyed h).2 fun _ => default

end Keyed

-- In a unit rectangle whose extent on each axis is one or the whole axis, membership is agreement with the offset on the axes of extent one.
theorem mem_unit {s : Shape} {off ext : Fin s.rank → ℕ} {inb} {i : s.Idx} (h : ∀ a, ext a = 1 ∨ ext a = s.size a) :
    i ∈ (Rect.unit off ext inb).set ↔ ∀ a, ext a = 1 → (i a).val = off a := by
  rw [Rect.mem_set_unit]
  exact forall_congr' fun a => by have := (i a).isLt; have := h a; have := inb a; omega

variable (c : Dev nD)

theorem mem_ybuf (j : Fin 2) (i : Idx ((c : Thread nD τ).loc cc0_scratch2)) : i ∈ (ybufM j).view.set ↔ i 0 = j := by
  rw [show (ybufM j).view.set = _ from (View.set_reshape _ _).trans (View.set_slice_whole _ _), mem_unit (by decide)]
  show (∀ a : Fin 3, _) ↔ _
  simp [Fin.forall_fin_succ]
  exact Fin.val_inj

theorem cut_ybuf (f : Buf (Elt F) ((c : Thread nD τ).loc cc0_scratch2)) :
    (((c : Thread nD τ).loc cc0_scratch2) ↦{fullShare} f : sProp 𝕄) ⊣⊢ iprop(pt c (ybufM 0) f ∗ pt c (ybufM 1) f) :=
  (keyed_cut (mem_ybuf c) f).trans (.of_eq (Ring.bigSep_fin2 _))

theorem join_ybuf : iprop((∃ f, pt (F := F) c (ybufM 0) f) ∗ (∃ f, pt (F := F) c (ybufM 1) f))
    ⊢ (iprop(∃ f : Buf (Elt F) ((c : Thread nD τ).loc cc0_scratch2), ((c : Thread nD τ).loc cc0_scratch2) ↦{fullShare} f) : sProp 𝕄) :=
  (Entails.of_eq (Ring.bigSep_fin2 _).symm).trans (keyed_join (mem_ybuf c))

theorem mem_rbuf (k : K) (i : Idx ((c : Thread nD τ).loc cc0_scratch3)) : i ∈ (slotM k).view.set ↔ (i 0, i 1, i 2) = k := by
  rw [show (slotM k).view.set = _ from (View.set_reshape _ _).trans (View.set_slice_whole _ _), mem_unit (by decide)]
  show (∀ a : Fin 5, _) ↔ _
  simp [Fin.forall_fin_succ]
  exact (Fin.val_inj.and ((Fin.val_inj.and Fin.val_inj).trans (Prod.ext_iff (x := (i 1, i 2))).symm)).trans (Prod.ext_iff (x := (i 0, i 1, i 2))).symm

theorem cut_rbuf (f : Buf (Elt F) ((c : Thread nD τ).loc cc0_scratch3)) :
    (((c : Thread nD τ).loc cc0_scratch3) ↦{fullShare} f : sProp 𝕄) ⊣⊢ bigSep (Finset.univ : Finset K) fun k => slotPts (F := F) c k f :=
  keyed_cut (mem_rbuf c) f

theorem join_rbuf : (bigSep (Finset.univ : Finset K) fun k => iprop(∃ f, slotPts (F := F) c k f))
    ⊢ (iprop(∃ f : Buf (Elt F) ((c : Thread nD τ).loc cc0_scratch3), ((c : Thread nD τ).loc cc0_scratch3) ↦{fullShare} f) : sProp 𝕄) :=
  keyed_join (ℓ := ((c : Thread nD τ).loc cc0_scratch3)) (mem_rbuf c)

theorem mem_sbuf (b : Fin 3 × Fin 2) (i : Idx ((c : Thread nD τ).loc cc0_scratch0)) : i ∈ (sbufM b.1 b.2).view.set ↔ (i 0, i 1) = b := by
  rw [show (sbufM b.1 b.2).view.set = _ from (View.set_reshape _ _).trans (View.set_slice_whole _ _), mem_unit (by decide)]
  show (∀ a : Fin 4, _) ↔ _
  simp [Fin.forall_fin_succ]
  exact (Fin.val_inj.and Fin.val_inj).trans (Prod.ext_iff (x := (i 0, i 1))).symm

-- The six index pairs in lexicographic order.
theorem bigSep_sbuf (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

theorem cut_sbuf (f : Buf (Elt F) ((c : Thread nD τ).loc cc0_scratch0)) :
    (((c : Thread nD τ).loc cc0_scratch0) ↦{fullShare} f : sProp 𝕄) ⊣⊢ iprop(pt c (sbufM 0 0) f ∗ pt c (sbufM 0 1) f ∗ pt c (sbufM 1 0) f ∗ pt c (sbufM 1 1) f ∗ pt c (sbufM 2 0) f ∗ pt c (sbufM 2 1) f) :=
  (keyed_cut (mem_sbuf c) f).trans (.of_eq (bigSep_sbuf _))

theorem join_sbuf : iprop((∃ f, pt (F := F) c (sbufM 0 0) f) ∗ (∃ f, pt (F := F) c (sbufM 0 1) f) ∗ (∃ f, pt (F := F) c (sbufM 1 0) f)
      ∗ (∃ f, pt (F := F) c (sbufM 1 1) f) ∗ (∃ f, pt (F := F) c (sbufM 2 0) f) ∗ (∃ f, pt (F := F) c (sbufM 2 1) f))
    ⊢ (iprop(∃ f : Buf (Elt F) ((c : Thread nD τ).loc cc0_scratch0), ((c : Thread nD τ).loc cc0_scratch0) ↦{fullShare} f) : sProp 𝕄) :=
  (Entails.of_eq (bigSep_sbuf _).symm).trans (keyed_join (mem_sbuf c))

theorem mem_wfin (j : Fin 3) (i : Idx ((c : Thread nD τ).loc cc0_scratch6)) : i ∈ (wfinM j).view.set ↔ i 0 = j := by
  rw [show (wfinM j).view.set = _ from (View.set_reshape _ _).trans (View.set_slice_whole _ _), mem_unit (by decide)]
  show (∀ a : Fin 3, _) ↔ _
  simp [Fin.forall_fin_succ]
  exact Fin.val_inj

theorem cut_wfin (f : Buf (Elt F) ((c : Thread nD τ).loc cc0_scratch6)) :
    (((c : Thread nD τ).loc cc0_scratch6) ↦{fullShare} f : sProp 𝕄) ⊣⊢ iprop(pt c (wfinM 0) f ∗ pt c (wfinM 1) f ∗ pt c (wfinM 2) f) :=
  (keyed_cut (mem_wfin c) f).trans (.of_eq (Ring.bigSep_fin3 _))

theorem join_wfin : iprop((∃ f, pt (F := F) c (wfinM 0) f) ∗ (∃ f, pt (F := F) c (wfinM 1) f) ∗ (∃ f, pt (F := F) c (wfinM 2) f))
    ⊢ (iprop(∃ f : Buf (Elt F) ((c : Thread nD τ).loc cc0_scratch6), ((c : Thread nD τ).loc cc0_scratch6) ↦{fullShare} f) : sProp 𝕄) :=
  (Entails.of_eq (Ring.bigSep_fin3 _).symm).trans (keyed_join (mem_wfin c))

theorem mem_wfout (j : Fin 3) (i : Idx ((c : Thread nD τ).loc cc0_scratch7)) : i ∈ (wfoutM j).view.set ↔ i 0 = j := by
  rw [show (wfoutM j).view.set = _ from (View.set_reshape _ _).trans (View.set_slice_whole _ _), mem_unit (by decide)]
  show (∀ a : Fin 3, _) ↔ _
  simp [Fin.forall_fin_succ]
  exact Fin.val_inj

theorem cut_wfout (f : Buf (Elt F) ((c : Thread nD τ).loc cc0_scratch7)) :
    (((c : Thread nD τ).loc cc0_scratch7) ↦{fullShare} f : sProp 𝕄) ⊣⊢ iprop(pt c (wfoutM 0) f ∗ pt c (wfoutM 1) f ∗ pt c (wfoutM 2) f) :=
  (keyed_cut (mem_wfout c) f).trans (.of_eq (Ring.bigSep_fin3 _))

theorem join_wfout : iprop((∃ f, pt (F := F) c (wfoutM 0) f) ∗ (∃ f, pt (F := F) c (wfoutM 1) f) ∗ (∃ f, pt (F := F) c (wfoutM 2) f))
    ⊢ (iprop(∃ f : Buf (Elt F) ((c : Thread nD τ).loc cc0_scratch7), ((c : Thread nD τ).loc cc0_scratch7) ↦{fullShare} f) : sProp 𝕄) :=
  (Entails.of_eq (Ring.bigSep_fin3 _).symm).trans (keyed_join (mem_wfout c))

end Cert.Kernel.Ring

end
-- ==== Proof.Bits.Lists.lean ====
import proofs.«900985_g7700000000000986_dist_mlpseq_tp1d_bs_rep_b256_d256_h512_v7x_i4_f32_1_alg».proof.Proof.Bits.Ghost

noncomputable section

namespace Cert.Kernel.Ring

open Cert.Kernel Cert.Kernel.Gen Cert.Kernel.Spec
open Idealize.ShloMosaic Idealize.ShloMosaic.TcCoe
open Idealize.SL Idealize.SL.RA Idealize.SL.BI
open scoped Idealize.SL.BI
open Idealize.SL.BI.BIBase Idealize.SL.Sem

abbrev startU : List UK := [⟨(0, 0, 0), rfl⟩, ⟨(0, 1, 0), rfl⟩, ⟨(0, 0, 1), rfl⟩, ⟨(0, 1, 1), rfl⟩, ⟨(1, 3, 0), rfl⟩, ⟨(1, 3, 1), rfl⟩, ⟨(0, 2, 0), rfl⟩, ⟨(0, 2, 1), rfl⟩, ⟨(1, 0, 0), rfl⟩, ⟨(1, 1, 0), rfl⟩, ⟨(1, 0, 1), rfl⟩, ⟨(1, 1, 1), rfl⟩, ⟨(2, 0, 0), rfl⟩, ⟨(2, 1, 0), rfl⟩, ⟨(3, 3, 0), rfl⟩, ⟨(2, 0, 1), rfl⟩, ⟨(2, 1, 1), rfl⟩, ⟨(3, 3, 1), rfl⟩, ⟨(2, 2, 0), rfl⟩, ⟨(2, 2, 1), rfl⟩, ⟨(3, 0, 0), rfl⟩, ⟨(3, 1, 0), rfl⟩, ⟨(3, 0, 1), rfl⟩, ⟨(3, 1, 1), rfl⟩, ⟨(4, 0, 0), rfl⟩, ⟨(4, 1, 0), rfl⟩, ⟨(5, 3, 0), rfl⟩, ⟨(4, 0, 1), rfl⟩, ⟨(4, 1, 1), rfl⟩, ⟨(5, 3, 1), rfl⟩, ⟨(4, 2, 0), rfl⟩, ⟨(4, 2, 1), rfl⟩, ⟨(5, 0, 0), rfl⟩, ⟨(5, 1, 0), rfl⟩, ⟨(5, 0, 1), rfl⟩, ⟨(5, 1, 1), rfl⟩, ⟨(6, 0, 0), rfl⟩, ⟨(6, 1, 0), rfl⟩, ⟨(6, 0, 1), rfl⟩, ⟨(6, 1, 1), rfl⟩, ⟨(6, 2, 0), rfl⟩, ⟨(6, 2, 1), rfl⟩]
abbrev landU : List UK := [⟨(0, 1, 0), rfl⟩, ⟨(0, 1, 1), rfl⟩, ⟨(0, 0, 0), rfl⟩, ⟨(1, 3, 0), rfl⟩, ⟨(0, 0, 1), rfl⟩, ⟨(1, 3, 1), rfl⟩, ⟨(0, 2, 0), rfl⟩, ⟨(0, 2, 1), rfl⟩, ⟨(1, 0, 0), rfl⟩, ⟨(1, 1, 0), rfl⟩, ⟨(1, 0, 1), rfl⟩, ⟨(1, 1, 1), rfl⟩, ⟨(2, 1, 0), rfl⟩, ⟨(2, 1, 1), rfl⟩, ⟨(2, 0, 0), rfl⟩, ⟨(3, 3, 0), rfl⟩, ⟨(2, 0, 1), rfl⟩, ⟨(3, 3, 1), rfl⟩, ⟨(2, 2, 0), rfl⟩, ⟨(2, 2, 1), rfl⟩, ⟨(3, 0, 0), rfl⟩, ⟨(3, 1, 0), rfl⟩, ⟨(3, 0, 1), rfl⟩, ⟨(3, 1, 1), rfl⟩, ⟨(4, 1, 0), rfl⟩, ⟨(4, 1, 1), rfl⟩, ⟨(4, 0, 0), rfl⟩, ⟨(5, 3, 0), rfl⟩, ⟨(4, 0, 1), rfl⟩, ⟨(5, 3, 1), rfl⟩, ⟨(4, 2, 0), rfl⟩, ⟨(4, 2, 1), rfl⟩, ⟨(5, 0, 0), rfl⟩, ⟨(5, 1, 0), rfl⟩, ⟨(5, 0, 1), rfl⟩, ⟨(5, 1, 1), rfl⟩, ⟨(6, 1, 0), rfl⟩, ⟨(6, 1, 1), rfl⟩, ⟨(6, 0, 0), rfl⟩, ⟨(6, 0, 1), rfl⟩, ⟨(6, 2, 0), rfl⟩, ⟨(6, 2, 1), rfl⟩]
abbrev departU : List UK := [⟨(0, 0, 0), rfl⟩, ⟨(0, 1, 0), rfl⟩, ⟨(0, 0, 1), rfl⟩, ⟨(0, 1, 1), rfl⟩, ⟨(0, 2, 0), rfl⟩, ⟨(0, 2, 1), rfl⟩, ⟨(1, 3, 0), rfl⟩, ⟨(1, 3, 1), rfl⟩, ⟨(1, 0, 0), rfl⟩, ⟨(1, 1, 0), rfl⟩, ⟨(1, 0, 1), rfl⟩, ⟨(1, 1, 1), rfl⟩, ⟨(2, 0, 0), rfl⟩, ⟨(2, 1, 0), rfl⟩, ⟨(2, 0, 1), rfl⟩, ⟨(2, 1, 1), rfl⟩, ⟨(2, 2, 0), rfl⟩, ⟨(2, 2, 1), rfl⟩, ⟨(3, 3, 0), rfl⟩, ⟨(3, 3, 1), rfl⟩, ⟨(3, 0, 0), rfl⟩, ⟨(3, 1, 0), rfl⟩, ⟨(3, 0, 1), rfl⟩, ⟨(3, 1, 1), rfl⟩, ⟨(4, 0, 0), rfl⟩, ⟨(4, 1, 0), rfl⟩, ⟨(4, 0, 1), rfl⟩, ⟨(4, 1, 1), rfl⟩, ⟨(4, 2, 0), rfl⟩, ⟨(4, 2, 1), rfl⟩, ⟨(5, 3, 0), rfl⟩, ⟨(5, 3, 1), rfl⟩, ⟨(5, 0, 0), rfl⟩, ⟨(5, 1, 0), rfl⟩, ⟨(5, 0, 1), rfl⟩, ⟨(5, 1, 1), rfl⟩, ⟨(6, 0, 0), rfl⟩, ⟨(6, 1, 0), rfl⟩, ⟨(6, 0, 1), rfl⟩, ⟨(6, 1, 1), rfl⟩, ⟨(6, 2, 0), rfl⟩, ⟨(6, 2, 1), rfl⟩]
abbrev toNxtK : List K := [(0, 0, 0), (0, 0, 1), (1, 3, 0), (1, 3, 1), (1, 0, 0), (1, 0, 1), (2, 0, 0), (3, 3, 0), (2, 0, 1), (3, 3, 1), (3, 0, 0), (3, 0, 1), (4, 0, 0), (5, 3, 0), (4, 0, 1), (5, 3, 1), (5, 0, 0), (5, 0, 1), (6, 0, 0), (6, 0, 1)]
abbrev toPrvK : List K := [(0, 1, 0), (0, 1, 1), (0, 2, 0), (0, 2, 1), (1, 1, 0), (1, 1, 1), (2, 1, 0), (2, 1, 1), (2, 2, 0), (2, 2, 1), (3, 1, 0), (3, 1, 1), (4, 1, 0), (4, 1, 1), (4, 2, 0), (4, 2, 1), (5, 1, 0), (5, 1, 1), (6, 1, 0), (6, 1, 1), (6, 2, 0), (6, 2, 1)]
abbrev landK : List K := [(0, 1, 0), (0, 1, 1), (0, 0, 0), (1, 3, 0), (0, 0, 1), (1, 3, 1), (0, 2, 0), (0, 2, 1), (1, 0, 0), (1, 1, 0), (1, 0, 1), (1, 1, 1), (2, 1, 0), (2, 1, 1), (2, 0, 0), (3, 3, 0), (2, 0, 1), (3, 3, 1), (2, 2, 0), (2, 2, 1), (3, 0, 0), (3, 1, 0), (3, 0, 1), (3, 1, 1), (4, 1, 0), (4, 1, 1), (4, 0, 0), (5, 3, 0), (4, 0, 1), (5, 3, 1), (4, 2, 0), (4, 2, 1), (5, 0, 0), (5, 1, 0), (5, 0, 1), (5, 1, 1), (6, 1, 0), (6, 1, 1), (6, 0, 0), (6, 0, 1), (6, 2, 0), (6, 2, 1)]

abbrev landR : List UK := [⟨(6, 2, 1), rfl⟩, ⟨(6, 2, 0), rfl⟩, ⟨(6, 0, 1), rfl⟩, ⟨(6, 0, 0), rfl⟩, ⟨(6, 1, 1), rfl⟩, ⟨(6, 1, 0), rfl⟩, ⟨(5, 1, 1), rfl⟩, ⟨(5, 0, 1), rfl⟩, ⟨(5, 1, 0), rfl⟩, ⟨(5, 0, 0), rfl⟩, ⟨(4, 2, 1), rfl⟩, ⟨(4, 2, 0), rfl⟩, ⟨(5, 3, 1), rfl⟩, ⟨(4, 0, 1), rfl⟩, ⟨(5, 3, 0), rfl⟩, ⟨(4, 0, 0), rfl⟩, ⟨(4, 1, 1), rfl⟩, ⟨(4, 1, 0), rfl⟩, ⟨(3, 1, 1), rfl⟩, ⟨(3, 0, 1), rfl⟩, ⟨(3, 1, 0), rfl⟩, ⟨(3, 0, 0), rfl⟩, ⟨(2, 2, 1), rfl⟩, ⟨(2, 2, 0), rfl⟩, ⟨(3, 3, 1), rfl⟩, ⟨(2, 0, 1), rfl⟩, ⟨(3, 3, 0), rfl⟩, ⟨(2, 0, 0), rfl⟩, ⟨(2, 1, 1), rfl⟩, ⟨(2, 1, 0), rfl⟩, ⟨(1, 1, 1), rfl⟩, ⟨(1, 0, 1), rfl⟩, ⟨(1, 1, 0), rfl⟩, ⟨(1, 0, 0), rfl⟩, ⟨(0, 2, 1), rfl⟩, ⟨(0, 2, 0), rfl⟩, ⟨(1, 3, 1), rfl⟩, ⟨(0, 0, 1), rfl⟩, ⟨(1, 3, 0), rfl⟩, ⟨(0, 0, 0), rfl⟩, ⟨(0, 1, 1), rfl⟩, ⟨(0, 1, 0), rfl⟩]
abbrev departR : List UK := [⟨(6, 2, 1), rfl⟩, ⟨(6, 2, 0), rfl⟩, ⟨(6, 1, 1), rfl⟩, ⟨(6, 0, 1), rfl⟩, ⟨(6, 1, 0), rfl⟩, ⟨(6, 0, 0), rfl⟩, ⟨(5, 1, 1), rfl⟩, ⟨(5, 0, 1), rfl⟩, ⟨(5, 1, 0), rfl⟩, ⟨(5, 0, 0), rfl⟩, ⟨(5, 3, 1), rfl⟩, ⟨(5, 3, 0), rfl⟩, ⟨(4, 2, 1), rfl⟩, ⟨(4, 2, 0), rfl⟩, ⟨(4, 1, 1), rfl⟩, ⟨(4, 0, 1), rfl⟩, ⟨(4, 1, 0), rfl⟩, ⟨(4, 0, 0), rfl⟩, ⟨(3, 1, 1), rfl⟩, ⟨(3, 0, 1), rfl⟩, ⟨(3, 1, 0), rfl⟩, ⟨(3, 0, 0), rfl⟩, ⟨(3, 3, 1), rfl⟩, ⟨(3, 3, 0), rfl⟩, ⟨(2, 2, 1), rfl⟩, ⟨(2, 2, 0), rfl⟩, ⟨(2, 1, 1), rfl⟩, ⟨(2, 0, 1), rfl⟩, ⟨(2, 1, 0), rfl⟩, ⟨(2, 0, 0), rfl⟩, ⟨(1, 1, 1), rfl⟩, ⟨(1, 0, 1), rfl⟩, ⟨(1, 1, 0), rfl⟩, ⟨(1, 0, 0), rfl⟩, ⟨(1, 3, 1), rfl⟩, ⟨(1, 3, 0), rfl⟩, ⟨(0, 2, 1), rfl⟩, ⟨(0, 2, 0), rfl⟩, ⟨(0, 1, 1), rfl⟩, ⟨(0, 0, 1), rfl⟩, ⟨(0, 1, 0), rfl⟩, ⟨(0, 0, 0), rfl⟩]
theorem landR_nodup : landR.Nodup := by decide
theorem departR_nodup : departR.Nodup := by decide
theorem landR_univ : (Finset.univ : Finset UK) = landR.toFinset := by decide
theorem departR_univ : (Finset.univ : Finset UK) = departR.toFinset := by decide
theorem startU_nodup : startU.Nodup := by decide
theorem landU_nodup : landU.Nodup := by decide
theorem departU_nodup : departU.Nodup := by decide
theorem startU_univ : (Finset.univ : Finset UK) = startU.toFinset := by decide
theorem landU_univ : (Finset.univ : Finset UK) = landU.toFinset := by decide
theorem departU_univ : (Finset.univ : Finset UK) = departU.toFinset := by decide
theorem landK_filter : (Finset.univ.filter fun k : K => used k = true) = landK.toFinset := by decide
theorem toNxtK_nodup : toNxtK.Nodup := by decide
theorem toPrvK_nodup : toPrvK.Nodup := by decide
theorem landK_nodup : landK.Nodup := by decide
theorem toNxtK_filter : (Finset.univ.filter fun k : K => used k = true ∧ toNxt k = true) = toNxtK.toFinset := by decide
theorem toPrvK_filter : (Finset.univ.filter fun k : K => used k = true ∧ toNxt k = false) = toPrvK.toFinset := by decide

end Cert.Kernel.Ring

end
-- ==== Proof.Bits.Regroup.lean ====
import proofs.«900985_g7700000000000986_dist_mlpseq_tp1d_bs_rep_b256_d256_h512_v7x_i4_f32_1_alg».proof.Proof.Bits.Cut
import proofs.«900985_g7700000000000986_dist_mlpseq_tp1d_bs_rep_b256_d256_h512_v7x_i4_f32_1_alg».proof.Proof.Bits.Lists

noncomputable section

namespace Cert.Kernel.Ring

open Cert.Kernel Cert.Kernel.Gen Cert.Kernel.Spec
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

theorem filter_toPrv : (Finset.univ.filter fun k : K => used k = true ∧ ¬ toNxt k = true)
    = Finset.univ.filter fun k : K => used k = true ∧ toNxt k = false :=
  Finset.filter_congr fun k _ => by rw [Bool.not_eq_true]

omit [FloatOps F] in
-- The slots split by whether they are used, and the used ones by direction.
theorem slots_regroup (c : Dev nD) (f : Buf (Elt F) ((c : Thread nD τ).loc cc0_scratch3)) :
    (bigSep (Finset.univ : Finset K) fun k => slotPts (F := F) c k f)
      ⊢ iprop(barT (F := F) (prv c) ∗ barF (F := F) (nxt c) ∗ bigSep (Finset.univ.filter fun k : K => ¬ used k = true) fun k => iprop(∃ f, slotPts (F := F) c k f)) := by
  refine (bigSep_mono (Ψ := fun k => iprop(∃ f, slotPts (F := F) c k f)) fun k _ => exists_intro (Φ := fun f => slotPts c k f) f).trans ?_
  rw [bigSep_filter_split Finset.univ (fun k : K => used k = true),
    bigSep_filter_split (Finset.univ.filter fun k : K => used k = true) (fun k : K => toNxt k = true),
    Finset.filter_filter, Finset.filter_filter, filter_toPrv]
  unfold barT barF
  rw [nxt_prv, prv_nxt]
  exact Idealize.SL.BI.sep_assoc

-- A list without repetition of the used slots, and the unused slots, are all the slots.
theorem rbuf_back (c : Dev nD) :
    iprop((bigSepL landK fun k => iprop(∃ f, slotPts (F := F) c k f)) ∗ bigSep (Finset.univ.filter fun k : K => ¬ used k = true) fun k => iprop(∃ f, slotPts (F := F) c k f))
      ⊢ (iprop(∃ f : Buf (Elt F) ((c : Thread nD τ).loc cc0_scratch3), ((c : Thread nD τ).loc cc0_scratch3) ↦{fullShare} f) : sProp 𝕄) := by
  rw [← bigSep_eq_bigSepL_of_eq landK landK_filter landK_nodup]
  exact (Entails.of_eq (bigSep_filter_split Finset.univ (fun k : K => used k = true)).symm).trans (join_rbuf c)

end Cert.Kernel.Ring

end
-- ==== Proof.Bits.Shares.lean ====
import proofs.«900985_g7700000000000986_dist_mlpseq_tp1d_bs_rep_b256_d256_h512_v7x_i4_f32_1_alg».proof.Proof.Bits.Bufs
import Idealize.ShloMosaic.Rules.PointsTo

noncomputable section

namespace Cert.Kernel.Ring

open Cert.Kernel Cert.Kernel.Gen Cert.Kernel.Spec
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] {ℓ : Loc nD τ sig} {I : Finset (Idx ℓ)}
local notation "𝕄" => MT nD τ sig Unit (Elt F) ℕ UU ℕ

theorem split_half (q : PosShare TreeShare) (f : Buf (Elt F) ℓ) :
    (ℓ ↦[I]{q} f : sProp 𝕄) ⊢ iprop((ℓ ↦[I]{q.left} f) ∗ ℓ ↦[I]{q.right} f) :=
  (pointsTo_share (PosShare.mem_left_op_right q)).1

-- Halves held at contents of their own agree on the elements, so they join at the right half's contents.
theorem join_half (q : PosShare TreeShare) (f g : Buf (Elt F) ℓ) :
    iprop((ℓ ↦[I]{q.left} f) ∗ ℓ ↦[I]{q.right} g) ⊢ (ℓ ↦[I]{q} g : sProp 𝕄) :=
  Laws.pure_elim _ pointsTo_agree fun h => by
    rw [pointsTo_congr (q := q.left) (g := g) fun i hi => (h i (Finset.mem_inter.mpr ⟨hi, hi⟩)).1]
    exact (pointsTo_share (PosShare.mem_left_op_right q)).2

theorem split_three (f : Buf (Elt F) ℓ) :
    (ℓ ↦[I]{fullShare} f : sProp 𝕄)
      ⊢ iprop((ℓ ↦[I]{fullShare.left.left} f) ∗ (ℓ ↦[I]{fullShare.left.right} f) ∗ ℓ ↦[I]{fullShare.right} f) :=
  (split_half fullShare f).trans ((sep_mono_l (split_half fullShare.left f)).trans sep_assoc)

theorem join_three (f₁ f₂ g : Buf (Elt F) ℓ) :
    iprop((ℓ ↦[I]{fullShare.left.left} f₁) ∗ (ℓ ↦[I]{fullShare.left.right} f₂) ∗ ℓ ↦[I]{fullShare.right} g)
      ⊢ (ℓ ↦[I]{fullShare} g : sProp 𝕄) :=
  sep_assoc'.trans ((sep_mono_l (join_half fullShare.left f₁ f₂)).trans (join_half fullShare f₂ g))

end Cert.Kernel.Ring

end
-- ==== Proof.Bits.SliceIO.lean ====
import proofs.«900985_g7700000000000986_dist_mlpseq_tp1d_bs_rep_b256_d256_h512_v7x_i4_f32_1_alg».proof.Proof.Bits.Bufs
import Idealize.ShloMosaic.Signature.View
import Idealize.ShloMosaic.Signature.Memref
import Idealize.ShloMosaic.Lib.Pipeline.Value

noncomputable section

namespace Cert.Kernel.Ring

open Cert.Kernel Cert.Kernel.Gen
open Idealize.ShloMosaic Idealize.ShloMosaic.TcCoe

variable {F : FTy → Type} [FloatOps F]

section General

variable {κ : Kind} {sp : Space} {s s' : Shape} {e : EltTy} {Val : EltTy → Type}

-- A view and its re-indexing by another shape meet at indices of equal row-major position.
theorem read_reshape_write_univ (v : View sig κ sp s e) (h : s'.numel = s.numel) (f : v.ty.Contents Val) (w : s.Idx → Val e) :
    (v.reshape s' h).read Val (v.write Val f w Finset.univ) = shapeCast s' w h := by
  show shapeCast s' (v.read Val _) h = _
  rw [View.read_write_univ]

theorem read_write_reshape_univ_cast (v : View sig κ sp s e) (h : s'.numel = s.numel) (hc : s'.ShapeCasts s) (f : v.ty.Contents Val)
    (w : s'.Idx → Val e) :
    v.read Val ((v.reshape s' h).write Val f w Finset.univ) = shapeCast s w hc := by
  funext x
  have hx : v.emb x = (v.reshape s' h).emb ((Shape.reshapeEquiv h).symm x) := by
    show v.emb x = v.emb (Shape.reshapeEquiv h ((Shape.reshapeEquiv h).symm x))
    rw [Equiv.apply_symm_apply]
  rw [View.read_apply, hx, View.write_emb_of_mem _ _ (Finset.mem_univ _), cast_cast, cast_eq]
  show w ((Shape.reshapeEquiv h).symm x) = w (Shape.reshapeEquiv hc x)
  rw [Shape.reshapeEquiv_symm]

end General

theorem ybuf_read (c : Fin 2) (j : ℕ) (hj : j = c.val)
    (h : ∀ a, (![j, 0, 0] : Fin 3 → ℕ) a + S1x128x256.size a ≤ S2x128x256.size a)
    (y : (cc0_scratch2 : Ref sig .tc).ty.Contents (Elt F)) (V : S1x128x256.Idx → Elt F .bf16) :
    (ybufM c).view.read (Elt F) (View.write (Elt F) ((Memref.whole cc0_scratch2 : Memref sig .tc .vmem S2x128x256 .bf16).access
        (Rect.unit (s := S2x128x256) ![j, 0, 0] S1x128x256.size h)) y V Finset.univ)
      = shapeCast S128x256 V shapeCasts_S1x128x256_S128x256 := by
  subst hj
  exact read_reshape_write_univ (Val := Elt F) (s' := S128x256)
    ((Memref.whole cc0_scratch2 : Memref sig .tc .vmem S2x128x256 .bf16).access (Rect.unit (s := S2x128x256) ![c.val, 0, 0] S1x128x256.size h))
    squeezes_S1x128x256_S128x256.numel_eq y V

theorem sbuf_read (j : Fin 3) (c : Fin 2) (jn cn : ℕ) (hj : jn = j.val) (hc : cn = c.val)
    (h : ∀ a, (![jn, cn, 0, 0] : Fin 4 → ℕ) a + S1x1x128x256.size a ≤ S3x2x128x256.size a)
    (y : (cc0_scratch0 : Ref sig .tc).ty.Contents (Elt F)) (V : S1x1x128x256.Idx → Elt F .bf16) :
    (sbufM j c).view.read (Elt F) (View.write (Elt F) ((Memref.whole cc0_scratch0 : Memref sig .tc .vmem S3x2x128x256 .bf16).access
        (Rect.unit (s := S3x2x128x256) ![jn, cn, 0, 0] S1x1x128x256.size h)) y V Finset.univ)
      = shapeCast S128x256 V shapeCasts_S1x1x128x256_S128x256 := by
  subst hj hc
  exact read_reshape_write_univ (Val := Elt F) (s' := S128x256)
    ((Memref.whole cc0_scratch0 : Memref sig .tc .vmem S3x2x128x256 .bf16).access (Rect.unit (s := S3x2x128x256) ![j.val, c.val, 0, 0] S1x1x128x256.size h))
    squeezes_S1x1x128x256_S128x256.numel_eq y V

theorem slot_read (k : K) (f : (cc0_scratch3 : Ref sig .tc).ty.Contents (Elt F)) (W : S128x256.Idx → Elt F .bf16) :
    (slotM k).view.read (Elt F) ((slotM k).view.write (Elt F) f W Finset.univ) = W :=
  View.read_write_univ (v := (slotM k).view) f W

theorem slot_load (k : K) (p s c : ℕ) (hp : p = k.1.val) (hs : s = k.2.1.val) (hc : c = k.2.2.val)
    (h : ∀ a, (![p, s, c, 0, 0] : Fin 5 → ℕ) a + S1x1x1x128x256.size a ≤ S7x4x2x128x256.size a)
    (f : (cc0_scratch3 : Ref sig .tc).ty.Contents (Elt F)) (W : S128x256.Idx → Elt F .bf16) :
    shapeCast S128x256
        ((Memref.whole cc0_scratch3 : Memref sig .tc .vmem S7x4x2x128x256 .bf16).view.readAt (Elt F)
          (Rect.unit (s := S7x4x2x128x256) ![p, s, c, 0, 0] S1x1x1x128x256.size h).toLoadRect
          ((slotM k).view.write (Elt F) f W Finset.univ))
        shapeCasts_S1x1x1x128x256_S128x256
      = W := by
  subst hp hs hc
  exact (congrArg (shapeCast S128x256 · _) (read_write_reshape_univ_cast
    ((Memref.whole cc0_scratch3 : Memref sig .tc .vmem S7x4x2x128x256 .bf16).access
      (Rect.unit (s := S7x4x2x128x256) ![k.1.val, k.2.1.val, k.2.2.val, 0, 0] S1x1x1x128x256.size h))
    squeezes_S1x1x1x128x256_S128x256.numel_eq squeezes_S1x1x1x128x256_S128x256.numel_eq.symm f W)).trans (shapeCast_shapeCast W _ _)

section Casts
variable {α : Type}

theorem cast_S1x128x256_roundtrip (v : S128x256.Idx → α) :
    shapeCast S128x256 (shapeCast S1x128x256 v shapeCasts_S128x256_S1x128x256) shapeCasts_S1x128x256_S128x256 = v :=
  shapeCast_shapeCast v _ _
theorem cast_S1x1x128x256_roundtrip (v : S128x256.Idx → α) :
    shapeCast S128x256 (shapeCast S1x1x128x256 v shapeCasts_S128x256_S1x1x128x256) shapeCasts_S1x1x128x256_S128x256 = v :=
  shapeCast_shapeCast v _ _

end Casts

end Cert.Kernel.Ring

end
-- ==== Proof.Bits.BodyVals.lean ====
import proofs.«900985_g7700000000000986_dist_mlpseq_tp1d_bs_rep_b256_d256_h512_v7x_i4_f32_1_alg».proof.Proof.Bits.SliceIO
import proofs.«900985_g7700000000000986_dist_mlpseq_tp1d_bs_rep_b256_d256_h512_v7x_i4_f32_1_alg».proof.Proof.Bits.Data
import proofs.«900985_g7700000000000986_dist_mlpseq_tp1d_bs_rep_b256_d256_h512_v7x_i4_f32_1_alg».proof.Proof.Gen.Kernel.Skeleton

noncomputable section

namespace Cert.Kernel.Ring

open Cert.Kernel Cert.Kernel.Gen Cert.Kernel.Spec
open Idealize.ShloMosaic Idealize.ShloMosaic.TcCoe

variable {F : FTy → Type} [FloatOps F]

variable (m : (ℓ : Loc nD τ sig) → Buf (Elt F) ℓ) (ρ : Dev nD → PrngReg)

theorem k0_pay3_eq (v : Vec F S128x256 .f32) : k0_pay3 v = k0_pay2 (k0_pay1 v) := rfl

theorem ybuf_pay2 (c' : Fin 2) (j : ℕ) (hj : j = c'.val)
    (h : ∀ a, (![j, 0, 0] : Fin 3 → ℕ) a + S1x128x256.size a ≤ S2x128x256.size a)
    (y : (cc0_scratch2 : Ref sig .tc).ty.Contents (Elt F)) (v : FVec F S128x256 .bf16) :
    (ybufM c').view.read (Elt F) (View.write (Elt F) ((Memref.whole cc0_scratch2 : Memref sig .tc .vmem S2x128x256 .bf16).access
        (Rect.unit (s := S2x128x256) ![j, 0, 0] S1x128x256.size h)) y (k0_pay2 v) Finset.univ) = v := by
  rw [ybuf_read c' j hj h y (k0_pay2 v)]
  exact cast_S1x128x256_roundtrip v

theorem xstg_eq (c : Dev nD) : xstg m ρ c = xbOf m c := by
  unfold xstg xbOf
  exact Memref.read_access_unit_zero (Elt F) main_arg0 (funext fun a => Nat.zero_mul _) _ _

-- The rectangle at rows `128·c'` of the block embeds row `i` at row `128·c' + i`.
theorem xrows_load (c' : Fin 2) (j : ℕ) (hj : j = 128 * c'.val)
    (h : ∀ a, (![j, 0] : Fin 2 → ℕ) a + S128x256.size a ≤ S256x256.size a) (X : Vec F S256x256 .f32) :
    (Memref.whole cc0_stg0_0 : Memref sig .tc .vmem S256x256 .f32).view.readAt (Elt F)
        (Rect.unit (s := S256x256) ![j, 0] S128x256.size h).toLoadRect X = Spec.rowsOf X c' := by
  subst hj
  funext i
  show X _ = X _
  congr 1
  funext a
  apply Fin.ext
  match a with
  | ⟨0, _⟩ => show 128 * c'.val + 1 * (i 0).val = 128 * c'.val + (i 0).val; omega
  | ⟨1, _⟩ => show 0 + 1 * (i 1).val = (i 1).val; omega

theorem pay1_xrows (c : Dev nD) (c' : Fin 2) (j : ℕ) (hj : j = 128 * c'.val)
    (h : ∀ a, (![j, 0] : Fin 2 → ℕ) a + S128x256.size a ≤ S256x256.size a) :
    k0_pay1 ((Memref.whole cc0_stg0_0 : Memref sig .tc .vmem S256x256 .f32).view.readAt (Elt F)
        (Rect.unit (s := S256x256) ![j, 0] S128x256.size h).toLoadRect (xstg m ρ c))
      = Spec.Y16 (xbOf m) (wiOf m) (woOf m) 0 c c' := by
  rw [xstg_eq, xrows_load c' j hj h]
  unfold k0_pay1
  rw [shapeCast_self]
  rfl

-- In an even phase `2·l` slots 0 and 1 carry a device's chunk of layer `l` to its successor and predecessor.
theorem SVm_slot0 (p : Fin 7) (l : ℕ) (hp : p.val = 2 * l) (c : Dev nD) (c' : Fin 2) :
    SVm m (p, 0, c') (tgt (p, 0, c') c) = Spec.Y16 (xbOf m) (wiOf m) (woOf m) l c c' := by
  have hp2 : p.val % 2 = 0 := by omega
  have hl : p.val / 2 = l := by omega
  simp [SVm, Spec.slotVal, tgt, toNxt, hp2, hl, Spec.prv_nxt]

theorem SVm_slot1 (p : Fin 7) (l : ℕ) (hp : p.val = 2 * l) (c : Dev nD) (c' : Fin 2) :
    SVm m (p, 1, c') (tgt (p, 1, c') c) = Spec.Y16 (xbOf m) (wiOf m) (woOf m) l c c' := by
  have hp2 : p.val % 2 = 0 := by omega
  have hl : p.val / 2 = l := by omega
  simp [SVm, Spec.slotVal, tgt, toNxt, hp2, hl, Spec.nxt_prv]

-- Slot 2 forwards to the predecessor what landed here in slot 1.
theorem SVm_slot2 (p : Fin 7) (hp : p.val % 2 = 0) (c : Dev nD) (c' : Fin 2) :
    SVm m (p, 2, c') (tgt (p, 2, c') c) = SVm m (p, 1, c') c := by
  have ho : ∀ d : Dev nD, opp (prv d) = nxt d := by decide
  simp [SVm, Spec.slotVal, tgt, toNxt, hp, ho]

end Cert.Kernel.Ring

end
-- ==== Proof.Bits.BodyVals2.lean ====
import proofs.«900985_g7700000000000986_dist_mlpseq_tp1d_bs_rep_b256_d256_h512_v7x_i4_f32_1_alg».proof.Proof.Bits.BodyVals
import Idealize.ShloMosaic.Lib.Writes
import Idealize.ShloMosaic.Lib.Exec.Geometry
import Idealize.ShloMosaic.Lib.Pipeline.FrameBody

noncomputable section

namespace Cert.Kernel.Ring

open Cert.Kernel Cert.Kernel.Gen Cert.Kernel.Spec
open Idealize.ShloMosaic Idealize.ShloMosaic.TcCoe

variable {F : FTy → Type} [FloatOps F]

variable (m : (ℓ : Loc nD τ sig) → Buf (Elt F) ℓ) (ρ : Dev nD → PrngReg)

variable (X1 : Vec F S1x1x1x128x256 .bf16) (x : FVec F S128x256 .bf16) (Y : Vec F S1x128x256 .bf16)
  (wi : FVec F S256x512 .bf16) (W1 : Vec F S1x256x512 .bf16) (W2 : Vec F S1x512x256 .bf16) (wo : FVec F S512x256 .bf16)
  (X3 : Vec F S1x1x1x128x256 .bf16) (own : FVec F S128x256 .f32) (X : Vec F S1x128x256 .f32) (a b : Vec F S1x1x1x128x256 .bf16)

-- A whole write through the re-indexing, read through the view itself, is the shape cast of what was written.
theorem read_writes_reshape {κ : Kind} {sp : Space} {s s' : Shape} {e : EltTy} (v : View sig κ sp s e) (h : s'.numel = s.numel)
    (hc : s'.ShapeCasts s) (f : v.ty.Contents (Elt F)) (w : s'.Idx → Elt F e) :
    v.read (Elt F) ((v.reshape s' h).writes (Elt F) f [⟨Rect.whole s', w⟩]) = shapeCast s w hc := by
  rw [← View.writes_nil (Val := Elt F) (v.reshape s' h) f, ← View.write_univ_eq_writes_whole]
  exact read_write_reshape_univ_cast v h hc _ w

theorem wfin_load (j : ℕ) (h h' : ∀ a, (![j, 0, 0] : Fin 3 → ℕ) a + S1x256x512.size a ≤ S3x256x512.size a)
    (hn : S256x512.numel = (Rect.unit (s := S3x256x512) ![j, 0, 0] S1x256x512.size h').shape.numel)
    (g : (cc0_scratch6 : Ref sig .tc).ty.Contents (Elt F)) (W : S256x512.Idx → Elt F .f32) :
    (Memref.whole cc0_scratch6 : Memref sig .tc .vmem S3x256x512 .f32).view.readAt (Elt F)
        (Rect.unit (s := S3x256x512) ![j, 0, 0] S1x256x512.size h).toLoadRect
        ((((Memref.whole cc0_scratch6 : Memref sig .tc .vmem S3x256x512 .f32).access
            (Rect.unit (s := S3x256x512) ![j, 0, 0] S1x256x512.size h')).reshape S256x512 hn).writes (Elt F) g
          [⟨Rect.whole S256x512, W⟩])
      = shapeCast S1x256x512 W shapeCasts_S256x512_S1x256x512 :=
  read_writes_reshape ((Memref.whole cc0_scratch6 : Memref sig .tc .vmem S3x256x512 .f32).access
    (Rect.unit (s := S3x256x512) ![j, 0, 0] S1x256x512.size h')) hn _ g W

theorem wfout_load (j : ℕ) (h h' : ∀ a, (![j, 0, 0] : Fin 3 → ℕ) a + S1x512x256.size a ≤ S3x512x256.size a)
    (hn : S512x256.numel = (Rect.unit (s := S3x512x256) ![j, 0, 0] S1x512x256.size h').shape.numel)
    (g : (cc0_scratch7 : Ref sig .tc).ty.Contents (Elt F)) (W : S512x256.Idx → Elt F .f32) :
    (Memref.whole cc0_scratch7 : Memref sig .tc .vmem S3x512x256 .f32).view.readAt (Elt F)
        (Rect.unit (s := S3x512x256) ![j, 0, 0] S1x512x256.size h).toLoadRect
        ((((Memref.whole cc0_scratch7 : Memref sig .tc .vmem S3x512x256 .f32).access
            (Rect.unit (s := S3x512x256) ![j, 0, 0] S1x512x256.size h')).reshape S512x256 hn).writes (Elt F) g
          [⟨Rect.whole S512x256, W⟩])
      = shapeCast S1x512x256 W shapeCasts_S512x256_S1x512x256 :=
  read_writes_reshape ((Memref.whole cc0_scratch7 : Memref sig .tc .vmem S3x512x256 .f32).access
    (Rect.unit (s := S3x512x256) ![j, 0, 0] S1x512x256.size h')) hn _ g W

theorem pay7_pay4 (W : S256x512.Idx → Elt F .f32) :
    k0_pay7 (k0_pay4 (shapeCast S1x256x512 W shapeCasts_S256x512_S1x256x512)) = truncf .bf16 W bitsLt_bf16_f32 := by
  unfold k0_pay7 k0_pay4
  rw [shapeCast_shapeCast, shapeCast_shapeCast]

theorem cast_pay5 (W : S512x256.Idx → Elt F .f32) :
    shapeCast S512x256 (k0_pay5 (shapeCast S1x512x256 W shapeCasts_S512x256_S1x512x256)) shapeCasts_S1x512x256_S512x256
      = truncf .bf16 W bitsLt_bf16_f32 := by
  unfold k0_pay5
  rw [shapeCast_shapeCast, shapeCast_shapeCast]

theorem pay6_pay2 (v : FVec F S128x256 .bf16) : k0_pay6 (k0_pay2 v) = v := by
  unfold k0_pay6 k0_pay2
  exact shapeCast_shapeCast v _ _

theorem k0_pay8_eq : k0_pay8 x wi W2 = shapeCast S1x1x128x256
      (truncf .bf16 (Spec.part x wi (shapeCast S512x256 W2 shapeCasts_S1x512x256_S512x256)) bitsLt_bf16_f32)
      shapeCasts_S128x256_S1x1x128x256 := rfl

theorem sbuf_cast (j : Fin 3) (c' : Fin 2) (jn cn : ℕ) (hj : jn = j.val) (hc : cn = c'.val)
    (h : ∀ a, (![jn, cn, 0, 0] : Fin 4 → ℕ) a + S1x1x128x256.size a ≤ S3x2x128x256.size a)
    (y : (cc0_scratch0 : Ref sig .tc).ty.Contents (Elt F)) (v : FVec F S128x256 .bf16) :
    (sbufM j c').view.read (Elt F) (View.write (Elt F) ((Memref.whole cc0_scratch0 : Memref sig .tc .vmem S3x2x128x256 .bf16).access
        (Rect.unit (s := S3x2x128x256) ![jn, cn, 0, 0] S1x1x128x256.size h)) y
        (shapeCast S1x1x128x256 v shapeCasts_S128x256_S1x1x128x256) Finset.univ) = v := by
  rw [sbuf_read j c' jn cn hj hc h y]
  exact cast_S1x1x128x256_roundtrip v

theorem SVm_slot3 (p : Fin 7) (l : ℕ) (hp : p.val = 2 * l + 1) (c : Dev nD) (c' : Fin 2) :
    SVm m (p, 3, c') (tgt (p, 3, c') c)
      = truncf .bf16 (Spec.P (wiOf m) (woOf m) (lw l) c (Spec.Y16 (xbOf m) (wiOf m) (woOf m) l c c')) bitsLt_bf16_f32 := by
  have hp2 : ¬ p.val % 2 = 0 := by omega
  have hl : p.val / 2 = l := by omega
  simp [SVm, Spec.slotVal, tgt, toNxt, hp2, hl, Spec.prv_nxt]

theorem k0_pay9_eq (v : Vec F S1x128x256 .bf16) : k0_pay9 v = k0_pay6 v := rfl
theorem k0_pay10_eq (v : Vec F S1x256x512 .bf16) : k0_pay10 v = k0_pay7 v := rfl
theorem k0_pay11_eq : k0_pay11 x wi W2 = k0_pay8 x wi W2 := rfl
theorem k0_pay12_eq (v : Vec F S1x256x512 .f32) : k0_pay12 v = k0_pay4 v := rfl
theorem k0_pay13_eq (v : Vec F S1x512x256 .f32) : k0_pay13 v = k0_pay5 v := rfl
theorem k0_pay15_14_eq (v : Vec F S1x256x512 .f32) : k0_pay15 (k0_pay14 v) = k0_pay4 v := rfl
theorem k0_pay16_eq (v : Vec F S1x512x256 .f32) : k0_pay16 v = k0_pay5 v := rfl
theorem k0_pay18_eq (v : Vec F S1x512x256 .bf16) : k0_pay18 v = shapeCast S512x256 v shapeCasts_S1x512x256_S512x256 := rfl

theorem cast_pay4 (W : S256x512.Idx → Elt F .f32) :
    shapeCast S256x512 (k0_pay4 (shapeCast S1x256x512 W shapeCasts_S256x512_S1x256x512)) shapeCasts_S1x256x512_S256x512
      = truncf .bf16 W bitsLt_bf16_f32 := pay7_pay4 W

-- A load reads past a write to a rectangle separated from its own along the leading axis.
theorem readCov_skip_wi (j j' : ℕ) (hne : j' + 1 ≤ j ∨ j + 1 ≤ j')
    (h : ∀ a, (![j, 0, 0] : Fin 3 → ℕ) a + S1x256x512.size a ≤ S3x256x512.size a)
    (h' : ∀ a, (![j', 0, 0] : Fin 3 → ℕ) a + S1x256x512.size a ≤ S3x256x512.size a)
    (w : S1x256x512.Idx → Elt F .bf16) (L : List (View.Piece (Elt F) S3x256x512 .bf16)) :
    (Memref.whole cc0_scratch4 : Memref sig .tc .vmem S3x256x512 .bf16).view.readCov
        (⟨Rect.unit (s := S3x256x512) ![j', 0, 0] S1x256x512.size h', w⟩ :: L) (Rect.unit (s := S3x256x512) ![j, 0, 0] S1x256x512.size h).toLoadRect
      = (Memref.whole cc0_scratch4 : Memref sig .tc .vmem S3x256x512 .bf16).view.readCov L
          (Rect.unit (s := S3x256x512) ![j, 0, 0] S1x256x512.size h).toLoadRect :=
  View.readCov_cons_of_disjoint _ _ L _ (Rect.unit_disjoint (s := S3x256x512) (inb := h') (inb' := h) (0 : Fin 3) hne)

theorem readCov_skip_wo (j j' : ℕ) (hne : j' + 1 ≤ j ∨ j + 1 ≤ j')
    (h : ∀ a, (![j, 0, 0] : Fin 3 → ℕ) a + S1x512x256.size a ≤ S3x512x256.size a)
    (h' : ∀ a, (![j', 0, 0] : Fin 3 → ℕ) a + S1x512x256.size a ≤ S3x512x256.size a)
    (w : S1x512x256.Idx → Elt F .bf16) (L : List (View.Piece (Elt F) S3x512x256 .bf16)) :
    (Memref.whole cc0_scratch5 : Memref sig .tc .vmem S3x512x256 .bf16).view.readCov
        (⟨Rect.unit (s := S3x512x256) ![j', 0, 0] S1x512x256.size h', w⟩ :: L) (Rect.unit (s := S3x512x256) ![j, 0, 0] S1x512x256.size h).toLoadRect
      = (Memref.whole cc0_scratch5 : Memref sig .tc .vmem S3x512x256 .bf16).view.readCov L
          (Rect.unit (s := S3x512x256) ![j, 0, 0] S1x512x256.size h).toLoadRect :=
  View.readCov_cons_of_disjoint _ _ L _ (Rect.unit_disjoint (s := S3x512x256) (inb := h') (inb' := h) (0 : Fin 3) hne)

theorem k0_pay19_eq : k0_pay19 (k0_pay17 X1 W1) wo X3 = shapeCast S1x1x128x256
      (truncf .bf16 (addf (Spec.part (shapeCast S128x256 X1 shapeCasts_S1x1x1x128x256_S128x256)
            (shapeCast S256x512 W1 shapeCasts_S1x256x512_S256x512) wo)
          (extf .f32 (shapeCast S128x256 X3 shapeCasts_S1x1x1x128x256_S128x256) bitsLt_bf16_f32)) bitsLt_bf16_f32)
      shapeCasts_S128x256_S1x1x128x256 := rfl

theorem k0_pay23_eq : k0_pay23 (k0_pay21 X1 W1) k0_pay22 W2 X3 = shapeCast S1x1x128x256
      (truncf .bf16 (addf (Spec.part (shapeCast S128x256 X1 shapeCasts_S1x1x1x128x256_S128x256)
            (shapeCast S256x512 W1 shapeCasts_S1x256x512_S256x512) (shapeCast S512x256 W2 shapeCasts_S1x512x256_S512x256))
          (extf .f32 (shapeCast S128x256 X3 shapeCasts_S1x1x1x128x256_S128x256) bitsLt_bf16_f32)) bitsLt_bf16_f32)
      shapeCasts_S128x256_S1x1x128x256 := rfl

theorem k0_pay20_eq : k0_pay20 X1 W1 W2 = shapeCast S1x1x128x256
      (truncf .bf16 (Spec.part (shapeCast S128x256 X1 shapeCasts_S1x1x1x128x256_S128x256)
          (shapeCast S256x512 W1 shapeCasts_S1x256x512_S256x512) (shapeCast S512x256 W2 shapeCasts_S1x512x256_S512x256)) bitsLt_bf16_f32)
      shapeCasts_S128x256_S1x1x128x256 := rfl

theorem k0_pay24_eq : k0_pay24 X1 W1 W2 = k0_pay20 X1 W1 W2 := rfl

theorem SVm_odd0 (pe po : Fin 7) (l : ℕ) (hpe : pe.val = 2 * l) (hpo : po.val = 2 * l + 1) (c : Dev nD) (c' : Fin 2) :
    SVm m (po, 0, c') (tgt (po, 0, c') c)
      = truncf .bf16 (addf (Spec.P (wiOf m) (woOf m) (lw l) c (SVm m (pe, 0, c') c))
          (extf .f32 (SVm m (po, 3, c') c) bitsLt_bf16_f32)) bitsLt_bf16_f32 := by
  have h1 : ¬ po.val % 2 = 0 := by omega
  have h2 : po.val / 2 = l := by omega
  have h3 : pe.val % 2 = 0 := by omega
  have h4 : pe.val / 2 = l := by omega
  have ho : ∀ d : Dev nD, opp (nxt d) = prv d := by decide
  simp [SVm, Spec.slotVal, tgt, toNxt, h1, h2, h3, h4, ho, Spec.prv_nxt]

theorem SVm_odd1 (pe po : Fin 7) (l : ℕ) (hpe : pe.val = 2 * l) (hpo : po.val = 2 * l + 1) (c : Dev nD) (c' : Fin 2) :
    SVm m (po, 1, c') (tgt (po, 1, c') c)
      = truncf .bf16 (Spec.P (wiOf m) (woOf m) (lw l) c (SVm m (pe, 1, c') c)) bitsLt_bf16_f32 := by
  have h1 : ¬ po.val % 2 = 0 := by omega
  have h2 : po.val / 2 = l := by omega
  have h3 : pe.val % 2 = 0 := by omega
  have h4 : pe.val / 2 = l := by omega
  have ho : ∀ d : Dev nD, opp (prv d) = nxt d := by decide
  simp [SVm, Spec.slotVal, tgt, toNxt, h1, h2, h3, h4, ho, Spec.nxt_prv]

theorem k0_pay27_eq (v : Vec F S1x1x1x128x256 .bf16) : k0_pay27 v = shapeCast S128x256 v shapeCasts_S1x1x1x128x256_S128x256 := rfl
theorem k0_pay37_eq (v : FVec F S128x256 .bf16) : k0_pay37 v = shapeCast S1x1x128x256 v shapeCasts_S128x256_S1x1x128x256 := rfl

theorem k0_pay26_eq : k0_pay26 x W1 W2 = shapeCast S1x128x256
      (Spec.part x (shapeCast S256x512 W1 shapeCasts_S1x256x512_S256x512) (shapeCast S512x256 W2 shapeCasts_S1x512x256_S512x256))
      shapeCasts_S128x256_S1x128x256 := rfl
theorem k0_pay28_eq : k0_pay28 x W1 W2 = k0_pay26 x W1 W2 := rfl

theorem k0_pay30_eq : k0_pay30 own a b = shapeCast S1x128x256
      (truncf .bf16 (addf (addf own (extf .f32 (shapeCast S128x256 a shapeCasts_S1x1x1x128x256_S128x256) bitsLt_bf16_f32))
        (extf .f32 (shapeCast S128x256 b shapeCasts_S1x1x1x128x256_S128x256) bitsLt_bf16_f32)) bitsLt_bf16_f32)
      shapeCasts_S128x256_S1x128x256 := rfl
theorem k0_pay32_eq : k0_pay32 X a b = k0_pay30 (shapeCast S128x256 X shapeCasts_S1x128x256_S128x256) a b := rfl

theorem k0_pay31_eq : k0_pay31 Y W1 W2 = shapeCast S1x1x128x256
      (truncf .bf16 (Spec.part (shapeCast S128x256 Y shapeCasts_S1x128x256_S128x256)
          (shapeCast S256x512 W1 shapeCasts_S1x256x512_S256x512) (shapeCast S512x256 W2 shapeCasts_S1x512x256_S512x256)) bitsLt_bf16_f32)
      shapeCasts_S128x256_S1x1x128x256 := rfl
theorem k0_pay33_eq : k0_pay33 Y W1 W2 = truncf .bf16 (Spec.part (shapeCast S128x256 Y shapeCasts_S1x128x256_S128x256)
          (shapeCast S256x512 W1 shapeCasts_S1x256x512_S256x512) (shapeCast S512x256 W2 shapeCasts_S1x512x256_S512x256)) bitsLt_bf16_f32 := rfl

theorem k0_pay36_eq : k0_pay36 x W1 W2 X3 = truncf .bf16 (addf (Spec.part x (shapeCast S256x512 W1 shapeCasts_S1x256x512_S256x512)
          (shapeCast S512x256 W2 shapeCasts_S1x512x256_S512x256))
        (extf .f32 (shapeCast S128x256 X3 shapeCasts_S1x1x1x128x256_S128x256) bitsLt_bf16_f32)) bitsLt_bf16_f32 := rfl
theorem k0_pay38_eq : k0_pay38 X1 W1 W2 = truncf .bf16 (Spec.part (shapeCast S128x256 X1 shapeCasts_S1x1x1x128x256_S128x256)
          (shapeCast S256x512 W1 shapeCasts_S1x256x512_S256x512) (shapeCast S512x256 W2 shapeCasts_S1x512x256_S512x256)) bitsLt_bf16_f32 := rfl
theorem k0_pay42_eq : k0_pay42 (k0_pay40 X1 W1 W2) (k0_pay41 X3) = shapeCast S1x1x128x256
      (truncf .bf16 (addf (Spec.part (shapeCast S128x256 X1 shapeCasts_S1x1x1x128x256_S128x256)
            (shapeCast S256x512 W1 shapeCasts_S1x256x512_S256x512) (shapeCast S512x256 W2 shapeCasts_S1x512x256_S512x256))
          (extf .f32 (shapeCast S128x256 X3 shapeCasts_S1x1x1x128x256_S128x256) bitsLt_bf16_f32)) bitsLt_bf16_f32)
      shapeCasts_S128x256_S1x1x128x256 := rfl
theorem k0_pay44_eq : k0_pay44 (k0_pay43 X1 W1) W2 = shapeCast S1x1x128x256
      (truncf .bf16 (Spec.part (shapeCast S128x256 X1 shapeCasts_S1x1x1x128x256_S128x256)
          (shapeCast S256x512 W1 shapeCasts_S1x256x512_S256x512) (shapeCast S512x256 W2 shapeCasts_S1x512x256_S512x256)) bitsLt_bf16_f32)
      shapeCasts_S128x256_S1x1x128x256 := rfl

theorem ybuf_cast (c' : Fin 2) (j : ℕ) (hj : j = c'.val)
    (h : ∀ a, (![j, 0, 0] : Fin 3 → ℕ) a + S1x128x256.size a ≤ S2x128x256.size a)
    (y : (cc0_scratch2 : Ref sig .tc).ty.Contents (Elt F)) (v : FVec F S128x256 .bf16) :
    (ybufM c').view.read (Elt F) (View.write (Elt F) ((Memref.whole cc0_scratch2 : Memref sig .tc .vmem S2x128x256 .bf16).access
        (Rect.unit (s := S2x128x256) ![j, 0, 0] S1x128x256.size h)) y
        (shapeCast S1x128x256 v shapeCasts_S128x256_S1x128x256) Finset.univ) = v :=
  ybuf_pay2 c' j hj h y v

theorem readCov_skip_own (j j' : ℕ) (hne : j' + 1 ≤ j ∨ j + 1 ≤ j')
    (h : ∀ a, (![j, 0, 0] : Fin 3 → ℕ) a + S1x128x256.size a ≤ S2x128x256.size a)
    (h' : ∀ a, (![j', 0, 0] : Fin 3 → ℕ) a + S1x128x256.size a ≤ S2x128x256.size a)
    (w : S1x128x256.Idx → Elt F .f32) (L : List (View.Piece (Elt F) S2x128x256 .f32)) :
    (Memref.whole cc0_scratch1 : Memref sig .tc .vmem S2x128x256 .f32).view.readCov
        (⟨Rect.unit (s := S2x128x256) ![j', 0, 0] S1x128x256.size h', w⟩ :: L) (Rect.unit (s := S2x128x256) ![j, 0, 0] S1x128x256.size h).toLoadRect
      = (Memref.whole cc0_scratch1 : Memref sig .tc .vmem S2x128x256 .f32).view.readCov L
          (Rect.unit (s := S2x128x256) ![j, 0, 0] S1x128x256.size h).toLoadRect :=
  View.readCov_cons_of_disjoint _ _ L _ (Rect.unit_disjoint (s := S2x128x256) (inb := h') (inb' := h) (0 : Fin 3) hne)

theorem Y16_succ (pe po : Fin 7) (l l' : ℕ) (hpe : pe.val = 2 * l) (hpo : po.val = 2 * l + 1) (hl' : l' = l + 1) (c : Dev nD) (c' : Fin 2) :
    Spec.Y16 (xbOf m) (wiOf m) (woOf m) l' c c'
      = truncf .bf16 (addf (addf (Spec.P (wiOf m) (woOf m) (lw l) c (SVm m (pe, 2, c') c))
            (extf .f32 (SVm m (po, 0, c') c) bitsLt_bf16_f32))
          (extf .f32 (SVm m (po, 1, c') c) bitsLt_bf16_f32)) bitsLt_bf16_f32 := by
  subst hl'
  have h1 : ¬ po.val % 2 = 0 := by omega
  have h2 : po.val / 2 = l := by omega
  have h3 : pe.val % 2 = 0 := by omega
  have h4 : pe.val / 2 = l := by omega
  have hY : Spec.Y16 (xbOf m) (wiOf m) (woOf m) (l + 1) c c'
      = truncf .bf16 (Spec.sumOf (wiOf m) (woOf m) (lw l) (Spec.Y16 (xbOf m) (wiOf m) (woOf m) l) c c') bitsLt_bf16_f32 := rfl
  rw [hY]
  unfold Spec.sumOf SVm Spec.slotVal
  simp [h1, h2, h3, h4]

end Cert.Kernel.Ring

end
-- ==== Proof.Bits.BodyVals4.lean ====
import proofs.«900985_g7700000000000986_dist_mlpseq_tp1d_bs_rep_b256_d256_h512_v7x_i4_f32_1_alg».proof.Proof.Bits.BodyVals2

noncomputable section

namespace Cert.Kernel.Ring

open Cert.Kernel Cert.Kernel.Gen Cert.Kernel.Spec
open Idealize.ShloMosaic Idealize.ShloMosaic.TcCoe

variable {F : FTy → Type} [FloatOps F]

variable (X1 : Vec F S1x1x1x128x256 .bf16) (x : FVec F S128x256 .bf16) (Y : Vec F S1x128x256 .bf16)
  (wi : FVec F S256x512 .bf16) (W1 : Vec F S1x256x512 .bf16) (W2 : Vec F S1x512x256 .bf16)
  (X3 : Vec F S1x1x1x128x256 .bf16) (X : Vec F S1x128x256 .f32) (a b : Vec F S1x1x1x128x256 .bf16)

-- The later layers' payloads are layer 1's computations again.
theorem k0_pay45_eq :
    k0_pay45 X1 W1 W2 = shapeCast S1x128x256
      (Spec.part (shapeCast S128x256 X1 shapeCasts_S1x1x1x128x256_S128x256)
        (shapeCast S256x512 W1 shapeCasts_S1x256x512_S256x512) (shapeCast S512x256 W2 shapeCasts_S1x512x256_S512x256))
      shapeCasts_S128x256_S1x128x256 := rfl
theorem k0_pay46_eq : k0_pay46 X1 W1 W2 = k0_pay45 X1 W1 W2 := rfl
theorem k0_pay62_eq : k0_pay62 X1 W1 W2 = k0_pay45 X1 W1 W2 := rfl
theorem k0_pay63_eq : k0_pay63 X1 W1 W2 = k0_pay45 X1 W1 W2 := rfl

theorem k0_pay47_eq : k0_pay47 X a b = k0_pay30 (shapeCast S128x256 X shapeCasts_S1x128x256_S128x256) a b := rfl
theorem k0_pay50_eq : k0_pay50 X a b = k0_pay30 (shapeCast S128x256 X shapeCasts_S1x128x256_S128x256) a b := rfl
theorem k0_pay65_eq : k0_pay65 X a b = k0_pay30 (shapeCast S128x256 X shapeCasts_S1x128x256_S128x256) a b := rfl
theorem k0_pay67_eq : k0_pay67 X a b = k0_pay30 (shapeCast S128x256 X shapeCasts_S1x128x256_S128x256) a b := rfl

theorem k0_pay48_eq : k0_pay48 Y W1 W2 = k0_pay33 Y W1 W2 := rfl
theorem k0_pay53_eq :
    k0_pay53 x wi W2 = shapeCast S1x1x128x256
      (truncf .bf16 (Spec.part x wi (shapeCast S512x256 W2 shapeCasts_S1x512x256_S512x256)) bitsLt_bf16_f32)
      shapeCasts_S128x256_S1x1x128x256 := rfl

theorem k0_pay55_eq :
    k0_pay55 (k0_pay54 X1 W1 W2) X3 = shapeCast S1x1x128x256
      (truncf .bf16 (addf (Spec.part (shapeCast S128x256 X1 shapeCasts_S1x1x1x128x256_S128x256)
            (shapeCast S256x512 W1 shapeCasts_S1x256x512_S256x512) (shapeCast S512x256 W2 shapeCasts_S1x512x256_S512x256))
          (extf .f32 (shapeCast S128x256 X3 shapeCasts_S1x1x1x128x256_S128x256) bitsLt_bf16_f32)) bitsLt_bf16_f32)
      shapeCasts_S128x256_S1x1x128x256 := rfl
theorem k0_pay60_eq : k0_pay60 (k0_pay59 X1 W1 W2) X3 = k0_pay55 (k0_pay54 X1 W1 W2) X3 := rfl

theorem k0_pay58_eq :
    k0_pay58 (k0_pay56 X1) (k0_pay57 W1) (constant S128x512 .f32 0x00000000#32) W2 = k0_pay20 X1 W1 W2 := rfl
theorem k0_pay61_eq : k0_pay61 X1 W1 W2 = k0_pay20 X1 W1 W2 := rfl

end Cert.Kernel.Ring

end
-- ==== Proof.Bits.OutVal.lean ====
import proofs.«900985_g7700000000000986_dist_mlpseq_tp1d_bs_rep_b256_d256_h512_v7x_i4_f32_1_alg».proof.Proof.Bits.Data
import proofs.«900985_g7700000000000986_dist_mlpseq_tp1d_bs_rep_b256_d256_h512_v7x_i4_f32_1_alg».proof.Proof.Bits.RingDev
import proofs.«900985_g7700000000000986_dist_mlpseq_tp1d_bs_rep_b256_d256_h512_v7x_i4_f32_1_alg».proof.Proof.Gen.Kernel.Skeleton
import Idealize.ShloMosaic.Lib.Writes

noncomputable section

namespace Cert.Kernel.Ring

open Cert.Kernel Cert.Kernel.Gen Cert.Kernel.Spec
open Idealize.ShloMosaic Idealize.ShloMosaic.TcCoe

variable {F : FTy → Type} [FloatOps F]

section Flow

variable (xb : Dev nD → Vec F S256x256 .f32) (wi : Fin 3 → Dev nD → Vec F S256x512 .f32) (wo : Fin 3 → Dev nD → Vec F S512x256 .f32)

-- Row `256·b + 128·r + x` of the result array is row `x` of chunk `r` of block `b`.
theorem OUT_at (d b : Dev nD) (r : Fin 2) (i : S1024x256.Idx) (x : S128x256.Idx)
    (h0 : (i 0).val = 256 * b.val + 128 * r.val + (x 0).val) (h1 : (i 1).val = (x 1).val) :
    Spec.OUT xb wi wo d i = Spec.outRows xb wi wo d b r x := by
  have hx0 : (x 0).val < 128 := (x 0).isLt
  have hr : r.val < 2 := r.isLt
  have hb : b.val < 4 := b.isLt
  have key : ∀ (B : Dev nD) (R : Fin 2) (X : S128x256.Idx), B = b → R = r → X = x →
      Spec.outRows xb wi wo d B R X = Spec.outRows xb wi wo d b r x := by
    rintro _ _ _ rfl rfl rfl; rfl
  unfold Spec.OUT
  refine key _ _ _ (Fin.ext ?_) (Fin.ext ?_) (funext fun a => ?_)
  · show (i 0).val / 256 = b.val; omega
  · show (i 0).val % 256 / 128 = r.val; omega
  · match a with
    | ⟨0, _⟩ => exact Fin.ext (by show (i 0).val % 128 = (x 0).val; omega)
    | ⟨1, _⟩ => exact Fin.ext (by show (i 1).val = (x 1).val; omega)

theorem piece_ok (c b : Dev nD) (r : Fin 2) (off : Fin 2 → ℕ) (hoff : off = ![256 * b.val + 128 * r.val, 0])
    (inb : ∀ a, off a + S128x256.size a ≤ S1024x256.size a) (P : S128x256.Idx → Elt F .f32)
    (hP : P = Spec.outRows xb wi wo c b r) (x : (Rect.unit (s := S1024x256) off S128x256.size inb).shape.Idx) :
    P x = Spec.OUT xb wi wo c ((Rect.unit (s := S1024x256) off S128x256.size inb).emb x) := by
  subst hoff hP
  exact (OUT_at xb wi wo c b r _ x (by show 256 * b.val + 128 * r.val + 1 * (x 0).val = _; omega)
    (by show 0 + 1 * (x 1).val = _; omega)).symm

omit [FloatOps F] in
theorem mem_piece (b : Dev nD) (r : Fin 2) (off : Fin 2 → ℕ) (hoff : off = ![256 * b.val + 128 * r.val, 0])
    (inb : ∀ a, off a + S128x256.size a ≤ S1024x256.size a) (y : S1024x256.Idx)
    (hy : (y 0).val / 256 = b.val ∧ (y 0).val % 256 / 128 = r.val) :
    y ∈ (Rect.unit (s := S1024x256) off S128x256.size inb).set := by
  subst hoff
  rw [Rect.mem_set_unit]
  have h1 : (y 1).val < 256 := (y 1).isLt
  intro a
  match a with
  | ⟨0, _⟩ => show 256 * b.val + 128 * r.val ≤ (y 0).val ∧ (y 0).val < 256 * b.val + 128 * r.val + 128; omega
  | ⟨1, _⟩ => show 0 ≤ (y 1).val ∧ (y 1).val < 0 + 256; omega

omit [FloatOps F] in
theorem block_cases : ∀ c b : Dev nD, b = c ∨ b = nxt c ∨ b = prv c ∨ b = opp c := by decide

-- Each piece agrees with the result array on its rows, and the eight pieces cover all rows.
theorem out_writes (c : Dev nD) (g : (cc0_stg1_0 : Ref sig .tc).ty.Contents (Elt F))
    (i10 : ∀ a, (k0_off1 c 0#32) a + S128x256.size a ≤ S1024x256.size a) (i11 : ∀ a, (k0_off1 c 128#32) a + S128x256.size a ≤ S1024x256.size a)
    (i20 : ∀ a, (k0_off2 c 0#32) a + S128x256.size a ≤ S1024x256.size a) (i21 : ∀ a, (k0_off2 c 128#32) a + S128x256.size a ≤ S1024x256.size a)
    (i30 : ∀ a, (k0_off3 c 0#32) a + S128x256.size a ≤ S1024x256.size a) (i31 : ∀ a, (k0_off3 c 128#32) a + S128x256.size a ≤ S1024x256.size a)
    (i40 : ∀ a, (k0_off4 c 0#32) a + S128x256.size a ≤ S1024x256.size a) (i41 : ∀ a, (k0_off4 c 128#32) a + S128x256.size a ≤ S1024x256.size a)
    (P10 P11 P20 P21 P30 P31 P40 P41 : S128x256.Idx → Elt F .f32)
    (h10 : P10 = Spec.outRows xb wi wo c (opp c) 0) (h11 : P11 = Spec.outRows xb wi wo c (opp c) 1)
    (h20 : P20 = Spec.outRows xb wi wo c (prv c) 0) (h21 : P21 = Spec.outRows xb wi wo c (prv c) 1)
    (h30 : P30 = Spec.outRows xb wi wo c (nxt c) 0) (h31 : P31 = Spec.outRows xb wi wo c (nxt c) 1)
    (h40 : P40 = Spec.outRows xb wi wo c c 0) (h41 : P41 = Spec.outRows xb wi wo c c 1) :
    ∀ L : List (View.Piece (Elt F) S1024x256 .f32), L =
        [⟨Rect.unit (s := S1024x256) (k0_off4 c 128#32) S128x256.size i41, P41⟩, ⟨Rect.unit (s := S1024x256) (k0_off4 c 0#32) S128x256.size i40, P40⟩,
         ⟨Rect.unit (s := S1024x256) (k0_off3 c 128#32) S128x256.size i31, P31⟩, ⟨Rect.unit (s := S1024x256) (k0_off3 c 0#32) S128x256.size i30, P30⟩,
         ⟨Rect.unit (s := S1024x256) (k0_off2 c 128#32) S128x256.size i21, P21⟩, ⟨Rect.unit (s := S1024x256) (k0_off2 c 0#32) S128x256.size i20, P20⟩,
         ⟨Rect.unit (s := S1024x256) (k0_off1 c 128#32) S128x256.size i11, P11⟩, ⟨Rect.unit (s := S1024x256) (k0_off1 c 0#32) S128x256.size i10, P10⟩] →
      (Memref.whole cc0_stg1_0 : Memref sig .tc .vmem S1024x256 .f32).view.writes (Elt F) g L = Spec.OUT xb wi wo c := by
  intro L hL
  have e10 := RingDev.off1_eq c 0
  have e11 := RingDev.off1_eq c 1
  have e20 := RingDev.off2_eq c 0
  have e21 := RingDev.off2_eq c 1
  have e30 := RingDev.off3_eq c 0
  have e31 := RingDev.off3_eq c 1
  have e40 := Gen.k0_off4_eq c 0
  have e41 := Gen.k0_off4_eq c 1
  funext i
  have key : ∀ (hp : ∀ p ∈ L, ∀ x : p.1.shape.Idx, p.2 x = Spec.OUT xb wi wo c (p.1.emb x)) (hc : ∃ p ∈ L, i ∈ p.1.set),
      (Memref.whole cc0_stg1_0 : Memref sig .tc .vmem S1024x256 .f32).view.writes (Elt F) g L i = Spec.OUT xb wi wo c i :=
    fun hp hc => View.read_writes_apply_of_pieces (Val := Elt F) (Memref.whole cc0_stg1_0 : Memref sig .tc .vmem S1024x256 .f32).view g
      (Spec.OUT xb wi wo c) L hp i hc
  subst hL
  refine key (fun p hp x => ?_) ?_
  · simp only [List.mem_cons, List.mem_nil_iff, or_false] at hp
    rcases hp with rfl | rfl | rfl | rfl | rfl | rfl | rfl | rfl
    · exact piece_ok xb wi wo c c 1 _ e41 i41 P41 h41 x
    · exact piece_ok xb wi wo c c 0 _ e40 i40 P40 h40 x
    · exact piece_ok xb wi wo c (nxt c) 1 _ e31 i31 P31 h31 x
    · exact piece_ok xb wi wo c (nxt c) 0 _ e30 i30 P30 h30 x
    · exact piece_ok xb wi wo c (prv c) 1 _ e21 i21 P21 h21 x
    · exact piece_ok xb wi wo c (prv c) 0 _ e20 i20 P20 h20 x
    · exact piece_ok xb wi wo c (opp c) 1 _ e11 i11 P11 h11 x
    · exact piece_ok xb wi wo c (opp c) 0 _ e10 i10 P10 h10 x
  · have hi0 : (i 0).val < 1024 := (i 0).isLt
    have hr : (i 0).val % 256 / 128 = 0 ∨ (i 0).val % 256 / 128 = 1 := by omega
    rcases block_cases c ⟨(i 0).val / 256, by show _ < 4; omega⟩ with hb | hb | hb | hb <;> rcases hr with hr | hr
    · exact ⟨_, .tail _ (.head _), mem_piece c 0 _ e40 i40 i ⟨congrArg Fin.val hb, hr⟩⟩
    · exact ⟨_, .head _, mem_piece c 1 _ e41 i41 i ⟨congrArg Fin.val hb, hr⟩⟩
    · exact ⟨_, .tail _ (.tail _ (.tail _ (.head _))), mem_piece (nxt c) 0 _ e30 i30 i ⟨congrArg Fin.val hb, hr⟩⟩
    · exact ⟨_, .tail _ (.tail _ (.head _)), mem_piece (nxt c) 1 _ e31 i31 i ⟨congrArg Fin.val hb, hr⟩⟩
    · exact ⟨_, .tail _ (.tail _ (.tail _ (.tail _ (.tail _ (.head _))))), mem_piece (prv c) 0 _ e20 i20 i ⟨congrArg Fin.val hb, hr⟩⟩
    · exact ⟨_, .tail _ (.tail _ (.tail _ (.tail _ (.head _)))), mem_piece (prv c) 1 _ e21 i21 i ⟨congrArg Fin.val hb, hr⟩⟩
    · exact ⟨_, .tail _ (.tail _ (.tail _ (.tail _ (.tail _ (.tail _ (.tail _ (.head _))))))), mem_piece (opp c) 0 _ e10 i10 i ⟨congrArg Fin.val hb, hr⟩⟩
    · exact ⟨_, .tail _ (.tail _ (.tail _ (.tail _ (.tail _ (.tail _ (.head _)))))), mem_piece (opp c) 1 _ e11 i11 i ⟨congrArg Fin.val hb, hr⟩⟩

theorem outRows_opp (c : Dev nD) (r : Fin 2) : Spec.outRows xb wi wo c (opp c) r = Spec.Ysum xb wi wo 2 c r := by
  unfold Spec.outRows; rw [if_pos rfl]
theorem outRows_prv (c : Dev nD) (r : Fin 2) : Spec.outRows xb wi wo c (prv c) r = extf .f32 (Spec.Y16 xb wi wo 3 (nxt c) r) bitsLt_bf16_f32 := by
  unfold Spec.outRows; rw [if_neg (by revert c; decide), show opp (prv c) = nxt c from by revert c; decide]
theorem outRows_nxt (c : Dev nD) (r : Fin 2) : Spec.outRows xb wi wo c (nxt c) r = extf .f32 (Spec.Y16 xb wi wo 3 (prv c) r) bitsLt_bf16_f32 := by
  unfold Spec.outRows; rw [if_neg (by revert c; decide), show opp (nxt c) = prv c from by revert c; decide]
theorem outRows_self (c : Dev nD) (r : Fin 2) : Spec.outRows xb wi wo c c r = extf .f32 (Spec.Y16 xb wi wo 3 (opp c) r) bitsLt_bf16_f32 := by
  unfold Spec.outRows; rw [if_neg (by revert c; decide)]

end Flow

section Values

variable (m : (ℓ : Loc nD τ sig) → Buf (Elt F) ℓ)

theorem SVm_last0 (c : Dev nD) (r : Fin 2) : SVm m (6, 0, r) c = Spec.Y16 (xbOf m) (wiOf m) (woOf m) 3 (prv c) r := by
  show Spec.slotVal (xbOf m) (wiOf m) (woOf m) 6 0 c r = _
  unfold Spec.slotVal
  rw [if_pos (by decide), if_pos rfl]
theorem SVm_last1 (c : Dev nD) (r : Fin 2) : SVm m (6, 1, r) c = Spec.Y16 (xbOf m) (wiOf m) (woOf m) 3 (nxt c) r := by
  show Spec.slotVal (xbOf m) (wiOf m) (woOf m) 6 1 c r = _
  unfold Spec.slotVal
  rw [if_pos (by decide), if_neg (by decide), if_pos rfl]
theorem SVm_last2 (c : Dev nD) (r : Fin 2) : SVm m (6, 2, r) c = Spec.Y16 (xbOf m) (wiOf m) (woOf m) 3 (opp c) r := by
  show Spec.slotVal (xbOf m) (wiOf m) (woOf m) 6 2 c r = _
  unfold Spec.slotVal
  rw [if_pos (by decide), if_neg (by decide), if_neg (by decide)]

theorem SVm_scat0 (c : Dev nD) (r : Fin 2) : SVm m (5, 0, r) c
    = truncf .bf16 (addf (Spec.P (wiOf m) (woOf m) (lw 2) (prv c) (Spec.Y16 (xbOf m) (wiOf m) (woOf m) 2 (opp c) r))
        (extf .f32 (truncf .bf16 (Spec.P (wiOf m) (woOf m) (lw 2) (opp c) (Spec.Y16 (xbOf m) (wiOf m) (woOf m) 2 (opp c) r)) bitsLt_bf16_f32) bitsLt_bf16_f32)) bitsLt_bf16_f32 := by
  show Spec.slotVal (xbOf m) (wiOf m) (woOf m) 5 0 c r = _
  unfold Spec.slotVal
  rw [if_neg (by decide), if_neg (by decide), if_pos rfl]
theorem SVm_scat1 (c : Dev nD) (r : Fin 2) : SVm m (5, 1, r) c
    = truncf .bf16 (Spec.P (wiOf m) (woOf m) (lw 2) (nxt c) (Spec.Y16 (xbOf m) (wiOf m) (woOf m) 2 (opp c) r)) bitsLt_bf16_f32 := by
  show Spec.slotVal (xbOf m) (wiOf m) (woOf m) 5 1 c r = _
  unfold Spec.slotVal
  rw [if_neg (by decide), if_neg (by decide), if_neg (by decide)]
theorem SVm_gath2 (c : Dev nD) (r : Fin 2) : SVm m (4, 2, r) c = Spec.Y16 (xbOf m) (wiOf m) (woOf m) 2 (opp c) r := by
  show Spec.slotVal (xbOf m) (wiOf m) (woOf m) 4 2 c r = _
  unfold Spec.slotVal
  rw [if_pos (by decide), if_neg (by decide), if_neg (by decide)]

theorem Ysum_last (c : Dev nD) (r : Fin 2) :
    Spec.Ysum (xbOf m) (wiOf m) (woOf m) 2 c r
      = addf (addf (Spec.P (wiOf m) (woOf m) (lw 2) c (SVm m (4, 2, r) c)) (extf .f32 (SVm m (5, 0, r) c) bitsLt_bf16_f32))
          (extf .f32 (SVm m (5, 1, r) c) bitsLt_bf16_f32) := by
  rw [SVm_gath2, SVm_scat0, SVm_scat1]
  rfl

end Values

section Payloads

variable (own : Vec F S1x128x256 .f32) (a b : Vec F S1x1x1x128x256 .bf16) (X1 : Vec F S1x1x1x128x256 .bf16)
  (W1 : Vec F S1x256x512 .bf16) (W2 : Vec F S1x512x256 .bf16) (v : Vec F S1x1x1x128x256 .bf16)

theorem out_pay64_eq :
    k0_pay64 own a b = addf (addf (shapeCast S128x256 own shapeCasts_S1x128x256_S128x256)
        (extf .f32 (shapeCast S128x256 a shapeCasts_S1x1x1x128x256_S128x256) bitsLt_bf16_f32))
      (extf .f32 (shapeCast S128x256 b shapeCasts_S1x1x1x128x256_S128x256) bitsLt_bf16_f32) := rfl
theorem out_pay66_eq :
    k0_pay66 own a b = addf (addf (shapeCast S128x256 own shapeCasts_S1x128x256_S128x256)
        (extf .f32 (shapeCast S128x256 a shapeCasts_S1x1x1x128x256_S128x256) bitsLt_bf16_f32))
      (extf .f32 (shapeCast S128x256 b shapeCasts_S1x1x1x128x256_S128x256) bitsLt_bf16_f32) := rfl
theorem out_pay62_eq :
    k0_pay62 X1 W1 W2 = shapeCast S1x128x256
      (Spec.part (shapeCast S128x256 X1 shapeCasts_S1x1x1x128x256_S128x256) (shapeCast S256x512 W1 shapeCasts_S1x256x512_S256x512)
        (shapeCast S512x256 W2 shapeCasts_S1x512x256_S512x256)) shapeCasts_S128x256_S1x128x256 := rfl
theorem out_pay63_eq :
    k0_pay63 X1 W1 W2 = shapeCast S1x128x256
      (Spec.part (shapeCast S128x256 X1 shapeCasts_S1x1x1x128x256_S128x256) (shapeCast S256x512 W1 shapeCasts_S1x256x512_S256x512)
        (shapeCast S512x256 W2 shapeCasts_S1x512x256_S512x256)) shapeCasts_S128x256_S1x128x256 := rfl
theorem out_pay68_eq : k0_pay68 v = extf .f32 (shapeCast S128x256 v shapeCasts_S1x1x1x128x256_S128x256) bitsLt_bf16_f32 := rfl
theorem out_pay69_eq : k0_pay69 v = extf .f32 (shapeCast S128x256 v shapeCasts_S1x1x1x128x256_S128x256) bitsLt_bf16_f32 := rfl
theorem out_pay70_eq : k0_pay70 v = extf .f32 (shapeCast S128x256 v shapeCasts_S1x1x1x128x256_S128x256) bitsLt_bf16_f32 := rfl
theorem out_pay71_eq : k0_pay71 v = extf .f32 (shapeCast S128x256 v shapeCasts_S1x1x1x128x256_S128x256) bitsLt_bf16_f32 := rfl
theorem out_pay72_eq : k0_pay72 v = extf .f32 (shapeCast S128x256 v shapeCasts_S1x1x1x128x256_S128x256) bitsLt_bf16_f32 := rfl
theorem out_pay73_eq : k0_pay73 v = extf .f32 (shapeCast S128x256 v shapeCasts_S1x1x1x128x256_S128x256) bitsLt_bf16_f32 := rfl

end Payloads

end Cert.Kernel.Ring

end
-- ==== Proof.Bits.Launch.lean ====
import proofs.«900985_g7700000000000986_dist_mlpseq_tp1d_bs_rep_b256_d256_h512_v7x_i4_f32_1_alg».proof.Proof.Bits.Data
import proofs.«900985_g7700000000000986_dist_mlpseq_tp1d_bs_rep_b256_d256_h512_v7x_i4_f32_1_alg».proof.Proof.Bits.Steps
import proofs.«900985_g7700000000000986_dist_mlpseq_tp1d_bs_rep_b256_d256_h512_v7x_i4_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Ring

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem wS_val : ∀ i : Fin 6, (wS i).val = 114 + i.val := by decide +kernel
theorem stage_sem_lt : ∀ (w : Fin cfg0.W) (s : Fin (cfg0.win w).nbuf), ((cfg0.win w).sem s).val < 2 := by decide +kernel
theorem sendS_scoped : ∀ k : K, (SemLoc.dma (sendS k) : SemLoc sig).isScoped .tc = true := by decide +kernel
theorem recvS_scoped : ∀ k : K, (SemLoc.dma (recvS k) : SemLoc sig).isScoped .tc = true := by decide +kernel
theorem wS_scoped : ∀ i : Fin 6, (SemLoc.dma (wS i) : SemLoc sig).isScoped .tc = true := by decide +kernel

def oval : OS → ℕ
  | .inl (false, k) => (sendS k.1).val
  | .inl (true, k) => (recvS k.1).val
  | .inr i => (wS i).val
theorem osem_eq (x : OS) : ∃ q : DmaSem sig, osem x = .dma q ∧ q.val = oval x := by
  rcases x with ⟨_ | _, k⟩ | i <;> exact ⟨_, rfl, rfl⟩
theorem oval_ge (x : OS) : 2 ≤ oval x := by
  rcases x with ⟨_ | _, k⟩ | i
  · exact (isSend k.1).1
  · have := (isRecv k.1).1; show 2 ≤ (recvS k.1).val; omega
  · show 2 ≤ (wS i).val; rw [wS_val]; omega
theorem oval_injective : Function.Injective oval := by
  rintro (⟨_ | _, k⟩ | i) (⟨_ | _, k'⟩ | i') h <;> simp only [oval] at h
  · have : k.1 = k'.1 := by rw [← kOf_sendS k.1, ← kOf_sendS k'.1, h]
    rw [Subtype.ext this]
  · have := (isSend k.1).2; have := (isRecv k'.1).1; omega
  · have := (isSend k.1).2; rw [wS_val] at h; omega
  · have := (isSend k'.1).2; have := (isRecv k.1).1; omega
  · have : k.1 = k'.1 := by rw [← kOf_recvS k.1, ← kOf_recvS k'.1, h]
    rw [Subtype.ext this]
  · have := (isRecv k.1).2; rw [wS_val] at h; omega
  · have := (isSend k'.1).2; rw [wS_val] at h; omega
  · have := (isRecv k'.1).2; rw [wS_val] at h; omega
  · rw [wS_val, wS_val] at h; rw [Fin.ext (by omega : i.val = i'.val)]

theorem ownSemFacts : Pipeline.OwnSemFacts cfg0.spec osem where
  isScoped x := by rcases x with ⟨_ | _, k⟩ | i; exacts [sendS_scoped k.1, recvS_scoped k.1, wS_scoped i]
  inj x y h := by
    obtain ⟨q, hq, hv⟩ := osem_eq x
    obtain ⟨q', hq', hv'⟩ := osem_eq y
    rw [hq, hq'] at h
    exact oval_injective (by rw [← hv, ← hv', SemLoc.dma.inj h])
  disj x w s h := by
    obtain ⟨q, hq, hv⟩ := osem_eq x
    rw [hq] at h
    have h1 := stage_sem_lt w s
    have h2 := oval_ge x
    rw [← SemLoc.dma.inj h, hv] at h1
    omega

theorem share_eq (c : Dev nD) (w : Fin cfg0.W) : (dats m ρ 0 c).share w = fullShare := by unfold Dat.share; split <;> rfl

theorem csem_injective : Function.Injective csem := by
  rintro (_ | k | k) (_ | k' | k') h
  · rfl
  · cases h
  · cases h
  · cases h
  · cases (ownSemFacts.inj h : (Sum.inl (false, k) : OS) = Sum.inl (false, k')); rfl
  · cases (ownSemFacts.inj h : (Sum.inl (false, k) : OS) = Sum.inl (true, k'))
  · cases h
  · cases (ownSemFacts.inj h : (Sum.inl (true, k) : OS) = Sum.inl (false, k'))
  · cases (ownSemFacts.inj h : (Sum.inl (true, k) : OS) = Sum.inl (true, k')); rfl

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

abbrev TI : Type := Bool ⊕ (Bool × UK)

def tcell : TI → CK × Bool
  | .inl d => (.bar, d)
  | .inr (false, k) => (.snd k, false)
  | .inr (true, k) => (.rcv k, false)
theorem tcell_injective : Function.Injective tcell := by
  rintro (d | ⟨_ | _, k⟩) (d' | ⟨_ | _, k'⟩) h <;> cases h <;> rfl
def tokOf (cj : Dev nD × TI) : GSem nD τ sig × ℕ × Bool := (kcell (cj.1, (tcell cj.2).1), 0, (tcell cj.2).2)
theorem tokOf_injective : Function.Injective (tokOf : Dev nD × TI → GSem nD τ sig × ℕ × Bool) := by
  rintro ⟨c, j⟩ ⟨c', j'⟩ h
  obtain ⟨rfl, h4⟩ := Prod.mk.inj (kcell_injective (congrArg (·.1) h))
  exact congrArg (Prod.mk c) (tcell_injective (Prod.ext h4 (congrArg (·.2.2) h)))
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

def toks (c : Dev nD) : sProp 𝕄 :=
  iprop((dutyTok ER (barCell c) 0 false ∗ dutyTok ER (barCell c) 0 true)
    ∗ (bigSep Finset.univ fun k : UK => dutyTok ER (sendCell c k.1) 0 false)
    ∗ bigSep Finset.univ fun k : UK => dutyTok ER (recvCell c k.1) 0 false)

def G (c : Dev nD) : sProp 𝕄 :=
  iprop((bigSep Finset.univ fun ck : CK => roundState ER (ringRd (SVm m)) (kcell (c, ck)) 0)
    ∗ (bigSep Finset.univ fun ck : CK => iprop(atPos ER (kcell (c, ck)) 0 ∅ 0 ∗ reached ER (kcell (c, ck)) 0)) ∗ toks c)

def G' (c : Dev nD) : sProp 𝕄 := iprop((∃ Kn, ghost (SVm m) Kn c) ∗ wsems0 c)

omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem bigSep_univ_sum' {α β : Type} [Fintype α] [Fintype β] (Φ : α ⊕ β → sProp 𝕄) :
    bigSep Finset.univ Φ = iprop((bigSep Finset.univ fun a => Φ (.inl a)) ∗ bigSep Finset.univ fun b => Φ (.inr b)) := bigSep_univ_sum Φ

theorem toks_eq (c : Dev nD) : (bigSep Finset.univ fun j : TI => (dutyTok ER (tokOf (c, j)).1 (tokOf (c, j)).2.1 (tokOf (c, j)).2.2 : sProp 𝕄)) = toks c := by
  unfold toks
  rw [bigSep_univ_sum, bigSep_bool, bigSep_univ_prod, bigSep_bool]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun ck : CK => Φ (kcell (c, ck)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd (SVm m)) ringCells ringToks) $$ HX with ⟨Hst, Hr, Hat, Htok⟩
  imodintro
  ihave Hst' := (Entails.of_eq (hX fun g => roundState ER (ringRd (SVm m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  icases (ownU_pair _ _) $$ Hu with ⟨HP, HX⟩
  icases (own_pair_emb embR _ _) $$ HX with ⟨HR, -⟩
  ihave HR' := (show BI.own (((Emb.inl : Emb UB (UB × Counters)).trans embR) (initOf ringCells ringToks)) ⊢ (BI.own (ER (initOf ringCells ringToks)) : sProp 𝕄) from .rfl) $$ HR
  imod (fund_ring m) $$ HR' with HG
  imodintro
  iframe

def ckEquiv : Unit ⊕ (UK ⊕ UK) ≃ CK where
  toFun
    | .inl _ => .bar
    | .inr (.inl k) => .snd k
    | .inr (.inr k) => .rcv k
  invFun
    | .bar => .inl ()
    | .snd k => .inr (.inl k)
    | .rcv k => .inr (.inr k)
  left_inv x := by rcases x with _ | _ | _ <;> rfl
  right_inv x := by cases x <;> rfl

omit [FloatOps F] in
theorem bigSep_CK (Φ : CK → sProp 𝕄) :
    bigSep Finset.univ Φ = iprop(Φ .bar ∗ (bigSep Finset.univ fun k : UK => Φ (.snd k)) ∗ bigSep Finset.univ fun k : UK => Φ (.rcv k)) := by
  rw [bigSep_univ_equiv ckEquiv Φ, bigSep_univ_sum, bigSep_univ_sum, bigSep_univ_of_subsingleton ()]
  rfl

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 osem c ∗ unscopedSems0 c)
      ⊢ iprop((bigSep Finset.univ fun ck : CK => semVal (kcell (c, ck)) 0) ∗ wsems0 c : sProp 𝕄) := by
  rw [unscopedSems0_eq, bigSep_CK]
  unfold Pipeline.ownSems0 wsems0
  rw [bigSep_univ_sum', bigSep_univ_prod, bigSep_bool]
  iintro ⟨⟨⟨HS, HV⟩, HW⟩, HB⟩
  isplitr [HW]
  · isplitl [HB]; · iexact HB
    isplitl [HS]
    · iexact HS
    · iexact HV
  · iexact HW

def mid (c : Dev nD) : sProp 𝕄 :=
  iprop((bigSep Finset.univ fun ck : CK => iprop(∃ κ : ℕ, cellInv ER (ringRd (SVm m)) κ (kcell (c, ck))))
    ∗ (bigSep Finset.univ fun ck : CK => iprop(atPos ER (kcell (c, ck)) 0 ∅ 0 ∗ reached ER (kcell (c, ck)) 0)) ∗ toks c ∗ wsems0 c)

theorem core_alloc (c : Dev nD) :
    iprop(Pipeline.ownSems0 osem c ∗ unscopedSems0 c ∗ G m c)
      ⊢ |={Set.univ}=> mid m c := by
  unfold G mid
  iintro ⟨Hos, Hus, Hst, Hat, Htok⟩
  ihave Hv := (sems0_eq (F := F) c) $$ [Hos Hus]
  · iframe
  icases Hv with ⟨Hv, Hw⟩
  imod (show iprop((bigSep Finset.univ fun ck : CK => semVal (kcell (c, ck)) 0) ∗ bigSep Finset.univ fun ck : CK => roundState ER (ringRd (SVm m)) (kcell (c, ck)) 0)
      ⊢ (|={Set.univ}=> bigSep Finset.univ fun ck : CK => iprop(∃ κ : ℕ, cellInv ER (ringRd (SVm m)) κ (kcell (c, ck))) : sProp 𝕄) from by
        rw [← bigSep_sep']
        exact (bigSep_mono fun ck _ => (Rounds.body_intro ER (ringRd (SVm m)) (kcell (c, ck))).trans inv_alloc).trans (bigSep_fupd _ _)) $$ [Hv Hst] with Hinv
  · iframe
  imodintro
  iframe

def records (Kn : Dev nD × CK → ℕ) : sProp 𝕄 :=
  iprop((bigSep Finset.univ fun ck : Dev nD × CK => cellInv ER (ringRd (SVm m)) (Kn ck) (kcell ck))
    ∗ bigSep Finset.univ fun ck : Dev nD × CK => reached ER (kcell ck) 0)

instance records_persistent (Kn : Dev nD × CK → ℕ) : BI.Persistent (records m Kn) := by unfold records; infer_instance

theorem at_ (Φ : Dev nD × CK → sProp 𝕄) (x : Dev nD × CK) : bigSep Finset.univ Φ ⊢ Φ x := bigSep_elim (Finset.mem_univ x)

theorem pick (Φ : Dev nD × CK → sProp 𝕄) [∀ x, BI.Persistent (Φ x)] (c : Dev nD) :
    bigSep Finset.univ Φ ⊢ iprop((bigSep Finset.univ fun ck : CK => Φ (c, ck)) ∗ Φ (nxt c, .bar) ∗ Φ (prv c, .bar)
      ∗ bigSep Finset.univ fun k : UK => Φ (tgt k.1 c, .rcv k)) := by
  iintro #H
  isplitr; · iapply (bigSep_intro_persistent (R := bigSep Finset.univ Φ) fun ck _ => at_ Φ (c, ck)); iexact H
  isplitr; · iapply (at_ Φ (nxt c, .bar)); iexact H
  isplitr; · iapply (at_ Φ (prv c, .bar)); iexact H
  iapply (bigSep_intro_persistent (R := bigSep Finset.univ Φ) fun k _ => at_ Φ (tgt k.1 c, .rcv k)); iexact H

def payToks (c : Dev nD) : sProp 𝕄 :=
  iprop(dutyTok ER (barCell (prv c)) 0 true ∗ dutyTok ER (barCell (nxt c)) 0 false
    ∗ (bigSep Finset.univ fun k : UK => dutyTok ER (recvCell (tgt k.1 c) k.1) 0 false)
    ∗ bigSep Finset.univ fun k : UK => dutyTok ER (sendCell c k.1) 0 false)

theorem ghost_intro (Kn : Dev nD × CK → ℕ) (c : Dev nD) : iprop(records m Kn ∗ linear c) ⊢ iprop(∃ Kn, ghost (SVm m) Kn c) := by
  unfold records ghost invs reacheds
  iintro ⟨⟨#HI, #HR⟩, Hlin⟩
  iexists Kn
  isplitr; · iapply (pick (fun ck => cellInv ER (ringRd (SVm m)) (Kn ck) (kcell ck)) c); iexact HI
  isplitr; · iapply (pick (F := F) (fun ck => reached ER (kcell ck) 0) c); iexact HR
  iexact Hlin

abbrev ring : Dev nD ≃ Dev nD := ⟨nxt, prv, prv_nxt, nxt_prv⟩
abbrev tgtE (k : K) : Dev nD ≃ Dev nD := ⟨tgt k, frm k, frm_tgt k, tgt_frm k⟩

theorem recv_around :
    (bigSep Finset.univ fun c : Dev nD => bigSep Finset.univ fun k : UK => (dutyTok ER (recvCell c k.1) 0 false : sProp 𝕄))
      = bigSep Finset.univ fun c : Dev nD => bigSep Finset.univ fun k : UK => (dutyTok ER (recvCell (tgt k.1 c) k.1) 0 false : sProp 𝕄) := by
  rw [bigSep_univ_comm (fun (c : Dev nD) (k : UK) => (dutyTok ER (recvCell c k.1) 0 false : sProp 𝕄)),
    bigSep_univ_comm (fun (c : Dev nD) (k : UK) => (dutyTok ER (recvCell (tgt k.1 c) k.1) 0 false : sProp 𝕄))]
  exact bigSep_congr fun k _ => bigSep_univ_equiv (tgtE k.1) (fun c : Dev nD => (dutyTok ER (recvCell c k.1) 0 false : sProp 𝕄))

theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    recv_around]
  iintro ⟨⟨H1, H2⟩, H3, H4⟩
  isplitl [H2]; · iexact H2
  isplitl [H1]; · iexact H1
  isplitl [H4]; · iexact H4
  iexact H3

theorem regroup : (bigSep Finset.univ fun c : Dev nD => mid m c) ⊢ bigSep Finset.univ (G' m) := by
  unfold mid
  rw [bigSep_sep', bigSep_sep', bigSep_sep', ← bigSep_univ_prod (fun ck : Dev nD × CK => iprop(∃ κ : ℕ, cellInv ER (ringRd (SVm m)) κ (kcell ck))),
    bigSep_congr (s := Finset.univ) (fun (c : Dev nD) _ => bigSep_sep' Finset.univ (fun ck : CK => (atPos ER (kcell (c, ck)) 0 ∅ 0 : sProp 𝕄)) (fun ck => reached ER (kcell (c, ck)) 0)),
    bigSep_sep', ← bigSep_univ_prod (fun ck : Dev nD × CK => (reached ER (kcell ck) 0 : sProp 𝕄))]
  iintro ⟨HI, ⟨Hat, #HR⟩, Htok, Hws⟩
  ihave HK := (BI.bigSep_exists_pi Finset.univ (fun (ck : Dev nD × CK) (κ : ℕ) => (cellInv ER (ringRd (SVm m)) κ (kcell ck) : sProp 𝕄))) $$ HI
  icases HK with ⟨%Kn, #HI⟩
  ihave Htk := (toks_around (F := F)) $$ Htok
  iapply (Entails.of_eq (bigSep_sep' Finset.univ (fun c : Dev nD => iprop(∃ Kn, ghost (SVm m) Kn c)) (fun c : Dev nD => wsems0 c)).symm)
  isplitr [Hws]
  · iapply (bigSep_with_persistent (R := records m Kn) fun c _ => ghost_intro m Kn c)
    isplitr
    · unfold records; isplitl; · iexact HI
      iexact HR
    · iapply ((Entails.of_eq (bigSep_sep' Finset.univ (fun c : Dev nD => bigSep Finset.univ fun ck : CK => (atPos ER (kcell (c, ck)) 0 ∅ 0 : sProp 𝕄)) payToks).symm).trans
        (bigSep_mono fun c _ => show _ ⊢ linear c from Entails.of_eq (by unfold linear payToks; rfl)))
      iframe
  · iexact Hws

theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start (SVm m) m c ∗ emp) := by
  rw [Pipeline.unscopedRestP_none, unscopedRest0_eq]
  unfold G'
  iintro ⟨Hw, Hlev, Hcr, -, Hgh, Hws⟩
  ihave Hc := (creds (F := F) c) $$ Hcr
  imodintro
  unfold start credits weights
  iframe

theorem phi0_intro (c : Dev nD) :
    iprop(start (SVm m) m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (SVm m) m c from rfl, scopedRest0_eq]
  unfold Φ₀ scratch
  iintro ⟨Hs, -, Hr⟩
  iframe

theorem phi1_exit (c : Dev nD) :
    (dats m ρ 0 c).Φ (Fin.last cfg0.N) ⊢ iprop(weights m c ∗ Pipeline.ownSems0 osem c ∗ Pipeline.scopedRest cfg0.spec c) := by
  rw [show (dats m ρ 0 c).Φ (Fin.last cfg0.N) = Φ₁ m c from rfl, scopedRest0_eq]
  unfold Φ₁ scratch
  iintro ⟨Hw, Hr, Hz⟩
  iframe

theorem lv_stage (c : Dev nD) (w : Fin cfg0.W) (s : Fin (cfg0.win w).nbuf) : lv ((c : Thread nD τ), .dma ((cfg0.win w).sem s)) () = 0 := by
  show (if IsRecvSem ((cfg0.win w).sem s) then _ else 0) = 0
  exact if_neg fun h => by have h1 := stage_sem_lt w s; have h2 := h.1; omega

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_stage c w s) _ (by
      rcases t with ⟨_ | _, ht⟩
      · exact Or.inl rfl
      · exact Or.inr rfl)

def QY (c : Dev nD) (s : MemSt nD τ sig (Elt F)) : Prop :=
  s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

theorem weights_read (c : Dev nD) (s' : Phys nD τ sig (Elt F)) :
    iprop(weights m c ∗ emp ∗ SI s') ⊢ (|={Set.univ}=> iprop(⌜QY m c s'.mem⌝ ∗ SI s') : sProp 𝕄) := by
  unfold weights
  iintro ⟨⟨H1, H2, H3, H4, H5, H6⟩, -, HSI⟩
  icombine HSI H1 gives %h1
  icombine HSI H2 gives %h2
  icombine HSI H3 gives %h3
  icombine HSI H4 gives %h4
  icombine HSI H5 gives %h5
  icombine HSI H6 gives %h6
  imodintro
  isplitr
  · ipureintro
    exact ⟨Buf.eq_of_forall_mem_univ h1, Buf.eq_of_forall_mem_univ h2, Buf.eq_of_forall_mem_univ h3,
      Buf.eq_of_forall_mem_univ h4, Buf.eq_of_forall_mem_univ h5, Buf.eq_of_forall_mem_univ h6⟩
  iexact HSI

set_option maxRecDepth 40000 in
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := glob m)
    (hA := fun _ _ => rfl) (hpf := fun _ k => k.elim0)
    (X := start (SVm m) m) (Y := weights m) (Z := fun _ => iprop(emp))
    (hX := start_intro m ρ) (hin := phi0_intro m ρ) (hout := phi1_exit m ρ)
    (QY := QY m)
    (hY := weights_read m)
    (hQ := fun s h c => ⟨fun w => (h c).1 w, (h c).2.2⟩)

end Cert.Kernel.Ring

end
-- ==== Proof.Bits.Exit.lean ====
import proofs.«900985_g7700000000000986_dist_mlpseq_tp1d_bs_rep_b256_d256_h512_v7x_i4_f32_1_alg».proof.Proof.Bits.Launch

noncomputable section

namespace Cert.Kernel.Ring

open Cert.Kernel.Gen Cert.Kernel.Spec

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

theorem own_sems_back (c : Dev nD) :
    iprop((bigSep Finset.univ fun k : UK => semVal (sendCell c k.1) 0) ∗ (bigSep Finset.univ fun k : UK => semVal (recvCell c k.1) 0) ∗ wsems0 c)
      ⊢ (Pipeline.ownSems0 (Ix := Unit) (Name := ℕ) (U := UU) (Lvl := ℕ) (Val := Elt F) (τ := τ) osem c : sProp 𝕄) := by
  unfold Pipeline.ownSems0 wsems0
  rw [bigSep_univ_sum', bigSep_univ_prod, bigSep_bool]
  exact sep_assoc'

end Cert.Kernel.Ring

end
-- ==== Proof.Bits.Body.lean ====
import proofs.«900985_g7700000000000986_dist_mlpseq_tp1d_bs_rep_b256_d256_h512_v7x_i4_f32_1_alg».proof.Proof.Bits.Data
import proofs.«900985_g7700000000000986_dist_mlpseq_tp1d_bs_rep_b256_d256_h512_v7x_i4_f32_1_alg».proof.Proof.Bits.Steps
import proofs.«900985_g7700000000000986_dist_mlpseq_tp1d_bs_rep_b256_d256_h512_v7x_i4_f32_1_alg».proof.Proof.Bits.Bufs
import proofs.«900985_g7700000000000986_dist_mlpseq_tp1d_bs_rep_b256_d256_h512_v7x_i4_f32_1_alg».proof.Proof.Bits.RingDev
import proofs.«900985_g7700000000000986_dist_mlpseq_tp1d_bs_rep_b256_d256_h512_v7x_i4_f32_1_alg».proof.Proof.Gen.Kernel.Skeleton
import proofs.«900985_g7700000000000986_dist_mlpseq_tp1d_bs_rep_b256_d256_h512_v7x_i4_f32_1_alg».proof.Proof.Gen.Kernel.Points
import proofs.«900985_g7700000000000986_dist_mlpseq_tp1d_bs_rep_b256_d256_h512_v7x_i4_f32_1_alg».proof.Proof.Bits.Regroup
import proofs.«900985_g7700000000000986_dist_mlpseq_tp1d_bs_rep_b256_d256_h512_v7x_i4_f32_1_alg».proof.Proof.Bits.Shares
import proofs.«900985_g7700000000000986_dist_mlpseq_tp1d_bs_rep_b256_d256_h512_v7x_i4_f32_1_alg».proof.Proof.Bits.SliceIO
import proofs.«900985_g7700000000000986_dist_mlpseq_tp1d_bs_rep_b256_d256_h512_v7x_i4_f32_1_alg».proof.Proof.Bits.BodyVals4
import proofs.«900985_g7700000000000986_dist_mlpseq_tp1d_bs_rep_b256_d256_h512_v7x_i4_f32_1_alg».proof.Proof.Bits.OutVal
import proofs.«900985_g7700000000000986_dist_mlpseq_tp1d_bs_rep_b256_d256_h512_v7x_i4_f32_1_alg».proof.Proof.Bits.Exit

noncomputable section

namespace Cert.Kernel.Ring

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ (SVm m) m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xstg m ρ c) ∗ stg c cc0_stg1_0 (outAt m c))

omit [FloatOps F] in
theorem pt_whole {c : Dev nD} (b : Ref sig .tc) (f : Buf (Elt F) ((c : Thread nD τ).loc b)) :
    (pt c (Memref.whole b) f : sProp 𝕄) = (((c : Thread nD τ).loc b) ↦{fullShare} f) := by
  unfold pt; rw [View.set_whole]

omit [FloatOps F] in

omit [FloatOps F] in

theorem barT_list (c : Dev nD) : barT (F := F) c = bigSepL toNxtK fun k => iprop(∃ f, slotPts (F := F) (nxt c) k f) := by
  unfold barT; exact bigSep_eq_bigSepL_of_eq _ toNxtK_filter toNxtK_nodup _
omit [FloatOps F] in
theorem barF_list (c : Dev nD) : barF (F := F) c = bigSepL toPrvK fun k => iprop(∃ f, slotPts (F := F) (prv c) k f) := by
  unfold barF; exact bigSep_eq_bigSepL_of_eq _ toPrvK_filter toPrvK_nodup _

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

omit [FloatOps F] in

theorem peelL {I : Type} (i : I) (l : List I) (Φ : I → sProp 𝕄) : bigSepL (i :: l) Φ = iprop(Φ i ∗ bigSepL l Φ) := by
  rw [bigSepL_cons]; rfl

omit [FloatOps F] in

theorem lv_wS (c : Dev nD) (i : Fin 6) : lv ((c : Thread nD τ), .dma (wS i)) () = 0 := by
  have h := wS_val i
  unfold lv; dsimp only
  rw [if_neg (fun hr : IsRecvSem (wS i) => by have := hr.2; omega)]

abbrev wfinN (i : ℕ) (h : ∀ a, (![i, 0, 0] : Fin 3 → ℕ) a + S1x256x512.size a ≤ S3x256x512.size a) : Memref sig .tc .vmem S256x512 .f32 :=
  ((Memref.whole cc0_scratch6 : Memref sig .tc .vmem S3x256x512 .f32).slice (Rect.unit (s := S3x256x512) ![i, 0, 0] S1x256x512.size h) (fun _ => rfl)).squeeze S256x512 squeezes_S1x256x512_S256x512
abbrev wfoutN (i : ℕ) (h : ∀ a, (![i, 0, 0] : Fin 3 → ℕ) a + S1x512x256.size a ≤ S3x512x256.size a) : Memref sig .tc .vmem S512x256 .f32 :=
  ((Memref.whole cc0_scratch7 : Memref sig .tc .vmem S3x512x256 .f32).slice (Rect.unit (s := S3x512x256) ![i, 0, 0] S1x512x256.size h) (fun _ => rfl)).squeeze S512x256 squeezes_S1x512x256_S512x256

omit [FloatOps F] in

theorem re_pt {sp : Space} {s : Shape} {e : EltTy} (c : Dev nD) (M : Memref sig .tc sp s e) (f : Buf (Elt F) (M.view.loc (c : Thread nD τ))) :
    (M.view.loc (c : Thread nD τ) ↦[M.view.set]{fullShare} f : sProp 𝕄) ⊢ pt c M f := Entails.refl _

omit [FloatOps F] in
theorem consL {I : Type} (i : I) (l : List I) (Φ : I → sProp 𝕄) : iprop(Φ i ∗ bigSepL l Φ) ⊢ bigSepL (i :: l) Φ := Entails.of_eq (peelL i l Φ).symm

abbrev zR (c : Dev nD) : UK → sProp 𝕄 := fun k => semVal (recvCell c k.1) 0
abbrev zS (c : Dev nD) : UK → sProp 𝕄 := fun k => semVal (sendCell c k.1) 0
omit [FloatOps F] in
theorem zR_nil (c : Dev nD) : (levAts L lv : sProp 𝕄) ⊢ bigSepL ([] : List UK) (zR (F := F) c) := by
  show (levAts L lv : sProp 𝕄) ⊢ iprop(emp); iintro -; iempintro
omit [FloatOps F] in
theorem zS_nil (c : Dev nD) : (levAts L lv : sProp 𝕄) ⊢ bigSepL ([] : List UK) (zS (F := F) c) := by
  show (levAts L lv : sProp 𝕄) ⊢ iprop(emp); iintro -; iempintro
omit [FloatOps F] in
theorem zR_cons (c : Dev nD) (k : UK) (l : List UK) : iprop(semVal (recvCell c k.1) 0 ∗ bigSepL l (zR (F := F) c)) ⊢ bigSepL (k :: l) (zR (F := F) c) := consL k l (zR c)
omit [FloatOps F] in
theorem zS_cons (c : Dev nD) (k : UK) (l : List UK) : iprop(semVal (sendCell c k.1) 0 ∗ bigSepL l (zS (F := F) c)) ⊢ bigSepL (k :: l) (zS (F := F) c) := consL k l (zS c)

abbrev zK (c : Dev nD) : K → sProp 𝕄 := fun k => iprop(∃ f, pt (F := F) c (slotM k) f)
omit [FloatOps F] in
theorem zK_slot (c : Dev nD) : zK (F := F) c = fun k => iprop(∃ f, slotPts (F := F) c k f) := by
  funext k; unfold slotPts; rfl
omit [FloatOps F] in
theorem zK_nil (c : Dev nD) : (levAts L lv : sProp 𝕄) ⊢ bigSepL ([] : List K) (zK (F := F) c) := by
  show (levAts L lv : sProp 𝕄) ⊢ iprop(emp); iintro -; iempintro
omit [FloatOps F] in
theorem zK_cons (c : Dev nD) (k : K) (l : List K) : iprop((∃ f, pt (F := F) c (slotM k) f) ∗ bigSepL l (zK (F := F) c)) ⊢ bigSepL (k :: l) (zK (F := F) c) := consL k l (zK c)
omit [FloatOps F] in

theorem whole_back {c : Dev nD} (b : Ref sig .tc) (f : Buf (Elt F) ((c : Thread nD τ).loc b)) :
    (pt c (Memref.whole b) f : sProp 𝕄) ⊢ (((c : Thread nD τ).loc b) ↦{fullShare} f) := Entails.of_eq (pt_whole b f)

theorem recvPay_open (d : Dev nD) (k : K) :
    recvPay (SVm m) d k ⊢ iprop(∃ f, pt d (slotM k) ((slotM k).view.write (Elt F) f (SVm m k d) Finset.univ)) := by
  unfold recvPay slotPts pt; exact Entails.refl _
omit [FloatOps F] in

theorem sendPay_open (d : Dev nD) (k : K) (M : Memref sig .tc .vmem S128x256 .bf16) (q : PosShare TreeShare) (hM : srcM k = M) (hq : qS k = q) :
    sendPay (F := F) d k ⊢ iprop(∃ f : Buf (Elt F) (M.view.loc (d : Thread nD τ)), M.view.loc (d : Thread nD τ) ↦[M.view.set]{q} f) := by
  subst hM hq; unfold sendPay; exact Entails.refl _

section Records
variable (Kn : Dev nD × CK → ℕ) (c : Dev nD)

theorem inv_own (ck : CK) : (bigSep Finset.univ fun ck : CK => (cellInv ER (ringRd (SVm m)) (Kn (c, ck)) (kcell (c, ck)) : sProp 𝕄))
    ⊢ cellInv ER (ringRd (SVm m)) (Kn (c, ck)) (kcell (c, ck)) := bigSep_elim (Finset.mem_univ ck)
theorem inv_tgt (k : UK) : (bigSep Finset.univ fun k : UK => (cellInv ER (ringRd (SVm m)) (Kn (tgt k.1 c, .rcv k)) (recvCell (tgt k.1 c) k.1) : sProp 𝕄))
    ⊢ cellInv ER (ringRd (SVm m)) (Kn (tgt k.1 c, .rcv k)) (recvCell (tgt k.1 c) k.1) := bigSep_elim (Finset.mem_univ k)
omit [FloatOps F] in
theorem reached_own (ck : CK) : (bigSep Finset.univ fun ck : CK => (reached ER (kcell (c, ck)) 0 : sProp 𝕄)) ⊢ reached ER (kcell (c, ck)) 0 :=
  bigSep_elim (Finset.mem_univ ck)
omit [FloatOps F] in
theorem reached_tgt (k : UK) : (bigSep Finset.univ fun k : UK => (reached ER (recvCell (tgt k.1 c) k.1) 0 : sProp 𝕄)) ⊢ reached ER (recvCell (tgt k.1 c) k.1) 0 :=
  bigSep_elim (Finset.mem_univ k)
end Records

set_option hygiene false in

macro "ring_peel " H:ident " as " A:ident : tactic =>
  `(tactic| (ihave Hp := (Entails.of_eq (peelL _ _ _)) $$ $H:ident; icases Hp with ⟨$A:ident, $H:ident⟩))

set_option hygiene false in

macro "ring_send " k:term " to " dv:term " from " Hsrc:ident " slots " Hls:ident " done " n:num " credit " Hc:ident : tactic =>
  `(tactic| (
    ring_peel HtS as Hts
    ring_peel HtR as Htr
    ihave Hp := (Entails.of_eq (peelL _ _ _)) $$ $Hls:ident
    icases Hp with ⟨⟨%fdk, Hslot⟩, $Hls:ident⟩
    iapply (wp_send_k (SVm m) c _ $k $dv _ fdk ?_ (owedFor c (sendSeq.drop $n)) _) $$ [$Hsrc:ident Hslot HO Hts Htr]
    rotate_left
    · isplitr; · iapply (inv_own m Kn c (CK.snd ⟨$k, rfl⟩)); iexact HIown
      isplitr; · iapply (inv_tgt m Kn c ⟨$k, rfl⟩); iexact HItgt
      isplitl [$Hsrc:ident]; · iexact $Hsrc:ident
      isplitl [Hslot]; · iexact Hslot
      isplitl [HO]; · iexact HO
      isplitl [Hts]; · iexact Hts
      isplitr; · iapply (reached_own c (CK.snd ⟨$k, rfl⟩)); iexact HRown
      isplitl [Htr]; · iexact Htr
      iapply (reached_tgt c ⟨$k, rfl⟩); iexact HRtgt
    iintro ⟨$Hc:ident, HO⟩
    sl_exec))

set_option hygiene false in

macro "ring_land " k:term " started " n:num " slot " Hr:ident : tactic =>
  `(tactic| (
    ring_peel HatR as Hat
    ring_peel HcR as Hc
    iapply (wp_wait_k (SVm m) c (recvS $k) (expect_recv (SVm m) c $k) (rest_recv (SVm m) c $k) (by exact rfl) (owedFor c (sendSeq.drop $n)) _) $$ [Hc HO Hat]
    · isplitr; · iapply (inv_own m Kn c (CK.rcv ⟨$k, rfl⟩)); iexact HIown
      isplitl [Hc]; · iexact Hc
      isplitl [HO]; · iexact HO
      isplitr; · iapply (mayWait_owedFor c _ _ (by intro k' hk'; rw [lv_recv]; revert k' hk'; decide)); iexact Hlev
      iexact Hat
    iintro ⟨HO, Hat, Hpay⟩
    ihave Hpay := (recvPay_open m c $k) $$ Hpay
    icases Hpay with ⟨%fr, $Hr:ident⟩
    imod (close_k (SVm m) (recvCell c $k)) $$ [Hat] with Hz
    · isplitr; · iapply (inv_own m Kn c (CK.rcv ⟨$k, rfl⟩)); iexact HIown
      iexact Hat
    ihave HzR := (zR_cons c (⟨$k, rfl⟩ : UK) _) $$ [Hz HzR]
    · isplitl [Hz]; · iexact Hz
      iexact HzR
    sl_exec))

set_option hygiene false in

macro "ring_depart " k:term " started " n:num " credit " Hc:ident " source " M:term " share " q:term " back " Hb:ident : tactic =>
  `(tactic| (
    ring_peel HatS as Hat
    iapply (wp_wait_k (SVm m) c (sendS $k) (expect_send (SVm m) c $k) (rest_send (SVm m) c $k) (by exact rfl) (owedFor c (sendSeq.drop $n)) _) $$ [$Hc:ident HO Hat]
    · isplitr; · iapply (inv_own m Kn c (CK.snd ⟨$k, rfl⟩)); iexact HIown
      isplitl [$Hc:ident]; · iexact $Hc:ident
      isplitl [HO]; · iexact HO
      isplitr; · iapply (mayWait_owedFor c _ _ (by intro k' hk'; rw [lv_send]; omega)); iexact Hlev
      iexact Hat
    iintro ⟨HO, Hat, Hpay⟩
    ihave Hpay := (sendPay_open c $k $M $q rfl rfl) $$ Hpay
    icases Hpay with ⟨%fb, $Hb:ident⟩
    imod (close_k (SVm m) (sendCell c $k)) $$ [Hat] with Hz
    · isplitr; · iapply (inv_own m Kn c (CK.snd ⟨$k, rfl⟩)); iexact HIown
      iexact Hat
    ihave HzS := (zS_cons c (⟨$k, rfl⟩ : UK) _) $$ [Hz HzS]
    · isplitl [Hz]; · iexact Hz
      iexact HzS
    sl_exec))

set_option hygiene false in

macro "ring_keep " k:term " from " H:ident : tactic =>
  `(tactic| (
    ihave Hsl := (zK_cons c $k _) $$ [$H:ident Hsl]
    · isplitl [$H:ident]; · iexists _; iexact $H:ident
      iexact Hsl))

set_option maxRecDepth 40000 in
set_option maxHeartbeats 4000000 in

theorem sound_body (c : Dev nD) :
    bodyPre' m ρ c ⊢ wp frame (wpE (defs₀ (F := F)) 𝒱₀ c none) Set.univ (bodyAt0 (F := F) t₀) (fun _ => bodyPost m ρ c) := by
  unfold bodyPre' Φ₀ start ghost invs reacheds linear credits weights scratch
  iintro ⟨⟨⟨⟨%Kn, ⟨#HIown, #HIbN, #HIbP, #HItgt⟩, ⟨#HRown, #HrBN, #HrBP, #HRtgt⟩, ⟨Hat, HtBP, HtBN, HtR, HtS⟩⟩, ⟨HcB, HcR⟩, #Hlev, ⟨Hw1, Hw2, Hw3, Hw4, Hw5, Hw6⟩, Hws⟩,
    ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩⟩⟩, Ho, ⟨%d0, %g0, %hg0, Hx⟩, ⟨%d1, %g1, %hg1, Hout⟩⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  ihave Hat' := (Entails.of_eq (bigSep_CK _)) $$ Hat
  icases Hat' with ⟨HatB, HatS, HatR⟩
  ihave HatS := (Entails.of_eq (bigSep_univ_eq_bigSepL departU departU_univ departU_nodup _)) $$ HatS
  ihave HatR := (Entails.of_eq (bigSep_univ_eq_bigSepL landU landU_univ landU_nodup _)) $$ HatR
  ihave HtR := (Entails.of_eq (bigSep_univ_eq_bigSepL startU startU_univ startU_nodup _)) $$ HtR
  ihave HtS := (Entails.of_eq (bigSep_univ_eq_bigSepL startU startU_univ startU_nodup _)) $$ HtS
  ihave HcR := (Entails.of_eq (bigSep_eq_bigSepL_of_eq landK landK_filter landK_nodup _)) $$ HcR
  ihave Hs0 := (cut_sbuf c f0).1 $$ Hs0
  icases Hs0 with ⟨Hsb00, Hsb01, Hsb10, Hsb11, Hsb20, Hsb21⟩
  ihave Hs2 := (cut_ybuf c f2).1 $$ Hs2
  icases Hs2 with ⟨Hy0, Hy1⟩
  ihave Hs3 := (cut_rbuf c f3).1 $$ Hs3
  ihave Hs3 := (slots_regroup c f3) $$ Hs3
  icases Hs3 with ⟨HbT, HbF, Hunused⟩
  ihave Hs6 := (cut_wfin c f6).1 $$ Hs6
  icases Hs6 with ⟨Hwi0, Hwi1, Hwi2⟩
  ihave Hs7 := (cut_wfout c f7).1 $$ Hs7
  icases Hs7 with ⟨Hwo0, Hwo1, Hwo2⟩
  ihave Hwi0 := (Entails.of_eq (show (pt c (wfinM 0) f6 : sProp 𝕄) = pt c (wfinN 0 inb_S3x256x512_S1x256x512_0_0_0) f6 from rfl)) $$ Hwi0
  ihave Hwi1 := (Entails.of_eq (show (pt c (wfinM 1) f6 : sProp 𝕄) = pt c (wfinN 1 inb_S3x256x512_S1x256x512_1_0_0) f6 from rfl)) $$ Hwi1
  ihave Hwi2 := (Entails.of_eq (show (pt c (wfinM 2) f6 : sProp 𝕄) = pt c (wfinN 2 inb_S3x256x512_S1x256x512_2_0_0) f6 from rfl)) $$ Hwi2
  ihave Hwo0 := (Entails.of_eq (show (pt c (wfoutM 0) f7 : sProp 𝕄) = pt c (wfoutN 0 inb_S3x512x256_S1x512x256_0_0_0) f7 from rfl)) $$ Hwo0
  ihave Hwo1 := (Entails.of_eq (show (pt c (wfoutM 1) f7 : sProp 𝕄) = pt c (wfoutN 1 inb_S3x512x256_S1x512x256_1_0_0) f7 from rfl)) $$ Hwo1
  ihave Hwo2 := (Entails.of_eq (show (pt c (wfoutM 2) f7 : sProp 𝕄) = pt c (wfoutN 2 inb_S3x512x256_S1x512x256_2_0_0) f7 from rfl)) $$ Hwo2
  ihave Hs1 := (Entails.of_eq (pt_whole cc0_scratch1 f1).symm) $$ Hs1
  ihave Hs4 := (Entails.of_eq (pt_whole cc0_scratch4 f4).symm) $$ Hs4
  ihave Hs5 := (Entails.of_eq (pt_whole cc0_scratch5 f5).symm) $$ Hs5
  ihave Hw1 := (Entails.of_eq (pt_whole main_arg1 _).symm) $$ Hw1
  ihave Hw2 := (Entails.of_eq (pt_whole main_arg2 _).symm) $$ Hw2
  ihave Hw3 := (Entails.of_eq (pt_whole main_arg3 _).symm) $$ Hw3
  ihave Hw4 := (Entails.of_eq (pt_whole main_arg4 _).symm) $$ Hw4
  ihave Hw5 := (Entails.of_eq (pt_whole main_arg5 _).symm) $$ Hw5
  ihave Hw6 := (Entails.of_eq (pt_whole main_arg6 _).symm) $$ Hw6
  ihave Hx := (Entails.of_eq (pt_whole cc0_stg0_0 _).symm) $$ Hx
  ihave Hout := (Entails.of_eq (pt_whole cc0_stg1_0 _).symm) $$ Hout
  unfold wsems0
  ihave Hws := (Entails.of_eq (bigSep_fin6 _)) $$ Hws
  icases Hws with ⟨S0, S1, S2, S3, S4, S5⟩
  unfold bodyAt0
  sl_unfold [cc0_body]
  sl_exec
  have hmwW : ∀ (i : Fin 6) (l : List K), (levAts L lv : sProp 𝕄) ⊢ MayWait (c : Thread nD τ) (.dma (wS i)) () (owedFor c l) :=
    fun i l => mayWait_owedFor c _ l (fun k _ => by rw [lv_wS]; omega)
  have hmw0 : ∀ l : List K, (levAts L lv : sProp 𝕄) ⊢ MayWait (c : Thread nD τ) (.dma ((cc0_scratch10.slice (Rect.unit (s := S6) ![0] S1.size inb_S6_S1_0)).squeeze S_ squeezes_S1_S_).sem) default (owedFor c l) := fun l => hmwW 0 l
  have hmw1 : ∀ l : List K, (levAts L lv : sProp 𝕄) ⊢ MayWait (c : Thread nD τ) (.dma ((cc0_scratch10.slice (Rect.unit (s := S6) ![1] S1.size inb_S6_S1_1)).squeeze S_ squeezes_S1_S_).sem) default (owedFor c l) := fun l => hmwW 1 l
  have hmw2 : ∀ l : List K, (levAts L lv : sProp 𝕄) ⊢ MayWait (c : Thread nD τ) (.dma ((cc0_scratch10.slice (Rect.unit (s := S6) ![2] S1.size inb_S6_S1_2)).squeeze S_ squeezes_S1_S_).sem) default (owedFor c l) := fun l => hmwW 2 l
  have hmw3 : ∀ l : List K, (levAts L lv : sProp 𝕄) ⊢ MayWait (c : Thread nD τ) (.dma ((cc0_scratch10.slice (Rect.unit (s := S6) ![3] S1.size inb_S6_S1_3)).squeeze S_ squeezes_S1_S_).sem) default (owedFor c l) := fun l => hmwW 3 l
  have hmw4 : ∀ l : List K, (levAts L lv : sProp 𝕄) ⊢ MayWait (c : Thread nD τ) (.dma ((cc0_scratch10.slice (Rect.unit (s := S6) ![4] S1.size inb_S6_S1_4)).squeeze S_ squeezes_S1_S_).sem) default (owedFor c l) := fun l => hmwW 4 l
  have hmw5 : ∀ l : List K, (levAts L lv : sProp 𝕄) ⊢ MayWait (c : Thread nD τ) (.dma ((cc0_scratch10.slice (Rect.unit (s := S6) ![5] S1.size inb_S6_S1_5)).squeeze S_ squeezes_S1_S_).sem) default (owedFor c l) := fun l => hmwW 5 l
  simp only [RingDev.dev1_eq c, RingDev.dev2_eq c]
  iapply (Rounds.wp_signal 𝒱₀ ER (ringRd (SVm m)) (c : Thread nD τ) none (dst := (prv c : Thread nD τ)) (κ := Kn (prv c, .bar))
      (d := true) (by rw [duties_bar]; exact Finset.mem_univ _) ((amount_bar (SVm m) (prv c) true).trans (by decide)) () (O₁ c) rfl) $$ [HO HtBP HbT]
  · isplitr; · iexact HIbP
    isplitl [HO]; · iexact HO
    isplitl [HtBP]; · iexact HtBP
    isplitl [HbT]; · rw [payload_bar_true]; iexact HbT
    iexact HrBP
  iintro HO
  sl_exec
  iapply (Rounds.wp_signal 𝒱₀ ER (ringRd (SVm m)) (c : Thread nD τ) none (dst := (nxt c : Thread nD τ)) (κ := Kn (nxt c, .bar))
      (d := false) (by rw [duties_bar]; exact Finset.mem_univ _) ((amount_bar (SVm m) (nxt c) false).trans (by decide)) () (owedFor c sendSeq) rfl) $$ [HO HtBN HbF]
  · isplitr; · iexact HIbN
    isplitl [HO]; · iexact HO
    isplitl [HtBN]; · iexact HtBN
    isplitl [HbF]; · rw [payload_bar_false]; iexact HbF
    iexact HrBN
  iintro HO
  sl_exec
  iapply (Rounds.wp_wait_rest_token 𝒱₀ ER (ringRd (SVm m)) (c : Thread nD τ) none (κ := Kn (c, .bar))
      (wpE_semWait_eq 𝒱₀ (c : Thread nD τ) none Set.univ) (Set.mem_univ _) () (O := owedFor c sendSeq) (W := W) (R := 0) (m := 0) (T := ∅)
      (by rw [expect_bar]; decide)) $$ [HcB HO HatB]
  · isplitr; · iapply (inv_own m Kn c CK.bar); iexact HIown
    isplitl [HcB]; · iexact HcB
    isplitl [HO]; · iexact HO
    isplitr; · iapply (mayWait_bar c); iexact Hlev
    iexact HatB
  iintro ⟨HO, HatB, -, Hpay⟩
  ihave Hp := (Entails.of_eq (rest_bar (SVm m) c)) $$ Hpay
  icases Hp with ⟨HsP, HsN⟩
  ihave HsN := (Entails.of_eq (barT_list c)) $$ HsN
  ihave HsP := (Entails.of_eq (barF_list c)) $$ HsP
  sl_exec
  ihave ⟨Hy0L, Hy0R⟩ := (pointsTo_share (PosShare.mem_left_op_right fullShare)).1 $$ Hy0
  ihave ⟨Hy0LL, Hy0LR⟩ := (pointsTo_share (PosShare.mem_left_op_right fullShare.left)).1 $$ Hy0L
  ring_send (0, 0, 0) to (RingDev.dev3_eq c) from Hy0LL slots HsN done 1 credit HcS000
  ring_send (0, 1, 0) to (RingDev.dev4_eq c) from Hy0LR slots HsP done 2 credit HcS010
  ihave ⟨Hy1L, Hy1R⟩ := (pointsTo_share (PosShare.mem_left_op_right fullShare)).1 $$ Hy1
  ihave ⟨Hy1LL, Hy1LR⟩ := (pointsTo_share (PosShare.mem_left_op_right fullShare.left)).1 $$ Hy1L
  ring_send (0, 0, 1) to (RingDev.dev5_eq c) from Hy1LL slots HsN done 3 credit HcS001
  ring_send (0, 1, 1) to (RingDev.dev6_eq c) from Hy1LR slots HsP done 4 credit HcS011
  ihave Hwi0 := (re_pt c (wfinN 0 inb_S3x256x512_S1x256x512_0_0_0) _) $$ Hwi0
  ihave Hwo0 := (re_pt c (wfoutN 0 inb_S3x512x256_S1x512x256_0_0_0) _) $$ Hwo0
  sl_exec
  ring_send (1, 3, 0) to (RingDev.dev7_eq c) from Hsb20 slots HsN done 5 credit HcS130
  ring_send (1, 3, 1) to (RingDev.dev8_eq c) from Hsb21 slots HsN done 6 credit HcS131
  ihave Hwi1 := (re_pt c (wfinN 1 inb_S3x256x512_S1x256x512_1_0_0) _) $$ Hwi1
  ihave Hwo1 := (re_pt c (wfoutN 1 inb_S3x512x256_S1x512x256_1_0_0) _) $$ Hwo1
  ihave Hwi2 := (re_pt c (wfinN 2 inb_S3x256x512_S1x256x512_2_0_0) _) $$ Hwi2
  ihave Hwo2 := (re_pt c (wfoutN 2 inb_S3x512x256_S1x512x256_2_0_0) _) $$ Hwo2
  sl_exec
  ihave HzR := (zR_nil (F := F) c) $$ Hlev
  ihave HzS := (zS_nil (F := F) c) $$ Hlev
  ring_land (0, 1, 0) started 6 slot Hr010
  ihave ⟨Hr010L, Hr010R⟩ := (split_half (F := F) fullShare _) $$ Hr010
  ring_send (0, 2, 0) to (RingDev.dev9_eq c) from Hr010L slots HsP done 7 credit HcS020
  ring_land (0, 1, 1) started 7 slot Hr011
  ihave ⟨Hr011L, Hr011R⟩ := (split_half (F := F) fullShare _) $$ Hr011
  ring_send (0, 2, 1) to (RingDev.dev10_eq c) from Hr011L slots HsP done 8 credit HcS021
  ring_land (0, 0, 0) started 8 slot Hr000
  ring_land (1, 3, 0) started 8 slot Hr130
  ring_send (1, 0, 0) to (RingDev.dev11_eq c) from Hsb00 slots HsN done 9 credit HcS100
  ring_send (1, 1, 0) to (RingDev.dev12_eq c) from Hsb10 slots HsP done 10 credit HcS110
  ring_land (0, 0, 1) started 10 slot Hr001
  ring_land (1, 3, 1) started 10 slot Hr131
  ring_send (1, 0, 1) to (RingDev.dev13_eq c) from Hsb01 slots HsN done 11 credit HcS101
  ring_send (1, 1, 1) to (RingDev.dev14_eq c) from Hsb11 slots HsP done 12 credit HcS111
  ring_land (0, 2, 0) started 12 slot Hr020
  ring_land (0, 2, 1) started 12 slot Hr021
  ring_depart (0, 0, 0) started 12 credit HcS000 source (ybufM 0) share fullShare.left.left back Hy0LL
  ring_depart (0, 1, 0) started 12 credit HcS010 source (ybufM 0) share fullShare.left.right back Hy0LR
  ring_depart (0, 0, 1) started 12 credit HcS001 source (ybufM 1) share fullShare.left.left back Hy1LL
  ring_depart (0, 1, 1) started 12 credit HcS011 source (ybufM 1) share fullShare.left.right back Hy1LR
  ring_depart (0, 2, 0) started 12 credit HcS020 source (slotM (0, 1, 0)) share fullShare.left back Hr010L
  ring_depart (0, 2, 1) started 12 credit HcS021 source (slotM (0, 1, 1)) share fullShare.left back Hr011L
  ring_depart (1, 3, 0) started 12 credit HcS130 source (sbufM 2 0) share fullShare back Hsb20
  ring_depart (1, 3, 1) started 12 credit HcS131 source (sbufM 2 1) share fullShare back Hsb21
  ring_depart (1, 0, 0) started 12 credit HcS100 source (sbufM 0 0) share fullShare back Hsb00
  ring_depart (1, 1, 0) started 12 credit HcS110 source (sbufM 1 0) share fullShare back Hsb10
  ring_depart (1, 0, 1) started 12 credit HcS101 source (sbufM 0 1) share fullShare back Hsb01
  ring_depart (1, 1, 1) started 12 credit HcS111 source (sbufM 1 1) share fullShare back Hsb11
  ihave Hy0 := (join_three (F := F) _ _ _) $$ [Hy0LL Hy0LR Hy0R]
  · isplitl [Hy0LL]; · iexact Hy0LL
    isplitl [Hy0LR]; · iexact Hy0LR
    iexact Hy0R
  ihave Hy1 := (join_three (F := F) _ _ _) $$ [Hy1LL Hy1LR Hy1R]
  · isplitl [Hy1LL]; · iexact Hy1LL
    isplitl [Hy1LR]; · iexact Hy1LR
    iexact Hy1R
  ihave Hr010 := (join_half (F := F) fullShare _ _) $$ [Hr010L Hr010R]
  · isplitl [Hr010L]; · iexact Hr010L
    iexact Hr010R
  ihave Hr011 := (join_half (F := F) fullShare _ _) $$ [Hr011L Hr011R]
  · isplitl [Hr011L]; · iexact Hr011L
    iexact Hr011R
  ring_land (1, 0, 0) started 12 slot Hr100
  ring_land (1, 1, 0) started 12 slot Hr110
  ihave ⟨Hy0LL, Hy0LR, Hy0R⟩ := (split_three (F := F) _) $$ Hy0
  ring_send (2, 0, 0) to (RingDev.dev15_eq c) from Hy0LL slots HsN done 13 credit HcS200
  ring_send (2, 1, 0) to (RingDev.dev16_eq c) from Hy0LR slots HsP done 14 credit HcS210
  ring_send (3, 3, 0) to (RingDev.dev17_eq c) from Hsb20 slots HsN done 15 credit HcS330
  ring_land (1, 0, 1) started 15 slot Hr101
  ring_land (1, 1, 1) started 15 slot Hr111
  ihave ⟨Hy1LL, Hy1LR, Hy1R⟩ := (split_three (F := F) _) $$ Hy1
  ring_send (2, 0, 1) to (RingDev.dev18_eq c) from Hy1LL slots HsN done 16 credit HcS201
  ring_send (2, 1, 1) to (RingDev.dev19_eq c) from Hy1LR slots HsP done 17 credit HcS211
  ring_send (3, 3, 1) to (RingDev.dev20_eq c) from Hsb21 slots HsN done 18 credit HcS331
  ring_land (2, 1, 0) started 18 slot Hr210
  ihave ⟨Hr210L, Hr210R⟩ := (split_half (F := F) fullShare _) $$ Hr210
  ring_send (2, 2, 0) to (RingDev.dev21_eq c) from Hr210L slots HsP done 19 credit HcS220
  ring_land (2, 1, 1) started 19 slot Hr211
  ihave ⟨Hr211L, Hr211R⟩ := (split_half (F := F) fullShare _) $$ Hr211
  ring_send (2, 2, 1) to (RingDev.dev22_eq c) from Hr211L slots HsP done 20 credit HcS221
  ring_land (2, 0, 0) started 20 slot Hr200
  ring_land (3, 3, 0) started 20 slot Hr330
  ring_send (3, 0, 0) to (RingDev.dev23_eq c) from Hsb00 slots HsN done 21 credit HcS300
  ring_send (3, 1, 0) to (RingDev.dev24_eq c) from Hsb10 slots HsP done 22 credit HcS310
  ring_land (2, 0, 1) started 22 slot Hr201
  ring_land (3, 3, 1) started 22 slot Hr331
  ring_send (3, 0, 1) to (RingDev.dev25_eq c) from Hsb01 slots HsN done 23 credit HcS301
  ring_send (3, 1, 1) to (RingDev.dev26_eq c) from Hsb11 slots HsP done 24 credit HcS311
  ring_land (2, 2, 0) started 24 slot Hr220
  ring_land (2, 2, 1) started 24 slot Hr221
  ring_depart (2, 0, 0) started 24 credit HcS200 source (ybufM 0) share fullShare.left.left back Hy0LL
  ring_depart (2, 1, 0) started 24 credit HcS210 source (ybufM 0) share fullShare.left.right back Hy0LR
  ring_depart (2, 0, 1) started 24 credit HcS201 source (ybufM 1) share fullShare.left.left back Hy1LL
  ring_depart (2, 1, 1) started 24 credit HcS211 source (ybufM 1) share fullShare.left.right back Hy1LR
  ring_depart (2, 2, 0) started 24 credit HcS220 source (slotM (2, 1, 0)) share fullShare.left back Hr210L
  ring_depart (2, 2, 1) started 24 credit HcS221 source (slotM (2, 1, 1)) share fullShare.left back Hr211L
  ring_depart (3, 3, 0) started 24 credit HcS330 source (sbufM 2 0) share fullShare back Hsb20
  ring_depart (3, 3, 1) started 24 credit HcS331 source (sbufM 2 1) share fullShare back Hsb21
  ring_depart (3, 0, 0) started 24 credit HcS300 source (sbufM 0 0) share fullShare back Hsb00
  ring_depart (3, 1, 0) started 24 credit HcS310 source (sbufM 1 0) share fullShare back Hsb10
  ring_depart (3, 0, 1) started 24 credit HcS301 source (sbufM 0 1) share fullShare back Hsb01
  ring_depart (3, 1, 1) started 24 credit HcS311 source (sbufM 1 1) share fullShare back Hsb11
  ihave Hy0 := (join_three (F := F) _ _ _) $$ [Hy0LL Hy0LR Hy0R]
  · isplitl [Hy0LL]; · iexact Hy0LL
    isplitl [Hy0LR]; · iexact Hy0LR
    iexact Hy0R
  ihave Hy1 := (join_three (F := F) _ _ _) $$ [Hy1LL Hy1LR Hy1R]
  · isplitl [Hy1LL]; · iexact Hy1LL
    isplitl [Hy1LR]; · iexact Hy1LR
    iexact Hy1R
  ihave Hr210 := (join_half (F := F) fullShare _ _) $$ [Hr210L Hr210R]
  · isplitl [Hr210L]; · iexact Hr210L
    iexact Hr210R
  ihave Hr211 := (join_half (F := F) fullShare _ _) $$ [Hr211L Hr211R]
  · isplitl [Hr211L]; · iexact Hr211L
    iexact Hr211R
  ring_land (3, 0, 0) started 24 slot Hr300
  ring_land (3, 1, 0) started 24 slot Hr310
  ihave ⟨Hy0LL, Hy0LR, Hy0R⟩ := (split_three (F := F) _) $$ Hy0
  ring_send (4, 0, 0) to (RingDev.dev27_eq c) from Hy0LL slots HsN done 25 credit HcS400
  ring_send (4, 1, 0) to (RingDev.dev28_eq c) from Hy0LR slots HsP done 26 credit HcS410
  ring_send (5, 3, 0) to (RingDev.dev29_eq c) from Hsb20 slots HsN done 27 credit HcS530
  ring_land (3, 0, 1) started 27 slot Hr301
  ring_land (3, 1, 1) started 27 slot Hr311
  ihave ⟨Hy1LL, Hy1LR, Hy1R⟩ := (split_three (F := F) _) $$ Hy1
  ring_send (4, 0, 1) to (RingDev.dev30_eq c) from Hy1LL slots HsN done 28 credit HcS401
  ring_send (4, 1, 1) to (RingDev.dev31_eq c) from Hy1LR slots HsP done 29 credit HcS411
  ring_send (5, 3, 1) to (RingDev.dev32_eq c) from Hsb21 slots HsN done 30 credit HcS531
  ring_land (4, 1, 0) started 30 slot Hr410
  ihave ⟨Hr410L, Hr410R⟩ := (split_half (F := F) fullShare _) $$ Hr410
  ring_send (4, 2, 0) to (RingDev.dev33_eq c) from Hr410L slots HsP done 31 credit HcS420
  ring_land (4, 1, 1) started 31 slot Hr411
  ihave ⟨Hr411L, Hr411R⟩ := (split_half (F := F) fullShare _) $$ Hr411
  ring_send (4, 2, 1) to (RingDev.dev34_eq c) from Hr411L slots HsP done 32 credit HcS421
  ring_land (4, 0, 0) started 32 slot Hr400
  ring_land (5, 3, 0) started 32 slot Hr530
  ring_send (5, 0, 0) to (RingDev.dev35_eq c) from Hsb00 slots HsN done 33 credit HcS500
  ring_send (5, 1, 0) to (RingDev.dev36_eq c) from Hsb10 slots HsP done 34 credit HcS510
  ring_land (4, 0, 1) started 34 slot Hr401
  ring_land (5, 3, 1) started 34 slot Hr531
  ring_send (5, 0, 1) to (RingDev.dev37_eq c) from Hsb01 slots HsN done 35 credit HcS501
  ring_send (5, 1, 1) to (RingDev.dev38_eq c) from Hsb11 slots HsP done 36 credit HcS511
  ring_land (4, 2, 0) started 36 slot Hr420
  ring_land (4, 2, 1) started 36 slot Hr421
  ring_depart (4, 0, 0) started 36 credit HcS400 source (ybufM 0) share fullShare.left.left back Hy0LL
  ring_depart (4, 1, 0) started 36 credit HcS410 source (ybufM 0) share fullShare.left.right back Hy0LR
  ring_depart (4, 0, 1) started 36 credit HcS401 source (ybufM 1) share fullShare.left.left back Hy1LL
  ring_depart (4, 1, 1) started 36 credit HcS411 source (ybufM 1) share fullShare.left.right back Hy1LR
  ring_depart (4, 2, 0) started 36 credit HcS420 source (slotM (4, 1, 0)) share fullShare.left back Hr410L
  ring_depart (4, 2, 1) started 36 credit HcS421 source (slotM (4, 1, 1)) share fullShare.left back Hr411L
  ring_depart (5, 3, 0) started 36 credit HcS530 source (sbufM 2 0) share fullShare back Hsb20
  ring_depart (5, 3, 1) started 36 credit HcS531 source (sbufM 2 1) share fullShare back Hsb21
  ring_depart (5, 0, 0) started 36 credit HcS500 source (sbufM 0 0) share fullShare back Hsb00
  ring_depart (5, 1, 0) started 36 credit HcS510 source (sbufM 1 0) share fullShare back Hsb10
  ring_depart (5, 0, 1) started 36 credit HcS501 source (sbufM 0 1) share fullShare back Hsb01
  ring_depart (5, 1, 1) started 36 credit HcS511 source (sbufM 1 1) share fullShare back Hsb11
  ihave Hy0 := (join_three (F := F) _ _ _) $$ [Hy0LL Hy0LR Hy0R]
  · isplitl [Hy0LL]; · iexact Hy0LL
    isplitl [Hy0LR]; · iexact Hy0LR
    iexact Hy0R
  ihave Hy1 := (join_three (F := F) _ _ _) $$ [Hy1LL Hy1LR Hy1R]
  · isplitl [Hy1LL]; · iexact Hy1LL
    isplitl [Hy1LR]; · iexact Hy1LR
    iexact Hy1R
  ihave Hr410 := (join_half (F := F) fullShare _ _) $$ [Hr410L Hr410R]
  · isplitl [Hr410L]; · iexact Hr410L
    iexact Hr410R
  ihave Hr411 := (join_half (F := F) fullShare _ _) $$ [Hr411L Hr411R]
  · isplitl [Hr411L]; · iexact Hr411L
    iexact Hr411R
  ring_land (5, 0, 0) started 36 slot Hr500
  ring_land (5, 1, 0) started 36 slot Hr510
  ihave ⟨Hy0LL, Hy0LR, Hy0R⟩ := (split_three (F := F) _) $$ Hy0
  ring_send (6, 0, 0) to (RingDev.dev39_eq c) from Hy0LL slots HsN done 37 credit HcS600
  ring_send (6, 1, 0) to (RingDev.dev40_eq c) from Hy0LR slots HsP done 38 credit HcS610
  ring_land (5, 0, 1) started 38 slot Hr501
  ring_land (5, 1, 1) started 38 slot Hr511
  ihave ⟨Hy1LL, Hy1LR, Hy1R⟩ := (split_three (F := F) _) $$ Hy1
  ring_send (6, 0, 1) to (RingDev.dev41_eq c) from Hy1LL slots HsN done 39 credit HcS601
  ring_send (6, 1, 1) to (RingDev.dev42_eq c) from Hy1LR slots HsP done 40 credit HcS611
  ring_land (6, 1, 0) started 40 slot Hr610
  ihave ⟨Hr610L, Hr610R⟩ := (split_half (F := F) fullShare _) $$ Hr610
  ring_send (6, 2, 0) to (RingDev.dev43_eq c) from Hr610L slots HsP done 41 credit HcS620
  ring_land (6, 1, 1) started 41 slot Hr611
  ihave ⟨Hr611L, Hr611R⟩ := (split_half (F := F) fullShare _) $$ Hr611
  ring_send (6, 2, 1) to (RingDev.dev44_eq c) from Hr611L slots HsP done 42 credit HcS621
  ring_land (6, 0, 0) started 42 slot Hr600
  ring_land (6, 0, 1) started 42 slot Hr601
  ring_land (6, 2, 0) started 42 slot Hr620
  ring_land (6, 2, 1) started 42 slot Hr621
  ring_depart (6, 0, 0) started 42 credit HcS600 source (ybufM 0) share fullShare.left.left back Hy0LL
  ring_depart (6, 1, 0) started 42 credit HcS610 source (ybufM 0) share fullShare.left.right back Hy0LR
  ring_depart (6, 0, 1) started 42 credit HcS601 source (ybufM 1) share fullShare.left.left back Hy1LL
  ring_depart (6, 1, 1) started 42 credit HcS611 source (ybufM 1) share fullShare.left.right back Hy1LR
  ring_depart (6, 2, 0) started 42 credit HcS620 source (slotM (6, 1, 0)) share fullShare.left back Hr610L
  ring_depart (6, 2, 1) started 42 credit HcS621 source (slotM (6, 1, 1)) share fullShare.left back Hr611L
  ihave Hy0 := (join_three (F := F) _ _ _) $$ [Hy0LL Hy0LR Hy0R]
  · isplitl [Hy0LL]; · iexact Hy0LL
    isplitl [Hy0LR]; · iexact Hy0LR
    iexact Hy0R
  ihave Hy1 := (join_three (F := F) _ _ _) $$ [Hy1LL Hy1LR Hy1R]
  · isplitl [Hy1LL]; · iexact Hy1LL
    isplitl [Hy1LR]; · iexact Hy1LR
    iexact Hy1R
  ihave Hr610 := (join_half (F := F) fullShare _ _) $$ [Hr610L Hr610R]
  · isplitl [Hr610L]; · iexact Hr610L
    iexact Hr610R
  ihave Hr611 := (join_half (F := F) fullShare _ _) $$ [Hr611L Hr611R]
  · isplitl [Hr611L]; · iexact Hr611L
    iexact Hr611R
  sl_step
  unfold bodyPost Φ₁
  ihave Hsl := (zK_nil (F := F) c) $$ Hlev
  ring_keep (6, 2, 1) from Hr621
  ring_keep (6, 2, 0) from Hr620
  ring_keep (6, 0, 1) from Hr601
  ring_keep (6, 0, 0) from Hr600
  ring_keep (6, 1, 1) from Hr611
  ring_keep (6, 1, 0) from Hr610
  ring_keep (5, 1, 1) from Hr511
  ring_keep (5, 0, 1) from Hr501
  ring_keep (5, 1, 0) from Hr510
  ring_keep (5, 0, 0) from Hr500
  ring_keep (4, 2, 1) from Hr421
  ring_keep (4, 2, 0) from Hr420
  ring_keep (5, 3, 1) from Hr531
  ring_keep (4, 0, 1) from Hr401
  ring_keep (5, 3, 0) from Hr530
  ring_keep (4, 0, 0) from Hr400
  ring_keep (4, 1, 1) from Hr411
  ring_keep (4, 1, 0) from Hr410
  ring_keep (3, 1, 1) from Hr311
  ring_keep (3, 0, 1) from Hr301
  ring_keep (3, 1, 0) from Hr310
  ring_keep (3, 0, 0) from Hr300
  ring_keep (2, 2, 1) from Hr221
  ring_keep (2, 2, 0) from Hr220
  ring_keep (3, 3, 1) from Hr331
  ring_keep (2, 0, 1) from Hr201
  ring_keep (3, 3, 0) from Hr330
  ring_keep (2, 0, 0) from Hr200
  ring_keep (2, 1, 1) from Hr211
  ring_keep (2, 1, 0) from Hr210
  ring_keep (1, 1, 1) from Hr111
  ring_keep (1, 0, 1) from Hr101
  ring_keep (1, 1, 0) from Hr110
  ring_keep (1, 0, 0) from Hr100
  ring_keep (0, 2, 1) from Hr021
  ring_keep (0, 2, 0) from Hr020
  ring_keep (1, 3, 1) from Hr131
  ring_keep (0, 0, 1) from Hr001
  ring_keep (1, 3, 0) from Hr130
  ring_keep (0, 0, 0) from Hr000
  ring_keep (0, 1, 1) from Hr011
  ring_keep (0, 1, 0) from Hr010
  ihave Hsl := (Entails.of_eq (congrArg (bigSepL landK) (zK_slot (F := F) c))) $$ Hsl
  ihave Hrb := (rbuf_back c) $$ [Hsl Hunused]
  · isplitl [Hsl]; · iexact Hsl
    iexact Hunused
  ihave Hsb := (join_sbuf c) $$ [Hsb00 Hsb01 Hsb10 Hsb11 Hsb20 Hsb21]
  · isplitl [Hsb00]; · iexists _; iexact Hsb00
    isplitl [Hsb01]; · iexists _; iexact Hsb01
    isplitl [Hsb10]; · iexists _; iexact Hsb10
    isplitl [Hsb11]; · iexists _; iexact Hsb11
    isplitl [Hsb20]; · iexists _; iexact Hsb20
    iexists _; iexact Hsb21
  ihave Hyb := (join_ybuf c) $$ [Hy0 Hy1]
  · isplitl [Hy0]; · iexists _; iexact Hy0
    iexists _; iexact Hy1
  ihave Hwib := (join_wfin c) $$ [Hwi0 Hwi1 Hwi2]
  · isplitl [Hwi0]; · iexists _; iexact Hwi0
    isplitl [Hwi1]; · iexists _; iexact Hwi1
    iexists _; iexact Hwi2
  ihave Hwob := (join_wfout c) $$ [Hwo0 Hwo1 Hwo2]
  · isplitl [Hwo0]; · iexists _; iexact Hwo0
    isplitl [Hwo1]; · iexists _; iexact Hwo1
    iexists _; iexact Hwo2
  ihave HzS := (Entails.of_eq (bigSep_univ_eq_bigSepL departR departR_univ departR_nodup (zS (F := F) c)).symm) $$ HzS
  ihave HzR := (Entails.of_eq (bigSep_univ_eq_bigSepL landR landR_univ landR_nodup (zR (F := F) c)).symm) $$ HzR
  ihave Hos := (own_sems_back (F := F) c) $$ [HzS HzR S0 S1 S2 S3 S4 S5]
  · isplitl [HzS]; · iexact HzS
    isplitl [HzR]; · iexact HzR
    unfold wsems0
    iapply (Entails.of_eq (bigSep_fin6 _).symm)
    isplitl [S0]; · iexact S0
    isplitl [S1]; · iexact S1
    isplitl [S2]; · iexact S2
    isplitl [S3]; · iexact S3
    isplitl [S4]; · iexact S4
    iexact S5
  isplitl [Hw1 Hw2 Hw3 Hw4 Hw5 Hw6 Hsb Hs1 Hyb Hrb Hs4 Hs5 Hwib Hwob Hos]
  · unfold weights scratch
    isplitl [Hw1 Hw2 Hw3 Hw4 Hw5 Hw6]
    · isplitl [Hw1]; · iapply (whole_back main_arg1 _); iexact Hw1
      isplitl [Hw2]; · iapply (whole_back main_arg2 _); iexact Hw2
      isplitl [Hw3]; · iapply (whole_back main_arg3 _); iexact Hw3
      isplitl [Hw4]; · iapply (whole_back main_arg4 _); iexact Hw4
      isplitl [Hw5]; · iapply (whole_back main_arg5 _); iexact Hw5
      iapply (whole_back main_arg6 _); iexact Hw6
    isplitl [Hsb Hs1 Hyb Hrb Hs4 Hs5 Hwib Hwob]
    · isplitl [Hsb]; · iexact Hsb
      isplitl [Hs1]; · iexists _; iapply (whole_back cc0_scratch1 _); iexact Hs1
      isplitl [Hyb]; · iexact Hyb
      isplitl [Hrb]; · iexact Hrb
      isplitl [Hs4]; · iexists _; iapply (whole_back cc0_scratch4 _); iexact Hs4
      isplitl [Hs5]; · iexists _; iapply (whole_back cc0_scratch5 _); iexact Hs5
      isplitl [Hwib]; · iexact Hwib
      iexact Hwob
    iexact Hos
  unfold Dat.owesAt Pipeline.owesWithin
  rw [show (dats m ρ 0 c).owed t₀.succ = 0 from rfl]
  isplitl [HO]
  · iexists _
    isplitr
    swap
    · iexact HO
    · ipureintro; exact fun _ _ => Or.inl trivial
  isplitl [Hx]
  · iexists _; isplitr; · (ipureintro; rfl)
    iapply (whole_back cc0_stg0_0 _); iexact Hx
  iexists _; isplitr
  swap
  · iapply (whole_back cc0_stg1_0 _); iexact Hout
  · ipureintro
    unfold outAt
    refine out_writes (xbOf m) (wiOf m) (woOf m) c g1 _ _ _ _ _ _ _ _ _ _ _ _ _ _ _ _ ?_ ?_ ?_ ?_ ?_ ?_ ?_ ?_ _ rfl
    · rw [outRows_opp, Ysum_last m c 0]
      sl_unfold_run_names
      rw [out_pay64_eq, readCov_skip_own 0 1 (by decide), View.readCov_cons_toLoadRect, out_pay62_eq, cast_S1x128x256_roundtrip,
        slot_load (4, 2, 0) 4 2 0 rfl rfl rfl, slot_load (5, 0, 0) 5 0 0 rfl rfl rfl, slot_load (5, 1, 0) 5 1 0 rfl rfl rfl,
        View.readCov_cons_toLoadRect, k0_pay15_14_eq, View.readCov_cons_toLoadRect, k0_pay16_eq,
        wfin_load 2, wfout_load 2, cast_pay4, cast_pay5]
      rfl
    · rw [outRows_opp, Ysum_last m c 1]
      sl_unfold_run_names
      rw [out_pay66_eq, View.readCov_cons_toLoadRect, out_pay63_eq, cast_S1x128x256_roundtrip,
        slot_load (4, 2, 1) 4 2 1 rfl rfl rfl, slot_load (5, 0, 1) 5 0 1 rfl rfl rfl, slot_load (5, 1, 1) 5 1 1 rfl rfl rfl,
        View.readCov_cons_toLoadRect, k0_pay15_14_eq, View.readCov_cons_toLoadRect, k0_pay16_eq,
        wfin_load 2, wfout_load 2, cast_pay4, cast_pay5]
      rfl
    · rw [outRows_prv, ← SVm_last1 m c 0]
      sl_unfold_run_names
      rw [out_pay68_eq, slot_load (6, 1, 0) 6 1 0 rfl rfl rfl]
    · rw [outRows_prv, ← SVm_last1 m c 1]
      sl_unfold_run_names
      rw [out_pay69_eq, slot_load (6, 1, 1) 6 1 1 rfl rfl rfl]
    · rw [outRows_nxt, ← SVm_last0 m c 0]
      sl_unfold_run_names
      rw [out_pay70_eq, slot_load (6, 0, 0) 6 0 0 rfl rfl rfl]
    · rw [outRows_nxt, ← SVm_last0 m c 1]
      sl_unfold_run_names
      rw [out_pay71_eq, slot_load (6, 0, 1) 6 0 1 rfl rfl rfl]
    · rw [outRows_self, ← SVm_last2 m c 0]
      sl_unfold_run_names
      rw [out_pay72_eq, slot_load (6, 2, 0) 6 2 0 rfl rfl rfl]
    · rw [outRows_self, ← SVm_last2 m c 1]
      sl_unfold_run_names
      rw [out_pay73_eq, slot_load (6, 2, 1) 6 2 1 rfl rfl rfl]
  iterate 2
    sl_unfold_run_names
    show View.read (Elt F) (ybufM 0).view _ = _
    rw [ybuf_pay2 0 0 rfl, pay1_xrows m ρ c 0 0 rfl]
    first | rw [SVm_slot0 m 0 0 rfl c 0] | rw [SVm_slot1 m 0 0 rfl c 0]
  iterate 2
    sl_unfold_run_names
    show View.read (Elt F) (ybufM 1).view _ = _
    rw [k0_pay3_eq, ybuf_pay2 1 1 rfl, pay1_xrows m ρ c 1 128 rfl]
    first | rw [SVm_slot0 m 0 0 rfl c 1] | rw [SVm_slot1 m 0 0 rfl c 1]
  · sl_unfold_run_names
    show View.read (Elt F) (sbufM 2 0).view _ = _
    rw [k0_pay8_eq, sbuf_cast 2 0 2 0 rfl rfl, pay6_pay2, pay1_xrows m ρ c 0 0 rfl, View.readCov_cons_toLoadRect, View.readCov_cons_toLoadRect, wfin_load,
      wfout_load, pay7_pay4, cast_pay5, SVm_slot3 m 1 0 rfl c 0]
    rfl
  · sl_unfold_run_names
    show View.read (Elt F) (sbufM 2 1).view _ = _
    rw [k0_pay11_eq, k0_pay8_eq, sbuf_cast 2 1 2 1 rfl rfl, k0_pay9_eq, k0_pay3_eq, pay6_pay2, pay1_xrows m ρ c 1 128 rfl, k0_pay10_eq,
      View.readCov_cons_toLoadRect, View.readCov_cons_toLoadRect, wfin_load, wfout_load, pay7_pay4, cast_pay5, SVm_slot3 m 1 0 rfl c 1]
    rfl
  · show View.read (Elt F) (slotM (0, 1, 0)).view _ = _
    rw [slot_read, SVm_slot2 m 0 rfl c 0]
  · show View.read (Elt F) (slotM (0, 1, 1)).view _ = _
    rw [slot_read, SVm_slot2 m 0 rfl c 1]
  · sl_unfold_run_names
    show View.read (Elt F) (sbufM 0 0).view _ = _
    rw [k0_pay18_eq, k0_pay19_eq, sbuf_cast 0 0 0 0 rfl rfl, slot_load (0, 0, 0) 0 0 0 rfl rfl rfl, slot_load (1, 3, 0) 1 3 0 rfl rfl rfl,
      readCov_skip_wi 0 2 (by decide), readCov_skip_wi 0 1 (by decide), View.readCov_cons_toLoadRect, readCov_skip_wo 0 2 (by decide),
      readCov_skip_wo 0 1 (by decide), View.readCov_cons_toLoadRect, wfin_load, wfout_load, cast_pay4, cast_pay5, SVm_odd0 m 0 1 0 rfl rfl c 0]
    rfl
  · sl_unfold_run_names
    show View.read (Elt F) (sbufM 1 0).view _ = _
    rw [k0_pay20_eq, sbuf_cast 1 0 1 0 rfl rfl, slot_load (0, 1, 0) 0 1 0 rfl rfl rfl, readCov_skip_wi 0 2 (by decide), readCov_skip_wi 0 1 (by decide),
      View.readCov_cons_toLoadRect, readCov_skip_wo 0 2 (by decide), readCov_skip_wo 0 1 (by decide), View.readCov_cons_toLoadRect, wfin_load, wfout_load,
      cast_pay4, cast_pay5, SVm_odd1 m 0 1 0 rfl rfl c 0]
    rfl
  · sl_unfold_run_names
    show View.read (Elt F) (sbufM 0 1).view _ = _
    rw [k0_pay23_eq, sbuf_cast 0 1 0 1 rfl rfl, slot_load (0, 0, 1) 0 0 1 rfl rfl rfl, slot_load (1, 3, 1) 1 3 1 rfl rfl rfl,
      readCov_skip_wi 0 2 (by decide), readCov_skip_wi 0 1 (by decide), View.readCov_cons_toLoadRect, readCov_skip_wo 0 2 (by decide),
      readCov_skip_wo 0 1 (by decide), View.readCov_cons_toLoadRect, wfin_load, wfout_load, cast_pay4, cast_pay5, SVm_odd0 m 0 1 0 rfl rfl c 1]
    rfl
  · sl_unfold_run_names
    show View.read (Elt F) (sbufM 1 1).view _ = _
    rw [k0_pay24_eq, k0_pay20_eq, sbuf_cast 1 1 1 1 rfl rfl, slot_load (0, 1, 1) 0 1 1 rfl rfl rfl, readCov_skip_wi 0 2 (by decide),
      readCov_skip_wi 0 1 (by decide), View.readCov_cons_toLoadRect, readCov_skip_wo 0 2 (by decide), readCov_skip_wo 0 1 (by decide),
      View.readCov_cons_toLoadRect, wfin_load, wfout_load, cast_pay4, cast_pay5, SVm_odd1 m 0 1 0 rfl rfl c 1]
    rfl
  iterate 2
    sl_unfold_run_names
    show View.read (Elt F) (ybufM 0).view _ = _
    rw [k0_pay30_eq, ybuf_cast 0 0 rfl, readCov_skip_own 0 1 (by decide), View.readCov_cons_toLoadRect, k0_pay26_eq, cast_S1x128x256_roundtrip,
      slot_load (0, 2, 0) 0 2 0 rfl rfl rfl, slot_load (1, 0, 0) 1 0 0 rfl rfl rfl, slot_load (1, 1, 0) 1 1 0 rfl rfl rfl, readCov_skip_wi 0 2 (by decide),
      readCov_skip_wi 0 1 (by decide), View.readCov_cons_toLoadRect, readCov_skip_wo 0 2 (by decide), readCov_skip_wo 0 1 (by decide),
      View.readCov_cons_toLoadRect, wfin_load 0, wfout_load 0, cast_pay4, cast_pay5]
    first | rw [SVm_slot0 m 2 1 rfl c 0] | rw [SVm_slot1 m 2 1 rfl c 0]
    rw [Y16_succ m 0 1 0 1 rfl rfl rfl c 0]
    rfl
  · sl_unfold_run_names
    show View.read (Elt F) (sbufM 2 0).view _ = _
    rw [k0_pay31_eq, sbuf_cast 2 0 2 0 rfl rfl, k0_pay30_eq, cast_S1x128x256_roundtrip, readCov_skip_own 0 1 (by decide), View.readCov_cons_toLoadRect,
      k0_pay26_eq, cast_S1x128x256_roundtrip, slot_load (0, 2, 0) 0 2 0 rfl rfl rfl, slot_load (1, 0, 0) 1 0 0 rfl rfl rfl,
      slot_load (1, 1, 0) 1 1 0 rfl rfl rfl, readCov_skip_wi 0 2 (by decide), readCov_skip_wi 0 1 (by decide), View.readCov_cons_toLoadRect,
      readCov_skip_wo 0 2 (by decide), readCov_skip_wo 0 1 (by decide), View.readCov_cons_toLoadRect, wfin_load 0, wfout_load 0, cast_pay4, cast_pay5,
      readCov_skip_wi 1 2 (by decide), View.readCov_cons_toLoadRect, k0_pay12_eq, readCov_skip_wo 1 2 (by decide), View.readCov_cons_toLoadRect,
      k0_pay13_eq, wfin_load 1, wfout_load 1, cast_pay4, cast_pay5, SVm_slot3 m 3 1 rfl c 0, Y16_succ m 0 1 0 1 rfl rfl rfl c 0]
    rfl
  iterate 2
    sl_unfold_run_names
    show View.read (Elt F) (ybufM 1).view _ = _
    rw [k0_pay32_eq, k0_pay30_eq, ybuf_cast 1 1 rfl, View.readCov_cons_toLoadRect, k0_pay28_eq, k0_pay26_eq, cast_S1x128x256_roundtrip, k0_pay27_eq,
      slot_load (0, 2, 1) 0 2 1 rfl rfl rfl, slot_load (1, 0, 1) 1 0 1 rfl rfl rfl, slot_load (1, 1, 1) 1 1 1 rfl rfl rfl, readCov_skip_wi 0 2 (by decide),
      readCov_skip_wi 0 1 (by decide), View.readCov_cons_toLoadRect, readCov_skip_wo 0 2 (by decide), readCov_skip_wo 0 1 (by decide),
      View.readCov_cons_toLoadRect, wfin_load 0, wfout_load 0, cast_pay4, cast_pay5]
    first | rw [SVm_slot0 m 2 1 rfl c 1] | rw [SVm_slot1 m 2 1 rfl c 1]
    rw [Y16_succ m 0 1 0 1 rfl rfl rfl c 1]
    rfl
  · sl_unfold_run_names
    show View.read (Elt F) (sbufM 2 1).view _ = _
    rw [sbuf_cast 2 1 2 1 rfl rfl, k0_pay33_eq, k0_pay32_eq, k0_pay30_eq, cast_S1x128x256_roundtrip, View.readCov_cons_toLoadRect, k0_pay28_eq,
      k0_pay26_eq, cast_S1x128x256_roundtrip, k0_pay27_eq, slot_load (0, 2, 1) 0 2 1 rfl rfl rfl, slot_load (1, 0, 1) 1 0 1 rfl rfl rfl,
      slot_load (1, 1, 1) 1 1 1 rfl rfl rfl, readCov_skip_wi 0 2 (by decide), readCov_skip_wi 0 1 (by decide), View.readCov_cons_toLoadRect,
      readCov_skip_wo 0 2 (by decide), readCov_skip_wo 0 1 (by decide), View.readCov_cons_toLoadRect, wfin_load 0, wfout_load 0, cast_pay4, cast_pay5,
      readCov_skip_wi 1 2 (by decide), View.readCov_cons_toLoadRect, k0_pay12_eq, readCov_skip_wo 1 2 (by decide), View.readCov_cons_toLoadRect,
      k0_pay13_eq, wfin_load 1, wfout_load 1, cast_pay4, cast_pay5, SVm_slot3 m 3 1 rfl c 1, Y16_succ m 0 1 0 1 rfl rfl rfl c 1]
    rfl
  · show View.read (Elt F) (slotM (2, 1, 0)).view _ = _
    rw [slot_read, SVm_slot2 m 2 rfl c 0]
  · show View.read (Elt F) (slotM (2, 1, 1)).view _ = _
    rw [slot_read, SVm_slot2 m 2 rfl c 1]
  · sl_unfold_run_names
    show View.read (Elt F) (sbufM 0 0).view _ = _
    rw [k0_pay37_eq, k0_pay36_eq, sbuf_cast 0 0 0 0 rfl rfl, slot_load (2, 0, 0) 2 0 0 rfl rfl rfl, slot_load (3, 3, 0) 3 3 0 rfl rfl rfl,
      readCov_skip_wi 1 2 (by decide), View.readCov_cons_toLoadRect, k0_pay12_eq, readCov_skip_wo 1 2 (by decide), View.readCov_cons_toLoadRect,
      k0_pay13_eq, wfin_load 1, wfout_load 1, cast_pay4, cast_pay5, SVm_odd0 m 2 3 1 rfl rfl c 0]
    rfl
  · sl_unfold_run_names
    show View.read (Elt F) (sbufM 1 0).view _ = _
    rw [sbuf_cast 1 0 1 0 rfl rfl, k0_pay38_eq, slot_load (2, 1, 0) 2 1 0 rfl rfl rfl, readCov_skip_wi 1 2 (by decide), View.readCov_cons_toLoadRect,
      k0_pay12_eq, readCov_skip_wo 1 2 (by decide), View.readCov_cons_toLoadRect, k0_pay13_eq, wfin_load 1, wfout_load 1, cast_pay4, cast_pay5,
      SVm_odd1 m 2 3 1 rfl rfl c 0]
    rfl
  · sl_unfold_run_names
    show View.read (Elt F) (sbufM 0 1).view _ = _
    rw [k0_pay42_eq, sbuf_cast 0 1 0 1 rfl rfl, slot_load (2, 0, 1) 2 0 1 rfl rfl rfl, slot_load (3, 3, 1) 3 3 1 rfl rfl rfl,
      readCov_skip_wi 1 2 (by decide), View.readCov_cons_toLoadRect, k0_pay12_eq, readCov_skip_wo 1 2 (by decide), View.readCov_cons_toLoadRect,
      k0_pay13_eq, wfin_load 1, wfout_load 1, cast_pay4, cast_pay5, SVm_odd0 m 2 3 1 rfl rfl c 1]
    rfl
  · sl_unfold_run_names
    show View.read (Elt F) (sbufM 1 1).view _ = _
    rw [k0_pay44_eq, sbuf_cast 1 1 1 1 rfl rfl, slot_load (2, 1, 1) 2 1 1 rfl rfl rfl, readCov_skip_wi 1 2 (by decide), View.readCov_cons_toLoadRect,
      k0_pay12_eq, readCov_skip_wo 1 2 (by decide), View.readCov_cons_toLoadRect, k0_pay13_eq, wfin_load 1, wfout_load 1, cast_pay4, cast_pay5,
      SVm_odd1 m 2 3 1 rfl rfl c 1]
    rfl
  iterate 2
    unfold sound_body.sl.Hy0_w1_2 sound_body.sl.v967 sound_body.sl.v843 sound_body.sl.v845 sound_body.sl.v851 sound_body.sl.v969 sound_body.sl.v973 sound_body.sl.v193 sound_body.sl.v199
    show View.read (Elt F) (ybufM 0).view _ = _
    rw [k0_pay47_eq, k0_pay30_eq, ybuf_cast 0 0 rfl, readCov_skip_own 0 1 (by decide), View.readCov_cons_toLoadRect, k0_pay45_eq,
      cast_S1x128x256_roundtrip, slot_load (2, 2, 0) 2 2 0 rfl rfl rfl, slot_load (3, 0, 0) 3 0 0 rfl rfl rfl, slot_load (3, 1, 0) 3 1 0 rfl rfl rfl,
      readCov_skip_wi 1 2 (by decide), View.readCov_cons_toLoadRect, k0_pay12_eq, readCov_skip_wo 1 2 (by decide), View.readCov_cons_toLoadRect,
      k0_pay13_eq, wfin_load 1, wfout_load 1, cast_pay4, cast_pay5]
    first | rw [SVm_slot0 m 4 2 rfl c 0] | rw [SVm_slot1 m 4 2 rfl c 0]
    rw [Y16_succ m 2 3 1 2 rfl rfl rfl c 0]
    rfl
  · sl_unfold_run_names
    show View.read (Elt F) (sbufM 2 0).view _ = _
    rw [sbuf_cast 2 0 2 0 rfl rfl, k0_pay48_eq, k0_pay33_eq, k0_pay47_eq, k0_pay30_eq, cast_S1x128x256_roundtrip, readCov_skip_own 0 1 (by decide),
      View.readCov_cons_toLoadRect, k0_pay45_eq, cast_S1x128x256_roundtrip, slot_load (2, 2, 0) 2 2 0 rfl rfl rfl, slot_load (3, 0, 0) 3 0 0 rfl rfl rfl,
      slot_load (3, 1, 0) 3 1 0 rfl rfl rfl, readCov_skip_wi 1 2 (by decide), View.readCov_cons_toLoadRect, k0_pay12_eq, readCov_skip_wo 1 2 (by decide),
      View.readCov_cons_toLoadRect, k0_pay13_eq, wfin_load 1, wfout_load 1, cast_pay4, cast_pay5, View.readCov_cons_toLoadRect, k0_pay15_14_eq,
      View.readCov_cons_toLoadRect, k0_pay16_eq, wfin_load 2, wfout_load 2, cast_pay4, cast_pay5, SVm_slot3 m 5 2 rfl c 0,
      Y16_succ m 2 3 1 2 rfl rfl rfl c 0]
    rfl
  iterate 2
    sl_unfold_run_names
    show View.read (Elt F) (ybufM 1).view _ = _
    rw [k0_pay50_eq, k0_pay30_eq, ybuf_cast 1 1 rfl, View.readCov_cons_toLoadRect, k0_pay46_eq, k0_pay45_eq, cast_S1x128x256_roundtrip,
      slot_load (2, 2, 1) 2 2 1 rfl rfl rfl, slot_load (3, 0, 1) 3 0 1 rfl rfl rfl, slot_load (3, 1, 1) 3 1 1 rfl rfl rfl, readCov_skip_wi 1 2 (by decide),
      View.readCov_cons_toLoadRect, k0_pay12_eq, readCov_skip_wo 1 2 (by decide), View.readCov_cons_toLoadRect, k0_pay13_eq, wfin_load 1, wfout_load 1,
      cast_pay4, cast_pay5]
    first | rw [SVm_slot0 m 4 2 rfl c 1] | rw [SVm_slot1 m 4 2 rfl c 1]
    rw [Y16_succ m 2 3 1 2 rfl rfl rfl c 1]
    rfl
  · sl_unfold_run_names
    show View.read (Elt F) (sbufM 2 1).view _ = _
    rw [k0_pay53_eq, sbuf_cast 2 1 2 1 rfl rfl, k0_pay50_eq, k0_pay30_eq, cast_S1x128x256_roundtrip, View.readCov_cons_toLoadRect, k0_pay46_eq,
      k0_pay45_eq, cast_S1x128x256_roundtrip, slot_load (2, 2, 1) 2 2 1 rfl rfl rfl, slot_load (3, 0, 1) 3 0 1 rfl rfl rfl,
      slot_load (3, 1, 1) 3 1 1 rfl rfl rfl, readCov_skip_wi 1 2 (by decide), View.readCov_cons_toLoadRect, k0_pay12_eq, readCov_skip_wo 1 2 (by decide),
      View.readCov_cons_toLoadRect, k0_pay13_eq, wfin_load 1, wfout_load 1, cast_pay4, cast_pay5, View.readCov_cons_toLoadRect, k0_pay15_14_eq,
      View.readCov_cons_toLoadRect, k0_pay16_eq, wfin_load 2, wfout_load 2, cast_pay4, cast_pay5, SVm_slot3 m 5 2 rfl c 1,
      Y16_succ m 2 3 1 2 rfl rfl rfl c 1]
    rfl
  · show View.read (Elt F) (slotM (4, 1, 0)).view _ = _
    rw [slot_read, SVm_slot2 m 4 rfl c 0]
  · show View.read (Elt F) (slotM (4, 1, 1)).view _ = _
    rw [slot_read, SVm_slot2 m 4 rfl c 1]
  · sl_unfold_run_names
    show View.read (Elt F) (sbufM 0 0).view _ = _
    rw [k0_pay55_eq, sbuf_cast 0 0 0 0 rfl rfl, slot_load (4, 0, 0) 4 0 0 rfl rfl rfl, slot_load (5, 3, 0) 5 3 0 rfl rfl rfl, View.readCov_cons_toLoadRect,
      k0_pay15_14_eq, View.readCov_cons_toLoadRect, k0_pay16_eq, wfin_load 2, wfout_load 2, cast_pay4, cast_pay5, SVm_odd0 m 4 5 2 rfl rfl c 0]
    rfl
  · sl_unfold_run_names
    show View.read (Elt F) (sbufM 1 0).view _ = _
    rw [k0_pay58_eq, k0_pay20_eq, sbuf_cast 1 0 1 0 rfl rfl, slot_load (4, 1, 0) 4 1 0 rfl rfl rfl, View.readCov_cons_toLoadRect, k0_pay15_14_eq,
      View.readCov_cons_toLoadRect, k0_pay16_eq, wfin_load 2, wfout_load 2, cast_pay4, cast_pay5, SVm_odd1 m 4 5 2 rfl rfl c 0]
    rfl
  · sl_unfold_run_names
    show View.read (Elt F) (sbufM 0 1).view _ = _
    rw [k0_pay60_eq, k0_pay55_eq, sbuf_cast 0 1 0 1 rfl rfl, slot_load (4, 0, 1) 4 0 1 rfl rfl rfl, slot_load (5, 3, 1) 5 3 1 rfl rfl rfl,
      View.readCov_cons_toLoadRect, k0_pay15_14_eq, View.readCov_cons_toLoadRect, k0_pay16_eq, wfin_load 2, wfout_load 2, cast_pay4, cast_pay5,
      SVm_odd0 m 4 5 2 rfl rfl c 1]
    rfl
  · sl_unfold_run_names
    show View.read (Elt F) (sbufM 1 1).view _ = _
    rw [k0_pay61_eq, k0_pay20_eq, sbuf_cast 1 1 1 1 rfl rfl, slot_load (4, 1, 1) 4 1 1 rfl rfl rfl, View.readCov_cons_toLoadRect, k0_pay15_14_eq,
      View.readCov_cons_toLoadRect, k0_pay16_eq, wfin_load 2, wfout_load 2, cast_pay4, cast_pay5, SVm_odd1 m 4 5 2 rfl rfl c 1]
    rfl
  iterate 2
    unfold sound_body.sl.Hy0_w1_3 sound_body.sl.v1409 sound_body.sl.v1285 sound_body.sl.v1287 sound_body.sl.v1293 sound_body.sl.v1411 sound_body.sl.v1415 sound_body.sl.r_5 sound_body.sl.v205 sound_body.sl.v211
    show View.read (Elt F) (ybufM 0).view _ = _
    rw [k0_pay65_eq, k0_pay30_eq, ybuf_cast 0 0 rfl, readCov_skip_own 0 1 (by decide), View.readCov_cons_toLoadRect, k0_pay62_eq, k0_pay45_eq,
      cast_S1x128x256_roundtrip, slot_load (4, 2, 0) 4 2 0 rfl rfl rfl, slot_load (5, 0, 0) 5 0 0 rfl rfl rfl, slot_load (5, 1, 0) 5 1 0 rfl rfl rfl,
      View.readCov_cons_toLoadRect, k0_pay15_14_eq, View.readCov_cons_toLoadRect, k0_pay16_eq, wfin_load 2, wfout_load 2, cast_pay4, cast_pay5]
    first | rw [SVm_slot0 m 6 3 rfl c 0] | rw [SVm_slot1 m 6 3 rfl c 0]
    rw [Y16_succ m 4 5 2 3 rfl rfl rfl c 0]
    rfl
  iterate 2
    sl_unfold_run_names
    show View.read (Elt F) (ybufM 1).view _ = _
    rw [k0_pay67_eq, k0_pay30_eq, ybuf_cast 1 1 rfl, View.readCov_cons_toLoadRect, k0_pay63_eq, k0_pay45_eq, cast_S1x128x256_roundtrip,
      slot_load (4, 2, 1) 4 2 1 rfl rfl rfl, slot_load (5, 0, 1) 5 0 1 rfl rfl rfl, slot_load (5, 1, 1) 5 1 1 rfl rfl rfl, View.readCov_cons_toLoadRect,
      k0_pay15_14_eq, View.readCov_cons_toLoadRect, k0_pay16_eq, wfin_load 2, wfout_load 2, cast_pay4, cast_pay5]
    first | rw [SVm_slot0 m 6 3 rfl c 1] | rw [SVm_slot1 m 6 3 rfl c 1]
    rw [Y16_succ m 4 5 2 3 rfl rfl rfl c 1]
    rfl
  · show View.read (Elt F) (slotM (6, 1, 0)).view _ = _
    rw [slot_read, SVm_slot2 m 6 rfl c 0]
  · show View.read (Elt F) (slotM (6, 1, 1)).view _ = _
    rw [slot_read, SVm_slot2 m 6 rfl c 1]

end Cert.Kernel.Ring

end
-- ==== Proof.Bits.Final.lean ====
import proofs.«900985_g7700000000000986_dist_mlpseq_tp1d_bs_rep_b256_d256_h512_v7x_i4_f32_1_alg».proof.Proof.Bits.Body
import proofs.«900985_g7700000000000986_dist_mlpseq_tp1d_bs_rep_b256_d256_h512_v7x_i4_f32_1_alg».proof.Proof.Bits.Launch

noncomputable section

namespace Cert.Kernel.Ring

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 40000 in
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre' m ρ c ⊢ wp frame (wpE (defs₀ (F := F)) 𝒱₀ c none) Set.univ (bodyAt0 (F := F) t₀) (fun _ => bodyPost m ρ c)
  exact sound_body m ρ c

theorem finalA_out (c : Dev nD) : finalA m ρ c (1 : Fin 2) = outAt m c := by
  unfold finalA
  have h := (dats (F := F) m ρ 0 c).arrAt_succ (1 : Fin 2) t₀
  rw [if_pos (flush0_1 t₀)] at h
  refine (show (dats (F := F) m ρ 0 c).arrAt (1 : Fin 2) cfg0.N = (dats (F := F) m ρ 0 c).arrAt (1 : Fin 2) (t₀.val + 1) from rfl).trans (h.trans ?_)
  exact Memref.write_access_unit_zero_univ (Elt F) main_v1 (funext fun a => Nat.zero_mul _) _ _ _

theorem finalA_x (c : Dev nD) : finalA m ρ c (0 : Fin 2) = m ((c : Thread nD τ).loc main_arg0) :=
  (dats (F := F) m ρ 0 c).arrAt_in (0 : Fin 2) rfl _

theorem run_values : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 1).trans (finalA_out m ρ c), ((h c).1 0).trans (finalA_x m ρ c), (h c).2⟩)
    (run_main m ρ (body_obligation m ρ))

end Cert.Kernel.Ring

end
-- ==== Proof.LayerMath.lean ====
import proofs.«900985_g7700000000000986_dist_mlpseq_tp1d_bs_rep_b256_d256_h512_v7x_i4_f32_1_alg».proof.Proof.Spec
import Idealize.ShloMosaic.Lib.Layout
import Idealize.ShloMosaic.Lib.ValueIdx
import Idealize.ShloMosaic.PureOps.Ideal.Laws
import Mathlib.Algebra.BigOperators.Fin
import Mathlib.Logic.Equiv.Fin.Basic

noncomputable section

namespace Cert.KernelIdeal.LayerMath

open Idealize.ShloMosaic Idealize.ShloMosaic.ValueIdx Cert.KernelIdeal Cert.KernelIdeal.Spec

variable [Facts]
open Facts₀ Facts

abbrev SWi : Shape := ⟨2, ![256, 2048]⟩
abbrev SWo : Shape := ⟨2, ![2048, 256]⟩

def layer (W1 : SWi.Idx → EReal) (W2 : SWo.Idx → EReal) (v : S128x256.Idx → EReal) : S128x256.Idx → EReal :=
  fun i => ∑ h : Fin 2048, max (∑ k : Fin 256, v (ix2 (⟨(i 0).val, (i 0).isLt⟩ : Fin 128) k) * W1 (ix2 k h)) 0
    * W2 (ix2 h (⟨(i 1).val, (i 1).isLt⟩ : Fin 256))

-- A product of two matrices that contracts the left's columns with the right's rows, into zero, is the sum of products.
theorem mm_apply {a n b : ℕ} {φ₁ φ₂ : FTy} (D : DotDims ⟨2, ![a, n]⟩ ⟨2, ![n, b]⟩ ⟨2, ![a, b]⟩) (hr : D.contr.rank = 1)
    (hs : D.contr.size ⟨0, by omega⟩ = n) (hl0 : ∀ i q, (D.lhsIdx i q 0).val = (i 0).val)
    (hl1 : ∀ i q, (D.lhsIdx i q 1).val = (q ⟨0, by omega⟩).val) (hr0 : ∀ i q, (D.rhsIdx i q 0).val = (q ⟨0, by omega⟩).val)
    (hr1 : ∀ i q, (D.rhsIdx i q 1).val = (i 1).val) (x : FVec Ideal ⟨2, ![a, n]⟩ φ₁) (w : FVec Ideal ⟨2, ![n, b]⟩ φ₂) (r : Fin a) (c : Fin b) :
    matmul D none x w (constant (F := Ideal) ⟨2, ![a, b]⟩ .f32 0x00000000#32) (ix2 r c)
      = ∑ k : Fin n, (x (ix2 r k) : EReal) * (w (ix2 k c) : EReal) := by
  show FloatOps.matmul D none x w _ _ = _
  rw [Ideal.matmul_constant_zero_apply, ← Equiv.sum_comp (contrEquiv1 D n hr hs).symm]
  refine Finset.sum_congr rfl fun k _ => ?_
  have hk := contrEquiv1_symm_val D n hr hs k
  rw [show D.lhsIdx (ix2 r c) ((contrEquiv1 D n hr hs).symm k) = ix2 r k from funext fun e => Fin.ext (by
      match e with
      | ⟨0, _⟩ => exact hl0 _ _
      | ⟨1, _⟩ => exact (hl1 _ _).trans hk),
    show D.rhsIdx (ix2 r c) ((contrEquiv1 D n hr hs).symm k) = ix2 k c from funext fun e => Fin.ext (by
      match e with
      | ⟨0, _⟩ => exact (hr0 _ _).trans hk
      | ⟨1, _⟩ => exact hr1 _ _)]

theorem part_apply (x : FVec Ideal S128x256 .bf16) (wi : FVec Ideal S256x512 .bf16) (wo : FVec Ideal S512x256 .bf16)
    (r : Fin 128) (c : Fin 256) :
    Spec.part (F := Ideal) x wi wo (ix2 r c)
      = ∑ h : Fin 512, max (∑ k : Fin 256, (x (ix2 r k) : EReal) * (wi (ix2 k h) : EReal)) 0 * (wo (ix2 h c) : EReal) := by
  unfold Spec.part
  rw [mm_apply dot_S128x512_S512x256_S128x256_1_0_0_1_n_n rfl rfl (fun _ _ => rfl) (dot_S128x512_S512x256_S128x256_1_0_0_1_n_n.lhsIdx_val_of_single rfl) (dot_S128x512_S512x256_S128x256_1_0_0_1_n_n.rhsIdx_val_of_single rfl) fun _ _ => rfl]
  refine Finset.sum_congr rfl fun h _ => congrArg (· * (wo (ix2 h c) : EReal)) ?_
  show max (matmul dot_S128x256_S256x512_S128x512_1_0_0_1_n_n none x wi _ (ix2 r h)) (Ideal.ofBits .f32 0x00000000#32) = _
  rw [mm_apply dot_S128x256_S256x512_S128x512_1_0_0_1_n_n rfl rfl (fun _ _ => rfl) (dot_S128x256_S256x512_S128x512_1_0_0_1_n_n.lhsIdx_val_of_single rfl) (dot_S128x256_S256x512_S128x512_1_0_0_1_n_n.rhsIdx_val_of_single rfl) fun _ _ => rfl,
    Ideal.ofBits_zero_f32]

def hid (e : Fin 4) (h : Fin 512) : Fin 2048 := ⟨e.val * 512 + h.val, by have := e.isLt; have := h.isLt; omega⟩

def term (W1 : SWi.Idx → EReal) (W2 : SWo.Idx → EReal) (v : S128x256.Idx → EReal) (r : Fin 128) (c : Fin 256) (h : Fin 2048) : EReal :=
  max (∑ k : Fin 256, v (ix2 r k) * W1 (ix2 k h)) 0 * W2 (ix2 h c)

theorem colBlock_apply (W1 : SWi.Idx → EReal) (e : Fin 4) (k : Fin 256) (h : Fin 512) :
    (Layout.block ⟨2, ![256, 512]⟩ ⟨2, ![256, 2048]⟩ 1 4 e W1) (ix2 k h) = W1 (ix2 k (hid e h)) :=
  congrArg W1 (funext fun a => by match a with | ⟨0, _⟩ => rfl | ⟨1, _⟩ => rfl)

theorem rowBlock_apply (W2 : SWo.Idx → EReal) (e : Fin 4) (h : Fin 512) (c : Fin 256) :
    (Layout.block ⟨2, ![512, 256]⟩ ⟨2, ![2048, 256]⟩ 0 4 e W2) (ix2 h c) = W2 (ix2 (hid e h) c) :=
  congrArg W2 (funext fun a => by match a with | ⟨0, _⟩ => rfl | ⟨1, _⟩ => rfl)

theorem P_apply (Wi : Fin 3 → SWi.Idx → EReal) (Wo : Fin 3 → SWo.Idx → EReal) (l : Fin 3) (e : Dev nD)
    (v : FVec Ideal S128x256 .bf16) (r : Fin 128) (c : Fin 256) :
    Spec.P (F := Ideal) (fun l d => Layout.block ⟨2, ![256, 512]⟩ ⟨2, ![256, 2048]⟩ 1 4 d (Wi l))
        (fun l d => Layout.block ⟨2, ![512, 256]⟩ ⟨2, ![2048, 256]⟩ 0 4 d (Wo l)) l e v (ix2 r c)
      = ∑ h : Fin 512, term (Wi l) (Wo l) v r c (hid e h) := by
  unfold Spec.P
  rw [part_apply]
  refine Finset.sum_congr rfl fun h _ => ?_
  show max (∑ k : Fin 256, (v (ix2 r k) : EReal) * (Layout.block ⟨2, ![256, 512]⟩ ⟨2, ![256, 2048]⟩ 1 4 e (Wi l)) (ix2 k h)) 0
      * (Layout.block ⟨2, ![512, 256]⟩ ⟨2, ![2048, 256]⟩ 0 4 e (Wo l)) (ix2 h c) = _
  simp only [colBlock_apply, rowBlock_apply]
  rfl

-- The hidden axis is the four devices' runs of 512 units.
theorem sum_hidden {M : Type} [AddCommMonoid M] (g : Fin 2048 → M) :
    ∑ h : Fin 2048, g h = ∑ e : Fin 4, ∑ h : Fin 512, g (hid e h) := by
  rw [← Fintype.sum_prod_type' (f := fun e h => g (hid e h))]
  exact (Fintype.sum_equiv (finProdFinEquiv (m := 4) (n := 512)) (fun p => g (hid p.1 p.2)) g
    (fun p => congrArg g (Fin.ext (by show p.1.val * 512 + p.2.val = p.2.val + 512 * p.1.val; omega)))).symm

-- A device, its predecessor, its opposite and its successor are the four devices, each once.
theorem ring_sum {M : Type} [AddCommMonoid M] (p : Dev nD → M) (d : Dev nD) :
    (p d + (p (Spec.prv d) + p (Spec.opp d))) + p (Spec.nxt d) = ∑ e : Fin 4, p e := by
  rw [Fin.sum_univ_four]
  fin_cases d <;> abel!

theorem sumOf_eq_layer (Wi : Fin 3 → SWi.Idx → EReal) (Wo : Fin 3 → SWo.Idx → EReal) (l : Fin 3)
    (y : Dev nD → Fin 2 → FVec Ideal S128x256 .bf16) (d : Dev nD) (c : Fin 2) :
    Spec.sumOf (F := Ideal) (fun l d => Layout.block ⟨2, ![256, 512]⟩ ⟨2, ![256, 2048]⟩ 1 4 d (Wi l))
        (fun l d => Layout.block ⟨2, ![512, 256]⟩ ⟨2, ![2048, 256]⟩ 0 4 d (Wo l)) l y d c
      = layer (Wi l) (Wo l) (y (Spec.opp d) c) := by
  funext i
  obtain ⟨r, q, rfl⟩ : ∃ (r : Fin 128) (q : Fin 256), i = ix2 r q := ⟨_, _, eq_ix2 i⟩
  unfold Spec.sumOf
  simp only [addf, extf, truncf, Ideal.addf_def, Ideal.extf_def, Ideal.truncf_def, P_apply]
  rw [ring_sum (fun e => ∑ h : Fin 512, term (Wi l) (Wo l) (y (Spec.opp d) c) r q (hid e h)) d, ← sum_hidden]
  rfl

end Cert.KernelIdeal.LayerMath

end
-- ==== Proof.ValueMain.lean ====
import proofs.«900985_g7700000000000986_dist_mlpseq_tp1d_bs_rep_b256_d256_h512_v7x_i4_f32_1_alg».proof.Proof.LayerMath
import proofs.«900985_g7700000000000986_dist_mlpseq_tp1d_bs_rep_b256_d256_h512_v7x_i4_f32_1_alg».proof.Proof.Gen.ReferenceIdeal.Read

noncomputable section

namespace Cert.KernelIdeal.ValueMain

open Idealize.ShloMosaic Idealize.ShloMosaic.ValueIdx Cert.KernelIdeal Cert.KernelIdeal.Spec Cert.KernelIdeal.LayerMath

variable [Facts] [Cert.ReferenceIdeal.Facts]
open Facts₀ Facts

abbrev SX : Shape := ⟨2, ![1024, 256]⟩

def layerW (W1 : SWi.Idx → EReal) (W2 : SWo.Idx → EReal) (v : SX.Idx → EReal) : SX.Idx → EReal :=
  fun i => ∑ h : Fin 2048, max (∑ k : Fin 256, v (ix2 (⟨(i 0).val, (i 0).isLt⟩ : Fin 1024) k) * W1 (ix2 k h)) 0
    * W2 (ix2 h (⟨(i 1).val, (i 1).isLt⟩ : Fin 256))

def A (X : SX.Idx → EReal) (Wi : Fin 3 → SWi.Idx → EReal) (Wo : Fin 3 → SWo.Idx → EReal) : ℕ → SX.Idx → EReal
  | 0 => X
  | l + 1 => layerW (Wi (lw l)) (Wo (lw l)) (A X Wi Wo l)

theorem ix2_ext {n0 n1 : ℕ} {f g : (⟨2, ![n0, n1]⟩ : Shape).Idx} (h0 : f 0 = g 0) (h1 : f 1 = g 1) : f = g :=
  funext fun a => by match a with | ⟨0, _⟩ => exact h0 | ⟨1, _⟩ => exact h1

-- One hidden unit's term of a reference layer, whatever names its operand indices carry.
theorem relu_term (v : SX.Idx → EReal) (W1 : SWi.Idx → EReal) (W2 : SWo.Idx → EReal) (L : Fin 256 → SX.Idx) (R : Fin 256 → SWi.Idx)
    (R' : SWo.Idx) (i : SX.Idx) (h : Fin 2048) (hL : ∀ k, L k = ix2 (⟨(i 0).val, (i 0).isLt⟩ : Fin 1024) k) (hR : ∀ k, R k = ix2 k h)
    (hR' : R' = ix2 h (⟨(i 1).val, (i 1).isLt⟩ : Fin 256)) :
    FloatOps.maximumf (F := Ideal) (φ := .f32) (∑ k : Fin 256, v (L k) * W1 (R k)) (FloatOps.ofBits .f32 0x00000000#32) * W2 R'
      = max (∑ k : Fin 256, v (ix2 (⟨(i 0).val, (i 0).isLt⟩ : Fin 1024) k) * W1 (ix2 k h)) 0 * W2 (ix2 h (⟨(i 1).val, (i 1).isLt⟩ : Fin 256)) := by
  simp only [hL, hR, hR', Ideal.maximumf_def, Ideal.ofBits_def, Ideal.ofBits_zero_f32]

open Cert.ReferenceIdeal in
theorem ref_layer1 (x0 : SX.Idx → EReal) (x1 : SWi.Idx → EReal) (x2 : SWo.Idx → EReal) :
    Read.val_main_v3 (F := Ideal) x0 x1 x2 = layerW x1 x2 x0 := by
  funext i
  rw [Read.val_main_v3_apply]
  refine Finset.sum_congr rfl fun h _ => ?_
  rw [Read.val_main_v2_apply, Read.val_main_v0_apply, Read.val_main_v1_apply, Read.val_main_cst_apply]
  exact relu_term _ _ _ _ _ _ i h (fun _ => ix2_ext rfl rfl) (fun _ => ix2_ext rfl rfl) (ix2_ext rfl rfl)

open Cert.ReferenceIdeal in
theorem ref_layer2 (x0 : SX.Idx → EReal) (x1 x3 : SWi.Idx → EReal) (x2 x4 : SWo.Idx → EReal) :
    Read.val_main_v7 (F := Ideal) x0 x1 x2 x3 x4 = layerW x3 x4 (Read.val_main_v3 (F := Ideal) x0 x1 x2) := by
  funext i
  rw [Read.val_main_v7_apply]
  refine Finset.sum_congr rfl fun h _ => ?_
  rw [Read.val_main_v6_apply, Read.val_main_v4_apply, Read.val_main_v5_apply, Read.val_main_cst_0_apply]
  exact relu_term _ _ _ _ _ _ i h (fun _ => ix2_ext rfl rfl) (fun _ => ix2_ext rfl rfl) (ix2_ext rfl rfl)

open Cert.ReferenceIdeal in
theorem ref_layer3 (x0 : SX.Idx → EReal) (x1 x3 x5 : SWi.Idx → EReal) (x2 x4 x6 : SWo.Idx → EReal) :
    Read.val_main_v11 (F := Ideal) x0 x1 x2 x3 x4 x5 x6 = layerW x5 x6 (Read.val_main_v7 (F := Ideal) x0 x1 x2 x3 x4) := by
  funext i
  rw [Read.val_main_v11_apply]
  refine Finset.sum_congr rfl fun h _ => ?_
  rw [Read.val_main_v10_apply, Read.val_main_v8_apply, Read.val_main_v9_apply, Read.val_main_cst_1_apply]
  exact relu_term _ _ _ _ _ _ i h (fun _ => ix2_ext rfl rfl) (fun _ => ix2_ext rfl rfl) (ix2_ext rfl rfl)

theorem ref_eq_A (X : SX.Idx → EReal) (Wi : Fin 3 → SWi.Idx → EReal) (Wo : Fin 3 → SWo.Idx → EReal) :
    Cert.ReferenceIdeal.Read.val_main_v11 (F := Ideal) X (Wi 0) (Wo 0) (Wi 1) (Wo 1) (Wi 2) (Wo 2) = A X Wi Wo 3 := by
  rw [ref_layer3, ref_layer2, ref_layer1]
  rfl

def rows (b : Dev nD) (c : Fin 2) (v : SX.Idx → EReal) : S128x256.Idx → EReal :=
  fun i => v (ix2 (⟨256 * b.val + 128 * c.val + (i 0).val, by
      have h : (i 0).val < 128 := (i 0).isLt; have hc := c.isLt; have hb : b.val < 4 := b.isLt; omega⟩ : Fin 1024)
    (⟨(i 1).val, (i 1).isLt⟩ : Fin 256))

-- A layer reads one row of its argument for one row of its result.
theorem layer_rows (W1 : SWi.Idx → EReal) (W2 : SWo.Idx → EReal) (b : Dev nD) (c : Fin 2) (v : SX.Idx → EReal) :
    layer W1 W2 (rows b c v) = rows b c (layerW W1 W2 v) := rfl

def bl (l : ℕ) (d : Dev nD) : Dev nD := ⟨(d.val + 2 * l) % 4, Nat.mod_lt _ (by decide)⟩

theorem bl_opp_succ (l : ℕ) (d : Dev nD) : bl l (opp d) = bl (l + 1) d :=
  Fin.ext (by show ((d.val + 2) % 4 + 2 * l) % 4 = (d.val + 2 * (l + 1)) % 4; omega)

-- The chunk a device holds when layer l starts is its rows of the activations after l layers, of the block two steps on each layer.
theorem Y16_eq (X : SX.Idx → EReal) (Wi : Fin 3 → SWi.Idx → EReal) (Wo : Fin 3 → SWo.Idx → EReal) (l : ℕ) (d : Dev nD) (c : Fin 2) :
    Spec.Y16 (F := Ideal) (fun d => Layout.block ⟨2, ![256, 256]⟩ ⟨2, ![1024, 256]⟩ 0 4 d X)
        (fun l d => Layout.block ⟨2, ![256, 512]⟩ ⟨2, ![256, 2048]⟩ 1 4 d (Wi l))
        (fun l d => Layout.block ⟨2, ![512, 256]⟩ ⟨2, ![2048, 256]⟩ 0 4 d (Wo l)) l d c
      = rows (bl l d) c (A X Wi Wo l) := by
  induction l generalizing d with
  | zero =>
    funext i
    refine congrArg X (ix2_ext (Fin.ext ?_) rfl)
    have hd : d.val < 4 := d.isLt
    show d.val * 256 + (128 * c.val + (i 0).val) = 256 * ((d.val + 2 * 0) % 4) + 128 * c.val + (i 0).val
    omega
  | succ l ih =>
    show Spec.sumOf (F := Ideal) _ _ (lw l) (Spec.Y16 (F := Ideal) _ _ _ l) d c = _
    rw [sumOf_eq_layer, ih, layer_rows, bl_opp_succ]
    rfl

theorem bl_two_opp (d : Dev nD) : bl 2 (opp d) = opp d := by revert d; decide
theorem bl_three_opp (b : Dev nD) : bl 3 (opp b) = b := by revert b; decide

theorem outRows_eq (X : SX.Idx → EReal) (Wi : Fin 3 → SWi.Idx → EReal) (Wo : Fin 3 → SWo.Idx → EReal) (d b : Dev nD) (c : Fin 2) :
    Spec.outRows (F := Ideal) (fun d => Layout.block ⟨2, ![256, 256]⟩ ⟨2, ![1024, 256]⟩ 0 4 d X)
        (fun l d => Layout.block ⟨2, ![256, 512]⟩ ⟨2, ![256, 2048]⟩ 1 4 d (Wi l))
        (fun l d => Layout.block ⟨2, ![512, 256]⟩ ⟨2, ![2048, 256]⟩ 0 4 d (Wo l)) d b c
      = rows b c (A X Wi Wo 3) := by
  unfold Spec.outRows
  by_cases hb : b = opp d
  · rw [if_pos hb, hb]
    unfold Spec.Ysum
    rw [sumOf_eq_layer, Y16_eq, layer_rows, bl_two_opp]
    rfl
  · rw [if_neg hb]
    show Spec.Y16 (F := Ideal) _ _ _ 3 (opp b) c = _
    rw [Y16_eq, bl_three_opp]

theorem OUT_eq_ref (X : (⟨2, ![1024, 256]⟩ : Shape).Idx → EReal) (Wi : Fin 3 → SWi.Idx → EReal) (Wo : Fin 3 → SWo.Idx → EReal) (c : Dev nD) :
    Spec.OUT (F := Ideal) (fun d => Layout.block ⟨2, ![256, 256]⟩ ⟨2, ![1024, 256]⟩ 0 4 d X)
        (fun l d => Layout.block ⟨2, ![256, 512]⟩ ⟨2, ![256, 2048]⟩ 1 4 d (Wi l))
        (fun l d => Layout.block ⟨2, ![512, 256]⟩ ⟨2, ![2048, 256]⟩ 0 4 d (Wo l)) c
      = Cert.ReferenceIdeal.Read.val_main_v11 (F := Ideal) X (Wi 0) (Wo 0) (Wi 1) (Wo 1) (Wi 2) (Wo 2) := by
  rw [ref_eq_A]
  funext i
  unfold Spec.OUT
  rw [outRows_eq]
  refine congrArg (A X Wi Wo 3) (ix2_ext (Fin.ext ?_) rfl)
  have h0 : (i 0).val < 1024 := (i 0).isLt
  show 256 * ((i 0).val / 256) + 128 * ((i 0).val % 256 / 128) + (i 0).val % 128 = (i 0).val
  omega

end Cert.KernelIdeal.ValueMain

end
-- ==== Proof.lean ====
import proofs.«900985_g7700000000000986_dist_mlpseq_tp1d_bs_rep_b256_d256_h512_v7x_i4_f32_1_alg».proof.Defs
import proofs.«900985_g7700000000000986_dist_mlpseq_tp1d_bs_rep_b256_d256_h512_v7x_i4_f32_1_alg».proof.Proof.Final
import proofs.«900985_g7700000000000986_dist_mlpseq_tp1d_bs_rep_b256_d256_h512_v7x_i4_f32_1_alg».proof.Proof.Bits.Final
import proofs.«900985_g7700000000000986_dist_mlpseq_tp1d_bs_rep_b256_d256_h512_v7x_i4_f32_1_alg».proof.Proof.ValueMain
import proofs.«900985_g7700000000000986_dist_mlpseq_tp1d_bs_rep_b256_d256_h512_v7x_i4_f32_1_alg».proof.Proof.Gen.ReferenceIdeal.Run
import proofs.«900985_g7700000000000986_dist_mlpseq_tp1d_bs_rep_b256_d256_h512_v7x_i4_f32_1_alg».proof.Proof.Gen.Pre_finite_inputs_Kernel
import proofs.«900985_g7700000000000986_dist_mlpseq_tp1d_bs_rep_b256_d256_h512_v7x_i4_f32_1_alg».proof.Proof.Gen.Pre_finite_inputs_ReferenceIdeal

noncomputable section

namespace Cert.Proof

open Idealize.ShloMosaic Idealize.SL.Sem

theorem frame_k : frame_Kernel (hKernel := Cert.Kernel.Gen.facts) (hPre_finite_inputs_Kernel := Cert.Pre_finite_inputs_Kernel.Gen.facts) :=
  fun m g _ => (θ_run (Cert.Kernel.defs (F := Bits)) _ _).mono (fun _ h c => (h c).2) (Cert.Kernel.Ring.run_values (F := Bits) m g)

theorem frame_ki : frame_KernelIdeal (hKernelIdeal := Cert.KernelIdeal.Gen.facts) (hPre_finite_inputs_Kernel := Cert.Pre_finite_inputs_Kernel.Gen.facts) :=
  fun m g _ => (θ_run (Cert.KernelIdeal.defs (F := Ideal)) _ _).mono (fun _ h c => (h c).2) (Cert.KernelIdeal.Ring.run_values (F := Ideal) m g)

theorem frame_ri : frame_ReferenceIdeal (hReferenceIdeal := Cert.ReferenceIdeal.Gen.facts) (hPre_finite_inputs_ReferenceIdeal := Cert.Pre_finite_inputs_ReferenceIdeal.Gen.facts) :=
  fun m g _ => (θ_run (Cert.ReferenceIdeal.defs (F := Ideal)) _ _).mono (fun _ h c => (h c).2) (Cert.ReferenceIdeal.Value.run (F := Ideal) m g)

section Whole

open Cert.ReferenceIdeal

variable (m' : (ℓ : Loc nD τ sig) → Buf (Elt Ideal) ℓ)

def Xw : (⟨2, ![1024, 256]⟩ : Shape).Idx → EReal := m' (((0 : Dev nD).tc : Thread nD τ).loc main_arg0)
def Wiw : Fin 3 → (⟨2, ![256, 2048]⟩ : Shape).Idx → EReal
  | 0 => m' (((0 : Dev nD).tc : Thread nD τ).loc main_arg1)
  | 1 => m' (((0 : Dev nD).tc : Thread nD τ).loc main_arg3)
  | 2 => m' (((0 : Dev nD).tc : Thread nD τ).loc main_arg5)
def Wow : Fin 3 → (⟨2, ![2048, 256]⟩ : Shape).Idx → EReal
  | 0 => m' (((0 : Dev nD).tc : Thread nD τ).loc main_arg2)
  | 1 => m' (((0 : Dev nD).tc : Thread nD τ).loc main_arg4)
  | 2 => m' (((0 : Dev nD).tc : Thread nD τ).loc main_arg6)

end Whole

open Cert.KernelIdeal.Ring in
-- Where each device's argument arrays are its blocks of the whole arrays, every device's result is the reference's.
theorem algebraic : algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m g m' g' _ hagree
  have hx : xbOf (F := Ideal) m = fun d => Layout.block ⟨2, ![256, 256]⟩ ⟨2, ![1024, 256]⟩ 0 4 d (Xw m') := funext fun d => (hagree d).1
  have hwi : wiOf (F := Ideal) m = fun l d => Layout.block ⟨2, ![256, 512]⟩ ⟨2, ![256, 2048]⟩ 1 4 d (Wiw m' l) := by
    funext l d
    match l with
    | 0 => exact (hagree d).2.1
    | 1 => exact (hagree d).2.2.2.1
    | 2 => exact (hagree d).2.2.2.2.2.1
  have hwo : woOf (F := Ideal) m = fun l d => Layout.block ⟨2, ![512, 256]⟩ ⟨2, ![2048, 256]⟩ 0 4 d (Wow m' l) := by
    funext l d
    match l with
    | 0 => exact (hagree d).2.2.1
    | 1 => exact (hagree d).2.2.2.2.1
    | 2 => exact (hagree d).2.2.2.2.2.2
  have kv (c : Dev Cert.KernelIdeal.nD) : outAt (F := Ideal) m c
      = Cert.ReferenceIdeal.Read.val_main_v11 (F := Ideal) (Xw m') (Wiw m' 0) (Wow m' 0) (Wiw m' 1) (Wow m' 1) (Wiw m' 2) (Wow m' 2) := by
    unfold outAt
    rw [hx, hwi, hwo]
    exact Cert.KernelIdeal.ValueMain.OUT_eq_ref (Xw m') (Wiw m') (Wow m') c
  exact ⟨_, (θ_run (Cert.KernelIdeal.defs (F := Ideal)) _ _).mono (fun _ h c => ⟨((h c).1).trans (kv c), (h c).2⟩)
      (Cert.KernelIdeal.Ring.run_values (F := Ideal) m g),
    (θ_run (Cert.ReferenceIdeal.defs (F := Ideal)) _ _).mono (fun _ h => ⟨(h 0).1, (h 0).2⟩) (Cert.ReferenceIdeal.Value.run (F := Ideal) m' g')⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
